-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S16x1x512x512 : Shape := ⟨4, ![16, 1, 512, 512]⟩
abbrev S16x1x256x256 : Shape := ⟨4, ![16, 1, 256, 256]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  bcast_S_S16x1x256x256 : S_.BroadcastsInDim S16x1x256x256 (![] : Fin 0 → Fin S16x1x256x256.rank)
  reducesTo_S16x1x256x256_S_d0_1_2_3 : S16x1x256x256.ReducesTo [0, 1, 2, 3] S_

variable [Facts]

def fn {F : FTy → Type} [FloatOps F] (main_arg0 : FVec F S16x1x1024x1024 .f32) (main_arg1 : FVec F S16x1x512x512 .f32) (main_arg2 : FVec F S16x1x256x256 .f32) (main_arg3 : IVec S16x1x1024x1024 32) (main_arg4 : IVec S16x1x512x512 32) (main_arg5 : IVec S16x1x256x256 32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  let main_v9 : FVec F S16x1x256x256 .f32 := Host.absf main_arg2
  let main_cst_2 : FVec F S_ .f32 := constant S_ .f32 0x7F800000#32
  let main_v10 : FVec F S16x1x256x256 .f32 := broadcastInDim S16x1x256x256 ![] bcast_S_S16x1x256x256 main_cst_2
  let main_v11 : IVec S16x1x256x256 1 := cmpf .olt main_v9 main_v10
  let main_c_3 : IVec S_ 1 := constantI S_ 1 1#1
  let main_v12 : IVec S_ 1 := (fun x v => Host.reduce IntOp.andi x v reducesTo_S16x1x256x256_S_d0_1_2_3 h_S_) main_v11 main_c_3
  let main_v13 : IVec S_ 1 := andi main_v8 main_v12
  main_v13
-- ==== Kernel.lean ====
abbrev S16x1x1024x1024 : Shape := ⟨4, ![16, 1, 1024, 1024]⟩
abbrev S16x1x512x512 : Shape := ⟨4, ![16, 1, 512, 512]⟩
abbrev S16x1x256x256 : Shape := ⟨4, ![16, 1, 256, 256]⟩
abbrev S16x16 : Shape := ⟨2, ![16, 16]⟩
abbrev S8x1x256x1024 : Shape := ⟨4, ![8, 1, 256, 1024]⟩
abbrev S8x16 : Shape := ⟨2, ![8, 16]⟩
abbrev S8x256x1024 : Shape := ⟨3, ![8, 256, 1024]⟩
abbrev S8x256 : Shape := ⟨2, ![8, 256]⟩
abbrev S8x256x1 : Shape := ⟨3, ![8, 256, 1]⟩
abbrev S8x1 : Shape := ⟨2, ![8, 1]⟩
abbrev S8x1x1 : Shape := ⟨3, ![8, 1, 1]⟩
abbrev S8x1x256x512 : Shape := ⟨4, ![8, 1, 256, 512]⟩
abbrev S8x256x512 : Shape := ⟨3, ![8, 256, 512]⟩
abbrev S8x1x256x256 : Shape := ⟨4, ![8, 1, 256, 256]⟩
abbrev S8x256x256 : Shape := ⟨3, ![8, 256, 256]⟩
abbrev S_ : Shape := ⟨0, ![]⟩
abbrev S16x16x1 : Shape := ⟨3, ![16, 16, 1]⟩
abbrev S16x1x16 : Shape := ⟨3, ![16, 1, 16]⟩
abbrev S16x16x16 : Shape := ⟨3, ![16, 16, 16]⟩
abbrev S1x16x16 : Shape := ⟨3, ![1, 16, 16]⟩

abbrev nBuf : Space → Nat
  | .hbm => 126
  | .vmem => 66
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x512x512, .f32⟩
  | .hbm, ⟨2, _⟩ => ⟨S16x1x256x256, .f32⟩
  | .hbm, ⟨3, _⟩ => ⟨S16x1x1024x1024, .i32⟩
  | .hbm, ⟨4, _⟩ => ⟨S16x1x512x512, .i32⟩
  | .hbm, ⟨5, _⟩ => ⟨S16x1x256x256, .i32⟩
  | .hbm, ⟨6, _⟩ => ⟨S16x16, .f32⟩
  | .hbm, ⟨7, _⟩ => ⟨S16x16, .f32⟩
  | .hbm, ⟨8, _⟩ => ⟨S16x16, .f32⟩
  | .hbm, ⟨9, _⟩ => ⟨S16x16, .f32⟩
  | .hbm, ⟨10, _⟩ => ⟨S16x16, .f32⟩
  | .hbm, ⟨11, _⟩ => ⟨S16x16, .f32⟩
  | .hbm, ⟨12, _⟩ => ⟨S16x16, .f32⟩
  | .hbm, ⟨13, _⟩ => ⟨S16x16, .f32⟩
  | .hbm, ⟨14, _⟩ => ⟨S16x16, .f32⟩
  | .hbm, ⟨15, _⟩ => ⟨S16x16, .f32⟩
  | .hbm, ⟨16, _⟩ => ⟨S_, .f32⟩
  | .hbm, ⟨17, _⟩ => ⟨S16x16, .f32⟩
  | .hbm, ⟨18, _⟩ => ⟨S16x16, .f32⟩
  | .hbm, ⟨19, _⟩ => ⟨S16x16, .f32⟩
  | .hbm, ⟨20, _⟩ => ⟨S_, .f32⟩
  | .hbm, ⟨21, _⟩ => ⟨S16x16, .f32⟩
  | .hbm, ⟨22, _⟩ => ⟨S16x16, .f32⟩
  | .hbm, ⟨23, _⟩ => ⟨S16x16, .f32⟩
  | .hbm, ⟨24, _⟩ => ⟨S_, .f32⟩
  | .hbm, ⟨25, _⟩ => ⟨S16x16, .f32⟩
  | .hbm, ⟨26, _⟩ => ⟨S16x16, .i1⟩
  | .hbm, ⟨27, _⟩ => ⟨S_, .f32⟩
  | .hbm, ⟨28, _⟩ => ⟨S16x16, .f32⟩
  | .hbm, ⟨29, _⟩ => ⟨S16x16, .f32⟩
  | .hbm, ⟨30, _⟩ => ⟨S16x16, .f32⟩
  | .hbm, ⟨31, _⟩ => ⟨S_, .f32⟩
  | .hbm, ⟨32, _⟩ => ⟨S_, .f32⟩
  | .hbm, ⟨33, _⟩ => ⟨S16x16, .f32⟩
  | .hbm, ⟨34, _⟩ => ⟨S16x16, .f32⟩
  | .hbm, ⟨35, _⟩ => ⟨S16x16, .f32⟩
  | .hbm, ⟨36, _⟩ => ⟨S16x16, .f32⟩
  | .hbm, ⟨37, _⟩ => ⟨S16x16, .f32⟩
  | .hbm, ⟨38, _⟩ => ⟨S_, .f32⟩
  | .hbm, ⟨39, _⟩ => ⟨S16x16, .f32⟩
  | .hbm, ⟨40, _⟩ => ⟨S16x16, .i1⟩
  | .hbm, ⟨41, _⟩ => ⟨S_, .f32⟩
  | .hbm, ⟨42, _⟩ => ⟨S16x16, .f32⟩
  | .hbm, ⟨43, _⟩ => ⟨S16x16, .f32⟩
  | .hbm, ⟨44, _⟩ => ⟨S16x16, .f32⟩
  | .hbm, ⟨45, _⟩ => ⟨S_, .f32⟩
  | .hbm, ⟨46, _⟩ => ⟨S_, .f32⟩
  | .hbm, ⟨47, _⟩ => ⟨S16x16, .f32⟩
  | .hbm, ⟨48, _⟩ => ⟨S16x16, .f32⟩
  | .hbm, ⟨49, _⟩ => ⟨S16x16, .f32⟩
  | .hbm, ⟨50, _⟩ => ⟨S16x16, .f32⟩
  | .hbm, ⟨51, _⟩ => ⟨S16x16, .f32⟩
  | .hbm, ⟨52, _⟩ => ⟨S_, .f32⟩
  | .hbm, ⟨53, _⟩ => ⟨S16x16, .f32⟩
  | .hbm, ⟨54, _⟩ => ⟨S16x16, .i1⟩
  | .hbm, ⟨55, _⟩ => ⟨S_, .f32⟩
  | .hbm, ⟨56, _⟩ => ⟨S16x16, .f32⟩
  | .hbm, ⟨57, _⟩ => ⟨S16x16, .f32⟩
  | .hbm, ⟨58, _⟩ => ⟨S16x16, .f32⟩
  | .hbm, ⟨59, _⟩ => ⟨S_, .f32⟩
  | .hbm, ⟨60, _⟩ => ⟨S_, .f32⟩
  | .hbm, ⟨61, _⟩ => ⟨S16x16, .f32⟩
  | .hbm, ⟨62, _⟩ => ⟨S16x16, .f32⟩
  | .hbm, ⟨63, _⟩ => ⟨S16x16, .f32⟩
  | .hbm, ⟨64, _⟩ => ⟨S_, .f32⟩
  | .hbm, ⟨65, _⟩ => ⟨S16x16, .f32⟩
  | .hbm, ⟨66, _⟩ => ⟨S16x16, .i1⟩
  | .hbm, ⟨67, _⟩ => ⟨S16x16, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S16x16, .f32⟩
  | .hbm, ⟨76, _⟩ => ⟨S16x16, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16x16x1, .f32⟩
  | .hbm, ⟨83, _⟩ => ⟨S16x1x16, .f32⟩
  | .hbm, ⟨84, _⟩ => ⟨S16x16x16, .f32⟩
  | .hbm, ⟨85, _⟩ => ⟨S16x16x16, .f32⟩
  | .hbm, ⟨86, _⟩ => ⟨S16x16x16, .f32⟩
  | .hbm, ⟨87, _⟩ => ⟨S16x16x16, .f32⟩
  | .hbm, ⟨88, _⟩ => ⟨S_, .f32⟩
  | .hbm, ⟨89, _⟩ => ⟨S16x16x16, .f32⟩
  | .hbm, ⟨90, _⟩ => ⟨S16x16x16, .f32⟩
  | .hbm, ⟨91, _⟩ => ⟨S_, .f32⟩
  | .hbm, ⟨92, _⟩ => ⟨S16x16x16, .f32⟩
  | .hbm, ⟨93, _⟩ => ⟨S16x16x16, .f32⟩
  | .hbm, ⟨94, _⟩ => ⟨S16x16x16, .f32⟩
  | .hbm, ⟨95, _⟩ => ⟨S16x16, .i32⟩
  | .hbm, ⟨96, _⟩ => ⟨S16x16, .i32⟩
  | .hbm, ⟨97, _⟩ => ⟨S_, .i32⟩
  | .hbm, ⟨98, _⟩ => ⟨S16x16, .i32⟩
  | .hbm, ⟨99, _⟩ => ⟨S16x16, .i32⟩
  | .hbm, ⟨100, _⟩ => ⟨S16x16, .i1⟩
  | .hbm, ⟨101, _⟩ => ⟨S1x16x16, .i1⟩
  | .hbm, ⟨102, _⟩ => ⟨S16x16x1, .i1⟩
  | .hbm, ⟨103, _⟩ => ⟨S16x1x16, .i1⟩
  | .hbm, ⟨104, _⟩ => ⟨S16x16x16, .i1⟩
  | .hbm, ⟨105, _⟩ => ⟨S16x16x16, .i1⟩
  | .hbm, ⟨106, _⟩ => ⟨S16x16x16, .i1⟩
  | .hbm, ⟨107, _⟩ => ⟨S1x16x16, .i1⟩
  | .hbm, ⟨108, _⟩ => ⟨S16x16x16, .i1⟩
  | .hbm, ⟨109, _⟩ => ⟨S16x16x16, .i1⟩
  | .hbm, ⟨110, _⟩ => ⟨S16x16x16, .i32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S_, .i32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S16x16x16, .f32⟩
  | .hbm, ⟨119, _⟩ => ⟨S16x16x16, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .local _ .vmem, ⟨0, _⟩ => ⟨S8x1x256x1024, .f32⟩
  | .local _ .vmem, ⟨1, _⟩ => ⟨S8x1x256x1024, .f32⟩
  | .local _ .vmem, ⟨2, _⟩ => ⟨S8x1x256x1024, .i32⟩
  | .local _ .vmem, ⟨3, _⟩ => ⟨S8x1x256x1024, .i32⟩
  | .local _ .vmem, ⟨4, _⟩ => ⟨S8x16, .f32⟩
  | .local _ .vmem, ⟨5, _⟩ => ⟨S8x16, .f32⟩
  | .local _ .vmem, ⟨6, _⟩ => ⟨S8x16, .f32⟩
  | .local _ .vmem, ⟨7, _⟩ => ⟨S8x16, .f32⟩
  | .local _ .vmem, ⟨8, _⟩ => ⟨S8x16, .f32⟩
  | .local _ .vmem, ⟨9, _⟩ => ⟨S8x16, .f32⟩
  | .local _ .vmem, ⟨10, _⟩ => ⟨S8x1x256x512, .f32⟩
  | .local _ .vmem, ⟨11, _⟩ => ⟨S8x1x256x512, .f32⟩
  | .local _ .vmem, ⟨12, _⟩ => ⟨S8x1x256x512, .i32⟩
  | .local _ .vmem, ⟨13, _⟩ => ⟨S8x1x256x512, .i32⟩
  | .local _ .vmem, ⟨14, _⟩ => ⟨S8x16, .f32⟩
  | .local _ .vmem, ⟨15, _⟩ => ⟨S8x16, .f32⟩
  | .local _ .vmem, ⟨16, _⟩ => ⟨S8x16, .f32⟩
  | .local _ .vmem, ⟨17, _⟩ => ⟨S8x16, .f32⟩
  | .local _ .vmem, ⟨18, _⟩ => ⟨S8x16, .f32⟩
  | .local _ .vmem, ⟨19, _⟩ => ⟨S8x16, .f32⟩
  | .local _ .vmem, ⟨20, _⟩ => ⟨S8x1x256x256, .f32⟩
  | .local _ .vmem, ⟨21, _⟩ => ⟨S8x1x256x256, .f32⟩
  | .local _ .vmem, ⟨22, _⟩ => ⟨S8x1x256x256, .i32⟩
  | .local _ .vmem, ⟨23, _⟩ => ⟨S8x1x256x256, .i32⟩
  | .local _ .vmem, ⟨24, _⟩ => ⟨S8x16, .f32⟩
  | .local _ .vmem, ⟨25, _⟩ => ⟨S8x16, .f32⟩
  | .local _ .vmem, ⟨26, _⟩ => ⟨S8x16, .f32⟩
  | .local _ .vmem, ⟨27, _⟩ => ⟨S8x16, .f32⟩
  | .local _ .vmem, ⟨28, _⟩ => ⟨S8x16, .f32⟩
  | .local _ .vmem, ⟨29, _⟩ => ⟨S8x16, .f32⟩
  | .local _ .vmem, ⟨30, _⟩ => ⟨S8x1x256x1024, .f32⟩
  | .local _ .vmem, ⟨31, _⟩ => ⟨S8x1x256x1024, .f32⟩
  | .local _ .vmem, ⟨32, _⟩ => ⟨S8x1x256x1024, .i32⟩
  | .local _ .vmem, ⟨33, _⟩ => ⟨S8x1x256x1024, .i32⟩
  | .local _ .vmem, ⟨34, _⟩ => ⟨S8x16, .f32⟩
  | .local _ .vmem, ⟨35, _⟩ => ⟨S8x16, .f32⟩
  | .local _ .vmem, ⟨36, _⟩ => ⟨S8x16, .f32⟩
  | .local _ .vmem, ⟨37, _⟩ => ⟨S8x16, .f32⟩
  | .local _ .vmem, ⟨38, _⟩ => ⟨S8x16, .f32⟩
  | .local _ .vmem, ⟨39, _⟩ => ⟨S8x16, .f32⟩
  | .local _ .vmem, ⟨40, _⟩ => ⟨S8x16, .f32⟩
  | .local _ .vmem, ⟨41, _⟩ => ⟨S8x16, .f32⟩
  | .local _ .vmem, ⟨42, _⟩ => ⟨S8x1x256x512, .f32⟩
  | .local _ .vmem, ⟨43, _⟩ => ⟨S8x1x256x512, .f32⟩
  | .local _ .vmem, ⟨44, _⟩ => ⟨S8x1x256x512, .i32⟩
  | .local _ .vmem, ⟨45, _⟩ => ⟨S8x1x256x512, .i32⟩
  | .local _ .vmem, ⟨46, _⟩ => ⟨S8x16, .f32⟩
  | .local _ .vmem, ⟨47, _⟩ => ⟨S8x16, .f32⟩
  | .local _ .vmem, ⟨48, _⟩ => ⟨S8x16, .f32⟩
  | .local _ .vmem, ⟨49, _⟩ => ⟨S8x16, .f32⟩
  | .local _ .vmem, ⟨50, _⟩ => ⟨S8x16, .f32⟩
  | .local _ .vmem, ⟨51, _⟩ => ⟨S8x16, .f32⟩
  | .local _ .vmem, ⟨52, _⟩ => ⟨S8x16, .f32⟩
  | .local _ .vmem, ⟨53, _⟩ => ⟨S8x16, .f32⟩
  | .local _ .vmem, ⟨54, _⟩ => ⟨S8x1x256x256, .f32⟩
  | .local _ .vmem, ⟨55, _⟩ => ⟨S8x1x256x256, .f32⟩
  | .local _ .vmem, ⟨56, _⟩ => ⟨S8x1x256x256, .i32⟩
  | .local _ .vmem, ⟨57, _⟩ => ⟨S8x1x256x256, .i32⟩
  | .local _ .vmem, ⟨58, _⟩ => ⟨S8x16, .f32⟩
  | .local _ .vmem, ⟨59, _⟩ => ⟨S8x16, .f32⟩
  | .local _ .vmem, ⟨60, _⟩ => ⟨S8x16, .f32⟩
  | .local _ .vmem, ⟨61, _⟩ => ⟨S8x16, .f32⟩
  | .local _ .vmem, ⟨62, _⟩ => ⟨S8x16, .f32⟩
  | .local _ .vmem, ⟨63, _⟩ => ⟨S8x16, .f32⟩
  | .local _ .vmem, ⟨64, _⟩ => ⟨S8x16, .f32⟩
  | .local _ .vmem, ⟨65, _⟩ => ⟨S8x16, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_9 : Ref sig .tc := ⟨.hbm, 59, rfl⟩
abbrev main_call2_v0 : Ref sig .tc := ⟨.hbm, 60, rfl⟩
abbrev main_call2_v1 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c : Ref sig .tc := ⟨.hbm, 68, rfl⟩
abbrev main_v38 : Ref sig .tc := ⟨.hbm, 69, rfl⟩
abbrev main_c_11 : Ref sig .tc := ⟨.hbm, 70, rfl⟩
abbrev main_v39 : Ref sig .tc := ⟨.hbm, 71, rfl⟩
abbrev main_v40 : Ref sig .tc := ⟨.hbm, 72, rfl⟩
abbrev main_cst_12 : Ref sig .tc := ⟨.hbm, 73, rfl⟩
abbrev main_call3_v0 : Ref sig .tc := ⟨.hbm, 74, rfl⟩
abbrev main_call3_v1 : Ref sig .tc := ⟨.hbm, 75, rfl⟩
abbrev main_v41 : Ref sig .tc := ⟨.hbm, 76, rfl⟩
abbrev main_cst_13 : Ref sig .tc := ⟨.hbm, 77, rfl⟩
abbrev main_v42 : Ref sig .tc := ⟨.hbm, 78, rfl⟩
abbrev main_v43 : Ref sig .tc := ⟨.hbm, 79, rfl⟩
abbrev main_cst_14 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_15 : Ref sig .tc := ⟨.hbm, 88, rfl⟩
abbrev main_v51 : Ref sig .tc := ⟨.hbm, 89, rfl⟩
abbrev main_v52 : Ref sig .tc := ⟨.hbm, 90, rfl⟩
abbrev main_cst_16 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_17 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_c_18 : Ref sig .tc := ⟨.hbm, 111, rfl⟩
abbrev main_v71 : Ref sig .tc := ⟨.hbm, 112, rfl⟩
abbrev main_c_19 : Ref sig .tc := ⟨.hbm, 113, rfl⟩
abbrev main_v72 : Ref sig .tc := ⟨.hbm, 114, rfl⟩
abbrev main_v73 : Ref sig .tc := ⟨.hbm, 115, rfl⟩
abbrev main_cst_20 : Ref sig .tc := ⟨.hbm, 116, rfl⟩
abbrev main_call4_v0 : Ref sig .tc := ⟨.hbm, 117, rfl⟩
abbrev main_call4_v1 : Ref sig .tc := ⟨.hbm, 118, rfl⟩
abbrev main_v74 : Ref sig .tc := ⟨.hbm, 119, rfl⟩
abbrev main_cst_21 : Ref sig .tc := ⟨.hbm, 120, rfl⟩
abbrev main_v75 : Ref sig .tc := ⟨.hbm, 121, rfl⟩
abbrev main_v76 : Ref sig .tc := ⟨.hbm, 122, rfl⟩
abbrev main_cst_22 : Ref sig .tc := ⟨.hbm, 123, rfl⟩
abbrev main_v77 : Ref sig .tc := ⟨.hbm, 124, rfl⟩
abbrev main_v78 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_scratch0 : Ref sig .tc := ⟨.vmem, 40, rfl⟩
abbrev cc3_scratch1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_scratch0 : Ref sig .tc := ⟨.vmem, 52, rfl⟩
abbrev cc4_scratch1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg2_1 : Ref sig .tc := ⟨.vmem, 59, rfl⟩
abbrev cc5_stg3_0 : Ref sig .tc := ⟨.vmem, 60, rfl⟩
abbrev cc5_stg3_1 : Ref sig .tc := ⟨.vmem, 61, rfl⟩
abbrev cc5_stg4_0 : Ref sig .tc := ⟨.vmem, 62, rfl⟩
abbrev cc5_stg4_1 : Ref sig .tc := ⟨.vmem, 63, rfl⟩
abbrev cc5_scratch0 : Ref sig .tc := ⟨.vmem, 64, rfl⟩
abbrev cc5_scratch1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem3_1 : DmaSem sig := 51
abbrev cc5_sem4_0 : DmaSem sig := 52
abbrev cc5_sem4_1 : DmaSem sig := 53

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32_200 : BitVec 32 := 3#32
  let v423 : BitVec 1 := Scalar.cmpi .eq arg1 c3_i32_200
  let v424 : BitVec 32 := Scalar.extui v423
  let c0_i32_201 : BitVec 32 := 0#32
  let v425 : BitVec 1 := Scalar.cmpi .ne v424 c0_i32_201
  v425

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 2], ![false, false]⟩

def k1_cond2 (i : grid1.Coords) : BitVec 1 :=
  let arg1 : BitVec 32 := BitVec.ofNat 32 (i 1).val
  let c1_i32_200 : BitVec 32 := 1#32
  let v423 : BitVec 1 := Scalar.cmpi .eq arg1 c1_i32_200
  let v424 : BitVec 32 := Scalar.extui v423
  let c0_i32_201 : BitVec 32 := 0#32
  let v425 : BitVec 1 := Scalar.cmpi .ne v424 c0_i32_201
  v425

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x1x256x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 1], ![false, false]⟩

def k2_cond2 (i : grid2.Coords) : BitVec 1 :=
  let arg1 : BitVec 32 := BitVec.ofNat 32 (i 1).val
  let c0_i32_200 : BitVec 32 := 0#32
  let v423 : BitVec 1 := Scalar.cmpi .eq arg1 c0_i32_200
  let v424 : BitVec 32 := Scalar.extui v423
  let c0_i32_201 : BitVec 32 := 0#32
  let v425 : BitVec 1 := Scalar.cmpi .ne v424 c0_i32_201
  v425

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8x1x256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x1x256x256 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S8x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S8x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![2, 4], ![false, false]⟩

def k3_cond2 (i : grid3.Coords) : BitVec 1 :=
  let arg1 : BitVec 32 := BitVec.ofNat 32 (i 1).val
  let c3_i32_234 : BitVec 32 := 3#32
  let v585 : BitVec 1 := Scalar.cmpi .eq arg1 c3_i32_234
  let v586 : BitVec 32 := Scalar.extui v585
  let c0_i32_235 : BitVec 32 := 0#32
  let v587 : BitVec 1 := Scalar.cmpi .ne v586 c0_i32_235
  v587

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S8x1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S8x1x256x1024 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S8x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S8x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S8x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![2, 2], ![false, false]⟩

def k4_cond2 (i : grid4.Coords) : BitVec 1 :=
  let arg1 : BitVec 32 := BitVec.ofNat 32 (i 1).val
  let c1_i32_234 : BitVec 32 := 1#32
  let v585 : BitVec 1 := Scalar.cmpi .eq arg1 c1_i32_234
  let v586 : BitVec 32 := Scalar.extui v585
  let c0_i32_235 : BitVec 32 := 0#32
  let v587 : BitVec 1 := Scalar.cmpi .ne v586 c0_i32_235
  v587

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S8x1x256x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S8x1x256x512 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S8x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S8x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S8x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![2, 1], ![false, false]⟩

def k5_cond2 (i : grid5.Coords) : BitVec 1 :=
  let arg1 : BitVec 32 := BitVec.ofNat 32 (i 1).val
  let c0_i32_234 : BitVec 32 := 0#32
  let v585 : BitVec 1 := Scalar.cmpi .eq arg1 c0_i32_234
  let v586 : BitVec 32 := Scalar.extui v585
  let c0_i32_235 : BitVec 32 := 0#32
  let v587 : BitVec 1 := Scalar.cmpi .ne v586 c0_i32_235
  v587

def cc5_transform_0 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S8x1x256x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S8x1x256x256 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S8x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S8x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S8x16 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

class Facts₀ : Prop where
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x1x256x1024_S8x1x256x1024_0_0_0_0 : ∀ a, (![0, 0, 0, 0] : Fin 4 → Nat) a + S8x1x256x1024.size a ≤ S8x1x256x1024.size a
  h_S8x1x256x1024 : 0 < S8x1x256x1024.numel
  shapeCasts_S8x1x256x1024_S8x256x1024 : S8x1x256x1024.ShapeCasts S8x256x1024
  natLt_1_32 : 1 < 32
  reduces_S8x256x1024_S8x256 : S8x256x1024.Reduces [2] S8x256
  shapeCasts_S8x256_S8x256x1 : S8x256.ShapeCasts S8x256x1
  reduces_S8x256x1_S8x1 : S8x256x1.Reduces [1] S8x1
  shapeCasts_S8x1_S8x1x1 : S8x1.ShapeCasts S8x1x1
  inb_S8x16_S8x1_0_0 : ∀ a, (![0, 0] : Fin 2 → Nat) a + S8x1.size a ≤ S8x16.size a
  h_S8x1 : 0 < S8x1.numel
  shapeCasts_S8x1x1_S8x1 : S8x1x1.ShapeCasts S8x1
  shapeCasts_S8x1_S8x1 : S8x1.ShapeCasts S8x1
  inb_S8x16_S8x1_0_1 : ∀ a, (![0, 1] : Fin 2 → Nat) a + S8x1.size a ≤ S8x16.size a
  inb_S8x16_S8x1_0_2 : ∀ a, (![0, 2] : Fin 2 → Nat) a + S8x1.size a ≤ S8x16.size a
  inb_S8x16_S8x1_0_3 : ∀ a, (![0, 3] : Fin 2 → Nat) a + S8x1.size a ≤ S8x16.size a
  inb_S8x16_S8x1_0_4 : ∀ a, (![0, 4] : Fin 2 → Nat) a + S8x1.size a ≤ S8x16.size a
  inb_S8x16_S8x1_0_5 : ∀ a, (![0, 5] : Fin 2 → Nat) a + S8x1.size a ≤ S8x16.size a
  inb_S8x16_S8x1_0_6 : ∀ a, (![0, 6] : Fin 2 → Nat) a + S8x1.size a ≤ S8x16.size a
  inb_S8x16_S8x1_0_7 : ∀ a, (![0, 7] : Fin 2 → Nat) a + S8x1.size a ≤ S8x16.size a
  inb_S8x16_S8x1_0_8 : ∀ a, (![0, 8] : Fin 2 → Nat) a + S8x1.size a ≤ S8x16.size a
  inb_S8x16_S8x1_0_9 : ∀ a, (![0, 9] : Fin 2 → Nat) a + S8x1.size a ≤ S8x16.size a
  inb_S8x16_S8x1_0_10 : ∀ a, (![0, 10] : Fin 2 → Nat) a + S8x1.size a ≤ S8x16.size a
  inb_S8x16_S8x1_0_11 : ∀ a, (![0, 11] : Fin 2 → Nat) a + S8x1.size a ≤ S8x16.size a
  inb_S8x16_S8x1_0_12 : ∀ a, (![0, 12] : Fin 2 → Nat) a + S8x1.size a ≤ S8x16.size a
  inb_S8x16_S8x1_0_13 : ∀ a, (![0, 13] : Fin 2 → Nat) a + S8x1.size a ≤ S8x16.size a
  inb_S8x16_S8x1_0_14 : ∀ a, (![0, 14] : Fin 2 → Nat) a + S8x1.size a ≤ S8x16.size a
  inb_S8x16_S8x1_0_15 : ∀ a, (![0, 15] : Fin 2 → Nat) a + S8x1.size a ≤ S8x16.size a
  inb_S8x1x256x512_S8x1x256x512_0_0_0_0 : ∀ a, (![0, 0, 0, 0] : Fin 4 → Nat) a + S8x1x256x512.size a ≤ S8x1x256x512.size a
  h_S8x1x256x512 : 0 < S8x1x256x512.numel
  shapeCasts_S8x1x256x512_S8x256x512 : S8x1x256x512.ShapeCasts S8x256x512
  reduces_S8x256x512_S8x256 : S8x256x512.Reduces [2] S8x256
  inb_S8x1x256x256_S8x1x256x256_0_0_0_0 : ∀ a, (![0, 0, 0, 0] : Fin 4 → Nat) a + S8x1x256x256.size a ≤ S8x1x256x256.size a
  h_S8x1x256x256 : 0 < S8x1x256x256.numel
  shapeCasts_S8x1x256x256_S8x256x256 : S8x1x256x256.ShapeCasts S8x256x256
  reduces_S8x256x256_S8x256 : S8x256x256.Reduces [2] S8x256
  bcast_S_S16x16 : S_.BroadcastsInDim S16x16 (![] : Fin 0 → Fin S16x16.rank)
  slices_S8x16_o0_0_S8x1 : S8x16.Slices ![0, 0] S8x1
  broadcasts_S8x1x1_S8x256x1024 : S8x1x1.Broadcasts S8x256x1024
  slices_S8x16_o0_1_S8x1 : S8x16.Slices ![0, 1] S8x1
  slices_S8x16_o0_2_S8x1 : S8x16.Slices ![0, 2] S8x1
  slices_S8x16_o0_3_S8x1 : S8x16.Slices ![0, 3] S8x1
  slices_S8x16_o0_4_S8x1 : S8x16.Slices ![0, 4] S8x1
  slices_S8x16_o0_5_S8x1 : S8x16.Slices ![0, 5] S8x1
  slices_S8x16_o0_6_S8x1 : S8x16.Slices ![0, 6] S8x1
  slices_S8x16_o0_7_S8x1 : S8x16.Slices ![0, 7] S8x1
  slices_S8x16_o0_8_S8x1 : S8x16.Slices ![0, 8] S8x1
  slices_S8x16_o0_9_S8x1 : S8x16.Slices ![0, 9] S8x1
  slices_S8x16_o0_10_S8x1 : S8x16.Slices ![0, 10] S8x1
  slices_S8x16_o0_11_S8x1 : S8x16.Slices ![0, 11] S8x1
  slices_S8x16_o0_12_S8x1 : S8x16.Slices ![0, 12] S8x1
  slices_S8x16_o0_13_S8x1 : S8x16.Slices ![0, 13] S8x1
  slices_S8x16_o0_14_S8x1 : S8x16.Slices ![0, 14] S8x1
  slices_S8x16_o0_15_S8x1 : S8x16.Slices ![0, 15] S8x1
  broadcasts_S8x1x1_S8x256x512 : S8x1x1.Broadcasts S8x256x512
  broadcasts_S8x1x1_S8x256x256 : S8x1x1.Broadcasts S8x256x256
  reducesTo_S16x16_S_d0_1 : S16x16.ReducesTo [0, 1] S_
  h_S_ : 0 < S_.numel
  bcast_S16x16_S16x16x1_0_1 : S16x16.BroadcastsInDim S16x16x1 (![0, 1] : Fin 2 → Fin S16x16x1.rank)
  bcast_S16x16_S16x1x16_0_2 : S16x16.BroadcastsInDim S16x1x16 (![0, 2] : Fin 2 → Fin S16x1x16.rank)
  bcast_S16x16x1_S16x16x16_0_1_2 : S16x16x1.BroadcastsInDim S16x16x16 (![0, 1, 2] : Fin 3 → Fin S16x16x16.rank)
  bcast_S16x1x16_S16x16x16_0_1_2 : S16x1x16.BroadcastsInDim S16x16x16 (![0, 1, 2] : Fin 3 → Fin S16x16x16.rank)
  bcast_S_S16x16x16 : S_.BroadcastsInDim S16x16x16 (![] : Fin 0 → Fin S16x16x16.rank)
  bcast_S16x16_S1x16x16_1_2 : S16x16.BroadcastsInDim S1x16x16 (![1, 2] : Fin 2 → Fin S1x16x16.rank)
  bcast_S1x16x16_S16x16x16_0_1_2 : S1x16x16.BroadcastsInDim S16x16x16 (![0, 1, 2] : Fin 3 → Fin S16x16x16.rank)
  reducesTo_S16x16x16_S_d0_1_2 : S16x16x16.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x256x1024.size a ≤ S16x1x1024x1024.size a
  hwx0_0 : ∀ i : grid0.Coords, EltTy.bits .f32 = 32 ∨ (Rect.block (s := S16x1x1024x1024) S8x1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x256x1024.size a ≤ S16x1x1024x1024.size a
  hwx0_1 : ∀ i : grid0.Coords, EltTy.bits .i32 = 32 ∨ (Rect.block (s := S16x1x1024x1024) S8x1x256x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16.size a ≤ S16x16.size a
  hwx0_2 : ∀ i : grid0.Coords, EltTy.bits .f32 = 32 ∨ (Rect.block (s := S16x16) S8x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16.size a ≤ S16x16.size a
  hwx0_3 : ∀ i : grid0.Coords, EltTy.bits .f32 = 32 ∨ (Rect.block (s := S16x16) S8x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1x256x512.size a ≤ S16x1x512x512.size a
  hwx1_0 : ∀ i : grid1.Coords, EltTy.bits .f32 = 32 ∨ (Rect.block (s := S16x1x512x512) S8x1x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1x256x512.size a ≤ S16x1x512x512.size a
  hwx1_1 : ∀ i : grid1.Coords, EltTy.bits .i32 = 32 ∨ (Rect.block (s := S16x1x512x512) S8x1x256x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x16.size a ≤ S16x16.size a
  hwx1_2 : ∀ i : grid1.Coords, EltTy.bits .f32 = 32 ∨ (Rect.block (s := S16x16) S8x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x16.size a ≤ S16x16.size a
  hwx1_3 : ∀ i : grid1.Coords, EltTy.bits .f32 = 32 ∨ (Rect.block (s := S16x16) S8x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x1x256x256.size a ≤ S16x1x256x256.size a
  hwx2_0 : ∀ i : grid2.Coords, EltTy.bits .f32 = 32 ∨ (Rect.block (s := S16x1x256x256) S8x1x256x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x1x256x256.size a ≤ S16x1x256x256.size a
  hwx2_1 : ∀ i : grid2.Coords, EltTy.bits .i32 = 32 ∨ (Rect.block (s := S16x1x256x256) S8x1x256x256.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x16.size a ≤ S16x16.size a
  hwx2_2 : ∀ i : grid2.Coords, EltTy.bits .f32 = 32 ∨ (Rect.block (s := S16x16) S8x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x16.size a ≤ S16x16.size a
  hwx2_3 : ∀ i : grid2.Coords, EltTy.bits .f32 = 32 ∨ (Rect.block (s := S16x16) S8x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x1x256x1024.size a ≤ S16x1x1024x1024.size a
  hwx3_0 : ∀ i : grid3.Coords, EltTy.bits .f32 = 32 ∨ (Rect.block (s := S16x1x1024x1024) S8x1x256x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x1x256x1024.size a ≤ S16x1x1024x1024.size a
  hwx3_1 : ∀ i : grid3.Coords, EltTy.bits .i32 = 32 ∨ (Rect.block (s := S16x1x1024x1024) S8x1x256x1024.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x16.size a ≤ S16x16.size a
  hwx3_2 : ∀ i : grid3.Coords, EltTy.bits .f32 = 32 ∨ (Rect.block (s := S16x16) S8x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x16.size a ≤ S16x16.size a
  hwx3_3 : ∀ i : grid3.Coords, EltTy.bits .f32 = 32 ∨ (Rect.block (s := S16x16) S8x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8x16.size a ≤ S16x16.size a
  hwx3_4 : ∀ i : grid3.Coords, EltTy.bits .f32 = 32 ∨ (Rect.block (s := S16x16) S8x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x1x256x512.size a ≤ S16x1x512x512.size a
  hwx4_0 : ∀ i : grid4.Coords, EltTy.bits .f32 = 32 ∨ (Rect.block (s := S16x1x512x512) S8x1x256x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8x1x256x512.size a ≤ S16x1x512x512.size a
  hwx4_1 : ∀ i : grid4.Coords, EltTy.bits .i32 = 32 ∨ (Rect.block (s := S16x1x512x512) S8x1x256x512.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8x16.size a ≤ S16x16.size a
  hwx4_2 : ∀ i : grid4.Coords, EltTy.bits .f32 = 32 ∨ (Rect.block (s := S16x16) S8x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8x16.size a ≤ S16x16.size a
  hwx4_3 : ∀ i : grid4.Coords, EltTy.bits .f32 = 32 ∨ (Rect.block (s := S16x16) S8x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8x16.size a ≤ S16x16.size a
  hwx4_4 : ∀ i : grid4.Coords, EltTy.bits .f32 = 32 ∨ (Rect.block (s := S16x16) S8x16.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8x1x256x256.size a ≤ S16x1x256x256.size a
  hwx5_0 : ∀ i : grid5.Coords, EltTy.bits .f32 = 32 ∨ (Rect.block (s := S16x1x256x256) S8x1x256x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8x1x256x256.size a ≤ S16x1x256x256.size a
  hwx5_1 : ∀ i : grid5.Coords, EltTy.bits .i32 = 32 ∨ (Rect.block (s := S16x1x256x256) S8x1x256x256.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8x16.size a ≤ S16x16.size a
  hwx5_2 : ∀ i : grid5.Coords, EltTy.bits .f32 = 32 ∨ (Rect.block (s := S16x16) S8x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8x16.size a ≤ S16x16.size a
  hwx5_3 : ∀ i : grid5.Coords, EltTy.bits .f32 = 32 ∨ (Rect.block (s := S16x16) S8x16.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S8x16.size a ≤ S16x16.size a
  hwx5_4 : ∀ i : grid5.Coords, EltTy.bits .f32 = 32 ∨ (Rect.block (s := S16x16) S8x16.size (cc5_transform_4 i) (hinb5_4 i)).WholeWords (EltTy.packing .f32)

variable [Facts₀]

abbrev win0_0 : Pipeline.Window sig grid0 :=
  Pipeline.Window.ofSpec (Memref.whole main_arg0) S8x1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S8x1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S8x1x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S8x16.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S8x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg2) S8x1x256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S8x1x256x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_0) S8x16.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S8x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun i => !(k2_cond2 i == 1#1) | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg0) S8x1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S8x1x256x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S8x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11_0) S8x16.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v11_1) S8x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_arg1) S8x1x256x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S8x1x256x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v9) S8x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v19_0) S8x16.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v19_1) S8x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_arg2) S8x1x256x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S8x1x256x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S8x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v27_0) S8x16.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v27_1) S8x16.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun i => !(k5_cond2 i == 1#1) | 4 => fun i => !(k5_cond2 i == 1#1) | ⟨_ + 5, h⟩ => absurd h (Nat.not_lt.2 (Nat.le_add_left _ _))

class Facts : Prop extends Facts₀ where

variable [Facts]
-- ==== ReferenceIdeal.lean ====
abbrev S16x1x1024x1024 : Shape := ⟨4, ![16, 1, 1024, 1024]⟩
abbrev S16x1x512x512 : Shape := ⟨4, ![16, 1, 512, 512]⟩
abbrev S16x1x256x256 : Shape := ⟨4, ![16, 1, 256, 256]⟩
abbrev S16 : Shape := ⟨1, ![16]⟩
abbrev S_ : Shape := ⟨0, ![]⟩
abbrev S16x1 : Shape := ⟨2, ![16, 1]⟩
abbrev S272 : Shape := ⟨1, ![272]⟩
abbrev S16x1048576 : Shape := ⟨2, ![16, 1048576]⟩
abbrev S16777216 : Shape := ⟨1, ![16777216]⟩
abbrev S16777216x1 : Shape := ⟨2, ![16777216, 1]⟩
abbrev S16x262144 : Shape := ⟨2, ![16, 262144]⟩
abbrev S4194304 : Shape := ⟨1, ![4194304]⟩
abbrev S4194304x1 : Shape := ⟨2, ![4194304, 1]⟩
abbrev S16x65536 : Shape := ⟨2, ![16, 65536]⟩
abbrev S1048576 : Shape := ⟨1, ![1048576]⟩
abbrev S1048576x1 : Shape := ⟨2, ![1048576, 1]⟩
abbrev S16x17 : Shape := ⟨2, ![16, 17]⟩
abbrev S16x16 : Shape := ⟨2, ![16, 16]⟩
abbrev S16x16x1 : Shape := ⟨3, ![16, 16, 1]⟩
abbrev S16x1x16 : Shape := ⟨3, ![16, 1, 16]⟩
abbrev S16x16x16 : Shape := ⟨3, ![16, 16, 16]⟩
abbrev S1x16x16 : Shape := ⟨3, ![1, 16, 16]⟩

abbrev nBuf : Space → Nat
  | .hbm => 338
  | .vmem => 0
  | .smem => 0
  | _ => 0

abbrev hbmTy0_0 (i : Nat) : BufTy := match i % 128 with
  | 0 => ⟨S16x1x1024x1024, .f32⟩
  | 1 => ⟨S16x1x512x512, .f32⟩
  | 2 => ⟨S16x1x256x256, .f32⟩
  | 3 => ⟨S16x1x1024x1024, .i32⟩
  | 4 => ⟨S16x1x512x512, .i32⟩
  | 5 => ⟨S16x1x256x256, .i32⟩
  | 6 => ⟨S16, .i32⟩
  | 7 => ⟨S_, .i32⟩
  | 8 => ⟨S16, .i32⟩
  | 9 => ⟨S16, .i32⟩
  | 10 => ⟨S16x1, .i32⟩
  | 11 => ⟨S_, .f32⟩
  | 12 => ⟨S272, .f32⟩
  | 13 => ⟨S_, .f32⟩
  | 14 => ⟨S272, .f32⟩
  | 15 => ⟨S16x1048576, .f32⟩
  | 16 => ⟨S16x1048576, .i32⟩
  | 17 => ⟨S_, .i32⟩
  | 18 => ⟨S16x1048576, .i32⟩
  | 19 => ⟨S16x1048576, .i1⟩
  | 20 => ⟨S_, .i32⟩
  | 21 => ⟨S16x1048576, .i32⟩
  | 22 => ⟨S16x1048576, .i1⟩
  | 23 => ⟨S16x1048576, .i1⟩
  | 24 => ⟨S_, .i32⟩
  | 25 => ⟨S16x1048576, .i32⟩
  | 26 => ⟨S16x1048576, .i1⟩
  | 27 => ⟨S16x1048576, .i1⟩
  | 28 => ⟨S_, .i32⟩
  | 29 => ⟨S_, .i32⟩
  | 30 => ⟨S16x1048576, .i32⟩
  | 31 => ⟨S16x1048576, .i32⟩
  | 32 => ⟨S16x1048576, .i32⟩
  | 33 => ⟨S16x1048576, .i32⟩
  | 34 => ⟨S16777216, .i32⟩
  | 35 => ⟨S16777216, .i1⟩
  | 36 => ⟨S16777216, .f32⟩
  | 37 => ⟨S_, .f32⟩
  | 38 => ⟨S_, .f32⟩
  | 39 => ⟨S16x1048576, .f32⟩
  | 40 => ⟨S16x1048576, .f32⟩
  | 41 => ⟨S16777216, .f32⟩
  | 42 => ⟨S_, .f32⟩
  | 43 => ⟨S272, .f32⟩
  | 44 => ⟨S16777216x1, .i32⟩
  | 45 => ⟨S272, .f32⟩
  | 46 => ⟨S272, .f32⟩
  | 47 => ⟨S_, .f32⟩
  | 48 => ⟨S272, .f32⟩
  | 49 => ⟨S16777216x1, .i32⟩
  | 50 => ⟨S272, .f32⟩
  | 51 => ⟨S272, .f32⟩
  | 52 => ⟨S16x262144, .f32⟩
  | 53 => ⟨S16x262144, .i32⟩
  | 54 => ⟨S_, .i32⟩
  | 55 => ⟨S16x262144, .i32⟩
  | 56 => ⟨S16x262144, .i1⟩
  | 57 => ⟨S_, .i32⟩
  | 58 => ⟨S16x262144, .i32⟩
  | 59 => ⟨S16x262144, .i1⟩
  | 60 => ⟨S16x262144, .i1⟩
  | 61 => ⟨S_, .i32⟩
  | 62 => ⟨S16x262144, .i32⟩
  | 63 => ⟨S16x262144, .i1⟩
  | 64 => ⟨S16x262144, .i1⟩
  | 65 => ⟨S_, .i32⟩
  | 66 => ⟨S_, .i32⟩
  | 67 => ⟨S16x262144, .i32⟩
  | 68 => ⟨S16x262144, .i32⟩
  | 69 => ⟨S16x262144, .i32⟩
  | 70 => ⟨S16x262144, .i32⟩
  | 71 => ⟨S4194304, .i32⟩
  | 72 => ⟨S4194304, .i1⟩
  | 73 => ⟨S4194304, .f32⟩
  | 74 => ⟨S_, .f32⟩
  | 75 => ⟨S_, .f32⟩
  | 76 => ⟨S16x262144, .f32⟩
  | 77 => ⟨S16x262144, .f32⟩
  | 78 => ⟨S4194304, .f32⟩
  | 79 => ⟨S_, .f32⟩
  | 80 => ⟨S272, .f32⟩
  | 81 => ⟨S4194304x1, .i32⟩
  | 82 => ⟨S272, .f32⟩
  | 83 => ⟨S272, .f32⟩
  | 84 => ⟨S_, .f32⟩
  | 85 => ⟨S272, .f32⟩
  | 86 => ⟨S4194304x1, .i32⟩
  | 87 => ⟨S272, .f32⟩
  | 88 => ⟨S272, .f32⟩
  | 89 => ⟨S16x65536, .f32⟩
  | 90 => ⟨S16x65536, .i32⟩
  | 91 => ⟨S_, .i32⟩
  | 92 => ⟨S16x65536, .i32⟩
  | 93 => ⟨S16x65536, .i1⟩
  | 94 => ⟨S_, .i32⟩
  | 95 => ⟨S16x65536, .i32⟩
  | 96 => ⟨S16x65536, .i1⟩
  | 97 => ⟨S16x65536, .i1⟩
  | 98 => ⟨S_, .i32⟩
  | 99 => ⟨S16x65536, .i32⟩
  | 100 => ⟨S16x65536, .i1⟩
  | 101 => ⟨S16x65536, .i1⟩
  | 102 => ⟨S_, .i32⟩
  | 103 => ⟨S_, .i32⟩
  | 104 => ⟨S16x65536, .i32⟩
  | 105 => ⟨S16x65536, .i32⟩
  | 106 => ⟨S16x65536, .i32⟩
  | 107 => ⟨S16x65536, .i32⟩
  | 108 => ⟨S1048576, .i32⟩
  | 109 => ⟨S1048576, .i1⟩
  | 110 => ⟨S1048576, .f32⟩
  | 111 => ⟨S_, .f32⟩
  | 112 => ⟨S_, .f32⟩
  | 113 => ⟨S16x65536, .f32⟩
  | 114 => ⟨S16x65536, .f32⟩
  | 115 => ⟨S1048576, .f32⟩
  | 116 => ⟨S_, .f32⟩
  | 117 => ⟨S272, .f32⟩
  | 118 => ⟨S1048576x1, .i32⟩
  | 119 => ⟨S272, .f32⟩
  | 120 => ⟨S272, .f32⟩
  | 121 => ⟨S_, .f32⟩
  | 122 => ⟨S272, .f32⟩
  | 123 => ⟨S1048576x1, .i32⟩
  | 124 => ⟨S272, .f32⟩
  | 125 => ⟨S272, .f32⟩
  | 126 => ⟨S_, .f32⟩
  | 127 => ⟨S272, .f32⟩
  | _ => ⟨S16x1x1024x1024, .f32⟩

abbrev hbmTy0_1 (i : Nat) : BufTy := match i % 128 with
  | 0 => ⟨S272, .f32⟩
  | 1 => ⟨S272, .f32⟩
  | 2 => ⟨S_, .f32⟩
  | 3 => ⟨S272, .f32⟩
  | 4 => ⟨S_, .i32⟩
  | 5 => ⟨S16777216, .i32⟩
  | 6 => ⟨S16777216, .i1⟩
  | 7 => ⟨S_, .i32⟩
  | 8 => ⟨S16777216, .i32⟩
  | 9 => ⟨S16777216, .i32⟩
  | 10 => ⟨S16777216, .i32⟩
  | 11 => ⟨S16777216x1, .i32⟩
  | 12 => ⟨S16777216, .f32⟩
  | 13 => ⟨S16x1048576, .f32⟩
  | 14 => ⟨S16x1048576, .f32⟩
  | 15 => ⟨S16x1048576, .f32⟩
  | 16 => ⟨S_, .f32⟩
  | 17 => ⟨S16x1048576, .f32⟩
  | 18 => ⟨S16x1048576, .f32⟩
  | 19 => ⟨S_, .f32⟩
  | 20 => ⟨S16x1048576, .f32⟩
  | 21 => ⟨S16x1048576, .f32⟩
  | 22 => ⟨S16x1048576, .f32⟩
  | 23 => ⟨S_, .f32⟩
  | 24 => ⟨S_, .f32⟩
  | 25 => ⟨S16x1048576, .f32⟩
  | 26 => ⟨S16x1048576, .f32⟩
  | 27 => ⟨S16777216, .f32⟩
  | 28 => ⟨S_, .f32⟩
  | 29 => ⟨S272, .f32⟩
  | 30 => ⟨S16777216x1, .i32⟩
  | 31 => ⟨S272, .f32⟩
  | 32 => ⟨S16777216, .i1⟩
  | 33 => ⟨S16777216, .f32⟩
  | 34 => ⟨S_, .f32⟩
  | 35 => ⟨S272, .f32⟩
  | 36 => ⟨S16777216x1, .i32⟩
  | 37 => ⟨S272, .f32⟩
  | 38 => ⟨S_, .f32⟩
  | 39 => ⟨S272, .f32⟩
  | 40 => ⟨S272, .i1⟩
  | 41 => ⟨S_, .f32⟩
  | 42 => ⟨S272, .f32⟩
  | 43 => ⟨S272, .f32⟩
  | 44 => ⟨S272, .f32⟩
  | 45 => ⟨S_, .f32⟩
  | 46 => ⟨S_, .f32⟩
  | 47 => ⟨S272, .f32⟩
  | 48 => ⟨S272, .f32⟩
  | 49 => ⟨S272, .f32⟩
  | 50 => ⟨S_, .i32⟩
  | 51 => ⟨S4194304, .i32⟩
  | 52 => ⟨S4194304, .i1⟩
  | 53 => ⟨S_, .i32⟩
  | 54 => ⟨S4194304, .i32⟩
  | 55 => ⟨S4194304, .i32⟩
  | 56 => ⟨S4194304, .i32⟩
  | 57 => ⟨S4194304x1, .i32⟩
  | 58 => ⟨S4194304, .f32⟩
  | 59 => ⟨S16x262144, .f32⟩
  | 60 => ⟨S16x262144, .f32⟩
  | 61 => ⟨S16x262144, .f32⟩
  | 62 => ⟨S_, .f32⟩
  | 63 => ⟨S16x262144, .f32⟩
  | 64 => ⟨S16x262144, .f32⟩
  | 65 => ⟨S_, .f32⟩
  | 66 => ⟨S16x262144, .f32⟩
  | 67 => ⟨S16x262144, .f32⟩
  | 68 => ⟨S16x262144, .f32⟩
  | 69 => ⟨S_, .f32⟩
  | 70 => ⟨S_, .f32⟩
  | 71 => ⟨S16x262144, .f32⟩
  | 72 => ⟨S16x262144, .f32⟩
  | 73 => ⟨S4194304, .f32⟩
  | 74 => ⟨S_, .f32⟩
  | 75 => ⟨S272, .f32⟩
  | 76 => ⟨S4194304x1, .i32⟩
  | 77 => ⟨S272, .f32⟩
  | 78 => ⟨S4194304, .i1⟩
  | 79 => ⟨S4194304, .f32⟩
  | 80 => ⟨S_, .f32⟩
  | 81 => ⟨S272, .f32⟩
  | 82 => ⟨S4194304x1, .i32⟩
  | 83 => ⟨S272, .f32⟩
  | 84 => ⟨S_, .f32⟩
  | 85 => ⟨S272, .f32⟩
  | 86 => ⟨S272, .i1⟩
  | 87 => ⟨S_, .f32⟩
  | 88 => ⟨S272, .f32⟩
  | 89 => ⟨S272, .f32⟩
  | 90 => ⟨S272, .f32⟩
  | 91 => ⟨S_, .f32⟩
  | 92 => ⟨S_, .f32⟩
  | 93 => ⟨S272, .f32⟩
  | 94 => ⟨S272, .f32⟩
  | 95 => ⟨S272, .f32⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i32⟩
  | 102 => ⟨S1048576, .i32⟩
  | 103 => ⟨S1048576x1, .i32⟩
  | 104 => ⟨S1048576, .f32⟩
  | 105 => ⟨S16x65536, .f32⟩
  | 106 => ⟨S16x65536, .f32⟩
  | 107 => ⟨S16x65536, .f32⟩
  | 108 => ⟨S_, .f32⟩
  | 109 => ⟨S16x65536, .f32⟩
  | 110 => ⟨S16x65536, .f32⟩
  | 111 => ⟨S_, .f32⟩
  | 112 => ⟨S16x65536, .f32⟩
  | 113 => ⟨S16x65536, .f32⟩
  | 114 => ⟨S16x65536, .f32⟩
  | 115 => ⟨S_, .f32⟩
  | 116 => ⟨S_, .f32⟩
  | 117 => ⟨S16x65536, .f32⟩
  | 118 => ⟨S16x65536, .f32⟩
  | 119 => ⟨S1048576, .f32⟩
  | 120 => ⟨S_, .f32⟩
  | 121 => ⟨S272, .f32⟩
  | 122 => ⟨S1048576x1, .i32⟩
  | 123 => ⟨S272, .f32⟩
  | 124 => ⟨S1048576, .i1⟩
  | 125 => ⟨S1048576, .f32⟩
  | 126 => ⟨S_, .f32⟩
  | 127 => ⟨S272, .f32⟩
  | _ => ⟨S16x1x1024x1024, .f32⟩

abbrev hbmTy0_2 (i : Nat) : BufTy := match i % 128 with
  | 0 => ⟨S1048576x1, .i32⟩
  | 1 => ⟨S272, .f32⟩
  | 2 => ⟨S_, .f32⟩
  | 3 => ⟨S272, .f32⟩
  | 4 => ⟨S272, .i1⟩
  | 5 => ⟨S_, .f32⟩
  | 6 => ⟨S272, .f32⟩
  | 7 => ⟨S272, .f32⟩
  | 8 => ⟨S272, .f32⟩
  | 9 => ⟨S_, .f32⟩
  | 10 => ⟨S_, .f32⟩
  | 11 => ⟨S272, .f32⟩
  | 12 => ⟨S272, .f32⟩
  | 13 => ⟨S272, .f32⟩
  | 14 => ⟨S16x17, .f32⟩
  | 15 => ⟨S16x16, .f32⟩
  | 16 => ⟨S_, .f32⟩
  | 17 => ⟨S16x16, .f32⟩
  | 18 => ⟨S16x16, .i1⟩
  | 19 => ⟨S16x17, .f32⟩
  | 20 => ⟨S16x16, .f32⟩
  | 21 => ⟨S16x16, .i32⟩
  | 22 => ⟨S_, .i32⟩
  | 23 => ⟨S_, .i32⟩
  | 24 => ⟨S_, .i32⟩
  | 25 => ⟨S_, .i32⟩
  | 26 => ⟨S_, .f32⟩
  | 27 => ⟨S_, .f32⟩
  | 28 => ⟨S_, .f32⟩
  | 29 => ⟨S16x16, .f32⟩
  | 30 => ⟨S16x16, .f32⟩
  | 31 => ⟨S_, .f32⟩
  | 32 => ⟨S_, .f32⟩
  | 33 => ⟨S_, .f32⟩
  | 34 => ⟨S_, .f32⟩
  | 35 => ⟨S_, .f32⟩
  | 36 => ⟨S16x17, .f32⟩
  | 37 => ⟨S16x16, .f32⟩
  | 38 => ⟨S16x16x1, .f32⟩
  | 39 => ⟨S16x1x16, .f32⟩
  | 40 => ⟨S16x16x16, .f32⟩
  | 41 => ⟨S16x16x16, .f32⟩
  | 42 => ⟨S16x16x16, .f32⟩
  | 43 => ⟨S16x16x16, .f32⟩
  | 44 => ⟨S_, .f32⟩
  | 45 => ⟨S16x16x16, .f32⟩
  | 46 => ⟨S16x16x16, .f32⟩
  | 47 => ⟨S_, .f32⟩
  | 48 => ⟨S16x16x16, .f32⟩
  | 49 => ⟨S16x16x16, .f32⟩
  | 50 => ⟨S16x16x16, .f32⟩
  | 51 => ⟨S16x16x1, .i1⟩
  | 52 => ⟨S16x1x16, .i1⟩
  | 53 => ⟨S16x16x16, .i1⟩
  | 54 => ⟨S16x16x16, .i1⟩
  | 55 => ⟨S16x16x16, .i1⟩
  | 56 => ⟨S16x16, .i32⟩
  | 57 => ⟨S16x16, .i32⟩
  | 58 => ⟨S_, .i32⟩
  | 59 => ⟨S16x16, .i32⟩
  | 60 => ⟨S16x16, .i32⟩
  | 61 => ⟨S16x16, .i1⟩
  | 62 => ⟨S1x16x16, .i1⟩
  | 63 => ⟨S1x16x16, .i1⟩
  | 64 => ⟨S16x16x16, .i1⟩
  | 65 => ⟨S16x16x16, .i1⟩
  | 66 => ⟨S16x16x16, .i32⟩
  | 67 => ⟨S_, .i32⟩
  | 68 => ⟨S_, .i32⟩
  | 69 => ⟨S_, .i32⟩
  | 70 => ⟨S_, .i32⟩
  | 71 => ⟨S_, .f32⟩
  | 72 => ⟨S_, .f32⟩
  | 73 => ⟨S_, .f32⟩
  | 74 => ⟨S16x16x16, .f32⟩
  | 75 => ⟨S16x16x16, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | _ => ⟨S16x1x1024x1024, .f32⟩

abbrev hbmTy (i : Nat) : BufTy := match i / 128 with
  | 0 => hbmTy0_0 i
  | 1 => hbmTy0_1 i
  | 2 => hbmTy0_2 i
  | _ => ⟨S16x1x1024x1024, .f32⟩

abbrev bufTy : (tb : Table) → Fin (tcTables nBuf tb) → BufTy
  | .hbm, ⟨i, _⟩ => hbmTy i
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_11 : Ref sig .tc := ⟨.hbm, 65, rfl⟩
abbrev main_call2_v0 : Ref sig .tc := ⟨.hbm, 66, rfl⟩
abbrev main_call2_v1 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_call3_v0 : Ref sig .tc := ⟨.hbm, 75, rfl⟩
abbrev main_call3_v1 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_15 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_17 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_18 : Ref sig .tc := ⟨.hbm, 102, rfl⟩
abbrev main_call4_v0 : Ref sig .tc := ⟨.hbm, 103, rfl⟩
abbrev main_call4_v1 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_19 : Ref sig .tc := ⟨.hbm, 111, rfl⟩
abbrev main_call5_v0 : Ref sig .tc := ⟨.hbm, 112, rfl⟩
abbrev main_call5_v1 : Ref sig .tc := ⟨.hbm, 113, rfl⟩
abbrev main_v74 : Ref sig .tc := ⟨.hbm, 114, rfl⟩
abbrev main_v75 : Ref sig .tc := ⟨.hbm, 115, rfl⟩
abbrev main_cst_20 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_21 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_22 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_23 : Ref sig .tc := ⟨.hbm, 130, rfl⟩
abbrev main_v87 : Ref sig .tc := ⟨.hbm, 131, rfl⟩
abbrev main_c_24 : Ref sig .tc := ⟨.hbm, 132, rfl⟩
abbrev main_v88 : Ref sig .tc := ⟨.hbm, 133, rfl⟩
abbrev main_v89 : Ref sig .tc := ⟨.hbm, 134, rfl⟩
abbrev main_c_25 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_26 : Ref sig .tc := ⟨.hbm, 144, rfl⟩
abbrev main_v98 : Ref sig .tc := ⟨.hbm, 145, rfl⟩
abbrev main_v99 : Ref sig .tc := ⟨.hbm, 146, rfl⟩
abbrev main_cst_27 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_28 : Ref sig .tc := ⟨.hbm, 151, rfl⟩
abbrev main_call6_v0 : Ref sig .tc := ⟨.hbm, 152, rfl⟩
abbrev main_call6_v1 : Ref sig .tc := ⟨.hbm, 153, rfl⟩
abbrev main_v103 : Ref sig .tc := ⟨.hbm, 154, rfl⟩
abbrev main_v104 : Ref sig .tc := ⟨.hbm, 155, rfl⟩
abbrev main_cst_29 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_30 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_31 : Ref sig .tc := ⟨.hbm, 166, rfl⟩
abbrev main_v113 : Ref sig .tc := ⟨.hbm, 167, rfl⟩
abbrev main_v114 : Ref sig .tc := ⟨.hbm, 168, rfl⟩
abbrev main_cst_32 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_33 : Ref sig .tc := ⟨.hbm, 173, rfl⟩
abbrev main_call7_v0 : Ref sig .tc := ⟨.hbm, 174, rfl⟩
abbrev main_call7_v1 : Ref sig .tc := ⟨.hbm, 175, rfl⟩
abbrev main_v118 : Ref sig .tc := ⟨.hbm, 176, rfl⟩
abbrev main_v119 : Ref sig .tc := ⟨.hbm, 177, rfl⟩
abbrev main_c_34 : Ref sig .tc := ⟨.hbm, 178, rfl⟩
abbrev main_v120 : Ref sig .tc := ⟨.hbm, 179, rfl⟩
abbrev main_v121 : Ref sig .tc := ⟨.hbm, 180, rfl⟩
abbrev main_c_35 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_cst_36 : Ref sig .tc := ⟨.hbm, 190, rfl⟩
abbrev main_v130 : Ref sig .tc := ⟨.hbm, 191, rfl⟩
abbrev main_v131 : Ref sig .tc := ⟨.hbm, 192, rfl⟩
abbrev main_cst_37 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_cst_38 : Ref sig .tc := ⟨.hbm, 197, rfl⟩
abbrev main_call8_v0 : Ref sig .tc := ⟨.hbm, 198, rfl⟩
abbrev main_call8_v1 : Ref sig .tc := ⟨.hbm, 199, rfl⟩
abbrev main_v135 : Ref sig .tc := ⟨.hbm, 200, rfl⟩
abbrev main_v136 : Ref sig .tc := ⟨.hbm, 201, rfl⟩
abbrev main_cst_39 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_cst_40 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_41 : Ref sig .tc := ⟨.hbm, 212, rfl⟩
abbrev main_v145 : Ref sig .tc := ⟨.hbm, 213, rfl⟩
abbrev main_v146 : Ref sig .tc := ⟨.hbm, 214, rfl⟩
abbrev main_cst_42 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_cst_43 : Ref sig .tc := ⟨.hbm, 219, rfl⟩
abbrev main_call9_v0 : Ref sig .tc := ⟨.hbm, 220, rfl⟩
abbrev main_call9_v1 : Ref sig .tc := ⟨.hbm, 221, rfl⟩
abbrev main_v150 : Ref sig .tc := ⟨.hbm, 222, rfl⟩
abbrev main_v151 : Ref sig .tc := ⟨.hbm, 223, rfl⟩
abbrev main_c_44 : Ref sig .tc := ⟨.hbm, 224, rfl⟩
abbrev main_v152 : Ref sig .tc := ⟨.hbm, 225, rfl⟩
abbrev main_v153 : Ref sig .tc := ⟨.hbm, 226, rfl⟩
abbrev main_c_45 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_cst_46 : Ref sig .tc := ⟨.hbm, 236, rfl⟩
abbrev main_v162 : Ref sig .tc := ⟨.hbm, 237, rfl⟩
abbrev main_v163 : Ref sig .tc := ⟨.hbm, 238, rfl⟩
abbrev main_cst_47 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_cst_48 : Ref sig .tc := ⟨.hbm, 243, rfl⟩
abbrev main_call10_v0 : Ref sig .tc := ⟨.hbm, 244, rfl⟩
abbrev main_call10_v1 : Ref sig .tc := ⟨.hbm, 245, rfl⟩
abbrev main_v167 : Ref sig .tc := ⟨.hbm, 246, rfl⟩
abbrev main_v168 : Ref sig .tc := ⟨.hbm, 247, rfl⟩
abbrev main_cst_49 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_cst_50 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_cst_51 : Ref sig .tc := ⟨.hbm, 258, rfl⟩
abbrev main_v177 : Ref sig .tc := ⟨.hbm, 259, rfl⟩
abbrev main_v178 : Ref sig .tc := ⟨.hbm, 260, rfl⟩
abbrev main_cst_52 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_cst_53 : Ref sig .tc := ⟨.hbm, 265, rfl⟩
abbrev main_call11_v0 : Ref sig .tc := ⟨.hbm, 266, rfl⟩
abbrev main_call11_v1 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_cst_54 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_c_55 : Ref sig .tc := ⟨.hbm, 278, rfl⟩
abbrev main_v191 : Ref sig .tc := ⟨.hbm, 279, rfl⟩
abbrev main_c_56 : Ref sig .tc := ⟨.hbm, 280, rfl⟩
abbrev main_v192 : Ref sig .tc := ⟨.hbm, 281, rfl⟩
abbrev main_v193 : Ref sig .tc := ⟨.hbm, 282, rfl⟩
abbrev main_cst_57 : Ref sig .tc := ⟨.hbm, 283, rfl⟩
abbrev main_call12_v0 : Ref sig .tc := ⟨.hbm, 284, rfl⟩
abbrev main_call12_v1 : Ref sig .tc := ⟨.hbm, 285, rfl⟩
abbrev main_v194 : Ref sig .tc := ⟨.hbm, 286, rfl⟩
abbrev main_cst_58 : Ref sig .tc := ⟨.hbm, 287, rfl⟩
abbrev main_v195 : Ref sig .tc := ⟨.hbm, 288, rfl⟩
abbrev main_v196 : Ref sig .tc := ⟨.hbm, 289, rfl⟩
abbrev main_cst_59 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_cst_60 : Ref sig .tc := ⟨.hbm, 300, rfl⟩
abbrev main_v206 : Ref sig .tc := ⟨.hbm, 301, rfl⟩
abbrev main_v207 : Ref sig .tc := ⟨.hbm, 302, rfl⟩
abbrev main_cst_61 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_c_62 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_c_63 : Ref sig .tc := ⟨.hbm, 323, rfl⟩
abbrev main_v226 : Ref sig .tc := ⟨.hbm, 324, rfl⟩
abbrev main_c_64 : Ref sig .tc := ⟨.hbm, 325, rfl⟩
abbrev main_v227 : Ref sig .tc := ⟨.hbm, 326, rfl⟩
abbrev main_v228 : Ref sig .tc := ⟨.hbm, 327, rfl⟩
abbrev main_cst_65 : Ref sig .tc := ⟨.hbm, 328, rfl⟩
abbrev main_call13_v0 : Ref sig .tc := ⟨.hbm, 329, rfl⟩
abbrev main_call13_v1 : Ref sig .tc := ⟨.hbm, 330, rfl⟩
abbrev main_v229 : Ref sig .tc := ⟨.hbm, 331, rfl⟩
abbrev main_cst_66 : Ref sig .tc := ⟨.hbm, 332, rfl⟩
abbrev main_v230 : Ref sig .tc := ⟨.hbm, 333, rfl⟩
abbrev main_v231 : Ref sig .tc := ⟨.hbm, 334, rfl⟩
abbrev main_cst_67 : Ref sig .tc := ⟨.hbm, 335, rfl⟩
abbrev main_v232 : Ref sig .tc := ⟨.hbm, 336, rfl⟩
abbrev main_v233 : Ref sig .tc := ⟨.hbm, 337, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S272 : S_.BroadcastsInDim S272 (![] : Fin 0 → Fin S272.rank)
  shapeCasts_S16x1x1024x1024_S16x1048576 : S16x1x1024x1024.ShapeCasts S16x1048576
  bcast_S_S16x1048576 : S_.BroadcastsInDim S16x1048576 (![] : Fin 0 → Fin S16x1048576.rank)
  bcast_S16x1_S16x1048576_0_1 : S16x1.BroadcastsInDim S16x1048576 (![0, 1] : Fin 2 → Fin S16x1048576.rank)
  shapeCasts_S16x1048576_S16777216 : S16x1048576.ShapeCasts S16777216
  bcast_S16777216_S16777216x1_0 : S16777216.BroadcastsInDim S16777216x1 (![0] : Fin 1 → Fin S16777216x1.rank)
  shapeCasts_S16x1x512x512_S16x262144 : S16x1x512x512.ShapeCasts S16x262144
  bcast_S_S16x262144 : S_.BroadcastsInDim S16x262144 (![] : Fin 0 → Fin S16x262144.rank)
  bcast_S16x1_S16x262144_0_1 : S16x1.BroadcastsInDim S16x262144 (![0, 1] : Fin 2 → Fin S16x262144.rank)
  shapeCasts_S16x262144_S4194304 : S16x262144.ShapeCasts S4194304
  bcast_S4194304_S4194304x1_0 : S4194304.BroadcastsInDim S4194304x1 (![0] : Fin 1 → Fin S4194304x1.rank)
  shapeCasts_S16x1x256x256_S16x65536 : S16x1x256x256.ShapeCasts S16x65536
  bcast_S_S16x65536 : S_.BroadcastsInDim S16x65536 (![] : Fin 0 → Fin S16x65536.rank)
  bcast_S16x1_S16x65536_0_1 : S16x1.BroadcastsInDim S16x65536 (![0, 1] : Fin 2 → Fin S16x65536.rank)
  shapeCasts_S16x65536_S1048576 : S16x65536.ShapeCasts S1048576
  bcast_S1048576_S1048576x1_0 : S1048576.BroadcastsInDim S1048576x1 (![0] : Fin 1 → Fin S1048576x1.rank)
  bcast_S_S16777216 : S_.BroadcastsInDim S16777216 (![] : Fin 0 → Fin S16777216.rank)
  shapeCasts_S16777216_S16x1048576 : S16777216.ShapeCasts S16x1048576
  bcast_S_S4194304 : S_.BroadcastsInDim S4194304 (![] : Fin 0 → Fin S4194304.rank)
  shapeCasts_S4194304_S16x262144 : S4194304.ShapeCasts S16x262144
  bcast_S_S1048576 : S_.BroadcastsInDim S1048576 (![] : Fin 0 → Fin S1048576.rank)
  shapeCasts_S1048576_S16x65536 : S1048576.ShapeCasts S16x65536
  shapeCasts_S272_S16x17 : S272.ShapeCasts S16x17
  slices_S16x17_S16x16_0_1 : S16x17.Slices ![0, 1] S16x16
  bcast_S_S16x16 : S_.BroadcastsInDim S16x16 (![] : Fin 0 → Fin S16x16.rank)
  natLt_1_32 : 1 < 32
  reducesTo_S16x16_S_d0_1 : S16x16.ReducesTo [0, 1] S_
  h_S_ : 0 < S_.numel
  bcast_S16x16_S16x16x1_0_1 : S16x16.BroadcastsInDim S16x16x1 (![0, 1] : Fin 2 → Fin S16x16x1.rank)
  bcast_S16x16_S16x1x16_0_2 : S16x16.BroadcastsInDim S16x1x16 (![0, 2] : Fin 2 → Fin S16x1x16.rank)
  bcast_S16x16x1_S16x16x16_0_1_2 : S16x16x1.BroadcastsInDim S16x16x16 (![0, 1, 2] : Fin 3 → Fin S16x16x16.rank)
  bcast_S16x1x16_S16x16x16_0_1_2 : S16x1x16.BroadcastsInDim S16x16x16 (![0, 1, 2] : Fin 3 → Fin S16x16x16.rank)
  bcast_S_S16x16x16 : S_.BroadcastsInDim S16x16x16 (![] : Fin 0 → Fin S16x16x16.rank)
  bcast_S16x16_S1x16x16_1_2 : S16x16.BroadcastsInDim S1x16x16 (![1, 2] : Fin 2 → Fin S1x16x16.rank)
  bcast_S1x16x16_S16x16x16_0_1_2 : S1x16x16.BroadcastsInDim S16x16x16 (![0, 1, 2] : Fin 3 → Fin S16x16x16.rank)
  reducesTo_S16x16x16_S_d0_1_2 : S16x16x16.ReducesTo [0, 1, 2] S_
  scatter_S272_S16777216x1_S16777216_n_0_0_1_wf : ScatterDims.WF S272 S16777216x1 S16777216 [] [0] [0] 1
  scatter_S272_S4194304x1_S4194304_n_0_0_1_wf : ScatterDims.WF S272 S4194304x1 S4194304 [] [0] [0] 1
  scatter_S272_S1048576x1_S1048576_n_0_0_1_wf : ScatterDims.WF S272 S1048576x1 S1048576 [] [0] [0] 1
  gather_S272_S16777216x1_S16777216_n_0_n_n_0_1_1_wf : GatherDims.WF S272 S16777216x1 S16777216 [] [0] [] [0] [] 1 ![1]
  gather_S272_S4194304x1_S4194304_n_0_n_n_0_1_1_wf : GatherDims.WF S272 S4194304x1 S4194304 [] [0] [] [0] [] 1 ![1]
  gather_S272_S1048576x1_S1048576_n_0_n_n_0_1_1_wf : GatherDims.WF S272 S1048576x1 S1048576 [] [0] [] [0] [] 1 ![1]

variable [Facts₀]

def scatter_S272_S16777216x1_S16777216_n_0_0_1 : ScatterDims S272 S16777216x1 S16777216 where
  updateWindowDims := []
  insertedWindowDims := [0]
  scatterDimsToOperandDims := [0]
  indexVectorDim := 1
  wf := scatter_S272_S16777216x1_S16777216_n_0_0_1_wf
def scatter_S272_S4194304x1_S4194304_n_0_0_1 : ScatterDims S272 S4194304x1 S4194304 where
  updateWindowDims := []
  insertedWindowDims := [0]
  scatterDimsToOperandDims := [0]
  indexVectorDim := 1
  wf := scatter_S272_S4194304x1_S4194304_n_0_0_1_wf
def scatter_S272_S1048576x1_S1048576_n_0_0_1 : ScatterDims S272 S1048576x1 S1048576 where
  updateWindowDims := []
  insertedWindowDims := [0]
  scatterDimsToOperandDims := [0]
  indexVectorDim := 1
  wf := scatter_S272_S1048576x1_S1048576_n_0_0_1_wf
def gather_S272_S16777216x1_S16777216_n_0_n_n_0_1_1 : GatherDims S272 S16777216x1 S16777216 where
  offsetDims := []
  collapsedSliceDims := [0]
  operandBatchingDims := []
  startIndicesBatchingDims := []
  startIndexMap := [0]
  indexVectorDim := 1
  sliceSizes := ![1]
  wf := gather_S272_S16777216x1_S16777216_n_0_n_n_0_1_1_wf
def gather_S272_S4194304x1_S4194304_n_0_n_n_0_1_1 : GatherDims S272 S4194304x1 S4194304 where
  offsetDims := []
  collapsedSliceDims := [0]
  operandBatchingDims := []
  startIndicesBatchingDims := []
  startIndexMap := [0]
  indexVectorDim := 1
  sliceSizes := ![1]
  wf := gather_S272_S4194304x1_S4194304_n_0_n_n_0_1_1_wf
def gather_S272_S1048576x1_S1048576_n_0_n_n_0_1_1 : GatherDims S272 S1048576x1 S1048576 where
  offsetDims := []
  collapsedSliceDims := [0]
  operandBatchingDims := []
  startIndicesBatchingDims := []
  startIndexMap := [0]
  indexVectorDim := 1
  sliceSizes := ![1]
  wf := gather_S272_S1048576x1_S1048576_n_0_n_n_0_1_1_wf

class Facts : Prop extends Facts₀ where

variable [Facts]
-- ==== Proof.KI.P1Runs0.lean ====
import proofs.«413171_j1022202216836_1_alg».proof.Proof.Gen.KernelIdeal.Launch
import proofs.«413171_j1022202216836_1_alg».proof.Proof.Gen.KernelIdeal.Points
import proofs.«413171_j1022202216836_1_alg».proof.Proof.Gen.KernelIdeal.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (t : Fin cfg0.N) (d) : dat.before 0 t d = iblk0 V c 0 t :=
  (dat.before_fetched 0 t (fetch0_0 t) d).trans (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (t : Fin cfg0.N) (d) : dat.before 1 t d = iblk0 V c 1 t :=
  (dat.before_fetched 1 t (fetch0_1 t) d).trans (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

abbrev VO0_2 : View sig .tc .vmem S8x16 .f32 := (Memref.whole cc0_stg2_0 : Memref sig .tc .vmem S8x16 .f32).view
abbrev VO0_3 : View sig .tc .vmem S8x16 .f32 := (Memref.whole cc0_stg3_0 : Memref sig .tc .vmem S8x16 .f32).view
abbrev ms0_0 (t : Fin cfg0.N) : Memref sig .tc .vmem S8x1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1x256x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x16 .f32 := win0_3.stage (cfg0.slots t 3)
abbrev hs0_3 (t : Fin cfg0.N) : (ms0_3 t).IsWhole := hstage0_3 ((cfg0.slots t 3).cast nbuf0_3)

abbrev scM0_0 : Memref sig .tc .vmem S8x16 .f32 := Memref.whole cc0_scratch0
abbrev scM0_1 : Memref sig .tc .vmem S8x16 .f32 := Memref.whole cc0_scratch1
abbrev VS0_0 : View sig .tc .vmem S8x16 .f32 := scM0_0.view
abbrev VS0_1 : View sig .tc .vmem S8x16 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Gen

end
-- ==== Proof.KI.P1Run0A.lean ====
import proofs.«413171_j1022202216836_1_alg».proof.Proof.KI.P1Runs0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : cond0_0 i) (hc1 : ¬cond0_1 i)
    (x0 : Vec F S8x1x256x1024 .f32) (x1 : Vec F S8x1x256x1024 .i32) :
    Σ' (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Gen

end
-- ==== Proof.KI.P1Run0B.lean ====
import proofs.«413171_j1022202216836_1_alg».proof.Proof.KI.P1Run0A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : ¬cond0_0 i) (hc1 : ¬cond0_1 i)
    (x0 : Vec F S8x1x256x1024 .f32) (x1 : Vec F S8x1x256x1024 .i32) (xs0 : Vec F S8x16 .f32) (xs1 : Vec F S8x16 .f32) :
    Σ' (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Gen

end
-- ==== Proof.KI.P1Run0C.lean ====
import proofs.«413171_j1022202216836_1_alg».proof.Proof.KI.P1Run0B

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : ¬cond0_0 i) (hc1 : cond0_1 i)
    (x0 : Vec F S8x1x256x1024 .f32) (x1 : Vec F S8x1x256x1024 .i32) (xs0 : Vec F S8x16 .f32) (xs1 : Vec F S8x16 .f32) :
    Σ' (L2 : List (View.Piece (Elt F) S8x16 .f32)) (L3 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Gen

end
-- ==== Proof.KI.P1Outs0.lean ====
import proofs.«413171_j1022202216836_1_alg».proof.Proof.KI.P1Run0C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid0.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole)
variable (x0 : Vec F S8x1x256x1024 .f32) (x1 : Vec F S8x1x256x1024 .i32) (xs0 xs1 : Vec F S8x16 .f32)

def sout0_A_0 (hc0 : cond0_0 i) (hc1 : ¬cond0_1 i) : Vec F S8x16 .f32 :=
  VS0_0.read (Elt F) (VS0_0.writes (Elt F) VS0_0.junk (kernelRun0_A c i arg2 harg2 arg3 harg3 arg4 harg4 arg5 harg5 arg6 harg6 arg7 harg7 hc0 hc1 x0 x1).1)
def sout0_A_1 (hc0 : cond0_0 i) (hc1 : ¬cond0_1 i) : Vec F S8x16 .f32 :=
  VS0_1.read (Elt F) (VS0_1.writes (Elt F) VS0_1.junk (kernelRun0_A c i arg2 harg2 arg3 harg3 arg4 harg4 arg5 harg5 arg6 harg6 arg7 harg7 hc0 hc1 x0 x1).2.1)

def sout0_B_0 (hc0 : ¬cond0_0 i) (hc1 : ¬cond0_1 i) : Vec F S8x16 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
def sout0_B_1 (hc0 : ¬cond0_0 i) (hc1 : ¬cond0_1 i) : Vec F S8x16 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)

def out0_C_2 (hc0 : ¬cond0_0 i) (hc1 : cond0_1 i) : Vec F S8x16 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
def out0_C_3 (hc0 : ¬cond0_0 i) (hc1 : cond0_1 i) : Vec F S8x16 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
def sout0_C_0 (hc0 : ¬cond0_0 i) (hc1 : cond0_1 i) : Vec F S8x16 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
def sout0_C_1 (hc0 : ¬cond0_0 i) (hc1 : cond0_1 i) : Vec F S8x16 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

end Cases

def idleOut0_2 : Vec F S8x16 .f32 := VO0_2.read (Elt F) VO0_2.junk
def idleOut0_3 : Vec F S8x16 .f32 := VO0_3.read (Elt F) VO0_3.junk

def stepA0 (c : Dev nD) (t : Fin cfg0.N) (hc0 : cond0_0 (grid0.coords t)) (hc1 : ¬cond0_1 (grid0.coords t)) :
    Vec F S8x16 .f32 × Vec F S8x16 .f32 × Vec F S8x16 .f32 × Vec F S8x16 .f32 :=
  (idleOut0_2, idleOut0_3,
    sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) hc0 hc1,
    sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) hc0 hc1)

def stepB0 (c : Dev nD) (t : Fin cfg0.N) (hc0 : ¬cond0_0 (grid0.coords t)) (hc1 : ¬cond0_1 (grid0.coords t)) (xs0 xs1 : Vec F S8x16 .f32) :
    Vec F S8x16 .f32 × Vec F S8x16 .f32 × Vec F S8x16 .f32 × Vec F S8x16 .f32 :=
  (idleOut0_2, idleOut0_3,
    sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1,
    sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1)

def stepC0 (c : Dev nD) (t : Fin cfg0.N) (hc0 : ¬cond0_0 (grid0.coords t)) (hc1 : cond0_1 (grid0.coords t)) (xs0 xs1 : Vec F S8x16 .f32) :
    Vec F S8x16 .f32 × Vec F S8x16 .f32 × Vec F S8x16 .f32 × Vec F S8x16 .f32 :=
  (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1,
    out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1,
    sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1,
    sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1)

/-- The two outputs and the two accumulators after point `n`: the case its residue selects, over what point `n - 1` left in the accumulators. -/
def outsAt0 (c : Dev nD) : (n : ℕ) → n < cfg0.N → Vec F S8x16 .f32 × Vec F S8x16 .f32 × Vec F S8x16 .f32 × Vec F S8x16 .f32
  | 0, hn => stepA0 V c ⟨0, hn⟩ ((hcond0_0 ⟨0, hn⟩).mpr (Nat.zero_mod _)) (fun h => absurd ((hcond0_1 ⟨0, hn⟩).mp h) (fun h3 => by (try dsimp only at h3); omega))
  | n + 1, hn =>
    if h0 : (n + 1) % 4 = 0 then
      stepA0 V c ⟨n + 1, hn⟩ ((hcond0_0 ⟨n + 1, hn⟩).mpr h0) (fun h => absurd ((hcond0_1 ⟨n + 1, hn⟩).mp h) (fun h3 => by (try dsimp only at h3); omega))
    else if h1 : (n + 1) % 4 = 3 then
      stepC0 V c ⟨n + 1, hn⟩ (fun h => h0 ((hcond0_0 ⟨n + 1, hn⟩).mp h)) ((hcond0_1 ⟨n + 1, hn⟩).mpr h1)
        (outsAt0 c n (Nat.lt_of_succ_lt hn)).2.2.1 (outsAt0 c n (Nat.lt_of_succ_lt hn)).2.2.2
    else
      stepB0 V c ⟨n + 1, hn⟩ (fun h => h0 ((hcond0_0 ⟨n + 1, hn⟩).mp h)) (fun h => h1 ((hcond0_1 ⟨n + 1, hn⟩).mp h))
        (outsAt0 c n (Nat.lt_of_succ_lt hn)).2.2.1 (outsAt0 c n (Nat.lt_of_succ_lt hn)).2.2.2

theorem outsAt0_A (c : Dev nD) (t : Fin cfg0.N) (h0 : t.val % 4 = 0) (hc0 : cond0_0 (grid0.coords t)) (hc1 : ¬cond0_1 (grid0.coords t)) :
    outsAt0 V c t.val t.isLt = stepA0 V c t hc0 hc1 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) (hc0 : ¬cond0_0 (grid0.coords t)) (hc1 : ¬cond0_1 (grid0.coords t)) :
    outsAt0 V c t.val t.isLt = stepB0 V c t hc0 hc1
      (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) (hc0 : ¬cond0_0 (grid0.coords t)) (hc1 : cond0_1 (grid0.coords t)) :
    outsAt0 V c t.val t.isLt = stepC0 V c t hc0 hc1
      (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The two accumulators at what point `n` left in them, the other scoped buffers unopened, the generator register at some state. -/
def accs0 (c : Dev nD) (n : ℕ) (hn : n < cfg0.N) : sProp 𝕄 :=
  iprop(iprop(iprop(owns (c : Thread nD τ) scM0_0 fullShare (outsAt0 V c n hn).2.2.1 ∗ owns (c : Thread nD τ) scM0_1 fullShare (outsAt0 V c n hn).2.2.2)
      ∗ Pipeline.scopedRestBut (Ix := Unit) (Name := ℕ) (U := UR sig nD τ) (Lvl := ℕ) (Val := Elt F) spec0 c [cc0_scratch0, cc0_scratch1]) ∗ (∃ r, prngReg c r))

/-- The region invariant before position `n`: the entry invariant before the first point, `accs0` of the point before afterwards. -/
def PhiS0 (c : Dev nD) : (n : ℕ) → n ≤ cfg0.N → sProp 𝕄
  | 0, _ => Pipeline.ΦA spec0 c
  | n + 1, hn => accs0 V c n hn

theorem PhiS0_pos (c : Dev nD) (n : ℕ) (h : n ≤ cfg0.N) (hz : n ≠ 0) : PhiS0 V c n h = accs0 V c (n - 1) (by omega) := by
  cases n with
  | zero => exact absurd rfl hz
  | succ n => rfl

/-- Forgetting the accumulators' contents gives the entry invariant's form at every position. -/
theorem PhiS0_open (c : Dev nD) (n : ℕ) (h : n ≤ cfg0.N) :
    PhiS0 V c n h ⊢ (iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) : sProp 𝕄) := by
  cases n with
  | zero => rw [show PhiS0 V c 0 h = Pipeline.ΦA spec0 c from rfl, PhiA0_eq]; try exact Idealize.SL.BI.Entails.refl _
  | succ n =>
    unfold PhiS0 accs0
    iintro ⟨⟨⟨HS0, HS1⟩, HR⟩, Hg⟩
    iframe HR Hg
    isplitl [HS0] <;> iexists _ <;> iassumption

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem recorded_eq0 (c : Dev nD) (t : Fin (cfg0.N + 1)) : (dat0 V c).recorded t = Set.univ := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) t d
theorem before0_1 (c : Dev nD) (t : Fin cfg0.N) (d) : (dat0 V c).before 1 t d = iblk0 V c 1 t :=
  before0_1_of V (dat0 V c) (A_eq0 V c 1) t d

end Cert.KernelIdeal.Gen

end
-- ==== Proof.KI.R0Dat.lean ====
import proofs.«413171_j1022202216836_1_alg».proof.Proof.KI.P1Outs0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window that is not idle at a point is left at its `after`. -/
theorem live0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 4800000 in
/-- At each point the residue selects the control case; its run takes the blocks and the accumulators, and each buffer it stores into is read back from pieces that tile it. -/
theorem body_obligation0 (c : Dev nD) : BodyObligation (dat0 (F := F) V c) (defs₀ (F := F)) Variants.none () Set.univ := fun t => by
  rw [bigSep_W0, bigSep_W0]
  show (iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))) : sProp 𝕄)
    ⊢ wp frame (wpE (defs₀ (F := F)) Variants.none c none) Set.univ (bodyAt0 t) fun _ =>
      iprop((dat0 V c).Φ t.succ ∗ (dat0 V c).owesAt () t.succ
        ∗ (dat0 V c).leavesExact 0 t
        ∗ (dat0 V c).leavesExact 1 t
        ∗ (dat0 V c).leavesExact 2 t
        ∗ (dat0 V c).leavesExact 3 t)
  unfold bodyAt0
  simp only [before0_0, before0_1]
  rw [show (dat0 V c).owesAt () t.succ = (dat0 V c).owesAt () t.castSucc from rfl]
  rw [show (dat0 V c).Φ t.succ = accs0 V c t.val t.isLt from rfl]; unfold accs0
  rw [live0 V c 0 t (liveAt0_0 t), after0_0, live0 V c 1 t (liveAt0_1 t), after0_1]
  rw [PhiS0_castSucc]
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1),
      Dat.leavesExact_idle (dat0 V c) 3 t (idleAt0_3 t hc1) (noFlush0_3 t hc1), outsAt0_A V c t h0 hc0 hc1]
    unfold stepA0 sout0_A_0 sout0_A_1; (try dsimp only)
    iintro ⟨HΦ, Ho, ⟨%d0, H0⟩, ⟨%d1, H1⟩, H2, H3⟩
    ihave ⟨⟨⟨HS0, HS1⟩, HR⟩, Hg⟩ := (PhiS0_open V c t.val _) $$ HΦ
    iapply ((kernelRun0_A c (grid0.coords t) _ _ _ _ _ _ _ _ _ _ _ _ hc0 hc1 (iblk0 V c 0 t) (iblk0 V c 1 t)).2.2 Set.univ _)
    iframe H0 H1 HS0 HS1
    iintro ⟨H0, H1, ⟨%es0, HS0⟩, ⟨%es1, HS1⟩⟩
    iframe HR Hg Ho H0 H1 H2 H3
    isplitl [HS0]
    · iapply (Ring.owns_of_writes_tiledL VS0_0 S8x1.size) $$ HS0; ipureintro; sl_kernel_rfl
    · iapply (Ring.owns_of_writes_tiledL VS0_1 S8x1.size) $$ HS1; ipureintro; sl_kernel_rfl
  · have hc0 : ¬cond0_0 (grid0.coords t) := fun h => h0 ((hcond0_0 t).mp h)
    have hz : t.val ≠ 0 := fun hz => h0 (by rw [hz])
    rw [PhiS0_pos V c _ _ hz]; unfold accs0
    by_cases h1 : t.val % 4 = 3
    · have hc1 : cond0_1 (grid0.coords t) := (hcond0_1 t).mpr h1
      rw [live0 V c 2 t (liveAt0_2 t hc1), after0_2, live0 V c 3 t (liveAt0_3 t hc1), after0_3]
      rw [outsAt0_C V c t h0 h1 hc0 hc1]
      unfold stepC0 out0_C_2 out0_C_3 sout0_C_0 sout0_C_1; (try dsimp only)
      iintro ⟨⟨⟨⟨HS0, HS1⟩, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      iframe H0 H1 HS0 HS1
      isplitl [H2]; · iexists _; iexact H2
      isplitl [H3]; · iexists _; iexact H3
      iintro ⟨H0, H1, ⟨%e2, H2⟩, ⟨%e3, H3⟩, ⟨%es0, HS0⟩, ⟨%es1, HS1⟩⟩
      iframe HR Hg Ho H0 H1
      isplitl [HS0 HS1]
      · isplitl [HS0]
        · iapply (Ring.owns_of_writes_tiledL VS0_0 S8x1.size) $$ HS0; ipureintro; sl_kernel_rfl
        · iapply (Ring.owns_of_writes_tiledL VS0_1 S8x1.size) $$ HS1; ipureintro; sl_kernel_rfl
      isplitl [H2]
      · iapply (Ring.owns_of_writes_tiledL VO0_2 S8x16.size) $$ H2; ipureintro; sl_kernel_rfl
      · iapply (Ring.owns_of_writes_tiledL VO0_3 S8x16.size) $$ H3; ipureintro; sl_kernel_rfl
    · have hc1 : ¬cond0_1 (grid0.coords t) := fun h => h1 ((hcond0_1 t).mp h)
      rw [Dat.leavesExact_idle (dat0 V c) 2 t (idleAt0_2 t hc1) (noFlush0_2 t hc1),
        Dat.leavesExact_idle (dat0 V c) 3 t (idleAt0_3 t hc1) (noFlush0_3 t hc1), outsAt0_B V c t h0 h1 hc0 hc1]
      unfold stepB0 sout0_B_0 sout0_B_1; (try dsimp only)
      iintro ⟨⟨⟨⟨HS0, HS1⟩, HR⟩, Hg⟩, Ho, ⟨%d0, H0⟩, ⟨%d1, H1⟩, H2, H3⟩
      iapply ((kernelRun0_B c (grid0.coords t) _ _ _ _ _ _ _ _ _ _ _ _ hc0 hc1 (iblk0 V c 0 t) (iblk0 V c 1 t) _ _).2.2 Set.univ _)
      iframe H0 H1 HS0 HS1
      iintro ⟨H0, H1, ⟨%es0, HS0⟩, ⟨%es1, HS1⟩⟩
      iframe HR Hg Ho H0 H1 H2 H3
      isplitl [HS0]
      · iapply (Ring.owns_of_writes_tiledL VS0_0 S8x1.size) $$ HS0; ipureintro; sl_kernel_rfl
      · iapply (Ring.owns_of_writes_tiledL VS0_1 S8x1.size) $$ HS1; ipureintro; sl_kernel_rfl

theorem hin0 (c : Dev nD) : (Pipeline.ΦA spec0 c : sProp 𝕄) ⊢ (dat0 V c).Φ 0 :=
  Idealize.SL.BI.Entails.refl _

theorem hout0 (c : Dev nD) : (dat0 V c).Φ (Fin.last cfg0.N) ⊢ (Pipeline.ΦA spec0 c : sProp 𝕄) := by
  rw [show (dat0 V c).Φ (Fin.last cfg0.N) = PhiS0 V c cfg0.N (Nat.le_refl _) from rfl, PhiA0_eq]
  exact PhiS0_open V c _ _

end Cert.KernelIdeal.Gen

end
-- ==== Proof.KI.P1Runs1.lean ====
import proofs.«413171_j1022202216836_1_alg».proof.Proof.Gen.KernelIdeal.Launch
import proofs.«413171_j1022202216836_1_alg».proof.Proof.Gen.KernelIdeal.Points
import proofs.«413171_j1022202216836_1_alg».proof.Proof.Gen.KernelIdeal.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (t : Fin cfg1.N) (d) : dat.before 0 t d = iblk1 V c 0 t :=
  (dat.before_fetched 0 t (fetch1_0 t) d).trans (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (t : Fin cfg1.N) (d) : dat.before 1 t d = iblk1 V c 1 t :=
  (dat.before_fetched 1 t (fetch1_1 t) d).trans (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

abbrev VO1_2 : View sig .tc .vmem S8x16 .f32 := (Memref.whole cc1_stg2_0 : Memref sig .tc .vmem S8x16 .f32).view
abbrev VO1_3 : View sig .tc .vmem S8x16 .f32 := (Memref.whole cc1_stg3_0 : Memref sig .tc .vmem S8x16 .f32).view
abbrev ms1_0 (t : Fin cfg1.N) : Memref sig .tc .vmem S8x1x256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1x256x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x16 .f32 := win1_3.stage (cfg1.slots t 3)
abbrev hs1_3 (t : Fin cfg1.N) : (ms1_3 t).IsWhole := hstage1_3 ((cfg1.slots t 3).cast nbuf1_3)

abbrev scM1_0 : Memref sig .tc .vmem S8x16 .f32 := Memref.whole cc1_scratch0
abbrev scM1_1 : Memref sig .tc .vmem S8x16 .f32 := Memref.whole cc1_scratch1
abbrev VS1_0 : View sig .tc .vmem S8x16 .f32 := scM1_0.view
abbrev VS1_1 : View sig .tc .vmem S8x16 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Gen

end
-- ==== Proof.KI.P1Run1A.lean ====
import proofs.«413171_j1022202216836_1_alg».proof.Proof.KI.P1Runs1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : cond1_0 i) (hc1 : ¬cond1_1 i)
    (x0 : Vec F S8x1x256x512 .f32) (x1 : Vec F S8x1x256x512 .i32) :
    Σ' (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__pass1_kernel i arg2 harg2 arg3 harg3 arg4 harg4 arg5 harg5 arg6 harg6 arg7 harg7) K } := by
  refine ⟨?_, ?_, fun E K => ?run⟩
  case run =>
    simp only [cc1__pass1_kernel_eq_skeleton]; unfold cc1__pass1_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Gen

end
-- ==== Proof.KI.P1Run1C.lean ====
import proofs.«413171_j1022202216836_1_alg».proof.Proof.KI.P1Run1A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : ¬cond1_0 i) (hc1 : cond1_1 i)
    (x0 : Vec F S8x1x256x512 .f32) (x1 : Vec F S8x1x256x512 .i32) (xs0 : Vec F S8x16 .f32) (xs1 : Vec F S8x16 .f32) :
    Σ' (L2 : List (View.Piece (Elt F) S8x16 .f32)) (L3 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__pass1_kernel i arg2 harg2 arg3 harg3 arg4 harg4 arg5 harg5 arg6 harg6 arg7 harg7) K } := by
  refine ⟨?_, ?_, ?_, ?_, fun E K => ?run⟩
  case run =>
    simp only [cc1__pass1_kernel_eq_skeleton]; unfold cc1__pass1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Gen

end
-- ==== Proof.KI.P1Outs1.lean ====
import proofs.«413171_j1022202216836_1_alg».proof.Proof.KI.P1Run1C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid1.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole)
variable (x0 : Vec F S8x1x256x512 .f32) (x1 : Vec F S8x1x256x512 .i32) (xs0 xs1 : Vec F S8x16 .f32)

def sout1_A_0 (hc0 : cond1_0 i) (hc1 : ¬cond1_1 i) : Vec F S8x16 .f32 :=
  VS1_0.read (Elt F) (VS1_0.writes (Elt F) VS1_0.junk (kernelRun1_A c i arg2 harg2 arg3 harg3 arg4 harg4 arg5 harg5 arg6 harg6 arg7 harg7 hc0 hc1 x0 x1).1)
def sout1_A_1 (hc0 : cond1_0 i) (hc1 : ¬cond1_1 i) : Vec F S8x16 .f32 :=
  VS1_1.read (Elt F) (VS1_1.writes (Elt F) VS1_1.junk (kernelRun1_A c i arg2 harg2 arg3 harg3 arg4 harg4 arg5 harg5 arg6 harg6 arg7 harg7 hc0 hc1 x0 x1).2.1)

def out1_C_2 (hc0 : ¬cond1_0 i) (hc1 : cond1_1 i) : Vec F S8x16 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1).1)
def out1_C_3 (hc0 : ¬cond1_0 i) (hc1 : cond1_1 i) : Vec F S8x16 .f32 :=
  VO1_3.read (Elt F) (VO1_3.writes (Elt F) VO1_3.junk (kernelRun1_C c i arg2 harg2 arg3 harg3 arg4 harg4 arg5 harg5 arg6 harg6 arg7 harg7 hc0 hc1 x0 x1 xs0 xs1).2.1)
def sout1_C_0 (hc0 : ¬cond1_0 i) (hc1 : cond1_1 i) : Vec F S8x16 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1).2.2.1)
def sout1_C_1 (hc0 : ¬cond1_0 i) (hc1 : cond1_1 i) : Vec F S8x16 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1).2.2.2.1)

end Cases

def idleOut1_2 : Vec F S8x16 .f32 := VO1_2.read (Elt F) VO1_2.junk
def idleOut1_3 : Vec F S8x16 .f32 := VO1_3.read (Elt F) VO1_3.junk

def stepA1 (c : Dev nD) (t : Fin cfg1.N) (hc0 : cond1_0 (grid1.coords t)) (hc1 : ¬cond1_1 (grid1.coords t)) :
    Vec F S8x16 .f32 × Vec F S8x16 .f32 × Vec F S8x16 .f32 × Vec F S8x16 .f32 :=
  (idleOut1_2, idleOut1_3,
    sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) hc0 hc1,
    sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) hc0 hc1)

def stepC1 (c : Dev nD) (t : Fin cfg1.N) (hc0 : ¬cond1_0 (grid1.coords t)) (hc1 : cond1_1 (grid1.coords t)) (xs0 xs1 : Vec F S8x16 .f32) :
    Vec F S8x16 .f32 × Vec F S8x16 .f32 × Vec F S8x16 .f32 × Vec F S8x16 .f32 :=
  (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) xs0 xs1 hc0 hc1,
    out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) xs0 xs1 hc0 hc1,
    sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) xs0 xs1 hc0 hc1,
    sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) xs0 xs1 hc0 hc1)

/-- The two outputs and the two accumulators after point `n`: the case its residue selects, over what point `n - 1` left in the accumulators. -/
def outsAt1 (c : Dev nD) : (n : ℕ) → n < cfg1.N → Vec F S8x16 .f32 × Vec F S8x16 .f32 × Vec F S8x16 .f32 × Vec F S8x16 .f32
  | 0, hn => stepA1 V c ⟨0, hn⟩ ((hcond1_0 ⟨0, hn⟩).mpr (Nat.zero_mod _)) (fun h => absurd ((hcond1_1 ⟨0, hn⟩).mp h) (fun h3 => by (try dsimp only at h3); omega))
  | n + 1, hn =>
    if h0 : (n + 1) % 2 = 0 then
      stepA1 V c ⟨n + 1, hn⟩ ((hcond1_0 ⟨n + 1, hn⟩).mpr h0) (fun h => absurd ((hcond1_1 ⟨n + 1, hn⟩).mp h) (fun h3 => by (try dsimp only at h3); omega))
    else
      stepC1 V c ⟨n + 1, hn⟩ (fun h => h0 ((hcond1_0 ⟨n + 1, hn⟩).mp h)) ((hcond1_1 ⟨n + 1, hn⟩).mpr (by (try dsimp only); omega))
        (outsAt1 c n (Nat.lt_of_succ_lt hn)).2.2.1 (outsAt1 c n (Nat.lt_of_succ_lt hn)).2.2.2

theorem outsAt1_A (c : Dev nD) (t : Fin cfg1.N) (h0 : t.val % 2 = 0) (hc0 : cond1_0 (grid1.coords t)) (hc1 : ¬cond1_1 (grid1.coords t)) :
    outsAt1 V c t.val t.isLt = stepA1 V c t hc0 hc1 := by
  obtain ⟨n, hn⟩ := t
  cases n with
  | zero => rfl
  | succ n => exact (dif_pos h0).trans rfl

theorem outsAt1_C (c : Dev nD) (t : Fin cfg1.N) (h0 : ¬t.val % 2 = 0) (hc0 : ¬cond1_0 (grid1.coords t)) (hc1 : cond1_1 (grid1.coords t)) :
    outsAt1 V c t.val t.isLt = stepC1 V c t hc0 hc1
      (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans rfl

/-- The two accumulators at what point `n` left in them, the other scoped buffers unopened, the generator register at some state. -/
def accs1 (c : Dev nD) (n : ℕ) (hn : n < cfg1.N) : sProp 𝕄 :=
  iprop(iprop(iprop(owns (c : Thread nD τ) scM1_0 fullShare (outsAt1 V c n hn).2.2.1 ∗ owns (c : Thread nD τ) scM1_1 fullShare (outsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r))

/-- The region invariant before position `n`: the entry invariant before the first point, `accs1` of the point before afterwards. -/
def PhiS1 (c : Dev nD) : (n : ℕ) → n ≤ cfg1.N → sProp 𝕄
  | 0, _ => Pipeline.ΦA spec1 c
  | n + 1, hn => accs1 V c n hn

theorem PhiS1_pos (c : Dev nD) (n : ℕ) (h : n ≤ cfg1.N) (hz : n ≠ 0) : PhiS1 V c n h = accs1 V c (n - 1) (by omega) := by
  cases n with
  | zero => exact absurd rfl hz
  | succ n => rfl

/-- Forgetting the accumulators' contents gives the entry invariant's form at every position. -/
theorem PhiS1_open (c : Dev nD) (n : ℕ) (h : n ≤ cfg1.N) :
    PhiS1 V c n h ⊢ (iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) : sProp 𝕄) := by
  cases n with
  | zero => rw [show PhiS1 V c 0 h = Pipeline.ΦA spec1 c from rfl, PhiA1_eq]; try exact Idealize.SL.BI.Entails.refl _
  | succ n =>
    unfold PhiS1 accs1
    iintro ⟨⟨⟨HS0, HS1⟩, HR⟩, Hg⟩
    iframe HR Hg
    isplitl [HS0] <;> iexists _ <;> iassumption

def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem recorded_eq1 (c : Dev nD) (t : Fin (cfg1.N + 1)) : (dat1 V c).recorded t = Set.univ := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) t d
theorem before1_1 (c : Dev nD) (t : Fin cfg1.N) (d) : (dat1 V c).before 1 t d = iblk1 V c 1 t :=
  before1_1_of V (dat1 V c) (A_eq1 V c 1) t d

end Cert.KernelIdeal.Gen

end
-- ==== Proof.KI.R1Dat.lean ====
import proofs.«413171_j1022202216836_1_alg».proof.Proof.KI.P1Outs1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window that is not idle at a point is left at its `after`. -/
theorem live1 (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

set_option maxHeartbeats 4800000 in
/-- At each point the residue selects the control case; its run takes the blocks and the accumulators, and each buffer it stores into is read back from pieces that tile it. -/
theorem body_obligation1 (c : Dev nD) : BodyObligation (dat1 (F := F) V c) (defs₀ (F := F)) Variants.none () Set.univ := fun t => by
  rw [bigSep_W1, bigSep_W1]
  show (iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))) : sProp 𝕄)
    ⊢ wp frame (wpE (defs₀ (F := F)) Variants.none c none) Set.univ (bodyAt1 t) fun _ =>
      iprop((dat1 V c).Φ t.succ ∗ (dat1 V c).owesAt () t.succ
        ∗ (dat1 V c).leavesExact 0 t
        ∗ (dat1 V c).leavesExact 1 t
        ∗ (dat1 V c).leavesExact 2 t
        ∗ (dat1 V c).leavesExact 3 t)
  unfold bodyAt1
  simp only [before1_0, before1_1]
  rw [show (dat1 V c).owesAt () t.succ = (dat1 V c).owesAt () t.castSucc from rfl]
  rw [show (dat1 V c).Φ t.succ = accs1 V c t.val t.isLt from rfl]; unfold accs1
  rw [live1 V c 0 t (liveAt1_0 t), after1_0, live1 V c 1 t (liveAt1_1 t), after1_1]
  rw [PhiS1_castSucc]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1),
      Dat.leavesExact_idle (dat1 V c) 3 t (idleAt1_3 t hc1) (noFlush1_3 t hc1), outsAt1_A V c t h0 hc0 hc1]
    unfold stepA1 sout1_A_0 sout1_A_1; (try dsimp only)
    iintro ⟨HΦ, Ho, ⟨%d0, H0⟩, ⟨%d1, H1⟩, H2, H3⟩
    ihave ⟨⟨⟨HS0, HS1⟩, HR⟩, Hg⟩ := (PhiS1_open V c t.val _) $$ HΦ
    iapply ((kernelRun1_A c (grid1.coords t) _ _ _ _ _ _ _ _ _ _ _ _ hc0 hc1 (iblk1 V c 0 t) (iblk1 V c 1 t)).2.2 Set.univ _)
    iframe H0 H1 HS0 HS1
    iintro ⟨H0, H1, ⟨%es0, HS0⟩, ⟨%es1, HS1⟩⟩
    iframe HR Hg Ho H0 H1 H2 H3
    isplitl [HS0]
    · iapply (Ring.owns_of_writes_tiledL VS1_0 S8x1.size) $$ HS0; ipureintro; sl_kernel_rfl
    · iapply (Ring.owns_of_writes_tiledL VS1_1 S8x1.size) $$ HS1; ipureintro; sl_kernel_rfl
  · have hc0 : ¬cond1_0 (grid1.coords t) := fun h => h0 ((hcond1_0 t).mp h)
    have hz : t.val ≠ 0 := fun hz => h0 (by rw [hz])
    have hc1 : cond1_1 (grid1.coords t) := (hcond1_1 t).mpr (by omega)
    rw [live1 V c 2 t (liveAt1_2 t hc1), after1_2, live1 V c 3 t (liveAt1_3 t hc1), after1_3]
    rw [outsAt1_C V c t h0 hc0 hc1]
    unfold stepC1 out1_C_2 out1_C_3 sout1_C_0 sout1_C_1; (try dsimp only)
    rw [PhiS1_pos V c _ _ hz]; unfold accs1
    iintro ⟨⟨⟨⟨HS0, HS1⟩, HR⟩, Hg⟩, Ho, ⟨%d0, H0⟩, ⟨%d1, H1⟩, ⟨%d2, H2⟩, ⟨%d3, H3⟩⟩
    iapply ((kernelRun1_C c (grid1.coords t) _ _ _ _ _ _ _ _ _ _ _ _ hc0 hc1 (iblk1 V c 0 t) (iblk1 V c 1 t) _ _).2.2.2.2 Set.univ _)
    iframe H0 H1 HS0 HS1
    isplitl [H2]; · iexists _; iexact H2
    isplitl [H3]; · iexists _; iexact H3
    iintro ⟨H0, H1, ⟨%e2, H2⟩, ⟨%e3, H3⟩, ⟨%es0, HS0⟩, ⟨%es1, HS1⟩⟩
    iframe HR Hg Ho H0 H1
    isplitl [HS0 HS1]
    · isplitl [HS0]
      · iapply (Ring.owns_of_writes_tiledL VS1_0 S8x1.size) $$ HS0; ipureintro; sl_kernel_rfl
      · iapply (Ring.owns_of_writes_tiledL VS1_1 S8x1.size) $$ HS1; ipureintro; sl_kernel_rfl
    isplitl [H2]
    · iapply (Ring.owns_of_writes_tiledL VO1_2 S8x16.size) $$ H2; ipureintro; sl_kernel_rfl
    · iapply (Ring.owns_of_writes_tiledL VO1_3 S8x16.size) $$ H3; ipureintro; sl_kernel_rfl

theorem hin1 (c : Dev nD) : (Pipeline.ΦA spec1 c : sProp 𝕄) ⊢ (dat1 V c).Φ 0 :=
  Idealize.SL.BI.Entails.refl _

theorem hout1 (c : Dev nD) : (dat1 V c).Φ (Fin.last cfg1.N) ⊢ (Pipeline.ΦA spec1 c : sProp 𝕄) := by
  rw [show (dat1 V c).Φ (Fin.last cfg1.N) = PhiS1 V c cfg1.N (Nat.le_refl _) from rfl, PhiA1_eq]
  exact PhiS1_open V c _ _

end Cert.KernelIdeal.Gen

end
-- ==== Proof.KI.P1Runs2.lean ====
import proofs.«413171_j1022202216836_1_alg».proof.Proof.Gen.KernelIdeal.Launch
import proofs.«413171_j1022202216836_1_alg».proof.Proof.Gen.KernelIdeal.Points
import proofs.«413171_j1022202216836_1_alg».proof.Proof.Gen.KernelIdeal.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (t : Fin cfg2.N) (d) : dat.before 0 t d = iblk2 V c 0 t :=
  (dat.before_fetched 0 t (fetch2_0 t) d).trans (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (t : Fin cfg2.N) (d) : dat.before 1 t d = iblk2 V c 1 t :=
  (dat.before_fetched 1 t (fetch2_1 t) d).trans (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 1 = 0 :=
  (by decide +kernel : ∀ t : Fin grid2.N, cond2_0 (grid2.coords t) ↔ t.val % 1 = 0)

abbrev cond2_1 (i : grid2.Coords) : Prop := k2_cond2 i = 1#1
theorem hcond2_1 : ∀ t : Fin cfg2.N, cond2_1 (grid2.coords t) ↔ t.val % 1 = 0 :=
  (by decide +kernel : ∀ t : Fin grid2.N, cond2_1 (grid2.coords t) ↔ t.val % 1 = 0)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem idleAt2_3 : ∀ t : Fin cfg2.N, ¬cond2_1 (grid2.coords t) → cfg2.idle 3 (grid2.coords t) = true := by decide +kernel
theorem noFlush2_2 : ∀ t : Fin cfg2.N, ¬cond2_1 (grid2.coords t) → (cfg2.win 2).flush t = false := by decide +kernel
theorem noFlush2_3 : ∀ t : Fin cfg2.N, ¬cond2_1 (grid2.coords t) → (cfg2.win 3).flush t = false := by decide +kernel
theorem liveAt2_2 : ∀ t : Fin cfg2.N, cond2_1 (grid2.coords t) → cfg2.idle 2 (grid2.coords t) = false := by decide +kernel
theorem liveAt2_3 : ∀ t : Fin cfg2.N, cond2_1 (grid2.coords t) → cfg2.idle 3 (grid2.coords t) = false := by decide +kernel

abbrev VO2_2 : View sig .tc .vmem S8x16 .f32 := (Memref.whole cc2_stg2_0 : Memref sig .tc .vmem S8x16 .f32).view
abbrev VO2_3 : View sig .tc .vmem S8x16 .f32 := (Memref.whole cc2_stg3_0 : Memref sig .tc .vmem S8x16 .f32).view
abbrev ms2_0 (t : Fin cfg2.N) : Memref sig .tc .vmem S8x1x256x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8x1x256x256 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x16 .f32 := win2_3.stage (cfg2.slots t 3)
abbrev hs2_3 (t : Fin cfg2.N) : (ms2_3 t).IsWhole := hstage2_3 ((cfg2.slots t 3).cast nbuf2_3)

abbrev scM2_0 : Memref sig .tc .vmem S8x16 .f32 := Memref.whole cc2_scratch0
abbrev scM2_1 : Memref sig .tc .vmem S8x16 .f32 := Memref.whole cc2_scratch1
abbrev VS2_0 : View sig .tc .vmem S8x16 .f32 := scM2_0.view
abbrev VS2_1 : View sig .tc .vmem S8x16 .f32 := scM2_1.view

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Gen

end
-- ==== Proof.KI.P1Run2D.lean ====
import proofs.«413171_j1022202216836_1_alg».proof.Proof.KI.P1Runs2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_D (c : Dev nD) (i : grid2.Coords) (arg2 : Memref sig .tc .vmem S8x1x256x256 .f32) (harg2 : arg2.IsWhole) (arg3 : Memref sig .tc .vmem S8x1x256x256 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : cond2_0 i) (hc1 : cond2_1 i)
    (x0 : Vec F S8x1x256x256 .f32) (x1 : Vec F S8x1x256x256 .i32) :
    Σ' (L2 : List (View.Piece (Elt F) S8x16 .f32)) (L3 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc2__pass1_kernel i arg2 harg2 arg3 harg3 arg4 harg4 arg5 harg5 arg6 harg6 arg7 harg7) K } := by
  refine ⟨?_, ?_, ?_, ?_, fun E K => ?run⟩
  case run =>
    simp only [cc2__pass1_kernel_eq_skeleton]; unfold cc2__pass1_kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg2.eq_unread hf0; obtain rfl := harg3.eq_unread hf1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Gen

end
-- ==== Proof.KI.P1Outs2.lean ====
import proofs.«413171_j1022202216836_1_alg».proof.Proof.KI.P1Run2D

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid2.Coords) (arg2 : Memref sig .tc .vmem S8x1x256x256 .f32) (harg2 : arg2.IsWhole) (arg3 : Memref sig .tc .vmem S8x1x256x256 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole)
variable (x0 : Vec F S8x1x256x256 .f32) (x1 : Vec F S8x1x256x256 .i32) (xs0 xs1 : Vec F S8x16 .f32)

def out2_D_2 (hc0 : cond2_0 i) (hc1 : cond2_1 i) : Vec F S8x16 .f32 :=
  VO2_2.read (Elt F) (VO2_2.writes (Elt F) VO2_2.junk (kernelRun2_D c i arg2 harg2 arg3 harg3 arg4 harg4 arg5 harg5 arg6 harg6 arg7 harg7 hc0 hc1 x0 x1).1)
def out2_D_3 (hc0 : cond2_0 i) (hc1 : cond2_1 i) : Vec F S8x16 .f32 :=
  VO2_3.read (Elt F) (VO2_3.writes (Elt F) VO2_3.junk (kernelRun2_D c i arg2 harg2 arg3 harg3 arg4 harg4 arg5 harg5 arg6 harg6 arg7 harg7 hc0 hc1 x0 x1).2.1)
def sout2_D_0 (hc0 : cond2_0 i) (hc1 : cond2_1 i) : Vec F S8x16 .f32 :=
  VS2_0.read (Elt F) (VS2_0.writes (Elt F) VS2_0.junk (kernelRun2_D c i arg2 harg2 arg3 harg3 arg4 harg4 arg5 harg5 arg6 harg6 arg7 harg7 hc0 hc1 x0 x1).2.2.1)
def sout2_D_1 (hc0 : cond2_0 i) (hc1 : cond2_1 i) : Vec F S8x16 .f32 :=
  VS2_1.read (Elt F) (VS2_1.writes (Elt F) VS2_1.junk (kernelRun2_D c i arg2 harg2 arg3 harg3 arg4 harg4 arg5 harg5 arg6 harg6 arg7 harg7 hc0 hc1 x0 x1).2.2.2.1)

end Cases

def idleOut2_2 : Vec F S8x16 .f32 := VO2_2.read (Elt F) VO2_2.junk
def idleOut2_3 : Vec F S8x16 .f32 := VO2_3.read (Elt F) VO2_3.junk

def stepD2 (c : Dev nD) (t : Fin cfg2.N) (hc0 : cond2_0 (grid2.coords t)) (hc1 : cond2_1 (grid2.coords t)) :
    Vec F S8x16 .f32 × Vec F S8x16 .f32 × Vec F S8x16 .f32 × Vec F S8x16 .f32 :=
  (out2_D_2 c (grid2.coords t) (ms2_0 t) (hs2_0 t) (ms2_1 t) (hs2_1 t) (ms2_2 t) (hs2_2 t) (ms2_3 t) (hs2_3 t) scM2_0 (Memref.isWhole_whole _) scM2_1 (Memref.isWhole_whole _) (iblk2 V c 0 t) (iblk2 V c 1 t) hc0 hc1,
    out2_D_3 c (grid2.coords t) (ms2_0 t) (hs2_0 t) (ms2_1 t) (hs2_1 t) (ms2_2 t) (hs2_2 t) (ms2_3 t) (hs2_3 t) scM2_0 (Memref.isWhole_whole _) scM2_1 (Memref.isWhole_whole _) (iblk2 V c 0 t) (iblk2 V c 1 t) hc0 hc1,
    sout2_D_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (iblk2 V c 0 t) (iblk2 V c 1 t) hc0 hc1,
    sout2_D_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (iblk2 V c 0 t) (iblk2 V c 1 t) hc0 hc1)

/-- The two outputs and the two accumulators after point `n`: every point is a first and last tile at once. -/
def outsAt2 (c : Dev nD) (n : ℕ) (hn : n < cfg2.N) : Vec F S8x16 .f32 × Vec F S8x16 .f32 × Vec F S8x16 .f32 × Vec F S8x16 .f32 :=
  stepD2 V c ⟨n, hn⟩ ((hcond2_0 ⟨n, hn⟩).mpr (Nat.mod_one _)) ((hcond2_1 ⟨n, hn⟩).mpr (Nat.mod_one _))

theorem outsAt2_D (c : Dev nD) (t : Fin cfg2.N) (hc0 : cond2_0 (grid2.coords t)) (hc1 : cond2_1 (grid2.coords t)) :
    outsAt2 V c t.val t.isLt = stepD2 V c t hc0 hc1 := rfl

/-- The two accumulators at what point `n` left in them, the other scoped buffers unopened, the generator register at some state. -/
def accs2 (c : Dev nD) (n : ℕ) (hn : n < cfg2.N) : sProp 𝕄 :=
  iprop(iprop(iprop(owns (c : Thread nD τ) scM2_0 fullShare (outsAt2 V c n hn).2.2.1 ∗ owns (c : Thread nD τ) scM2_1 fullShare (outsAt2 V c n hn).2.2.2)
      ∗ Pipeline.scopedRestBut (Ix := Unit) (Name := ℕ) (U := UR sig nD τ) (Lvl := ℕ) (Val := Elt F) spec2 c [cc2_scratch0, cc2_scratch1]) ∗ (∃ r, prngReg c r))

/-- The region invariant before position `n`: the entry invariant before the first point, `accs2` of the point before afterwards. -/
def PhiS2 (c : Dev nD) : (n : ℕ) → n ≤ cfg2.N → sProp 𝕄
  | 0, _ => Pipeline.ΦA spec2 c
  | n + 1, hn => accs2 V c n hn

/-- Forgetting the accumulators' contents gives the entry invariant's form at every position. -/
theorem PhiS2_open (c : Dev nD) (n : ℕ) (h : n ≤ cfg2.N) :
    PhiS2 V c n h ⊢ (iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) : sProp 𝕄) := by
  cases n with
  | zero => rw [show PhiS2 V c 0 h = Pipeline.ΦA spec2 c from rfl, PhiA2_eq]; try exact Idealize.SL.BI.Entails.refl _
  | succ n =>
    unfold PhiS2 accs2
    iintro ⟨⟨⟨HS0, HS1⟩, HR⟩, Hg⟩
    iframe HR Hg
    isplitl [HS0] <;> iexists _ <;> iassumption

def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := by
  dsimp only [dat2]

theorem owed_eq2 (c : Dev nD) (t : Fin (cfg2.N + 1)) : (dat2 V c).owed t = 0 := by
  dsimp only [dat2]

theorem recorded_eq2 (c : Dev nD) (t : Fin (cfg2.N + 1)) : (dat2 V c).recorded t = Set.univ := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) t d
theorem before2_1 (c : Dev nD) (t : Fin cfg2.N) (d) : (dat2 V c).before 1 t d = iblk2 V c 1 t :=
  before2_1_of V (dat2 V c) (A_eq2 V c 1) t d

end Cert.KernelIdeal.Gen

end
-- ==== Proof.KI.R2Dat.lean ====
import proofs.«413171_j1022202216836_1_alg».proof.Proof.KI.P1Outs2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window that is not idle at a point is left at its `after`. -/
theorem live2 (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

set_option maxHeartbeats 4800000 in
/-- At each point the residue selects the control case; its run takes the blocks and the accumulators, and each buffer it stores into is read back from pieces that tile it. -/
theorem body_obligation2 (c : Dev nD) : BodyObligation (dat2 (F := F) V c) (defs₀ (F := F)) Variants.none () Set.univ := fun t => by
  rw [bigSep_W2, bigSep_W2]
  show (iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d))) : sProp 𝕄)
    ⊢ wp frame (wpE (defs₀ (F := F)) Variants.none c none) Set.univ (bodyAt2 t) fun _ =>
      iprop((dat2 V c).Φ t.succ ∗ (dat2 V c).owesAt () t.succ
        ∗ (dat2 V c).leavesExact 0 t
        ∗ (dat2 V c).leavesExact 1 t
        ∗ (dat2 V c).leavesExact 2 t
        ∗ (dat2 V c).leavesExact 3 t)
  unfold bodyAt2
  simp only [before2_0, before2_1]
  rw [show (dat2 V c).owesAt () t.succ = (dat2 V c).owesAt () t.castSucc from rfl]
  rw [show (dat2 V c).Φ t.succ = accs2 V c t.val t.isLt from rfl]; unfold accs2
  rw [live2 V c 0 t (liveAt2_0 t), after2_0, live2 V c 1 t (liveAt2_1 t), after2_1]
  rw [PhiS2_castSucc]
  have hc0 : cond2_0 (grid2.coords t) := (hcond2_0 t).mpr (Nat.mod_one _)
  have hc1 : cond2_1 (grid2.coords t) := (hcond2_1 t).mpr (Nat.mod_one _)
  rw [live2 V c 2 t (liveAt2_2 t hc1), after2_2, live2 V c 3 t (liveAt2_3 t hc1), after2_3]
  rw [outsAt2_D V c t hc0 hc1]
  unfold stepD2 out2_D_2 out2_D_3 sout2_D_0 sout2_D_1; (try dsimp only)
  iintro ⟨HΦ, Ho, ⟨%d0, H0⟩, ⟨%d1, H1⟩, ⟨%d2, H2⟩, ⟨%d3, H3⟩⟩
  ihave ⟨⟨⟨HS0, HS1⟩, HR⟩, Hg⟩ := (PhiS2_open V c t.val _) $$ HΦ
  iapply ((kernelRun2_D c (grid2.coords t) _ _ _ _ _ _ _ _ _ _ _ _ hc0 hc1 (iblk2 V c 0 t) (iblk2 V c 1 t)).2.2.2.2 Set.univ _)
  iframe H0 H1 HS0 HS1
  isplitl [H2]; · iexists _; iexact H2
  isplitl [H3]; · iexists _; iexact H3
  iintro ⟨H0, H1, ⟨%e2, H2⟩, ⟨%e3, H3⟩, ⟨%es0, HS0⟩, ⟨%es1, HS1⟩⟩
  iframe HR Hg Ho H0 H1
  isplitl [HS0 HS1]
  · isplitl [HS0]
    · iapply (Ring.owns_of_writes_tiledL VS2_0 S8x1.size) $$ HS0; ipureintro; sl_kernel_rfl
    · iapply (Ring.owns_of_writes_tiledL VS2_1 S8x1.size) $$ HS1; ipureintro; sl_kernel_rfl
  isplitl [H2]
  · iapply (Ring.owns_of_writes_tiledL VO2_2 S8x16.size) $$ H2; ipureintro; sl_kernel_rfl
  · iapply (Ring.owns_of_writes_tiledL VO2_3 S8x16.size) $$ H3; ipureintro; sl_kernel_rfl

theorem hin2 (c : Dev nD) : (Pipeline.ΦA spec2 c : sProp 𝕄) ⊢ (dat2 V c).Φ 0 :=
  Idealize.SL.BI.Entails.refl _

theorem hout2 (c : Dev nD) : (dat2 V c).Φ (Fin.last cfg2.N) ⊢ (Pipeline.ΦA spec2 c : sProp 𝕄) := by
  rw [show (dat2 V c).Φ (Fin.last cfg2.N) = PhiS2 V c cfg2.N (Nat.le_refl _) from rfl, PhiA2_eq]
  exact PhiS2_open V c _ _

end Cert.KernelIdeal.Gen

end
-- ==== Proof.KI.P2Runs3.lean ====
import proofs.«413171_j1022202216836_1_alg».proof.Proof.Gen.KernelIdeal.Launch
import proofs.«413171_j1022202216836_1_alg».proof.Proof.Gen.KernelIdeal.Points
import proofs.«413171_j1022202216836_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1

theorem hcond3_1 : ∀ t : Fin cfg3.N, cond3_1 (grid3.coords t) ↔ t.val % 4 = 3 :=
  (by decide +kernel : ∀ t : Fin grid3.N, cond3_1 (grid3.coords t) ↔ t.val % 4 = 3)

theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

abbrev ms3_0 (t : Fin cfg3.N) : Memref sig .tc .vmem S8x1x256x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x1x256x1024 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S8x16 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S8x16 .f32 := win3_4.stage (cfg3.slots t 4)
abbrev hs3_4 (t : Fin cfg3.N) : (ms3_4 t).IsWhole := hstage3_4 ((cfg3.slots t 4).cast nbuf3_4)

abbrev scM3_0 : Memref sig .tc .vmem S8x16 .f32 := Memref.whole cc3_scratch0
abbrev scM3_1 : Memref sig .tc .vmem S8x16 .f32 := Memref.whole cc3_scratch1

abbrev VO3_3 : View sig .tc .vmem S8x16 .f32 := (Memref.whole cc3_stg3_0 : Memref sig .tc .vmem S8x16 .f32).view
abbrev VO3_4 : View sig .tc .vmem S8x16 .f32 := (Memref.whole cc3_stg4_0 : Memref sig .tc .vmem S8x16 .f32).view
abbrev VS3_0 : View sig .tc .vmem S8x16 .f32 := scM3_0.view
abbrev VS3_1 : View sig .tc .vmem S8x16 .f32 := scM3_1.view

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; rfl

end Cert.KernelIdeal.Gen

end
-- ==== Proof.KI.P2Run3.lean ====
import proofs.«413171_j1022202216836_1_alg».proof.Proof.KI.P2Runs3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun3_A (c : Dev nD) (i : grid3.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : cond3_0 i) (hc1 : ¬cond3_1 i)
    (x0 : Vec F S8x1x256x1024 .f32) (x1 : Vec F S8x1x256x1024 .i32) (x2 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (xi3 xi4 : Vec F S8x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__pass2_kernel i arg2 harg2 arg3 harg3 arg4 harg4 arg5 harg5 arg6 harg6 arg7 harg7 arg8 harg8) K } := by
  refine ⟨[], [], ?_, ?_, fun xi3 xi4 E K => ?run⟩
  case run =>
    simp only [cc3__pass2_kernel_eq_skeleton]; unfold cc3__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in

noncomputable def kernelRun3_B (c : Dev nD) (i : grid3.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : ¬cond3_0 i) (hc1 : ¬cond3_1 i)
    (x0 : Vec F S8x1x256x1024 .f32) (x1 : Vec F S8x1x256x1024 .i32) (x2 : Vec F S8x16 .f32) (xs0 : Vec F S8x16 .f32) (xs1 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (xi3 xi4 : Vec F S8x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__pass2_kernel i arg2 harg2 arg3 harg3 arg4 harg4 arg5 harg5 arg6 harg6 arg7 harg7 arg8 harg8) K } := by
  refine ⟨[], [], ?_, ?_, fun xi3 xi4 E K => ?run⟩
  case run =>
    simp only [cc3__pass2_kernel_eq_skeleton]; unfold cc3__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in

noncomputable def kernelRun3_C (c : Dev nD) (i : grid3.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : ¬cond3_0 i) (hc1 : cond3_1 i)
    (x0 : Vec F S8x1x256x1024 .f32) (x1 : Vec F S8x1x256x1024 .i32) (x2 : Vec F S8x16 .f32) (xs0 : Vec F S8x16 .f32) (xs1 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__pass2_kernel i arg2 harg2 arg3 harg3 arg4 harg4 arg5 harg5 arg6 harg6 arg7 harg7 arg8 harg8) K } := by
  refine ⟨?_, ?_, ?_, ?_, fun E K => ?run⟩
  case run =>
    simp only [cc3__pass2_kernel_eq_skeleton]; unfold cc3__pass2_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Gen

end
-- ==== Proof.KI.R3Dat.lean ====
import proofs.«413171_j1022202216836_1_alg».proof.Proof.KI.P2Run3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev runA3 (c : Dev nD) (t : Fin cfg3.N) (h0 : t.val % 4 = 0) (h1 : ¬t.val % 4 = 3) :=
  kernelRun3_A (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => h1 ((hcond3_1 t).mp h)) (iblk3 V c 0 t) (iblk3 V c 1 t) (iblk3 V c 2 t)
abbrev runB3 (c : Dev nD) (t : Fin cfg3.N) (h0 : ¬t.val % 4 = 0) (h1 : ¬t.val % 4 = 3) (xs0 xs1 : Vec F S8x16 .f32) :=
  kernelRun3_B (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) xs0 xs1
abbrev runC3 (c : Dev nD) (t : Fin cfg3.N) (h0 : ¬t.val % 4 = 0) (h1 : t.val % 4 = 3) (xs0 xs1 : Vec F S8x16 .f32) :=
  kernelRun3_C (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) ((hcond3_1 t).mpr h1) (iblk3 V c 0 t) (iblk3 V c 1 t) (iblk3 V c 2 t) xs0 xs1

def sout3_A_0 (c : Dev nD) (t : Fin cfg3.N) (h0 : t.val % 4 = 0) (h1 : ¬t.val % 4 = 3) : Vec F S8x16 .f32 :=
  VS3_0.read (Elt F) (VS3_0.writes (Elt F) VS3_0.junk (runA3 V c t h0 h1).2.2.1)
def sout3_A_1 (c : Dev nD) (t : Fin cfg3.N) (h0 : t.val % 4 = 0) (h1 : ¬t.val % 4 = 3) : Vec F S8x16 .f32 :=
  VS3_1.read (Elt F) (VS3_1.writes (Elt F) VS3_1.junk (runA3 V c t h0 h1).2.2.2.1)

theorem scover3_B_0 (c : Dev nD) (t : Fin cfg3.N) (h0 : ¬t.val % 4 = 0) (h1 : ¬t.val % 4 = 3) (xs0 xs1 : Vec F S8x16 .f32) (y : S8x16.Idx) :
    ∃ pc ∈ (runB3 V c t h0 h1 xs0 xs1).2.2.1, y ∈ pc.1.set :=
  View.cover_of_tiledL (runB3 V c t h0 h1 xs0 xs1).2.2.1 S8x1.size (by sl_kernel_rfl) y
theorem scover3_B_1 (c : Dev nD) (t : Fin cfg3.N) (h0 : ¬t.val % 4 = 0) (h1 : ¬t.val % 4 = 3) (xs0 xs1 : Vec F S8x16 .f32) (y : S8x16.Idx) :
    ∃ pc ∈ (runB3 V c t h0 h1 xs0 xs1).2.2.2.1, y ∈ pc.1.set :=
  View.cover_of_tiledL (runB3 V c t h0 h1 xs0 xs1).2.2.2.1 S8x1.size (by sl_kernel_rfl) y
def sout3_B_0 (c : Dev nD) (t : Fin cfg3.N) (h0 : ¬t.val % 4 = 0) (h1 : ¬t.val % 4 = 3) (xs0 xs1 : Vec F S8x16 .f32) : Vec F S8x16 .f32 :=
  VS3_0.read (Elt F) (VS3_0.writes (Elt F) VS3_0.junk (runB3 V c t h0 h1 xs0 xs1).2.2.1)
def sout3_B_1 (c : Dev nD) (t : Fin cfg3.N) (h0 : ¬t.val % 4 = 0) (h1 : ¬t.val % 4 = 3) (xs0 xs1 : Vec F S8x16 .f32) : Vec F S8x16 .f32 :=
  VS3_1.read (Elt F) (VS3_1.writes (Elt F) VS3_1.junk (runB3 V c t h0 h1 xs0 xs1).2.2.2.1)

theorem scover3_C_0 (c : Dev nD) (t : Fin cfg3.N) (h0 : ¬t.val % 4 = 0) (h1 : t.val % 4 = 3) (xs0 xs1 : Vec F S8x16 .f32) (y : S8x16.Idx) :
    ∃ pc ∈ (runC3 V c t h0 h1 xs0 xs1).2.2.1, y ∈ pc.1.set :=
  View.cover_of_tiledL (runC3 V c t h0 h1 xs0 xs1).2.2.1 S8x1.size (by sl_kernel_rfl) y
theorem scover3_C_1 (c : Dev nD) (t : Fin cfg3.N) (h0 : ¬t.val % 4 = 0) (h1 : t.val % 4 = 3) (xs0 xs1 : Vec F S8x16 .f32) (y : S8x16.Idx) :
    ∃ pc ∈ (runC3 V c t h0 h1 xs0 xs1).2.2.2.1, y ∈ pc.1.set :=
  View.cover_of_tiledL (runC3 V c t h0 h1 xs0 xs1).2.2.2.1 S8x1.size (by sl_kernel_rfl) y
def out3_C_3 (c : Dev nD) (t : Fin cfg3.N) (h0 : ¬t.val % 4 = 0) (h1 : t.val % 4 = 3) (xs0 xs1 : Vec F S8x16 .f32) : Vec F S8x16 .f32 :=
  VO3_3.read (Elt F) (VO3_3.writes (Elt F) VO3_3.junk (runC3 V c t h0 h1 xs0 xs1).1)
def out3_C_4 (c : Dev nD) (t : Fin cfg3.N) (h0 : ¬t.val % 4 = 0) (h1 : t.val % 4 = 3) (xs0 xs1 : Vec F S8x16 .f32) : Vec F S8x16 .f32 :=
  VO3_4.read (Elt F) (VO3_4.writes (Elt F) VO3_4.junk (runC3 V c t h0 h1 xs0 xs1).2.1)
def sout3_C_0 (c : Dev nD) (t : Fin cfg3.N) (h0 : ¬t.val % 4 = 0) (h1 : t.val % 4 = 3) (xs0 xs1 : Vec F S8x16 .f32) : Vec F S8x16 .f32 :=
  VS3_0.read (Elt F) (VS3_0.writes (Elt F) VS3_0.junk (runC3 V c t h0 h1 xs0 xs1).2.2.1)
def sout3_C_1 (c : Dev nD) (t : Fin cfg3.N) (h0 : ¬t.val % 4 = 0) (h1 : t.val % 4 = 3) (xs0 xs1 : Vec F S8x16 .f32) : Vec F S8x16 .f32 :=
  VS3_1.read (Elt F) (VS3_1.writes (Elt F) VS3_1.junk (runC3 V c t h0 h1 xs0 xs1).2.2.2.1)

def idleOut3_3 : Vec F S8x16 .f32 := VO3_3.read (Elt F) VO3_3.junk
def idleOut3_4 : Vec F S8x16 .f32 := VO3_4.read (Elt F) VO3_4.junk

def outsAt3 (c : Dev nD) : (n : ℕ) → n < cfg3.N → Vec F S8x16 .f32 × Vec F S8x16 .f32 × Vec F S8x16 .f32 × Vec F S8x16 .f32
  | 0, hn => (idleOut3_3, idleOut3_4, sout3_A_0 V c ⟨0, hn⟩ (Nat.zero_mod _) (by show ¬0 % 4 = 3; decide), sout3_A_1 V c ⟨0, hn⟩ (Nat.zero_mod _) (by show ¬0 % 4 = 3; decide))
  | n + 1, hn =>
    if h0 : (n + 1) % 4 = 0 then
      if h1 : (n + 1) % 4 = 3 then
        False.elim (by omega)
      else
        (idleOut3_3, idleOut3_4, sout3_A_0 V c ⟨n + 1, hn⟩ h0 h1, sout3_A_1 V c ⟨n + 1, hn⟩ h0 h1)
    else
      if h1 : (n + 1) % 4 = 3 then
        (out3_C_3 V c ⟨n + 1, hn⟩ h0 h1 (outsAt3 c n (Nat.lt_of_succ_lt hn)).2.2.1 (outsAt3 c n (Nat.lt_of_succ_lt hn)).2.2.2,
         out3_C_4 V c ⟨n + 1, hn⟩ h0 h1 (outsAt3 c n (Nat.lt_of_succ_lt hn)).2.2.1 (outsAt3 c n (Nat.lt_of_succ_lt hn)).2.2.2,
         sout3_C_0 V c ⟨n + 1, hn⟩ h0 h1 (outsAt3 c n (Nat.lt_of_succ_lt hn)).2.2.1 (outsAt3 c n (Nat.lt_of_succ_lt hn)).2.2.2,
         sout3_C_1 V c ⟨n + 1, hn⟩ h0 h1 (outsAt3 c n (Nat.lt_of_succ_lt hn)).2.2.1 (outsAt3 c n (Nat.lt_of_succ_lt hn)).2.2.2)
      else
        (idleOut3_3, idleOut3_4,
         sout3_B_0 V c ⟨n + 1, hn⟩ h0 h1 (outsAt3 c n (Nat.lt_of_succ_lt hn)).2.2.1 (outsAt3 c n (Nat.lt_of_succ_lt hn)).2.2.2,
         sout3_B_1 V c ⟨n + 1, hn⟩ h0 h1 (outsAt3 c n (Nat.lt_of_succ_lt hn)).2.2.1 (outsAt3 c n (Nat.lt_of_succ_lt hn)).2.2.2)

abbrev prev3_0 (c : Dev nD) (t : Fin cfg3.N) : Vec F S8x16 .f32 := (outsAt3 V c (t.val - 1) (Nat.lt_of_le_of_lt (Nat.sub_le _ _) t.isLt)).2.2.1
abbrev prev3_1 (c : Dev nD) (t : Fin cfg3.N) : Vec F S8x16 .f32 := (outsAt3 V c (t.val - 1) (Nat.lt_of_le_of_lt (Nat.sub_le _ _) t.isLt)).2.2.2

theorem outsAt3_A (c : Dev nD) (t : Fin cfg3.N) (h0 : t.val % 4 = 0) (h1 : ¬t.val % 4 = 3) :
    outsAt3 V c t.val t.isLt = (idleOut3_3, idleOut3_4, sout3_A_0 V c t h0 h1, sout3_A_1 V c t h0 h1) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (idleOut3_3, idleOut3_4, sout3_B_0 V c t h0 h1 (prev3_0 V c t) (prev3_1 V c t), sout3_B_1 V c t h0 h1 (prev3_0 V c t) (prev3_1 V c t)) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 V c t h0 h1 (prev3_0 V c t) (prev3_1 V c t), out3_C_4 V c t h0 h1 (prev3_0 V c t) (prev3_1 V c t), sout3_C_0 V c t h0 h1 (prev3_0 V c t) (prev3_1 V c t), sout3_C_1 V c t h0 h1 (prev3_0 V c t) (prev3_1 V c t)) := by
  obtain ⟨n, hn⟩ := t
  cases n with
  | zero => exact absurd (Nat.zero_mod _) h0
  | succ n => exact (dif_neg h0).trans ((dif_pos h1).trans rfl)

abbrev rest3 (c : Dev nD) : sProp 𝕄 :=
  Pipeline.scopedRestBut (Ix := Unit) (Name := ℕ) (U := UR sig nD τ) (Lvl := ℕ) (Val := Elt F) spec3 c [cc3_scratch0, cc3_scratch1]

def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.1) ∗ owns (c : Thread nD τ) scM3_1 fullShare ((outsAt3 V c n hn).2.2.2)) ∗ rest3 c) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem q_eq3 (c : Dev nD) (w : Fin cfg3.W) : (dat3 V c).q w = fullShare := rfl

theorem owed_eq3 (c : Dev nD) (t : Fin (cfg3.N + 1)) : (dat3 V c).owed t = 0 := rfl

theorem recorded_eq3 (c : Dev nD) (t : Fin (cfg3.N + 1)) : (dat3 V c).recorded t = Set.univ := rfl

theorem after3_3 (c : Dev nD) (t : Fin cfg3.N) : (dat3 V c).after 3 t = (outsAt3 V c t.val t.isLt).1 := rfl
theorem after3_4 (c : Dev nD) (t : Fin cfg3.N) : (dat3 V c).after 4 t = (outsAt3 V c t.val t.isLt).2.1 := rfl

theorem hin3 (c : Dev nD) : (Pipeline.ΦA spec3 c : sProp 𝕄) ⊢ (dat3 V c).Φ 0 := .rfl

-- The invariant at any position entails the entry invariant: the accumulators' contents are forgotten.
theorem Phi_out3 (c : Dev nD) (t : Fin (cfg3.N + 1)) : (dat3 V c).Φ t ⊢ (Pipeline.ΦA spec3 c : sProp 𝕄) := by
  obtain ⟨_ | n, hn⟩ := t
  · exact .rfl
  rw [PhiA3_eq]
  show iprop(((_ ∗ _) ∗ _) ∗ _) ⊢ _
  iintro ⟨⟨⟨HS0, HS1⟩, Hrest⟩, Hg⟩
  iframe Hrest Hg
  isplitl [HS0] <;> iexists _ <;> iassumption

theorem hout3 (c : Dev nD) : (dat3 V c).Φ (Fin.last cfg3.N) ⊢ (Pipeline.ΦA spec3 c : sProp 𝕄) := Phi_out3 V c _

-- Past the first point the invariant names the accumulators at what the point before left.
theorem Phi_pos3 (c : Dev nD) (t : Fin cfg3.N) (hz : t.val ≠ 0) :
    (dat3 V c).Φ t.castSucc = iprop(((owns (c : Thread nD τ) scM3_0 fullShare (prev3_0 V c t) ∗ owns (c : Thread nD τ) scM3_1 fullShare (prev3_1 V c t)) ∗ rest3 c) ∗ ∃ r, prngReg c r) := by
  obtain ⟨_ | n, hn⟩ := t
  · exact absurd rfl hz
  · rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
-- The residue of the point says which run applies; the accumulators come from the invariant and go back tiled by the run's pieces.
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0_of V (dat3 V c) rfl (fun _ => rfl) t, before3_1_of V (dat3 V c) rfl (fun _ => rfl) t, before3_2_of V (dat3 V c) rfl (fun _ => rfl) t]
  rw [show (dat3 V c).owesAt () t.succ = (dat3 V c).owesAt () t.castSucc from rfl,
    show (dat3 V c).Φ t.succ = iprop(((owns (c : Thread nD τ) scM3_0 fullShare (outsAt3 V c t.val t.isLt).2.2.1 ∗ owns (c : Thread nD τ) scM3_1 fullShare (outsAt3 V c t.val t.isLt).2.2.2) ∗ rest3 c) ∗ ∃ r, prngReg c r) from rfl,
    show (dat3 V c).leavesExact 0 t = owns (c : Thread nD τ) (ms3_0 t) fullShare (iblk3 V c 0 t) from rfl,
    show (dat3 V c).leavesExact 1 t = owns (c : Thread nD τ) (ms3_1 t) fullShare (iblk3 V c 1 t) from rfl,
    show (dat3 V c).leavesExact 2 t = owns (c : Thread nD τ) (ms3_2 t) fullShare (iblk3 V c 2 t) from rfl]
  by_cases h1 : t.val % 4 = 3
  · have h0 : ¬t.val % 4 = 0 := by omega
    have hc := (hcond3_1 t).mpr h1
    rw [show (dat3 V c).leavesExact 3 t = owns (c : Thread nD τ) (ms3_3 t) fullShare (outsAt3 V c t.val t.isLt).1 from by
        unfold Dat.leavesExact; rw [liveAt3_3 t hc]; rfl,
      show (dat3 V c).leavesExact 4 t = owns (c : Thread nD τ) (ms3_4 t) fullShare (outsAt3 V c t.val t.isLt).2.1 from by
        unfold Dat.leavesExact; rw [liveAt3_4 t hc]; rfl,
      outsAt3_C V c t h0 h1, Phi_pos3 V c t fun e => h0 (by rw [e])]
    unfold out3_C_3 out3_C_4 sout3_C_0 sout3_C_1; dsimp only
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runC3 V c t h0 h1 _ _).2.2.2.2 Set.univ _
    iframe H0 H1 H2 HS0 HS1
    isplitl [H3]; · iexists _; iexact H3
    isplitl [H4]; · iexists _; iexact H4
    iintro ⟨H0, H1, H2, ⟨%f3, H3⟩, ⟨%f4, H4⟩, ⟨%f0, HS0⟩, ⟨%f1, HS1⟩⟩
    iframe Hrest Hg Ho H0 H1 H2
    isplitl [HS0 HS1]
    · isplitl [HS0]
      · ihave H' := (Ring.owns_of_writes_tiledL VS3_0 S8x1.size) $$ HS0; iapply H'; ipureintro; sl_kernel_rfl
      · ihave H' := (Ring.owns_of_writes_tiledL VS3_1 S8x1.size) $$ HS1; iapply H'; ipureintro; sl_kernel_rfl
    isplitl [H3]
    · ihave H' := (Ring.owns_of_writes_tiledL VO3_3 S8x16.size) $$ H3; iapply H'; ipureintro; sl_kernel_rfl
    · ihave H' := (Ring.owns_of_writes_tiledL VO3_4 S8x16.size) $$ H4; iapply H'; ipureintro; sl_kernel_rfl
  have hc : ¬cond3_1 (grid3.coords t) := fun h => h1 ((hcond3_1 t).mp h)
  rw [Dat.leavesExact_idle _ 3 t (idleAt3_3 t hc) (noFlush3_3 t hc), Dat.leavesExact_idle _ 4 t (idleAt3_4 t hc) (noFlush3_4 t hc)]
  by_cases h0 : t.val % 4 = 0
  on_goal 1 =>
    rw [outsAt3_A V c t h0 h1]; unfold sout3_A_0 sout3_A_1; dsimp only
    refine (sep_mono_left (Phi_out3 V c _)).trans ?_
    rw [PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runA3 V c t h0 h1).2.2.2.2 ((dat3 V c).before 3 t d3) ((dat3 V c).before 4 t d4) Set.univ _
  on_goal 2 =>
    rw [outsAt3_B V c t h0 h1, Phi_pos3 V c t fun e => h0 (by rw [e])]; unfold sout3_B_0 sout3_B_1; dsimp only
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runB3 V c t h0 h1 (prev3_0 V c t) (prev3_1 V c t)).2.2.2.2 ((dat3 V c).before 3 t d3) ((dat3 V c).before 4 t d4) Set.univ _
  all_goals
    iframe H0 H1 H2 H3 H4 HS0 HS1
    iintro ⟨H0, H1, H2, H3, H4, ⟨%f0, HS0⟩, ⟨%f1, HS1⟩⟩
    iframe Hrest Hg Ho H0 H1 H2
    isplitl [HS0 HS1]
    · isplitl [HS0]
      · ihave H' := (Ring.owns_of_writes_tiledL VS3_0 S8x1.size) $$ HS0; iapply H'; ipureintro; sl_kernel_rfl
      · ihave H' := (Ring.owns_of_writes_tiledL VS3_1 S8x1.size) $$ HS1; iapply H'; ipureintro; sl_kernel_rfl
    isplitl [H3] <;> iexists _ <;> iassumption

theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.P2Runs4.lean ====
import proofs.«413171_j1022202216836_1_alg».proof.Proof.Gen.KernelIdeal.Launch
import proofs.«413171_j1022202216836_1_alg».proof.Proof.Gen.KernelIdeal.Points
import proofs.«413171_j1022202216836_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1

theorem hcond4_0 : ∀ t : Fin cfg4.N, cond4_0 (grid4.coords t) ↔ t.val % 2 = 0 :=
  (by decide +kernel : ∀ t : Fin grid4.N, cond4_0 (grid4.coords t) ↔ t.val % 2 = 0)

abbrev cond4_1 (i : grid4.Coords) : Prop := k4_cond2 i = 1#1

theorem hcond4_1 : ∀ t : Fin cfg4.N, cond4_1 (grid4.coords t) ↔ t.val % 2 = 1 :=
  (by decide +kernel : ∀ t : Fin grid4.N, cond4_1 (grid4.coords t) ↔ t.val % 2 = 1)

theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

abbrev ms4_0 (t : Fin cfg4.N) : Memref sig .tc .vmem S8x1x256x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8x1x256x512 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S8x16 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S8x16 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S8x16 .f32 := win4_4.stage (cfg4.slots t 4)
abbrev hs4_4 (t : Fin cfg4.N) : (ms4_4 t).IsWhole := hstage4_4 ((cfg4.slots t 4).cast nbuf4_4)

abbrev scM4_0 : Memref sig .tc .vmem S8x16 .f32 := Memref.whole cc4_scratch0
abbrev scM4_1 : Memref sig .tc .vmem S8x16 .f32 := Memref.whole cc4_scratch1

abbrev VO4_3 : View sig .tc .vmem S8x16 .f32 := (Memref.whole cc4_stg3_0 : Memref sig .tc .vmem S8x16 .f32).view
abbrev VO4_4 : View sig .tc .vmem S8x16 .f32 := (Memref.whole cc4_stg4_0 : Memref sig .tc .vmem S8x16 .f32).view
abbrev VS4_0 : View sig .tc .vmem S8x16 .f32 := scM4_0.view
abbrev VS4_1 : View sig .tc .vmem S8x16 .f32 := scM4_1.view

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; rfl

end Cert.KernelIdeal.Gen

end
-- ==== Proof.KI.P2Run4.lean ====
import proofs.«413171_j1022202216836_1_alg».proof.Proof.KI.P2Runs4

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun4_A (c : Dev nD) (i : grid4.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : cond4_0 i) (hc1 : ¬cond4_1 i)
    (x0 : Vec F S8x1x256x512 .f32) (x1 : Vec F S8x1x256x512 .i32) (x2 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (xi3 xi4 : Vec F S8x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pass2_kernel i arg2 harg2 arg3 harg3 arg4 harg4 arg5 harg5 arg6 harg6 arg7 harg7 arg8 harg8) K } := by
  refine ⟨[], [], ?_, ?_, fun xi3 xi4 E K => ?run⟩
  case run =>
    simp only [cc4__pass2_kernel_eq_skeleton]; unfold cc4__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in

noncomputable def kernelRun4_B (c : Dev nD) (i : grid4.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : ¬cond4_0 i) (hc1 : ¬cond4_1 i)
    (x0 : Vec F S8x1x256x512 .f32) (x1 : Vec F S8x1x256x512 .i32) (x2 : Vec F S8x16 .f32) (xs0 : Vec F S8x16 .f32) (xs1 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (xi3 xi4 : Vec F S8x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pass2_kernel i arg2 harg2 arg3 harg3 arg4 harg4 arg5 harg5 arg6 harg6 arg7 harg7 arg8 harg8) K } := by
  refine ⟨[], [], ?_, ?_, fun xi3 xi4 E K => ?run⟩
  case run =>
    simp only [cc4__pass2_kernel_eq_skeleton]; unfold cc4__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in

noncomputable def kernelRun4_C (c : Dev nD) (i : grid4.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : ¬cond4_0 i) (hc1 : cond4_1 i)
    (x0 : Vec F S8x1x256x512 .f32) (x1 : Vec F S8x1x256x512 .i32) (x2 : Vec F S8x16 .f32) (xs0 : Vec F S8x16 .f32) (xs1 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pass2_kernel i arg2 harg2 arg3 harg3 arg4 harg4 arg5 harg5 arg6 harg6 arg7 harg7 arg8 harg8) K } := by
  refine ⟨?_, ?_, ?_, ?_, fun E K => ?run⟩
  case run =>
    simp only [cc4__pass2_kernel_eq_skeleton]; unfold cc4__pass2_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Gen

end
-- ==== Proof.KI.R4Dat.lean ====
import proofs.«413171_j1022202216836_1_alg».proof.Proof.KI.P2Run4

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev runA4 (c : Dev nD) (t : Fin cfg4.N) (h0 : t.val % 2 = 0) (h1 : ¬t.val % 2 = 1) :=
  kernelRun4_A (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t)
abbrev runB4 (c : Dev nD) (t : Fin cfg4.N) (h0 : ¬t.val % 2 = 0) (h1 : ¬t.val % 2 = 1) (xs0 xs1 : Vec F S8x16 .f32) :=
  kernelRun4_B (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) xs0 xs1
abbrev runC4 (c : Dev nD) (t : Fin cfg4.N) (h0 : ¬t.val % 2 = 0) (h1 : t.val % 2 = 1) (xs0 xs1 : Vec F S8x16 .f32) :=
  kernelRun4_C (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) xs0 xs1

def sout4_A_0 (c : Dev nD) (t : Fin cfg4.N) (h0 : t.val % 2 = 0) (h1 : ¬t.val % 2 = 1) : Vec F S8x16 .f32 :=
  VS4_0.read (Elt F) (VS4_0.writes (Elt F) VS4_0.junk (runA4 V c t h0 h1).2.2.1)
def sout4_A_1 (c : Dev nD) (t : Fin cfg4.N) (h0 : t.val % 2 = 0) (h1 : ¬t.val % 2 = 1) : Vec F S8x16 .f32 :=
  VS4_1.read (Elt F) (VS4_1.writes (Elt F) VS4_1.junk (runA4 V c t h0 h1).2.2.2.1)

theorem scover4_B_0 (c : Dev nD) (t : Fin cfg4.N) (h0 : ¬t.val % 2 = 0) (h1 : ¬t.val % 2 = 1) (xs0 xs1 : Vec F S8x16 .f32) (y : S8x16.Idx) :
    ∃ pc ∈ (runB4 V c t h0 h1 xs0 xs1).2.2.1, y ∈ pc.1.set :=
  View.cover_of_tiledL (runB4 V c t h0 h1 xs0 xs1).2.2.1 S8x1.size (by sl_kernel_rfl) y
theorem scover4_B_1 (c : Dev nD) (t : Fin cfg4.N) (h0 : ¬t.val % 2 = 0) (h1 : ¬t.val % 2 = 1) (xs0 xs1 : Vec F S8x16 .f32) (y : S8x16.Idx) :
    ∃ pc ∈ (runB4 V c t h0 h1 xs0 xs1).2.2.2.1, y ∈ pc.1.set :=
  View.cover_of_tiledL (runB4 V c t h0 h1 xs0 xs1).2.2.2.1 S8x1.size (by sl_kernel_rfl) y
def sout4_B_0 (c : Dev nD) (t : Fin cfg4.N) (h0 : ¬t.val % 2 = 0) (h1 : ¬t.val % 2 = 1) (xs0 xs1 : Vec F S8x16 .f32) : Vec F S8x16 .f32 :=
  VS4_0.read (Elt F) (VS4_0.writes (Elt F) VS4_0.junk (runB4 V c t h0 h1 xs0 xs1).2.2.1)
def sout4_B_1 (c : Dev nD) (t : Fin cfg4.N) (h0 : ¬t.val % 2 = 0) (h1 : ¬t.val % 2 = 1) (xs0 xs1 : Vec F S8x16 .f32) : Vec F S8x16 .f32 :=
  VS4_1.read (Elt F) (VS4_1.writes (Elt F) VS4_1.junk (runB4 V c t h0 h1 xs0 xs1).2.2.2.1)

theorem scover4_C_0 (c : Dev nD) (t : Fin cfg4.N) (h0 : ¬t.val % 2 = 0) (h1 : t.val % 2 = 1) (xs0 xs1 : Vec F S8x16 .f32) (y : S8x16.Idx) :
    ∃ pc ∈ (runC4 V c t h0 h1 xs0 xs1).2.2.1, y ∈ pc.1.set :=
  View.cover_of_tiledL (runC4 V c t h0 h1 xs0 xs1).2.2.1 S8x1.size (by sl_kernel_rfl) y
theorem scover4_C_1 (c : Dev nD) (t : Fin cfg4.N) (h0 : ¬t.val % 2 = 0) (h1 : t.val % 2 = 1) (xs0 xs1 : Vec F S8x16 .f32) (y : S8x16.Idx) :
    ∃ pc ∈ (runC4 V c t h0 h1 xs0 xs1).2.2.2.1, y ∈ pc.1.set :=
  View.cover_of_tiledL (runC4 V c t h0 h1 xs0 xs1).2.2.2.1 S8x1.size (by sl_kernel_rfl) y
def out4_C_3 (c : Dev nD) (t : Fin cfg4.N) (h0 : ¬t.val % 2 = 0) (h1 : t.val % 2 = 1) (xs0 xs1 : Vec F S8x16 .f32) : Vec F S8x16 .f32 :=
  VO4_3.read (Elt F) (VO4_3.writes (Elt F) VO4_3.junk (runC4 V c t h0 h1 xs0 xs1).1)
def out4_C_4 (c : Dev nD) (t : Fin cfg4.N) (h0 : ¬t.val % 2 = 0) (h1 : t.val % 2 = 1) (xs0 xs1 : Vec F S8x16 .f32) : Vec F S8x16 .f32 :=
  VO4_4.read (Elt F) (VO4_4.writes (Elt F) VO4_4.junk (runC4 V c t h0 h1 xs0 xs1).2.1)
def sout4_C_0 (c : Dev nD) (t : Fin cfg4.N) (h0 : ¬t.val % 2 = 0) (h1 : t.val % 2 = 1) (xs0 xs1 : Vec F S8x16 .f32) : Vec F S8x16 .f32 :=
  VS4_0.read (Elt F) (VS4_0.writes (Elt F) VS4_0.junk (runC4 V c t h0 h1 xs0 xs1).2.2.1)
def sout4_C_1 (c : Dev nD) (t : Fin cfg4.N) (h0 : ¬t.val % 2 = 0) (h1 : t.val % 2 = 1) (xs0 xs1 : Vec F S8x16 .f32) : Vec F S8x16 .f32 :=
  VS4_1.read (Elt F) (VS4_1.writes (Elt F) VS4_1.junk (runC4 V c t h0 h1 xs0 xs1).2.2.2.1)

def idleOut4_3 : Vec F S8x16 .f32 := VO4_3.read (Elt F) VO4_3.junk
def idleOut4_4 : Vec F S8x16 .f32 := VO4_4.read (Elt F) VO4_4.junk

def outsAt4 (c : Dev nD) : (n : ℕ) → n < cfg4.N → Vec F S8x16 .f32 × Vec F S8x16 .f32 × Vec F S8x16 .f32 × Vec F S8x16 .f32
  | 0, hn => (idleOut4_3, idleOut4_4, sout4_A_0 V c ⟨0, hn⟩ (Nat.zero_mod _) (by show ¬0 % 2 = 1; decide), sout4_A_1 V c ⟨0, hn⟩ (Nat.zero_mod _) (by show ¬0 % 2 = 1; decide))
  | n + 1, hn =>
    if h0 : (n + 1) % 2 = 0 then
      if h1 : (n + 1) % 2 = 1 then
        False.elim (by omega)
      else
        (idleOut4_3, idleOut4_4, sout4_A_0 V c ⟨n + 1, hn⟩ h0 h1, sout4_A_1 V c ⟨n + 1, hn⟩ h0 h1)
    else
      if h1 : (n + 1) % 2 = 1 then
        (out4_C_3 V c ⟨n + 1, hn⟩ h0 h1 (outsAt4 c n (Nat.lt_of_succ_lt hn)).2.2.1 (outsAt4 c n (Nat.lt_of_succ_lt hn)).2.2.2,
         out4_C_4 V c ⟨n + 1, hn⟩ h0 h1 (outsAt4 c n (Nat.lt_of_succ_lt hn)).2.2.1 (outsAt4 c n (Nat.lt_of_succ_lt hn)).2.2.2,
         sout4_C_0 V c ⟨n + 1, hn⟩ h0 h1 (outsAt4 c n (Nat.lt_of_succ_lt hn)).2.2.1 (outsAt4 c n (Nat.lt_of_succ_lt hn)).2.2.2,
         sout4_C_1 V c ⟨n + 1, hn⟩ h0 h1 (outsAt4 c n (Nat.lt_of_succ_lt hn)).2.2.1 (outsAt4 c n (Nat.lt_of_succ_lt hn)).2.2.2)
      else
        (idleOut4_3, idleOut4_4,
         sout4_B_0 V c ⟨n + 1, hn⟩ h0 h1 (outsAt4 c n (Nat.lt_of_succ_lt hn)).2.2.1 (outsAt4 c n (Nat.lt_of_succ_lt hn)).2.2.2,
         sout4_B_1 V c ⟨n + 1, hn⟩ h0 h1 (outsAt4 c n (Nat.lt_of_succ_lt hn)).2.2.1 (outsAt4 c n (Nat.lt_of_succ_lt hn)).2.2.2)

abbrev prev4_0 (c : Dev nD) (t : Fin cfg4.N) : Vec F S8x16 .f32 := (outsAt4 V c (t.val - 1) (Nat.lt_of_le_of_lt (Nat.sub_le _ _) t.isLt)).2.2.1
abbrev prev4_1 (c : Dev nD) (t : Fin cfg4.N) : Vec F S8x16 .f32 := (outsAt4 V c (t.val - 1) (Nat.lt_of_le_of_lt (Nat.sub_le _ _) t.isLt)).2.2.2

theorem outsAt4_A (c : Dev nD) (t : Fin cfg4.N) (h0 : t.val % 2 = 0) (h1 : ¬t.val % 2 = 1) :
    outsAt4 V c t.val t.isLt = (idleOut4_3, idleOut4_4, sout4_A_0 V c t h0 h1, sout4_A_1 V c t h0 h1) := by
  obtain ⟨n, hn⟩ := t
  cases n with
  | zero => exact rfl
  | succ n => exact (dif_pos h0).trans ((dif_neg h1).trans rfl)

theorem outsAt4_B (c : Dev nD) (t : Fin cfg4.N) (h0 : ¬t.val % 2 = 0) (h1 : ¬t.val % 2 = 1) :
    outsAt4 V c t.val t.isLt = (idleOut4_3, idleOut4_4, sout4_B_0 V c t h0 h1 (prev4_0 V c t) (prev4_1 V c t), sout4_B_1 V c t h0 h1 (prev4_0 V c t) (prev4_1 V c t)) := by
  obtain ⟨n, hn⟩ := t
  cases n with
  | zero => exact absurd (Nat.zero_mod _) h0
  | succ n => exact (dif_neg h0).trans ((dif_neg h1).trans rfl)

theorem outsAt4_C (c : Dev nD) (t : Fin cfg4.N) (h0 : ¬t.val % 2 = 0) (h1 : t.val % 2 = 1) :
    outsAt4 V c t.val t.isLt = (out4_C_3 V c t h0 h1 (prev4_0 V c t) (prev4_1 V c t), out4_C_4 V c t h0 h1 (prev4_0 V c t) (prev4_1 V c t), sout4_C_0 V c t h0 h1 (prev4_0 V c t) (prev4_1 V c t), sout4_C_1 V c t h0 h1 (prev4_0 V c t) (prev4_1 V c t)) := by
  obtain ⟨n, hn⟩ := t
  cases n with
  | zero => exact absurd (Nat.zero_mod _) h0
  | succ n => exact (dif_neg h0).trans ((dif_pos h1).trans rfl)

abbrev rest4 (c : Dev nD) : sProp 𝕄 :=
  Pipeline.scopedRestBut (Ix := Unit) (Name := ℕ) (U := UR sig nD τ) (Lvl := ℕ) (Val := Elt F) spec4 c [cc4_scratch0, cc4_scratch1]

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ rest4 c) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem q_eq4 (c : Dev nD) (w : Fin cfg4.W) : (dat4 V c).q w = fullShare := rfl

theorem owed_eq4 (c : Dev nD) (t : Fin (cfg4.N + 1)) : (dat4 V c).owed t = 0 := rfl

theorem recorded_eq4 (c : Dev nD) (t : Fin (cfg4.N + 1)) : (dat4 V c).recorded t = Set.univ := rfl

theorem after4_3 (c : Dev nD) (t : Fin cfg4.N) : (dat4 V c).after 3 t = (outsAt4 V c t.val t.isLt).1 := rfl
theorem after4_4 (c : Dev nD) (t : Fin cfg4.N) : (dat4 V c).after 4 t = (outsAt4 V c t.val t.isLt).2.1 := rfl

theorem hin4 (c : Dev nD) : (Pipeline.ΦA spec4 c : sProp 𝕄) ⊢ (dat4 V c).Φ 0 := .rfl

-- The invariant at any position entails the entry invariant: the accumulators' contents are forgotten.
theorem Phi_out4 (c : Dev nD) (t : Fin (cfg4.N + 1)) : (dat4 V c).Φ t ⊢ (Pipeline.ΦA spec4 c : sProp 𝕄) := by
  obtain ⟨_ | n, hn⟩ := t
  · exact .rfl
  rw [PhiA4_eq]
  show iprop(((_ ∗ _) ∗ _) ∗ _) ⊢ _
  iintro ⟨⟨⟨HS0, HS1⟩, Hrest⟩, Hg⟩
  iframe Hrest Hg
  isplitl [HS0] <;> iexists _ <;> iassumption

theorem hout4 (c : Dev nD) : (dat4 V c).Φ (Fin.last cfg4.N) ⊢ (Pipeline.ΦA spec4 c : sProp 𝕄) := Phi_out4 V c _

-- Past the first point the invariant names the accumulators at what the point before left.
theorem Phi_pos4 (c : Dev nD) (t : Fin cfg4.N) (hz : t.val ≠ 0) :
    (dat4 V c).Φ t.castSucc = iprop(((owns (c : Thread nD τ) scM4_0 fullShare (prev4_0 V c t) ∗ owns (c : Thread nD τ) scM4_1 fullShare (prev4_1 V c t)) ∗ rest4 c) ∗ ∃ r, prngReg c r) := by
  obtain ⟨_ | n, hn⟩ := t
  · exact absurd rfl hz
  · rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
-- The residue of the point says which run applies; the accumulators come from the invariant and go back tiled by the run's pieces.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0_of V (dat4 V c) rfl (fun _ => rfl) t, before4_1_of V (dat4 V c) rfl (fun _ => rfl) t, before4_2_of V (dat4 V c) rfl (fun _ => rfl) t]
  rw [show (dat4 V c).owesAt () t.succ = (dat4 V c).owesAt () t.castSucc from rfl,
    show (dat4 V c).Φ t.succ = iprop(((owns (c : Thread nD τ) scM4_0 fullShare (outsAt4 V c t.val t.isLt).2.2.1 ∗ owns (c : Thread nD τ) scM4_1 fullShare (outsAt4 V c t.val t.isLt).2.2.2) ∗ rest4 c) ∗ ∃ r, prngReg c r) from rfl,
    show (dat4 V c).leavesExact 0 t = owns (c : Thread nD τ) (ms4_0 t) fullShare (iblk4 V c 0 t) from rfl,
    show (dat4 V c).leavesExact 1 t = owns (c : Thread nD τ) (ms4_1 t) fullShare (iblk4 V c 1 t) from rfl,
    show (dat4 V c).leavesExact 2 t = owns (c : Thread nD τ) (ms4_2 t) fullShare (iblk4 V c 2 t) from rfl]
  by_cases h1 : t.val % 2 = 1
  · have h0 : ¬t.val % 2 = 0 := by omega
    have hc := (hcond4_1 t).mpr h1
    rw [show (dat4 V c).leavesExact 3 t = owns (c : Thread nD τ) (ms4_3 t) fullShare (outsAt4 V c t.val t.isLt).1 from by
        unfold Dat.leavesExact; rw [liveAt4_3 t hc]; rfl,
      show (dat4 V c).leavesExact 4 t = owns (c : Thread nD τ) (ms4_4 t) fullShare (outsAt4 V c t.val t.isLt).2.1 from by
        unfold Dat.leavesExact; rw [liveAt4_4 t hc]; rfl,
      outsAt4_C V c t h0 h1, Phi_pos4 V c t fun e => h0 (by rw [e])]
    unfold out4_C_3 out4_C_4 sout4_C_0 sout4_C_1; dsimp only
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runC4 V c t h0 h1 _ _).2.2.2.2 Set.univ _
    iframe H0 H1 H2 HS0 HS1
    isplitl [H3]; · iexists _; iexact H3
    isplitl [H4]; · iexists _; iexact H4
    iintro ⟨H0, H1, H2, ⟨%f3, H3⟩, ⟨%f4, H4⟩, ⟨%f0, HS0⟩, ⟨%f1, HS1⟩⟩
    iframe Hrest Hg Ho H0 H1 H2
    isplitl [HS0 HS1]
    · isplitl [HS0]
      · ihave H' := (Ring.owns_of_writes_tiledL VS4_0 S8x1.size) $$ HS0; iapply H'; ipureintro; sl_kernel_rfl
      · ihave H' := (Ring.owns_of_writes_tiledL VS4_1 S8x1.size) $$ HS1; iapply H'; ipureintro; sl_kernel_rfl
    isplitl [H3]
    · ihave H' := (Ring.owns_of_writes_tiledL VO4_3 S8x16.size) $$ H3; iapply H'; ipureintro; sl_kernel_rfl
    · ihave H' := (Ring.owns_of_writes_tiledL VO4_4 S8x16.size) $$ H4; iapply H'; ipureintro; sl_kernel_rfl
  have hc : ¬cond4_1 (grid4.coords t) := fun h => h1 ((hcond4_1 t).mp h)
  rw [Dat.leavesExact_idle _ 3 t (idleAt4_3 t hc) (noFlush4_3 t hc), Dat.leavesExact_idle _ 4 t (idleAt4_4 t hc) (noFlush4_4 t hc)]
  by_cases h0 : t.val % 2 = 0
  on_goal 1 =>
    rw [outsAt4_A V c t h0 h1]; unfold sout4_A_0 sout4_A_1; dsimp only
    refine (sep_mono_left (Phi_out4 V c _)).trans ?_
    rw [PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runA4 V c t h0 h1).2.2.2.2 ((dat4 V c).before 3 t d3) ((dat4 V c).before 4 t d4) Set.univ _
  on_goal 2 =>
    rw [outsAt4_B V c t h0 h1, Phi_pos4 V c t fun e => h0 (by rw [e])]; unfold sout4_B_0 sout4_B_1; dsimp only
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runB4 V c t h0 h1 (prev4_0 V c t) (prev4_1 V c t)).2.2.2.2 ((dat4 V c).before 3 t d3) ((dat4 V c).before 4 t d4) Set.univ _
  all_goals
    iframe H0 H1 H2 H3 H4 HS0 HS1
    iintro ⟨H0, H1, H2, H3, H4, ⟨%f0, HS0⟩, ⟨%f1, HS1⟩⟩
    iframe Hrest Hg Ho H0 H1 H2
    isplitl [HS0 HS1]
    · isplitl [HS0]
      · ihave H' := (Ring.owns_of_writes_tiledL VS4_0 S8x1.size) $$ HS0; iapply H'; ipureintro; sl_kernel_rfl
      · ihave H' := (Ring.owns_of_writes_tiledL VS4_1 S8x1.size) $$ HS1; iapply H'; ipureintro; sl_kernel_rfl
    isplitl [H3] <;> iexists _ <;> iassumption

theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.KI.P2Runs5.lean ====
import proofs.«413171_j1022202216836_1_alg».proof.Proof.Gen.KernelIdeal.Launch
import proofs.«413171_j1022202216836_1_alg».proof.Proof.Gen.KernelIdeal.Points
import proofs.«413171_j1022202216836_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 1).val) 0#32)) 0#32) = 1#1

theorem hcond5_0 : ∀ t : Fin cfg5.N, cond5_0 (grid5.coords t) ↔ t.val % 1 = 0 :=
  (by decide +kernel : ∀ t : Fin grid5.N, cond5_0 (grid5.coords t) ↔ t.val % 1 = 0)

abbrev cond5_1 (i : grid5.Coords) : Prop := k5_cond2 i = 1#1

theorem hcond5_1 : ∀ t : Fin cfg5.N, cond5_1 (grid5.coords t) ↔ t.val % 1 = 0 :=
  (by decide +kernel : ∀ t : Fin grid5.N, cond5_1 (grid5.coords t) ↔ t.val % 1 = 0)

theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

abbrev ms5_0 (t : Fin cfg5.N) : Memref sig .tc .vmem S8x1x256x256 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8x1x256x256 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S8x16 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S8x16 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S8x16 .f32 := win5_4.stage (cfg5.slots t 4)
abbrev hs5_4 (t : Fin cfg5.N) : (ms5_4 t).IsWhole := hstage5_4 ((cfg5.slots t 4).cast nbuf5_4)

abbrev scM5_0 : Memref sig .tc .vmem S8x16 .f32 := Memref.whole cc5_scratch0
abbrev scM5_1 : Memref sig .tc .vmem S8x16 .f32 := Memref.whole cc5_scratch1

abbrev VO5_3 : View sig .tc .vmem S8x16 .f32 := (Memref.whole cc5_stg3_0 : Memref sig .tc .vmem S8x16 .f32).view
abbrev VO5_4 : View sig .tc .vmem S8x16 .f32 := (Memref.whole cc5_stg4_0 : Memref sig .tc .vmem S8x16 .f32).view
abbrev VS5_0 : View sig .tc .vmem S8x16 .f32 := scM5_0.view
abbrev VS5_1 : View sig .tc .vmem S8x16 .f32 := scM5_1.view

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; rfl

end Cert.KernelIdeal.Gen

end
-- ==== Proof.KI.P2Run5.lean ====
import proofs.«413171_j1022202216836_1_alg».proof.Proof.KI.P2Runs5

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun5_D (c : Dev nD) (i : grid5.Coords) (arg2 : Memref sig .tc .vmem S8x1x256x256 .f32) (harg2 : arg2.IsWhole) (arg3 : Memref sig .tc .vmem S8x1x256x256 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : cond5_0 i) (hc1 : cond5_1 i)
    (x0 : Vec F S8x1x256x256 .f32) (x1 : Vec F S8x1x256x256 .i32) (x2 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc5__pass2_kernel i arg2 harg2 arg3 harg3 arg4 harg4 arg5 harg5 arg6 harg6 arg7 harg7 arg8 harg8) K } := by
  refine ⟨?_, ?_, ?_, ?_, fun E K => ?run⟩
  case run =>
    simp only [cc5__pass2_kernel_eq_skeleton]; unfold cc5__pass2_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Gen

end
-- ==== Proof.KI.R5Dat.lean ====
import proofs.«413171_j1022202216836_1_alg».proof.Proof.KI.P2Run5

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev runD5 (c : Dev nD) (t : Fin cfg5.N) :=
  kernelRun5_D (F := F) c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) ((hcond5_0 t).mpr (Nat.mod_one _)) ((hcond5_1 t).mpr (Nat.mod_one _)) (iblk5 V c 0 t) (iblk5 V c 1 t) (iblk5 V c 2 t)

def out5_D_3 (c : Dev nD) (t : Fin cfg5.N) : Vec F S8x16 .f32 := VO5_3.read (Elt F) (VO5_3.writes (Elt F) VO5_3.junk (runD5 V c t).1)
def out5_D_4 (c : Dev nD) (t : Fin cfg5.N) : Vec F S8x16 .f32 := VO5_4.read (Elt F) (VO5_4.writes (Elt F) VO5_4.junk (runD5 V c t).2.1)
def sout5_D_0 (c : Dev nD) (t : Fin cfg5.N) : Vec F S8x16 .f32 := VS5_0.read (Elt F) (VS5_0.writes (Elt F) VS5_0.junk (runD5 V c t).2.2.1)
def sout5_D_1 (c : Dev nD) (t : Fin cfg5.N) : Vec F S8x16 .f32 := VS5_1.read (Elt F) (VS5_1.writes (Elt F) VS5_1.junk (runD5 V c t).2.2.2.1)

def outsAt5 (c : Dev nD) (n : ℕ) (hn : n < cfg5.N) : Vec F S8x16 .f32 × Vec F S8x16 .f32 × Vec F S8x16 .f32 × Vec F S8x16 .f32 :=
  (out5_D_3 V c ⟨n, hn⟩, out5_D_4 V c ⟨n, hn⟩, sout5_D_0 V c ⟨n, hn⟩, sout5_D_1 V c ⟨n, hn⟩)

abbrev rest5 (c : Dev nD) : sProp 𝕄 :=
  Pipeline.scopedRestBut (Ix := Unit) (Name := ℕ) (U := UR sig nD τ) (Lvl := ℕ) (Val := Elt F) spec5 c [cc5_scratch0, cc5_scratch1]

def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.1) ∗ owns (c : Thread nD τ) scM5_1 fullShare ((outsAt5 V c n hn).2.2.2)) ∗ rest5 c) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
    | ⟨4, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem q_eq5 (c : Dev nD) (w : Fin cfg5.W) : (dat5 V c).q w = fullShare := rfl

theorem owed_eq5 (c : Dev nD) (t : Fin (cfg5.N + 1)) : (dat5 V c).owed t = 0 := rfl

theorem recorded_eq5 (c : Dev nD) (t : Fin (cfg5.N + 1)) : (dat5 V c).recorded t = Set.univ := rfl

theorem after5_3 (c : Dev nD) (t : Fin cfg5.N) : (dat5 V c).after 3 t = (outsAt5 V c t.val t.isLt).1 := rfl
theorem after5_4 (c : Dev nD) (t : Fin cfg5.N) : (dat5 V c).after 4 t = (outsAt5 V c t.val t.isLt).2.1 := rfl

theorem hin5 (c : Dev nD) : (Pipeline.ΦA spec5 c : sProp 𝕄) ⊢ (dat5 V c).Φ 0 := .rfl

-- The invariant at any position entails the entry invariant: the accumulators' contents are forgotten.
theorem Phi_out5 (c : Dev nD) (t : Fin (cfg5.N + 1)) : (dat5 V c).Φ t ⊢ (Pipeline.ΦA spec5 c : sProp 𝕄) := by
  obtain ⟨_ | n, hn⟩ := t
  · exact .rfl
  rw [PhiA5_eq]
  show iprop(((_ ∗ _) ∗ _) ∗ _) ⊢ _
  iintro ⟨⟨⟨HS0, HS1⟩, Hrest⟩, Hg⟩
  iframe Hrest Hg
  isplitl [HS0] <;> iexists _ <;> iassumption

theorem hout5 (c : Dev nD) : (dat5 V c).Φ (Fin.last cfg5.N) ⊢ (Pipeline.ΦA spec5 c : sProp 𝕄) := Phi_out5 V c _

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
-- The body at any point: the one run applies from the accumulators at anything, and each buffer it writes is tiled by its pieces.
theorem sound_body5 (c : Dev nD) (t : Fin cfg5.N) :
    bodyPre5 V c t ⊢ wp frame (wpE (defs₀ (F := F)) Variants.none c none) Set.univ (bodyAt5 t) (fun _ => bodyPost5 V c t) := by
  have hc := (hcond5_1 t).mpr (Nat.mod_one _)
  unfold bodyPre5 bodyPost5 bodyAt5
  simp only [before5_0_of V (dat5 V c) rfl (fun _ => rfl) t, before5_1_of V (dat5 V c) rfl (fun _ => rfl) t, before5_2_of V (dat5 V c) rfl (fun _ => rfl) t]
  rw [show (dat5 V c).owesAt () t.succ = (dat5 V c).owesAt () t.castSucc from rfl,
    show (dat5 V c).Φ t.succ = iprop(((owns (c : Thread nD τ) scM5_0 fullShare (sout5_D_0 V c t) ∗ owns (c : Thread nD τ) scM5_1 fullShare (sout5_D_1 V c t)) ∗ rest5 c) ∗ ∃ r, prngReg c r) from rfl,
    show (dat5 V c).leavesExact 0 t = owns (c : Thread nD τ) (ms5_0 t) fullShare (iblk5 V c 0 t) from rfl,
    show (dat5 V c).leavesExact 1 t = owns (c : Thread nD τ) (ms5_1 t) fullShare (iblk5 V c 1 t) from rfl,
    show (dat5 V c).leavesExact 2 t = owns (c : Thread nD τ) (ms5_2 t) fullShare (iblk5 V c 2 t) from rfl,
    show (dat5 V c).leavesExact 3 t = owns (c : Thread nD τ) (ms5_3 t) fullShare (out5_D_3 V c t) from by
      unfold Dat.leavesExact; rw [liveAt5_3 t hc]; rfl,
    show (dat5 V c).leavesExact 4 t = owns (c : Thread nD τ) (ms5_4 t) fullShare (out5_D_4 V c t) from by
      unfold Dat.leavesExact; rw [liveAt5_4 t hc]; rfl]
  unfold out5_D_3 out5_D_4 sout5_D_0 sout5_D_1
  refine (sep_mono_left (Phi_out5 V c _)).trans ?_
  rw [PhiA5_eq]
  iintro ⟨⟨⟨⟨HS0, HS1⟩, Hrest⟩, Hg⟩, Ho, ⟨%d0, H0⟩, ⟨%d1, H1⟩, ⟨%d2, H2⟩, ⟨%d3, H3⟩, ⟨%d4, H4⟩⟩
  iapply (runD5 V c t).2.2.2.2 Set.univ _
  iframe H0 H1 H2 HS0 HS1
  isplitl [H3]; · iexists _; iexact H3
  isplitl [H4]; · iexists _; iexact H4
  iintro ⟨H0, H1, H2, ⟨%f3, H3⟩, ⟨%f4, H4⟩, ⟨%f0, HS0⟩, ⟨%f1, HS1⟩⟩
  iframe Hrest Hg Ho H0 H1 H2
  isplitl [HS0 HS1]
  · isplitl [HS0]
    · ihave H' := (Ring.owns_of_writes_tiledL VS5_0 S8x1.size) $$ HS0; iapply H'; ipureintro; sl_kernel_rfl
    · ihave H' := (Ring.owns_of_writes_tiledL VS5_1 S8x1.size) $$ HS1; iapply H'; ipureintro; sl_kernel_rfl
  isplitl [H3]
  · ihave H' := (Ring.owns_of_writes_tiledL VO5_3 S8x16.size) $$ H3; iapply H'; ipureintro; sl_kernel_rfl
  · ihave H' := (Ring.owns_of_writes_tiledL VO5_4 S8x16.size) $$ H4; iapply H'; ipureintro; sl_kernel_rfl

theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.KI.RunW.lean ====
import proofs.«413171_j1022202216836_1_alg».proof.Proof.Gen.KernelIdeal.Regions
import proofs.«413171_j1022202216836_1_alg».proof.Proof.KI.R0Dat
import proofs.«413171_j1022202216836_1_alg».proof.Proof.KI.R1Dat
import proofs.«413171_j1022202216836_1_alg».proof.Proof.KI.R2Dat
import proofs.«413171_j1022202216836_1_alg».proof.Proof.KI.R3Dat
import proofs.«413171_j1022202216836_1_alg».proof.Proof.KI.R4Dat
import proofs.«413171_j1022202216836_1_alg».proof.Proof.KI.R5Dat
import Idealize.ShloMosaic.Lib.Pipeline.RegionsLoop
import Idealize.ShloMosaic.Lib.Pipeline.FrameSuffix

noncomputable section

namespace Cert.KernelIdeal.Gen

open Idealize.ShloMosaic Idealize.ShloMosaic.TcCoe

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)

abbrev Ventry0 : (c : Dev nD) → (b : Ref sig .tc) → Buf (Elt F) ((c : Thread nD τ).loc b) := fun c b => W0 m ρ c b

def Wafter0 (c : Dev nD) : Valuation τ sig (Elt F) :=
  Pipeline.withArrays spec0 c (W0 m ρ c) fun w => (dat0 (Ventry0 m ρ) c).arrAt w cfg0.N
theorem Wafter0_arr (c : Dev nD) (w : Fin cfg0.W) :
    Wafter0 m ρ c (Proc.devRef .tc (Pipeline.arrRef spec0 w)) = (dat0 (Ventry0 m ρ) c).arrAt w cfg0.N :=
  Pipeline.withArrays_arr spec0 launch0.win.arr_inj c _ _ w
theorem Wafter0_of_ne (c : Dev nD) (b : Ref sig .tc) (hb : ∀ w, Pipeline.arrRef spec0 w ≠ b) :
    Wafter0 m ρ c (Proc.devRef .tc b) = W0 m ρ c (Proc.devRef .tc b) :=
  Pipeline.withArrays_of_ne spec0 c _ _ b hb

theorem Wafter0_in (c : Dev nD) (w : Fin cfg0.W) (hin : (cfg0.win w).isOut = false) :
    Wafter0 m ρ c (Proc.devRef .tc (Pipeline.arrRef spec0 w)) = W0 m ρ c (Proc.devRef .tc (Pipeline.arrRef spec0 w)) :=
  (Wafter0_arr m ρ c w).trans (((dat0 (Ventry0 m ρ) c).arrAt_in w hin _).trans (A_eq0 (Ventry0 m ρ) c w))

abbrev Ventry1 : (c : Dev nD) → (b : Ref sig .tc) → Buf (Elt F) ((c : Thread nD τ).loc b) := fun c b => Wafter0 m ρ c b

def Wafter1 (c : Dev nD) : Valuation τ sig (Elt F) :=
  Pipeline.withArrays spec1 c (Wafter0 m ρ c) fun w => (dat1 (Ventry1 m ρ) c).arrAt w cfg1.N
theorem Wafter1_arr (c : Dev nD) (w : Fin cfg1.W) :
    Wafter1 m ρ c (Proc.devRef .tc (Pipeline.arrRef spec1 w)) = (dat1 (Ventry1 m ρ) c).arrAt w cfg1.N :=
  Pipeline.withArrays_arr spec1 launch1.win.arr_inj c _ _ w
theorem Wafter1_of_ne (c : Dev nD) (b : Ref sig .tc) (hb : ∀ w, Pipeline.arrRef spec1 w ≠ b) :
    Wafter1 m ρ c (Proc.devRef .tc b) = Wafter0 m ρ c (Proc.devRef .tc b) :=
  Pipeline.withArrays_of_ne spec1 c _ _ b hb

theorem Wafter1_in (c : Dev nD) (w : Fin cfg1.W) (hin : (cfg1.win w).isOut = false) :
    Wafter1 m ρ c (Proc.devRef .tc (Pipeline.arrRef spec1 w)) = Wafter0 m ρ c (Proc.devRef .tc (Pipeline.arrRef spec1 w)) :=
  (Wafter1_arr m ρ c w).trans (((dat1 (Ventry1 m ρ) c).arrAt_in w hin _).trans (A_eq1 (Ventry1 m ρ) c w))

abbrev Ventry2 : (c : Dev nD) → (b : Ref sig .tc) → Buf (Elt F) ((c : Thread nD τ).loc b) := fun c b => Wafter1 m ρ c b

def Wafter2 (c : Dev nD) : Valuation τ sig (Elt F) :=
  Pipeline.withArrays spec2 c (Wafter1 m ρ c) fun w => (dat2 (Ventry2 m ρ) c).arrAt w cfg2.N
theorem Wafter2_arr (c : Dev nD) (w : Fin cfg2.W) :
    Wafter2 m ρ c (Proc.devRef .tc (Pipeline.arrRef spec2 w)) = (dat2 (Ventry2 m ρ) c).arrAt w cfg2.N :=
  Pipeline.withArrays_arr spec2 launch2.win.arr_inj c _ _ w
theorem Wafter2_of_ne (c : Dev nD) (b : Ref sig .tc) (hb : ∀ w, Pipeline.arrRef spec2 w ≠ b) :
    Wafter2 m ρ c (Proc.devRef .tc b) = Wafter1 m ρ c (Proc.devRef .tc b) :=
  Pipeline.withArrays_of_ne spec2 c _ _ b hb

theorem Wafter2_in (c : Dev nD) (w : Fin cfg2.W) (hin : (cfg2.win w).isOut = false) :
    Wafter2 m ρ c (Proc.devRef .tc (Pipeline.arrRef spec2 w)) = Wafter1 m ρ c (Proc.devRef .tc (Pipeline.arrRef spec2 w)) :=
  (Wafter2_arr m ρ c w).trans (((dat2 (Ventry2 m ρ) c).arrAt_in w hin _).trans (A_eq2 (Ventry2 m ρ) c w))

abbrev Wh3 : Dev nD → Valuation τ sig (Elt F) := fun c => StableHlo.after hostOps3 (Wafter2 m ρ c)

theorem Wh3_of (c : Dev nD) (r : Ref sig .tc) (h : r ∉ hostOps3_W) : Wh3 m ρ c (Proc.devRef .tc r) = Wafter2 m ρ c (Proc.devRef .tc r) :=
  StableHlo.after_of_writes_sub hostOps3 _ hostOps3_writes h

abbrev Ventry3 : (c : Dev nD) → (b : Ref sig .tc) → Buf (Elt F) ((c : Thread nD τ).loc b) := fun c b => Wh3 m ρ c b

def Wafter3 (c : Dev nD) : Valuation τ sig (Elt F) :=
  Pipeline.withArrays spec3 c (Wh3 m ρ c) fun w => (dat3 (Ventry3 m ρ) c).arrAt w cfg3.N
theorem Wafter3_arr (c : Dev nD) (w : Fin cfg3.W) :
    Wafter3 m ρ c (Proc.devRef .tc (Pipeline.arrRef spec3 w)) = (dat3 (Ventry3 m ρ) c).arrAt w cfg3.N :=
  Pipeline.withArrays_arr spec3 launch3.win.arr_inj c _ _ w
theorem Wafter3_of_ne (c : Dev nD) (b : Ref sig .tc) (hb : ∀ w, Pipeline.arrRef spec3 w ≠ b) :
    Wafter3 m ρ c (Proc.devRef .tc b) = Wh3 m ρ c (Proc.devRef .tc b) :=
  Pipeline.withArrays_of_ne spec3 c _ _ b hb

theorem Wafter3_in (c : Dev nD) (w : Fin cfg3.W) (hin : (cfg3.win w).isOut = false) :
    Wafter3 m ρ c (Proc.devRef .tc (Pipeline.arrRef spec3 w)) = Wh3 m ρ c (Proc.devRef .tc (Pipeline.arrRef spec3 w)) :=
  (Wafter3_arr m ρ c w).trans (((dat3 (Ventry3 m ρ) c).arrAt_in w hin _).trans (A_eq3 (Ventry3 m ρ) c w))

abbrev Wh4 : Dev nD → Valuation τ sig (Elt F) := fun c => StableHlo.after hostOps4 (Wafter3 m ρ c)

theorem Wh4_of (c : Dev nD) (r : Ref sig .tc) (h : r ∉ hostOps4_W) : Wh4 m ρ c (Proc.devRef .tc r) = Wafter3 m ρ c (Proc.devRef .tc r) :=
  StableHlo.after_of_writes_sub hostOps4 _ hostOps4_writes h

abbrev Wh4_1 : Dev nD → Valuation τ sig (Elt F) := fun c => StableHlo.after hostOps4_1 (Wh4 m ρ c)

theorem Wh4_1_of (c : Dev nD) (r : Ref sig .tc) (h : r ∉ hostOps4_1_W) : Wh4_1 m ρ c (Proc.devRef .tc r) = Wh4 m ρ c (Proc.devRef .tc r) :=
  StableHlo.after_of_writes_sub hostOps4_1 _ hostOps4_1_writes h

abbrev Wh4_2 : Dev nD → Valuation τ sig (Elt F) := fun c => StableHlo.after hostOps4_2 (Wh4_1 m ρ c)

theorem Wh4_2_of (c : Dev nD) (r : Ref sig .tc) (h : r ∉ hostOps4_2_W) : Wh4_2 m ρ c (Proc.devRef .tc r) = Wh4_1 m ρ c (Proc.devRef .tc r) :=
  StableHlo.after_of_writes_sub hostOps4_2 _ hostOps4_2_writes h

abbrev Ventry4 : (c : Dev nD) → (b : Ref sig .tc) → Buf (Elt F) ((c : Thread nD τ).loc b) := fun c b => Wh4_2 m ρ c b

def Wafter4 (c : Dev nD) : Valuation τ sig (Elt F) :=
  Pipeline.withArrays spec4 c (Wh4_2 m ρ c) fun w => (dat4 (Ventry4 m ρ) c).arrAt w cfg4.N
theorem Wafter4_arr (c : Dev nD) (w : Fin cfg4.W) :
    Wafter4 m ρ c (Proc.devRef .tc (Pipeline.arrRef spec4 w)) = (dat4 (Ventry4 m ρ) c).arrAt w cfg4.N :=
  Pipeline.withArrays_arr spec4 launch4.win.arr_inj c _ _ w
theorem Wafter4_of_ne (c : Dev nD) (b : Ref sig .tc) (hb : ∀ w, Pipeline.arrRef spec4 w ≠ b) :
    Wafter4 m ρ c (Proc.devRef .tc b) = Wh4_2 m ρ c (Proc.devRef .tc b) :=
  Pipeline.withArrays_of_ne spec4 c _ _ b hb

theorem Wafter4_in (c : Dev nD) (w : Fin cfg4.W) (hin : (cfg4.win w).isOut = false) :
    Wafter4 m ρ c (Proc.devRef .tc (Pipeline.arrRef spec4 w)) = Wh4_2 m ρ c (Proc.devRef .tc (Pipeline.arrRef spec4 w)) :=
  (Wafter4_arr m ρ c w).trans (((dat4 (Ventry4 m ρ) c).arrAt_in w hin _).trans (A_eq4 (Ventry4 m ρ) c w))

abbrev Wh5 : Dev nD → Valuation τ sig (Elt F) := fun c => StableHlo.after hostOps5 (Wafter4 m ρ c)

theorem Wh5_of (c : Dev nD) (r : Ref sig .tc) (h : r ∉ hostOps5_W) : Wh5 m ρ c (Proc.devRef .tc r) = Wafter4 m ρ c (Proc.devRef .tc r) :=
  StableHlo.after_of_writes_sub hostOps5 _ hostOps5_writes h

abbrev Wh5_1 : Dev nD → Valuation τ sig (Elt F) := fun c => StableHlo.after hostOps5_1 (Wh5 m ρ c)

theorem Wh5_1_of (c : Dev nD) (r : Ref sig .tc) (h : r ∉ hostOps5_1_W) : Wh5_1 m ρ c (Proc.devRef .tc r) = Wh5 m ρ c (Proc.devRef .tc r) :=
  StableHlo.after_of_writes_sub hostOps5_1 _ hostOps5_1_writes h

abbrev Wh5_2 : Dev nD → Valuation τ sig (Elt F) := fun c => StableHlo.after hostOps5_2 (Wh5_1 m ρ c)

theorem Wh5_2_of (c : Dev nD) (r : Ref sig .tc) (h : r ∉ hostOps5_2_W) : Wh5_2 m ρ c (Proc.devRef .tc r) = Wh5_1 m ρ c (Proc.devRef .tc r) :=
  StableHlo.after_of_writes_sub hostOps5_2 _ hostOps5_2_writes h

abbrev Ventry5 : (c : Dev nD) → (b : Ref sig .tc) → Buf (Elt F) ((c : Thread nD τ).loc b) := fun c b => Wh5_2 m ρ c b

def Wafter5 (c : Dev nD) : Valuation τ sig (Elt F) :=
  Pipeline.withArrays spec5 c (Wh5_2 m ρ c) fun w => (dat5 (Ventry5 m ρ) c).arrAt w cfg5.N
theorem Wafter5_arr (c : Dev nD) (w : Fin cfg5.W) :
    Wafter5 m ρ c (Proc.devRef .tc (Pipeline.arrRef spec5 w)) = (dat5 (Ventry5 m ρ) c).arrAt w cfg5.N :=
  Pipeline.withArrays_arr spec5 launch5.win.arr_inj c _ _ w
theorem Wafter5_of_ne (c : Dev nD) (b : Ref sig .tc) (hb : ∀ w, Pipeline.arrRef spec5 w ≠ b) :
    Wafter5 m ρ c (Proc.devRef .tc b) = Wh5_2 m ρ c (Proc.devRef .tc b) :=
  Pipeline.withArrays_of_ne spec5 c _ _ b hb

theorem Wafter5_in (c : Dev nD) (w : Fin cfg5.W) (hin : (cfg5.win w).isOut = false) :
    Wafter5 m ρ c (Proc.devRef .tc (Pipeline.arrRef spec5 w)) = Wh5_2 m ρ c (Proc.devRef .tc (Pipeline.arrRef spec5 w)) :=
  (Wafter5_arr m ρ c w).trans (((dat5 (Ventry5 m ρ) c).arrAt_in w hin _).trans (A_eq5 (Ventry5 m ρ) c w))

abbrev Wh6 : Dev nD → Valuation τ sig (Elt F) := fun c => StableHlo.after hostOps6 (Wafter5 m ρ c)

abbrev Wh6_1 : Dev nD → Valuation τ sig (Elt F) := fun c => StableHlo.after hostOps6_1 (Wh6 m ρ c)

abbrev Wh6_2 : Dev nD → Valuation τ sig (Elt F) := fun c => StableHlo.after hostOps6_2 (Wh6_1 m ρ c)

abbrev Wh6_3 : Dev nD → Valuation τ sig (Elt F) := fun c => StableHlo.after hostOps6_3 (Wh6_2 m ρ c)

abbrev Wh6_4 : Dev nD → Valuation τ sig (Elt F) := fun c => StableHlo.after hostOps6_4 (Wh6_3 m ρ c)

abbrev Wh6_5 : Dev nD → Valuation τ sig (Elt F) := fun c => StableHlo.after hostOps6_5 (Wh6_4 m ρ c)

abbrev Wh6_6 : Dev nD → Valuation τ sig (Elt F) := fun c => StableHlo.after hostOps6_6 (Wh6_5 m ρ c)

abbrev Wend : Dev nD → Valuation τ sig (Elt F) := Wh6_6 m ρ

/-- By cases on whether `r` is one of the arrays `ar w`: either way `X` and `Y` agree at it. -/
theorem keep_region {W : ℕ} {ar : Fin W → Ref sig .tc} {out : Fin W → Bool} {X Y : Valuation τ sig (Elt F)} (r : Ref sig .tc)
    (hin : ∀ w, out w = false → X (Proc.devRef .tc (ar w)) = Y (Proc.devRef .tc (ar w)))
    (hne : ∀ b, (∀ w, ar w ≠ b) → X (Proc.devRef .tc b) = Y (Proc.devRef .tc b))
    (h : ∀ w, ar w = r → out w = false) : X (Proc.devRef .tc r) = Y (Proc.devRef .tc r) := by
  by_cases e : ∃ w, ar w = r
  · obtain ⟨w, rfl⟩ := e; exact hin w (h w rfl)
  · exact hne r fun w ew => e ⟨w, ew⟩

/-- A buffer none of the twenty items writes ends as launched. -/
theorem Wend_keep (c : Dev nD) (r : Ref sig .tc)
    (h : r ∉ hostOps3_W ∧ r ∉ hostOps4_W ∧ r ∉ hostOps4_1_W ∧ r ∉ hostOps4_2_W ∧ r ∉ hostOps5_W ∧ r ∉ hostOps5_1_W ∧ r ∉ hostOps5_2_W
      ∧ r ∉ hostOps6_W ∧ r ∉ hostOps6_1_W ∧ r ∉ hostOps6_2_W ∧ r ∉ hostOps6_3_W ∧ r ∉ hostOps6_4_W ∧ r ∉ hostOps6_5_W ∧ r ∉ hostOps6_6_W
      ∧ (∀ w, Pipeline.arrRef spec0 w = r → (cfg0.win w).isOut = false) ∧ (∀ w, Pipeline.arrRef spec1 w = r → (cfg1.win w).isOut = false)
      ∧ (∀ w, Pipeline.arrRef spec2 w = r → (cfg2.win w).isOut = false) ∧ (∀ w, Pipeline.arrRef spec3 w = r → (cfg3.win w).isOut = false)
      ∧ (∀ w, Pipeline.arrRef spec4 w = r → (cfg4.win w).isOut = false) ∧ ∀ w, Pipeline.arrRef spec5 w = r → (cfg5.win w).isOut = false) :
    Wend m ρ c (Proc.devRef .tc r) = m ((c : Thread nD τ).loc r) := by
  obtain ⟨a3, a4, a41, a42, a5, a51, a52, a6, a61, a62, a63, a64, a65, a66, b0, b1, b2, b3, b4, b5⟩ := h
  exact (StableHlo.after_of_writes_sub hostOps6_6 _ hostOps6_6_writes a66).trans <|
    (StableHlo.after_of_writes_sub hostOps6_5 _ hostOps6_5_writes a65).trans <|
    (StableHlo.after_of_writes_sub hostOps6_4 _ hostOps6_4_writes a64).trans <|
    (StableHlo.after_of_writes_sub hostOps6_3 _ hostOps6_3_writes a63).trans <|
    (StableHlo.after_of_writes_sub hostOps6_2 _ hostOps6_2_writes a62).trans <|
    (StableHlo.after_of_writes_sub hostOps6_1 _ hostOps6_1_writes a61).trans <|
    (StableHlo.after_of_writes_sub hostOps6 _ hostOps6_writes a6).trans <|
    (keep_region r (Wafter5_in m ρ c) (Wafter5_of_ne m ρ c) b5).trans <|
    (Wh5_2_of m ρ c r a52).trans <| (Wh5_1_of m ρ c r a51).trans <| (Wh5_of m ρ c r a5).trans <|
    (keep_region r (Wafter4_in m ρ c) (Wafter4_of_ne m ρ c) b4).trans <|
    (Wh4_2_of m ρ c r a42).trans <| (Wh4_1_of m ρ c r a41).trans <| (Wh4_of m ρ c r a4).trans <|
    (keep_region r (Wafter3_in m ρ c) (Wafter3_of_ne m ρ c) b3).trans <| (Wh3_of m ρ c r a3).trans <|
    (keep_region r (Wafter2_in m ρ c) (Wafter2_of_ne m ρ c) b2).trans <|
    (keep_region r (Wafter1_in m ρ c) (Wafter1_of_ne m ρ c) b1).trans <|
    keep_region r (Wafter0_in m ρ c) (Wafter0_of_ne m ρ c) b0

theorem Wend_main_arg0 (c : Dev nD) : Wend m ρ c (Proc.devRef .tc main_arg0) = m ((c : Thread nD τ).loc main_arg0) :=
  Wend_keep m ρ c main_arg0 (by decide)
theorem Wend_main_arg1 (c : Dev nD) : Wend m ρ c (Proc.devRef .tc main_arg1) = m ((c : Thread nD τ).loc main_arg1) :=
  Wend_keep m ρ c main_arg1 (by decide)
theorem Wend_main_arg2 (c : Dev nD) : Wend m ρ c (Proc.devRef .tc main_arg2) = m ((c : Thread nD τ).loc main_arg2) :=
  Wend_keep m ρ c main_arg2 (by decide)
theorem Wend_main_arg3 (c : Dev nD) : Wend m ρ c (Proc.devRef .tc main_arg3) = m ((c : Thread nD τ).loc main_arg3) :=
  Wend_keep m ρ c main_arg3 (by decide)
theorem Wend_main_arg4 (c : Dev nD) : Wend m ρ c (Proc.devRef .tc main_arg4) = m ((c : Thread nD τ).loc main_arg4) :=
  Wend_keep m ρ c main_arg4 (by decide)
theorem Wend_main_arg5 (c : Dev nD) : Wend m ρ c (Proc.devRef .tc main_arg5) = m ((c : Thread nD τ).loc main_arg5) :=
  Wend_keep m ρ c main_arg5 (by decide)

end Cert.KernelIdeal.Gen

end
-- ==== Proof.KI.RunRegs.lean ====
import proofs.«413171_j1022202216836_1_alg».proof.Proof.KI.RunW
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Gen

open Idealize.ShloMosaic Idealize.ShloMosaic.TcCoe
open Idealize.SL Idealize.SL.RA Idealize.SL.BI
open Idealize.SL.BI.BIBase Idealize.SL.ProofMode
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 6) → (c : Dev nD) → Dat τ (Elt F) Unit ℕ (UR sig nD τ) ℕ (Pipeline.pin (pcfgs (F := F)) adm p) c
  | ⟨0, _⟩ => fun c => dat0 (Ventry0 m ρ) c
  | ⟨1, _⟩ => fun c => dat1 (Ventry1 m ρ) c
  | ⟨2, _⟩ => fun c => dat2 (Ventry2 m ρ) c
  | ⟨3, _⟩ => fun c => dat3 (Ventry3 m ρ) c
  | ⟨4, _⟩ => fun c => dat4 (Ventry4 m ρ) c
  | ⟨5, _⟩ => fun c => dat5 (Ventry5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem owesAt_intro {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩; iexists W; isplitr
  · ipureintro; exact fun x _ => Or.inl (by rw [hr]; exact Set.mem_univ x)
  iexact HO

theorem owesAt_elim {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

set_option backward.isDefEq.respectTransparency.types false in
/-- The one constructor of all six regions' segments, from entry contents `Wi`, exit contents `Wo` and the facts of the region's proof data. -/
def mkReg (p : Fin 6) (lf : Pipeline.LaunchFacts (nD := nD) (τ := τ) cfgs p) (Wi Wo : Dev nD → Valuation τ sig (Elt F))
    (harr : ∀ c w, Wo c (Proc.devRef .tc (Pipeline.arrRef (cfgs p).spec w)) = (pdats m ρ p c).arrAt w (cfgs p).N)
    (hne : ∀ c b, (∀ w, Pipeline.arrRef (cfgs p).spec w ≠ b) → Wo c (Proc.devRef .tc b) = Wi c (Proc.devRef .tc b))
    (hB : ∀ c, BodyObligation (pdats m ρ p c) (defs₀ (F := F)) Variants.none () Set.univ)
    (hO : ∀ c t, (pdats m ρ p c).owed t = 0) (hR : ∀ c, (pdats m ρ p c).recorded 0 = Set.univ)
    (hQ : ∀ c w, (pdats m ρ p c).q w = fullShare)
    (hA : ∀ c w, (pdats m ρ p c).A w = Wi c (Proc.devRef .tc (Pipeline.arrRef (cfgs p).spec w)))
    (hI : ∀ c, (Pipeline.ΦA (cfgs p).spec c : sProp 𝕄) ⊢ (pdats m ρ p c).Φ 0)
    (hU : ∀ c, (pdats m ρ p c).Φ (Fin.last (cfgs p).N) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hB c).loose
  hwaits := Pipeline.hwaits_of_owed_zero _ _ _ _ L lv p hO
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hQ c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m ρ p c) 0 (hO c 0) (hR c))
      iexact HO
    isplitl [Hp]; · iexact Hp
    iexact Hrest
  hin c := by
    refine BIBase.Entails.trans ?_ (hI c)
    unfold Pipeline.ΦA
    iintro ⟨Hp, -, Hr⟩
    isplitl [Hr]; · iexact Hr
    iexact Hp
  hout c := by
    rw [Pipeline.ownSems0_none]
    refine BIBase.Entails.trans (hU c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hQ c)) (fun b => Wi c b) (fun b => Wo c b)
      ((pdats m ρ p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m ρ p c) (Fin.last (cfgs p).N) (hO c _))
    iexact HO

set_option backward.isDefEq.respectTransparency.types false in
def reg0 :=
  mkReg m ρ 0 launch0 (W0 m ρ) (Wafter0 m ρ) (Wafter0_arr m ρ) (Wafter0_of_ne m ρ) (body_obligation0 (Ventry0 m ρ)) (owed_eq0 _)
    (recorded_eq0 _ · 0) (q_eq0 _) (A_eq0 _) (hin0 _) (hout0 _)

set_option backward.isDefEq.respectTransparency.types false in
def reg1 :=
  mkReg m ρ 1 launch1 (Wafter0 m ρ) (Wafter1 m ρ) (Wafter1_arr m ρ) (Wafter1_of_ne m ρ) (body_obligation1 (Ventry1 m ρ)) (owed_eq1 _)
    (recorded_eq1 _ · 0) (q_eq1 _) (A_eq1 _) (hin1 _) (hout1 _)

set_option backward.isDefEq.respectTransparency.types false in
def reg2 :=
  mkReg m ρ 2 launch2 (Wafter1 m ρ) (Wafter2 m ρ) (Wafter2_arr m ρ) (Wafter2_of_ne m ρ) (body_obligation2 (Ventry2 m ρ)) (owed_eq2 _)
    (recorded_eq2 _ · 0) (q_eq2 _) (A_eq2 _) (hin2 _) (hout2 _)

set_option backward.isDefEq.respectTransparency.types false in
def reg3 :=
  mkReg m ρ 3 launch3 (Wh3 m ρ) (Wafter3 m ρ) (Wafter3_arr m ρ) (Wafter3_of_ne m ρ) (body_obligation3 (Ventry3 m ρ)) (owed_eq3 _)
    (recorded_eq3 _ · 0) (q_eq3 _) (A_eq3 _) (hin3 _) (hout3 _)

set_option backward.isDefEq.respectTransparency.types false in
def reg4 :=
  mkReg m ρ 4 launch4 (Wh4_2 m ρ) (Wafter4 m ρ) (Wafter4_arr m ρ) (Wafter4_of_ne m ρ) (body_obligation4 (Ventry4 m ρ)) (owed_eq4 _)
    (recorded_eq4 _ · 0) (q_eq4 _) (A_eq4 _) (hin4 _) (hout4 _)

set_option backward.isDefEq.respectTransparency.types false in
def reg5 :=
  mkReg m ρ 5 launch5 (Wh5_2 m ρ) (Wafter5 m ρ) (Wafter5_arr m ρ) (Wafter5_of_ne m ρ) (body_obligation5 (Ventry5 m ρ)) (owed_eq5 _)
    (recorded_eq5 _ · 0) (q_eq5 _) (A_eq5 _) (hin5 _) (hout5 _)

end Cert.KernelIdeal.Gen

end
-- ==== Proof.KI.Run.lean ====
import proofs.«413171_j1022202216836_1_alg».proof.Proof.KI.RunRegs
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Gen

open Idealize.ShloMosaic Idealize.ShloMosaic.TcCoe
open Idealize.SL Idealize.SL.BI
open Idealize.SL.BI.BIBase Idealize.SL.ProofMode
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Tₙ (c : Dev nD) : sProp 𝕄 := iprop(StableHlo.held (c : Thread nD τ) (Pipeline.ucRefs τ sig) (Wend m ρ c) ∗ ∃ r, prngReg c r)

abbrev runSegs : List (Pipeline.Seg (pcfgs (F := F)) adm (pdats m ρ) () defs₀ 𝒱₀ L lv) :=
  [ .region (reg0 m ρ),
    .region (reg1 m ρ),
    .region (reg2 m ρ),
    .host (hseg hostOps3 hostOps3_sub hostOps3_fresh (Wafter2 m ρ)),
    .region (reg3 m ρ),
    .host (hseg hostOps4 hostOps4_sub hostOps4_fresh (Wafter3 m ρ)),
    .host (hseg hostOps4_1 hostOps4_1_sub hostOps4_1_fresh (Wh4 m ρ)),
    .host (hseg hostOps4_2 hostOps4_2_sub hostOps4_2_fresh (Wh4_1 m ρ)),
    .region (reg4 m ρ),
    .host (hseg hostOps5 hostOps5_sub hostOps5_fresh (Wafter4 m ρ)),
    .host (hseg hostOps5_1 hostOps5_1_sub hostOps5_1_fresh (Wh5 m ρ)),
    .host (hseg hostOps5_2 hostOps5_2_sub hostOps5_2_fresh (Wh5_1 m ρ)),
    .region (reg5 m ρ),
    .host (hseg hostOps6 hostOps6_sub hostOps6_fresh (Wafter5 m ρ)),
    .host (hseg hostOps6_1 hostOps6_1_sub hostOps6_1_fresh (Wh6 m ρ)),
    .host (hseg hostOps6_2 hostOps6_2_sub hostOps6_2_fresh (Wh6_1 m ρ)),
    .host (hseg hostOps6_3 hostOps6_3_sub hostOps6_3_fresh (Wh6_2 m ρ)),
    .host (hseg hostOps6_4 hostOps6_4_sub hostOps6_4_fresh (Wh6_3 m ρ)),
    .host (hseg hostOps6_5 hostOps6_5_sub hostOps6_5_fresh (Wh6_4 m ρ)),
    .host (hseg hostOps6_6 hostOps6_6_sub hostOps6_6_fresh (Wh6_5 m ρ)) ]

theorem runSegs_pipes : Pipeline.Seg.pipes (runSegs m ρ) = [0, 1, 2, 3, 4, 5] := rfl

theorem main_run (c : Dev nD) : main (F := F) c = Pipeline.Seg.run (runSegs m ρ) := by
  rw [main_chain c, Pipeline.Seg.run_eq_chain]; rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  Pipeline.θ_run_regions_kit (pcfgs (F := F)) adm (pdats m ρ) () cellOf_inj emb₁ defs₀ 𝒱₀ L lv m ρ main (runSegs m ρ)
    (fun c Q => by rw [main_run m ρ c])
    (by rw [runSegs_pipes]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun _ h => h)

end Cert.KernelIdeal.Gen

end
-- ==== Proof.K.P1Runs0.lean ====
import proofs.«413171_j1022202216836_1_alg».proof.Proof.Gen.Kernel.Launch
import proofs.«413171_j1022202216836_1_alg».proof.Proof.Gen.Kernel.Points
import proofs.«413171_j1022202216836_1_alg».proof.Proof.Gen.Kernel.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (t : Fin cfg0.N) (d) : dat.before 0 t d = iblk0 V c 0 t :=
  (dat.before_fetched 0 t (fetch0_0 t) d).trans (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (t : Fin cfg0.N) (d) : dat.before 1 t d = iblk0 V c 1 t :=
  (dat.before_fetched 1 t (fetch0_1 t) d).trans (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

abbrev VO0_2 : View sig .tc .vmem S8x16 .f32 := (Memref.whole cc0_stg2_0 : Memref sig .tc .vmem S8x16 .f32).view
abbrev VO0_3 : View sig .tc .vmem S8x16 .f32 := (Memref.whole cc0_stg3_0 : Memref sig .tc .vmem S8x16 .f32).view
abbrev ms0_0 (t : Fin cfg0.N) : Memref sig .tc .vmem S8x1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1x256x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x16 .f32 := win0_3.stage (cfg0.slots t 3)
abbrev hs0_3 (t : Fin cfg0.N) : (ms0_3 t).IsWhole := hstage0_3 ((cfg0.slots t 3).cast nbuf0_3)

abbrev scM0_0 : Memref sig .tc .vmem S8x16 .f32 := Memref.whole cc0_scratch0
abbrev scM0_1 : Memref sig .tc .vmem S8x16 .f32 := Memref.whole cc0_scratch1
abbrev VS0_0 : View sig .tc .vmem S8x16 .f32 := scM0_0.view
abbrev VS0_1 : View sig .tc .vmem S8x16 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Gen

end
-- ==== Proof.K.P1Run0A.lean ====
import proofs.«413171_j1022202216836_1_alg».proof.Proof.K.P1Runs0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : cond0_0 i) (hc1 : ¬cond0_1 i)
    (x0 : Vec F S8x1x256x1024 .f32) (x1 : Vec F S8x1x256x1024 .i32) :
    Σ' (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Gen

end
-- ==== Proof.K.P1Run0B.lean ====
import proofs.«413171_j1022202216836_1_alg».proof.Proof.K.P1Run0A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : ¬cond0_0 i) (hc1 : ¬cond0_1 i)
    (x0 : Vec F S8x1x256x1024 .f32) (x1 : Vec F S8x1x256x1024 .i32) (xs0 : Vec F S8x16 .f32) (xs1 : Vec F S8x16 .f32) :
    Σ' (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Gen

end
-- ==== Proof.K.P1Run0C.lean ====
import proofs.«413171_j1022202216836_1_alg».proof.Proof.K.P1Run0B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : ¬cond0_0 i) (hc1 : cond0_1 i)
    (x0 : Vec F S8x1x256x1024 .f32) (x1 : Vec F S8x1x256x1024 .i32) (xs0 : Vec F S8x16 .f32) (xs1 : Vec F S8x16 .f32) :
    Σ' (L2 : List (View.Piece (Elt F) S8x16 .f32)) (L3 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7) K } := by
  refine ⟨?_, ?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Gen

end
-- ==== Proof.K.P1Outs0.lean ====
import proofs.«413171_j1022202216836_1_alg».proof.Proof.K.P1Run0C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid0.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole)
variable (x0 : Vec F S8x1x256x1024 .f32) (x1 : Vec F S8x1x256x1024 .i32) (xs0 xs1 : Vec F S8x16 .f32)

def sout0_A_0 (hc0 : cond0_0 i) (hc1 : ¬cond0_1 i) : Vec F S8x16 .f32 :=
  VS0_0.read (Elt F) (VS0_0.writes (Elt F) VS0_0.junk (kernelRun0_A c i arg2 harg2 arg3 harg3 arg4 harg4 arg5 harg5 arg6 harg6 arg7 harg7 hc0 hc1 x0 x1).1)
def sout0_A_1 (hc0 : cond0_0 i) (hc1 : ¬cond0_1 i) : Vec F S8x16 .f32 :=
  VS0_1.read (Elt F) (VS0_1.writes (Elt F) VS0_1.junk (kernelRun0_A c i arg2 harg2 arg3 harg3 arg4 harg4 arg5 harg5 arg6 harg6 arg7 harg7 hc0 hc1 x0 x1).2.1)

def sout0_B_0 (hc0 : ¬cond0_0 i) (hc1 : ¬cond0_1 i) : Vec F S8x16 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
def sout0_B_1 (hc0 : ¬cond0_0 i) (hc1 : ¬cond0_1 i) : Vec F S8x16 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)

def out0_C_2 (hc0 : ¬cond0_0 i) (hc1 : cond0_1 i) : Vec F S8x16 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
def out0_C_3 (hc0 : ¬cond0_0 i) (hc1 : cond0_1 i) : Vec F S8x16 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
def sout0_C_0 (hc0 : ¬cond0_0 i) (hc1 : cond0_1 i) : Vec F S8x16 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
def sout0_C_1 (hc0 : ¬cond0_0 i) (hc1 : cond0_1 i) : Vec F S8x16 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

end Cases

def idleOut0_2 : Vec F S8x16 .f32 := VO0_2.read (Elt F) VO0_2.junk
def idleOut0_3 : Vec F S8x16 .f32 := VO0_3.read (Elt F) VO0_3.junk

def stepA0 (c : Dev nD) (t : Fin cfg0.N) (hc0 : cond0_0 (grid0.coords t)) (hc1 : ¬cond0_1 (grid0.coords t)) :
    Vec F S8x16 .f32 × Vec F S8x16 .f32 × Vec F S8x16 .f32 × Vec F S8x16 .f32 :=
  (idleOut0_2, idleOut0_3,
    sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) hc0 hc1,
    sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) hc0 hc1)

def stepB0 (c : Dev nD) (t : Fin cfg0.N) (hc0 : ¬cond0_0 (grid0.coords t)) (hc1 : ¬cond0_1 (grid0.coords t)) (xs0 xs1 : Vec F S8x16 .f32) :
    Vec F S8x16 .f32 × Vec F S8x16 .f32 × Vec F S8x16 .f32 × Vec F S8x16 .f32 :=
  (idleOut0_2, idleOut0_3,
    sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1,
    sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1)

def stepC0 (c : Dev nD) (t : Fin cfg0.N) (hc0 : ¬cond0_0 (grid0.coords t)) (hc1 : cond0_1 (grid0.coords t)) (xs0 xs1 : Vec F S8x16 .f32) :
    Vec F S8x16 .f32 × Vec F S8x16 .f32 × Vec F S8x16 .f32 × Vec F S8x16 .f32 :=
  (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1,
    out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1,
    sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1,
    sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) xs0 xs1 hc0 hc1)

/-- The two outputs and the two accumulators after point `n`: the case its residue selects, over what point `n - 1` left in the accumulators. -/
def outsAt0 (c : Dev nD) : (n : ℕ) → n < cfg0.N → Vec F S8x16 .f32 × Vec F S8x16 .f32 × Vec F S8x16 .f32 × Vec F S8x16 .f32
  | 0, hn => stepA0 V c ⟨0, hn⟩ ((hcond0_0 ⟨0, hn⟩).mpr (Nat.zero_mod _)) (fun h => absurd ((hcond0_1 ⟨0, hn⟩).mp h) (fun h3 => by (try dsimp only at h3); omega))
  | n + 1, hn =>
    if h0 : (n + 1) % 4 = 0 then
      stepA0 V c ⟨n + 1, hn⟩ ((hcond0_0 ⟨n + 1, hn⟩).mpr h0) (fun h => absurd ((hcond0_1 ⟨n + 1, hn⟩).mp h) (fun h3 => by (try dsimp only at h3); omega))
    else if h1 : (n + 1) % 4 = 3 then
      stepC0 V c ⟨n + 1, hn⟩ (fun h => h0 ((hcond0_0 ⟨n + 1, hn⟩).mp h)) ((hcond0_1 ⟨n + 1, hn⟩).mpr h1)
        (outsAt0 c n (Nat.lt_of_succ_lt hn)).2.2.1 (outsAt0 c n (Nat.lt_of_succ_lt hn)).2.2.2
    else
      stepB0 V c ⟨n + 1, hn⟩ (fun h => h0 ((hcond0_0 ⟨n + 1, hn⟩).mp h)) (fun h => h1 ((hcond0_1 ⟨n + 1, hn⟩).mp h))
        (outsAt0 c n (Nat.lt_of_succ_lt hn)).2.2.1 (outsAt0 c n (Nat.lt_of_succ_lt hn)).2.2.2

theorem outsAt0_A (c : Dev nD) (t : Fin cfg0.N) (h0 : t.val % 4 = 0) (hc0 : cond0_0 (grid0.coords t)) (hc1 : ¬cond0_1 (grid0.coords t)) :
    outsAt0 V c t.val t.isLt = stepA0 V c t hc0 hc1 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) (hc0 : ¬cond0_0 (grid0.coords t)) (hc1 : ¬cond0_1 (grid0.coords t)) :
    outsAt0 V c t.val t.isLt = stepB0 V c t hc0 hc1
      (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) (hc0 : ¬cond0_0 (grid0.coords t)) (hc1 : cond0_1 (grid0.coords t)) :
    outsAt0 V c t.val t.isLt = stepC0 V c t hc0 hc1
      (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The two accumulators at what point `n` left in them, the other scoped buffers unopened, the generator register at some state. -/
def accs0 (c : Dev nD) (n : ℕ) (hn : n < cfg0.N) : sProp 𝕄 :=
  iprop(iprop(iprop(owns (c : Thread nD τ) scM0_0 fullShare (outsAt0 V c n hn).2.2.1 ∗ owns (c : Thread nD τ) scM0_1 fullShare (outsAt0 V c n hn).2.2.2)
      ∗ Pipeline.scopedRestBut (Ix := Unit) (Name := ℕ) (U := UR sig nD τ) (Lvl := ℕ) (Val := Elt F) spec0 c [cc0_scratch0, cc0_scratch1]) ∗ (∃ r, prngReg c r))

/-- The region invariant before position `n`: the entry invariant before the first point, `accs0` of the point before afterwards. -/
def PhiS0 (c : Dev nD) : (n : ℕ) → n ≤ cfg0.N → sProp 𝕄
  | 0, _ => Pipeline.ΦA spec0 c
  | n + 1, hn => accs0 V c n hn

theorem PhiS0_pos (c : Dev nD) (n : ℕ) (h : n ≤ cfg0.N) (hz : n ≠ 0) : PhiS0 V c n h = accs0 V c (n - 1) (by omega) := by
  cases n with
  | zero => exact absurd rfl hz
  | succ n => rfl

/-- Forgetting the accumulators' contents gives the entry invariant's form at every position. -/
theorem PhiS0_open (c : Dev nD) (n : ℕ) (h : n ≤ cfg0.N) :
    PhiS0 V c n h ⊢ (iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) : sProp 𝕄) := by
  cases n with
  | zero => rw [show PhiS0 V c 0 h = Pipeline.ΦA spec0 c from rfl, PhiA0_eq]; try exact Idealize.SL.BI.Entails.refl _
  | succ n =>
    unfold PhiS0 accs0
    iintro ⟨⟨⟨HS0, HS1⟩, HR⟩, Hg⟩
    iframe HR Hg
    isplitl [HS0] <;> iexists _ <;> iassumption

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem recorded_eq0 (c : Dev nD) (t : Fin (cfg0.N + 1)) : (dat0 V c).recorded t = Set.univ := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) t d
theorem before0_1 (c : Dev nD) (t : Fin cfg0.N) (d) : (dat0 V c).before 1 t d = iblk0 V c 1 t :=
  before0_1_of V (dat0 V c) (A_eq0 V c 1) t d

end Cert.Kernel.Gen

end
-- ==== Proof.K.R0Dat.lean ====
import proofs.«413171_j1022202216836_1_alg».proof.Proof.K.P1Outs0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window that is not idle at a point is left at its `after`. -/
theorem live0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 4800000 in
/-- At each point the residue selects the control case; its run takes the blocks and the accumulators, and each buffer it stores into is read back from pieces that tile it. -/
theorem body_obligation0 (c : Dev nD) : BodyObligation (dat0 (F := F) V c) (defs₀ (F := F)) Variants.none () Set.univ := fun t => by
  rw [bigSep_W0, bigSep_W0]
  show (iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))) : sProp 𝕄)
    ⊢ wp frame (wpE (defs₀ (F := F)) Variants.none c none) Set.univ (bodyAt0 t) fun _ =>
      iprop((dat0 V c).Φ t.succ ∗ (dat0 V c).owesAt () t.succ
        ∗ (dat0 V c).leavesExact 0 t
        ∗ (dat0 V c).leavesExact 1 t
        ∗ (dat0 V c).leavesExact 2 t
        ∗ (dat0 V c).leavesExact 3 t)
  unfold bodyAt0
  simp only [before0_0, before0_1]
  rw [show (dat0 V c).owesAt () t.succ = (dat0 V c).owesAt () t.castSucc from rfl]
  rw [show (dat0 V c).Φ t.succ = accs0 V c t.val t.isLt from rfl]; unfold accs0
  rw [live0 V c 0 t (liveAt0_0 t), after0_0, live0 V c 1 t (liveAt0_1 t), after0_1]
  rw [PhiS0_castSucc]
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1),
      Dat.leavesExact_idle (dat0 V c) 3 t (idleAt0_3 t hc1) (noFlush0_3 t hc1), outsAt0_A V c t h0 hc0 hc1]
    unfold stepA0 sout0_A_0 sout0_A_1; (try dsimp only)
    iintro ⟨HΦ, Ho, ⟨%d0, H0⟩, ⟨%d1, H1⟩, H2, H3⟩
    ihave ⟨⟨⟨HS0, HS1⟩, HR⟩, Hg⟩ := (PhiS0_open V c t.val _) $$ HΦ
    iapply ((kernelRun0_A c (grid0.coords t) _ _ _ _ _ _ _ _ _ _ _ _ hc0 hc1 (iblk0 V c 0 t) (iblk0 V c 1 t)).2.2 Set.univ _)
    iframe H0 H1 HS0 HS1
    iintro ⟨H0, H1, ⟨%es0, HS0⟩, ⟨%es1, HS1⟩⟩
    iframe HR Hg Ho H0 H1 H2 H3
    isplitl [HS0]
    · iapply (Ring.owns_of_writes_tiledL VS0_0 S8x1.size) $$ HS0; ipureintro; sl_kernel_rfl
    · iapply (Ring.owns_of_writes_tiledL VS0_1 S8x1.size) $$ HS1; ipureintro; sl_kernel_rfl
  · have hc0 : ¬cond0_0 (grid0.coords t) := fun h => h0 ((hcond0_0 t).mp h)
    have hz : t.val ≠ 0 := fun hz => h0 (by rw [hz])
    rw [PhiS0_pos V c _ _ hz]; unfold accs0
    by_cases h1 : t.val % 4 = 3
    · have hc1 : cond0_1 (grid0.coords t) := (hcond0_1 t).mpr h1
      rw [live0 V c 2 t (liveAt0_2 t hc1), after0_2, live0 V c 3 t (liveAt0_3 t hc1), after0_3]
      rw [outsAt0_C V c t h0 h1 hc0 hc1]
      unfold stepC0 out0_C_2 out0_C_3 sout0_C_0 sout0_C_1; (try dsimp only)
      iintro ⟨⟨⟨⟨HS0, HS1⟩, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      iframe H0 H1 HS0 HS1
      isplitl [H2]; · iexists _; iexact H2
      isplitl [H3]; · iexists _; iexact H3
      iintro ⟨H0, H1, ⟨%e2, H2⟩, ⟨%e3, H3⟩, ⟨%es0, HS0⟩, ⟨%es1, HS1⟩⟩
      iframe HR Hg Ho H0 H1
      isplitl [HS0 HS1]
      · isplitl [HS0]
        · iapply (Ring.owns_of_writes_tiledL VS0_0 S8x1.size) $$ HS0; ipureintro; sl_kernel_rfl
        · iapply (Ring.owns_of_writes_tiledL VS0_1 S8x1.size) $$ HS1; ipureintro; sl_kernel_rfl
      isplitl [H2]
      · iapply (Ring.owns_of_writes_tiledL VO0_2 S8x16.size) $$ H2; ipureintro; sl_kernel_rfl
      · iapply (Ring.owns_of_writes_tiledL VO0_3 S8x16.size) $$ H3; ipureintro; sl_kernel_rfl
    · have hc1 : ¬cond0_1 (grid0.coords t) := fun h => h1 ((hcond0_1 t).mp h)
      rw [Dat.leavesExact_idle (dat0 V c) 2 t (idleAt0_2 t hc1) (noFlush0_2 t hc1),
        Dat.leavesExact_idle (dat0 V c) 3 t (idleAt0_3 t hc1) (noFlush0_3 t hc1), outsAt0_B V c t h0 h1 hc0 hc1]
      unfold stepB0 sout0_B_0 sout0_B_1; (try dsimp only)
      iintro ⟨⟨⟨⟨HS0, HS1⟩, HR⟩, Hg⟩, Ho, ⟨%d0, H0⟩, ⟨%d1, H1⟩, H2, H3⟩
      iapply ((kernelRun0_B c (grid0.coords t) _ _ _ _ _ _ _ _ _ _ _ _ hc0 hc1 (iblk0 V c 0 t) (iblk0 V c 1 t) _ _).2.2 Set.univ _)
      iframe H0 H1 HS0 HS1
      iintro ⟨H0, H1, ⟨%es0, HS0⟩, ⟨%es1, HS1⟩⟩
      iframe HR Hg Ho H0 H1 H2 H3
      isplitl [HS0]
      · iapply (Ring.owns_of_writes_tiledL VS0_0 S8x1.size) $$ HS0; ipureintro; sl_kernel_rfl
      · iapply (Ring.owns_of_writes_tiledL VS0_1 S8x1.size) $$ HS1; ipureintro; sl_kernel_rfl

theorem hin0 (c : Dev nD) : (Pipeline.ΦA spec0 c : sProp 𝕄) ⊢ (dat0 V c).Φ 0 :=
  Idealize.SL.BI.Entails.refl _

theorem hout0 (c : Dev nD) : (dat0 V c).Φ (Fin.last cfg0.N) ⊢ (Pipeline.ΦA spec0 c : sProp 𝕄) := by
  rw [show (dat0 V c).Φ (Fin.last cfg0.N) = PhiS0 V c cfg0.N (Nat.le_refl _) from rfl, PhiA0_eq]
  exact PhiS0_open V c _ _

end Cert.Kernel.Gen

end
-- ==== Proof.K.P1Runs1.lean ====
import proofs.«413171_j1022202216836_1_alg».proof.Proof.Gen.Kernel.Launch
import proofs.«413171_j1022202216836_1_alg».proof.Proof.Gen.Kernel.Points
import proofs.«413171_j1022202216836_1_alg».proof.Proof.Gen.Kernel.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (t : Fin cfg1.N) (d) : dat.before 0 t d = iblk1 V c 0 t :=
  (dat.before_fetched 0 t (fetch1_0 t) d).trans (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (t : Fin cfg1.N) (d) : dat.before 1 t d = iblk1 V c 1 t :=
  (dat.before_fetched 1 t (fetch1_1 t) d).trans (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

abbrev VO1_2 : View sig .tc .vmem S8x16 .f32 := (Memref.whole cc1_stg2_0 : Memref sig .tc .vmem S8x16 .f32).view
abbrev VO1_3 : View sig .tc .vmem S8x16 .f32 := (Memref.whole cc1_stg3_0 : Memref sig .tc .vmem S8x16 .f32).view
abbrev ms1_0 (t : Fin cfg1.N) : Memref sig .tc .vmem S8x1x256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1x256x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x16 .f32 := win1_3.stage (cfg1.slots t 3)
abbrev hs1_3 (t : Fin cfg1.N) : (ms1_3 t).IsWhole := hstage1_3 ((cfg1.slots t 3).cast nbuf1_3)

abbrev scM1_0 : Memref sig .tc .vmem S8x16 .f32 := Memref.whole cc1_scratch0
abbrev scM1_1 : Memref sig .tc .vmem S8x16 .f32 := Memref.whole cc1_scratch1
abbrev VS1_0 : View sig .tc .vmem S8x16 .f32 := scM1_0.view
abbrev VS1_1 : View sig .tc .vmem S8x16 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Gen

end
-- ==== Proof.K.P1Run1A.lean ====
import proofs.«413171_j1022202216836_1_alg».proof.Proof.K.P1Runs1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : cond1_0 i) (hc1 : ¬cond1_1 i)
    (x0 : Vec F S8x1x256x512 .f32) (x1 : Vec F S8x1x256x512 .i32) :
    Σ' (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__pass1_kernel i arg2 harg2 arg3 harg3 arg4 harg4 arg5 harg5 arg6 harg6 arg7 harg7) K } := by
  refine ⟨?_, ?_, fun E K => ?run⟩
  case run =>
    simp only [cc1__pass1_kernel_eq_skeleton]; unfold cc1__pass1_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Gen

end
-- ==== Proof.K.P1Run1C.lean ====
import proofs.«413171_j1022202216836_1_alg».proof.Proof.K.P1Run1A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : ¬cond1_0 i) (hc1 : cond1_1 i)
    (x0 : Vec F S8x1x256x512 .f32) (x1 : Vec F S8x1x256x512 .i32) (xs0 : Vec F S8x16 .f32) (xs1 : Vec F S8x16 .f32) :
    Σ' (L2 : List (View.Piece (Elt F) S8x16 .f32)) (L3 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__pass1_kernel i arg2 harg2 arg3 harg3 arg4 harg4 arg5 harg5 arg6 harg6 arg7 harg7) K } := by
  refine ⟨?_, ?_, ?_, ?_, fun E K => ?run⟩
  case run =>
    simp only [cc1__pass1_kernel_eq_skeleton]; unfold cc1__pass1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Gen

end
-- ==== Proof.K.P1Outs1.lean ====
import proofs.«413171_j1022202216836_1_alg».proof.Proof.K.P1Run1C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid1.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole)
variable (x0 : Vec F S8x1x256x512 .f32) (x1 : Vec F S8x1x256x512 .i32) (xs0 xs1 : Vec F S8x16 .f32)

def sout1_A_0 (hc0 : cond1_0 i) (hc1 : ¬cond1_1 i) : Vec F S8x16 .f32 :=
  VS1_0.read (Elt F) (VS1_0.writes (Elt F) VS1_0.junk (kernelRun1_A c i arg2 harg2 arg3 harg3 arg4 harg4 arg5 harg5 arg6 harg6 arg7 harg7 hc0 hc1 x0 x1).1)
def sout1_A_1 (hc0 : cond1_0 i) (hc1 : ¬cond1_1 i) : Vec F S8x16 .f32 :=
  VS1_1.read (Elt F) (VS1_1.writes (Elt F) VS1_1.junk (kernelRun1_A c i arg2 harg2 arg3 harg3 arg4 harg4 arg5 harg5 arg6 harg6 arg7 harg7 hc0 hc1 x0 x1).2.1)

def out1_C_2 (hc0 : ¬cond1_0 i) (hc1 : cond1_1 i) : Vec F S8x16 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1).1)
def out1_C_3 (hc0 : ¬cond1_0 i) (hc1 : cond1_1 i) : Vec F S8x16 .f32 :=
  VO1_3.read (Elt F) (VO1_3.writes (Elt F) VO1_3.junk (kernelRun1_C c i arg2 harg2 arg3 harg3 arg4 harg4 arg5 harg5 arg6 harg6 arg7 harg7 hc0 hc1 x0 x1 xs0 xs1).2.1)
def sout1_C_0 (hc0 : ¬cond1_0 i) (hc1 : cond1_1 i) : Vec F S8x16 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1).2.2.1)
def sout1_C_1 (hc0 : ¬cond1_0 i) (hc1 : cond1_1 i) : Vec F S8x16 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1).2.2.2.1)

end Cases

def idleOut1_2 : Vec F S8x16 .f32 := VO1_2.read (Elt F) VO1_2.junk
def idleOut1_3 : Vec F S8x16 .f32 := VO1_3.read (Elt F) VO1_3.junk

def stepA1 (c : Dev nD) (t : Fin cfg1.N) (hc0 : cond1_0 (grid1.coords t)) (hc1 : ¬cond1_1 (grid1.coords t)) :
    Vec F S8x16 .f32 × Vec F S8x16 .f32 × Vec F S8x16 .f32 × Vec F S8x16 .f32 :=
  (idleOut1_2, idleOut1_3,
    sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) hc0 hc1,
    sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) hc0 hc1)

def stepC1 (c : Dev nD) (t : Fin cfg1.N) (hc0 : ¬cond1_0 (grid1.coords t)) (hc1 : cond1_1 (grid1.coords t)) (xs0 xs1 : Vec F S8x16 .f32) :
    Vec F S8x16 .f32 × Vec F S8x16 .f32 × Vec F S8x16 .f32 × Vec F S8x16 .f32 :=
  (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) xs0 xs1 hc0 hc1,
    out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) xs0 xs1 hc0 hc1,
    sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) xs0 xs1 hc0 hc1,
    sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) xs0 xs1 hc0 hc1)

/-- The two outputs and the two accumulators after point `n`: the case its residue selects, over what point `n - 1` left in the accumulators. -/
def outsAt1 (c : Dev nD) : (n : ℕ) → n < cfg1.N → Vec F S8x16 .f32 × Vec F S8x16 .f32 × Vec F S8x16 .f32 × Vec F S8x16 .f32
  | 0, hn => stepA1 V c ⟨0, hn⟩ ((hcond1_0 ⟨0, hn⟩).mpr (Nat.zero_mod _)) (fun h => absurd ((hcond1_1 ⟨0, hn⟩).mp h) (fun h3 => by (try dsimp only at h3); omega))
  | n + 1, hn =>
    if h0 : (n + 1) % 2 = 0 then
      stepA1 V c ⟨n + 1, hn⟩ ((hcond1_0 ⟨n + 1, hn⟩).mpr h0) (fun h => absurd ((hcond1_1 ⟨n + 1, hn⟩).mp h) (fun h3 => by (try dsimp only at h3); omega))
    else
      stepC1 V c ⟨n + 1, hn⟩ (fun h => h0 ((hcond1_0 ⟨n + 1, hn⟩).mp h)) ((hcond1_1 ⟨n + 1, hn⟩).mpr (by (try dsimp only); omega))
        (outsAt1 c n (Nat.lt_of_succ_lt hn)).2.2.1 (outsAt1 c n (Nat.lt_of_succ_lt hn)).2.2.2

theorem outsAt1_A (c : Dev nD) (t : Fin cfg1.N) (h0 : t.val % 2 = 0) (hc0 : cond1_0 (grid1.coords t)) (hc1 : ¬cond1_1 (grid1.coords t)) :
    outsAt1 V c t.val t.isLt = stepA1 V c t hc0 hc1 := by
  obtain ⟨n, hn⟩ := t
  cases n with
  | zero => rfl
  | succ n => exact (dif_pos h0).trans rfl

theorem outsAt1_C (c : Dev nD) (t : Fin cfg1.N) (h0 : ¬t.val % 2 = 0) (hc0 : ¬cond1_0 (grid1.coords t)) (hc1 : cond1_1 (grid1.coords t)) :
    outsAt1 V c t.val t.isLt = stepC1 V c t hc0 hc1
      (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans rfl

/-- The two accumulators at what point `n` left in them, the other scoped buffers unopened, the generator register at some state. -/
def accs1 (c : Dev nD) (n : ℕ) (hn : n < cfg1.N) : sProp 𝕄 :=
  iprop(iprop(iprop(owns (c : Thread nD τ) scM1_0 fullShare (outsAt1 V c n hn).2.2.1 ∗ owns (c : Thread nD τ) scM1_1 fullShare (outsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r))

/-- The region invariant before position `n`: the entry invariant before the first point, `accs1` of the point before afterwards. -/
def PhiS1 (c : Dev nD) : (n : ℕ) → n ≤ cfg1.N → sProp 𝕄
  | 0, _ => Pipeline.ΦA spec1 c
  | n + 1, hn => accs1 V c n hn

theorem PhiS1_pos (c : Dev nD) (n : ℕ) (h : n ≤ cfg1.N) (hz : n ≠ 0) : PhiS1 V c n h = accs1 V c (n - 1) (by omega) := by
  cases n with
  | zero => exact absurd rfl hz
  | succ n => rfl

/-- Forgetting the accumulators' contents gives the entry invariant's form at every position. -/
theorem PhiS1_open (c : Dev nD) (n : ℕ) (h : n ≤ cfg1.N) :
    PhiS1 V c n h ⊢ (iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) : sProp 𝕄) := by
  cases n with
  | zero => rw [show PhiS1 V c 0 h = Pipeline.ΦA spec1 c from rfl, PhiA1_eq]; try exact Idealize.SL.BI.Entails.refl _
  | succ n =>
    unfold PhiS1 accs1
    iintro ⟨⟨⟨HS0, HS1⟩, HR⟩, Hg⟩
    iframe HR Hg
    isplitl [HS0] <;> iexists _ <;> iassumption

def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem recorded_eq1 (c : Dev nD) (t : Fin (cfg1.N + 1)) : (dat1 V c).recorded t = Set.univ := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) t d
theorem before1_1 (c : Dev nD) (t : Fin cfg1.N) (d) : (dat1 V c).before 1 t d = iblk1 V c 1 t :=
  before1_1_of V (dat1 V c) (A_eq1 V c 1) t d

end Cert.Kernel.Gen

end
-- ==== Proof.K.R1Dat.lean ====
import proofs.«413171_j1022202216836_1_alg».proof.Proof.K.P1Outs1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window that is not idle at a point is left at its `after`. -/
theorem live1 (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

set_option maxHeartbeats 4800000 in
/-- At each point the residue selects the control case; its run takes the blocks and the accumulators, and each buffer it stores into is read back from pieces that tile it. -/
theorem body_obligation1 (c : Dev nD) : BodyObligation (dat1 (F := F) V c) (defs₀ (F := F)) Variants.none () Set.univ := fun t => by
  rw [bigSep_W1, bigSep_W1]
  show (iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))) : sProp 𝕄)
    ⊢ wp frame (wpE (defs₀ (F := F)) Variants.none c none) Set.univ (bodyAt1 t) fun _ =>
      iprop((dat1 V c).Φ t.succ ∗ (dat1 V c).owesAt () t.succ
        ∗ (dat1 V c).leavesExact 0 t
        ∗ (dat1 V c).leavesExact 1 t
        ∗ (dat1 V c).leavesExact 2 t
        ∗ (dat1 V c).leavesExact 3 t)
  unfold bodyAt1
  simp only [before1_0, before1_1]
  rw [show (dat1 V c).owesAt () t.succ = (dat1 V c).owesAt () t.castSucc from rfl]
  rw [show (dat1 V c).Φ t.succ = accs1 V c t.val t.isLt from rfl]; unfold accs1
  rw [live1 V c 0 t (liveAt1_0 t), after1_0, live1 V c 1 t (liveAt1_1 t), after1_1]
  rw [PhiS1_castSucc]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1),
      Dat.leavesExact_idle (dat1 V c) 3 t (idleAt1_3 t hc1) (noFlush1_3 t hc1), outsAt1_A V c t h0 hc0 hc1]
    unfold stepA1 sout1_A_0 sout1_A_1; (try dsimp only)
    iintro ⟨HΦ, Ho, ⟨%d0, H0⟩, ⟨%d1, H1⟩, H2, H3⟩
    ihave ⟨⟨⟨HS0, HS1⟩, HR⟩, Hg⟩ := (PhiS1_open V c t.val _) $$ HΦ
    iapply ((kernelRun1_A c (grid1.coords t) _ _ _ _ _ _ _ _ _ _ _ _ hc0 hc1 (iblk1 V c 0 t) (iblk1 V c 1 t)).2.2 Set.univ _)
    iframe H0 H1 HS0 HS1
    iintro ⟨H0, H1, ⟨%es0, HS0⟩, ⟨%es1, HS1⟩⟩
    iframe HR Hg Ho H0 H1 H2 H3
    isplitl [HS0]
    · iapply (Ring.owns_of_writes_tiledL VS1_0 S8x1.size) $$ HS0; ipureintro; sl_kernel_rfl
    · iapply (Ring.owns_of_writes_tiledL VS1_1 S8x1.size) $$ HS1; ipureintro; sl_kernel_rfl
  · have hc0 : ¬cond1_0 (grid1.coords t) := fun h => h0 ((hcond1_0 t).mp h)
    have hz : t.val ≠ 0 := fun hz => h0 (by rw [hz])
    have hc1 : cond1_1 (grid1.coords t) := (hcond1_1 t).mpr (by omega)
    rw [live1 V c 2 t (liveAt1_2 t hc1), after1_2, live1 V c 3 t (liveAt1_3 t hc1), after1_3]
    rw [outsAt1_C V c t h0 hc0 hc1]
    unfold stepC1 out1_C_2 out1_C_3 sout1_C_0 sout1_C_1; (try dsimp only)
    rw [PhiS1_pos V c _ _ hz]; unfold accs1
    iintro ⟨⟨⟨⟨HS0, HS1⟩, HR⟩, Hg⟩, Ho, ⟨%d0, H0⟩, ⟨%d1, H1⟩, ⟨%d2, H2⟩, ⟨%d3, H3⟩⟩
    iapply ((kernelRun1_C c (grid1.coords t) _ _ _ _ _ _ _ _ _ _ _ _ hc0 hc1 (iblk1 V c 0 t) (iblk1 V c 1 t) _ _).2.2.2.2 Set.univ _)
    iframe H0 H1 HS0 HS1
    isplitl [H2]; · iexists _; iexact H2
    isplitl [H3]; · iexists _; iexact H3
    iintro ⟨H0, H1, ⟨%e2, H2⟩, ⟨%e3, H3⟩, ⟨%es0, HS0⟩, ⟨%es1, HS1⟩⟩
    iframe HR Hg Ho H0 H1
    isplitl [HS0 HS1]
    · isplitl [HS0]
      · iapply (Ring.owns_of_writes_tiledL VS1_0 S8x1.size) $$ HS0; ipureintro; sl_kernel_rfl
      · iapply (Ring.owns_of_writes_tiledL VS1_1 S8x1.size) $$ HS1; ipureintro; sl_kernel_rfl
    isplitl [H2]
    · iapply (Ring.owns_of_writes_tiledL VO1_2 S8x16.size) $$ H2; ipureintro; sl_kernel_rfl
    · iapply (Ring.owns_of_writes_tiledL VO1_3 S8x16.size) $$ H3; ipureintro; sl_kernel_rfl

theorem hin1 (c : Dev nD) : (Pipeline.ΦA spec1 c : sProp 𝕄) ⊢ (dat1 V c).Φ 0 :=
  Idealize.SL.BI.Entails.refl _

theorem hout1 (c : Dev nD) : (dat1 V c).Φ (Fin.last cfg1.N) ⊢ (Pipeline.ΦA spec1 c : sProp 𝕄) := by
  rw [show (dat1 V c).Φ (Fin.last cfg1.N) = PhiS1 V c cfg1.N (Nat.le_refl _) from rfl, PhiA1_eq]
  exact PhiS1_open V c _ _

end Cert.Kernel.Gen

end
-- ==== Proof.K.P1Runs2.lean ====
import proofs.«413171_j1022202216836_1_alg».proof.Proof.Gen.Kernel.Launch
import proofs.«413171_j1022202216836_1_alg».proof.Proof.Gen.Kernel.Points
import proofs.«413171_j1022202216836_1_alg».proof.Proof.Gen.Kernel.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (t : Fin cfg2.N) (d) : dat.before 0 t d = iblk2 V c 0 t :=
  (dat.before_fetched 0 t (fetch2_0 t) d).trans (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (t : Fin cfg2.N) (d) : dat.before 1 t d = iblk2 V c 1 t :=
  (dat.before_fetched 1 t (fetch2_1 t) d).trans (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 1 = 0 :=
  (by decide +kernel : ∀ t : Fin grid2.N, cond2_0 (grid2.coords t) ↔ t.val % 1 = 0)

abbrev cond2_1 (i : grid2.Coords) : Prop := k2_cond2 i = 1#1
theorem hcond2_1 : ∀ t : Fin cfg2.N, cond2_1 (grid2.coords t) ↔ t.val % 1 = 0 :=
  (by decide +kernel : ∀ t : Fin grid2.N, cond2_1 (grid2.coords t) ↔ t.val % 1 = 0)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem idleAt2_3 : ∀ t : Fin cfg2.N, ¬cond2_1 (grid2.coords t) → cfg2.idle 3 (grid2.coords t) = true := by decide +kernel
theorem noFlush2_2 : ∀ t : Fin cfg2.N, ¬cond2_1 (grid2.coords t) → (cfg2.win 2).flush t = false := by decide +kernel
theorem noFlush2_3 : ∀ t : Fin cfg2.N, ¬cond2_1 (grid2.coords t) → (cfg2.win 3).flush t = false := by decide +kernel
theorem liveAt2_2 : ∀ t : Fin cfg2.N, cond2_1 (grid2.coords t) → cfg2.idle 2 (grid2.coords t) = false := by decide +kernel
theorem liveAt2_3 : ∀ t : Fin cfg2.N, cond2_1 (grid2.coords t) → cfg2.idle 3 (grid2.coords t) = false := by decide +kernel

abbrev VO2_2 : View sig .tc .vmem S8x16 .f32 := (Memref.whole cc2_stg2_0 : Memref sig .tc .vmem S8x16 .f32).view
abbrev VO2_3 : View sig .tc .vmem S8x16 .f32 := (Memref.whole cc2_stg3_0 : Memref sig .tc .vmem S8x16 .f32).view
abbrev ms2_0 (t : Fin cfg2.N) : Memref sig .tc .vmem S8x1x256x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8x1x256x256 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x16 .f32 := win2_3.stage (cfg2.slots t 3)
abbrev hs2_3 (t : Fin cfg2.N) : (ms2_3 t).IsWhole := hstage2_3 ((cfg2.slots t 3).cast nbuf2_3)

abbrev scM2_0 : Memref sig .tc .vmem S8x16 .f32 := Memref.whole cc2_scratch0
abbrev scM2_1 : Memref sig .tc .vmem S8x16 .f32 := Memref.whole cc2_scratch1
abbrev VS2_0 : View sig .tc .vmem S8x16 .f32 := scM2_0.view
abbrev VS2_1 : View sig .tc .vmem S8x16 .f32 := scM2_1.view

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Gen

end
-- ==== Proof.K.P1Run2D.lean ====
import proofs.«413171_j1022202216836_1_alg».proof.Proof.K.P1Runs2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_D (c : Dev nD) (i : grid2.Coords) (arg2 : Memref sig .tc .vmem S8x1x256x256 .f32) (harg2 : arg2.IsWhole) (arg3 : Memref sig .tc .vmem S8x1x256x256 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (hc0 : cond2_0 i) (hc1 : cond2_1 i)
    (x0 : Vec F S8x1x256x256 .f32) (x1 : Vec F S8x1x256x256 .i32) :
    Σ' (L2 : List (View.Piece (Elt F) S8x16 .f32)) (L3 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc2__pass1_kernel i arg2 harg2 arg3 harg3 arg4 harg4 arg5 harg5 arg6 harg6 arg7 harg7) K } := by
  refine ⟨?_, ?_, ?_, ?_, fun E K => ?run⟩
  case run =>
    simp only [cc2__pass1_kernel_eq_skeleton]; unfold cc2__pass1_kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg2.eq_unread hf0; obtain rfl := harg3.eq_unread hf1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Gen

end
-- ==== Proof.K.P1Outs2.lean ====
import proofs.«413171_j1022202216836_1_alg».proof.Proof.K.P1Run2D

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid2.Coords) (arg2 : Memref sig .tc .vmem S8x1x256x256 .f32) (harg2 : arg2.IsWhole) (arg3 : Memref sig .tc .vmem S8x1x256x256 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole)
variable (x0 : Vec F S8x1x256x256 .f32) (x1 : Vec F S8x1x256x256 .i32) (xs0 xs1 : Vec F S8x16 .f32)

def out2_D_2 (hc0 : cond2_0 i) (hc1 : cond2_1 i) : Vec F S8x16 .f32 :=
  VO2_2.read (Elt F) (VO2_2.writes (Elt F) VO2_2.junk (kernelRun2_D c i arg2 harg2 arg3 harg3 arg4 harg4 arg5 harg5 arg6 harg6 arg7 harg7 hc0 hc1 x0 x1).1)
def out2_D_3 (hc0 : cond2_0 i) (hc1 : cond2_1 i) : Vec F S8x16 .f32 :=
  VO2_3.read (Elt F) (VO2_3.writes (Elt F) VO2_3.junk (kernelRun2_D c i arg2 harg2 arg3 harg3 arg4 harg4 arg5 harg5 arg6 harg6 arg7 harg7 hc0 hc1 x0 x1).2.1)
def sout2_D_0 (hc0 : cond2_0 i) (hc1 : cond2_1 i) : Vec F S8x16 .f32 :=
  VS2_0.read (Elt F) (VS2_0.writes (Elt F) VS2_0.junk (kernelRun2_D c i arg2 harg2 arg3 harg3 arg4 harg4 arg5 harg5 arg6 harg6 arg7 harg7 hc0 hc1 x0 x1).2.2.1)
def sout2_D_1 (hc0 : cond2_0 i) (hc1 : cond2_1 i) : Vec F S8x16 .f32 :=
  VS2_1.read (Elt F) (VS2_1.writes (Elt F) VS2_1.junk (kernelRun2_D c i arg2 harg2 arg3 harg3 arg4 harg4 arg5 harg5 arg6 harg6 arg7 harg7 hc0 hc1 x0 x1).2.2.2.1)

end Cases

def idleOut2_2 : Vec F S8x16 .f32 := VO2_2.read (Elt F) VO2_2.junk
def idleOut2_3 : Vec F S8x16 .f32 := VO2_3.read (Elt F) VO2_3.junk

def stepD2 (c : Dev nD) (t : Fin cfg2.N) (hc0 : cond2_0 (grid2.coords t)) (hc1 : cond2_1 (grid2.coords t)) :
    Vec F S8x16 .f32 × Vec F S8x16 .f32 × Vec F S8x16 .f32 × Vec F S8x16 .f32 :=
  (out2_D_2 c (grid2.coords t) (ms2_0 t) (hs2_0 t) (ms2_1 t) (hs2_1 t) (ms2_2 t) (hs2_2 t) (ms2_3 t) (hs2_3 t) scM2_0 (Memref.isWhole_whole _) scM2_1 (Memref.isWhole_whole _) (iblk2 V c 0 t) (iblk2 V c 1 t) hc0 hc1,
    out2_D_3 c (grid2.coords t) (ms2_0 t) (hs2_0 t) (ms2_1 t) (hs2_1 t) (ms2_2 t) (hs2_2 t) (ms2_3 t) (hs2_3 t) scM2_0 (Memref.isWhole_whole _) scM2_1 (Memref.isWhole_whole _) (iblk2 V c 0 t) (iblk2 V c 1 t) hc0 hc1,
    sout2_D_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (iblk2 V c 0 t) (iblk2 V c 1 t) hc0 hc1,
    sout2_D_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (iblk2 V c 0 t) (iblk2 V c 1 t) hc0 hc1)

/-- The two outputs and the two accumulators after point `n`: every point is a first and last tile at once. -/
def outsAt2 (c : Dev nD) (n : ℕ) (hn : n < cfg2.N) : Vec F S8x16 .f32 × Vec F S8x16 .f32 × Vec F S8x16 .f32 × Vec F S8x16 .f32 :=
  stepD2 V c ⟨n, hn⟩ ((hcond2_0 ⟨n, hn⟩).mpr (Nat.mod_one _)) ((hcond2_1 ⟨n, hn⟩).mpr (Nat.mod_one _))

theorem outsAt2_D (c : Dev nD) (t : Fin cfg2.N) (hc0 : cond2_0 (grid2.coords t)) (hc1 : cond2_1 (grid2.coords t)) :
    outsAt2 V c t.val t.isLt = stepD2 V c t hc0 hc1 := rfl

/-- The two accumulators at what point `n` left in them, the other scoped buffers unopened, the generator register at some state. -/
def accs2 (c : Dev nD) (n : ℕ) (hn : n < cfg2.N) : sProp 𝕄 :=
  iprop(iprop(iprop(owns (c : Thread nD τ) scM2_0 fullShare (outsAt2 V c n hn).2.2.1 ∗ owns (c : Thread nD τ) scM2_1 fullShare (outsAt2 V c n hn).2.2.2)
      ∗ Pipeline.scopedRestBut (Ix := Unit) (Name := ℕ) (U := UR sig nD τ) (Lvl := ℕ) (Val := Elt F) spec2 c [cc2_scratch0, cc2_scratch1]) ∗ (∃ r, prngReg c r))

/-- The region invariant before position `n`: the entry invariant before the first point, `accs2` of the point before afterwards. -/
def PhiS2 (c : Dev nD) : (n : ℕ) → n ≤ cfg2.N → sProp 𝕄
  | 0, _ => Pipeline.ΦA spec2 c
  | n + 1, hn => accs2 V c n hn

/-- Forgetting the accumulators' contents gives the entry invariant's form at every position. -/
theorem PhiS2_open (c : Dev nD) (n : ℕ) (h : n ≤ cfg2.N) :
    PhiS2 V c n h ⊢ (iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) : sProp 𝕄) := by
  cases n with
  | zero => rw [show PhiS2 V c 0 h = Pipeline.ΦA spec2 c from rfl, PhiA2_eq]; try exact Idealize.SL.BI.Entails.refl _
  | succ n =>
    unfold PhiS2 accs2
    iintro ⟨⟨⟨HS0, HS1⟩, HR⟩, Hg⟩
    iframe HR Hg
    isplitl [HS0] <;> iexists _ <;> iassumption

def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := by
  dsimp only [dat2]

theorem owed_eq2 (c : Dev nD) (t : Fin (cfg2.N + 1)) : (dat2 V c).owed t = 0 := by
  dsimp only [dat2]

theorem recorded_eq2 (c : Dev nD) (t : Fin (cfg2.N + 1)) : (dat2 V c).recorded t = Set.univ := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) t d
theorem before2_1 (c : Dev nD) (t : Fin cfg2.N) (d) : (dat2 V c).before 1 t d = iblk2 V c 1 t :=
  before2_1_of V (dat2 V c) (A_eq2 V c 1) t d

end Cert.Kernel.Gen

end
-- ==== Proof.K.R2Dat.lean ====
import proofs.«413171_j1022202216836_1_alg».proof.Proof.K.P1Outs2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window that is not idle at a point is left at its `after`. -/
theorem live2 (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

set_option maxHeartbeats 4800000 in
/-- At each point the residue selects the control case; its run takes the blocks and the accumulators, and each buffer it stores into is read back from pieces that tile it. -/
theorem body_obligation2 (c : Dev nD) : BodyObligation (dat2 (F := F) V c) (defs₀ (F := F)) Variants.none () Set.univ := fun t => by
  rw [bigSep_W2, bigSep_W2]
  show (iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d))) : sProp 𝕄)
    ⊢ wp frame (wpE (defs₀ (F := F)) Variants.none c none) Set.univ (bodyAt2 t) fun _ =>
      iprop((dat2 V c).Φ t.succ ∗ (dat2 V c).owesAt () t.succ
        ∗ (dat2 V c).leavesExact 0 t
        ∗ (dat2 V c).leavesExact 1 t
        ∗ (dat2 V c).leavesExact 2 t
        ∗ (dat2 V c).leavesExact 3 t)
  unfold bodyAt2
  simp only [before2_0, before2_1]
  rw [show (dat2 V c).owesAt () t.succ = (dat2 V c).owesAt () t.castSucc from rfl]
  rw [show (dat2 V c).Φ t.succ = accs2 V c t.val t.isLt from rfl]; unfold accs2
  rw [live2 V c 0 t (liveAt2_0 t), after2_0, live2 V c 1 t (liveAt2_1 t), after2_1]
  rw [PhiS2_castSucc]
  have hc0 : cond2_0 (grid2.coords t) := (hcond2_0 t).mpr (Nat.mod_one _)
  have hc1 : cond2_1 (grid2.coords t) := (hcond2_1 t).mpr (Nat.mod_one _)
  rw [live2 V c 2 t (liveAt2_2 t hc1), after2_2, live2 V c 3 t (liveAt2_3 t hc1), after2_3]
  rw [outsAt2_D V c t hc0 hc1]
  unfold stepD2 out2_D_2 out2_D_3 sout2_D_0 sout2_D_1; (try dsimp only)
  iintro ⟨HΦ, Ho, ⟨%d0, H0⟩, ⟨%d1, H1⟩, ⟨%d2, H2⟩, ⟨%d3, H3⟩⟩
  ihave ⟨⟨⟨HS0, HS1⟩, HR⟩, Hg⟩ := (PhiS2_open V c t.val _) $$ HΦ
  iapply ((kernelRun2_D c (grid2.coords t) _ _ _ _ _ _ _ _ _ _ _ _ hc0 hc1 (iblk2 V c 0 t) (iblk2 V c 1 t)).2.2.2.2 Set.univ _)
  iframe H0 H1 HS0 HS1
  isplitl [H2]; · iexists _; iexact H2
  isplitl [H3]; · iexists _; iexact H3
  iintro ⟨H0, H1, ⟨%e2, H2⟩, ⟨%e3, H3⟩, ⟨%es0, HS0⟩, ⟨%es1, HS1⟩⟩
  iframe HR Hg Ho H0 H1
  isplitl [HS0 HS1]
  · isplitl [HS0]
    · iapply (Ring.owns_of_writes_tiledL VS2_0 S8x1.size) $$ HS0; ipureintro; sl_kernel_rfl
    · iapply (Ring.owns_of_writes_tiledL VS2_1 S8x1.size) $$ HS1; ipureintro; sl_kernel_rfl
  isplitl [H2]
  · iapply (Ring.owns_of_writes_tiledL VO2_2 S8x16.size) $$ H2; ipureintro; sl_kernel_rfl
  · iapply (Ring.owns_of_writes_tiledL VO2_3 S8x16.size) $$ H3; ipureintro; sl_kernel_rfl

theorem hin2 (c : Dev nD) : (Pipeline.ΦA spec2 c : sProp 𝕄) ⊢ (dat2 V c).Φ 0 :=
  Idealize.SL.BI.Entails.refl _

theorem hout2 (c : Dev nD) : (dat2 V c).Φ (Fin.last cfg2.N) ⊢ (Pipeline.ΦA spec2 c : sProp 𝕄) := by
  rw [show (dat2 V c).Φ (Fin.last cfg2.N) = PhiS2 V c cfg2.N (Nat.le_refl _) from rfl, PhiA2_eq]
  exact PhiS2_open V c _ _

end Cert.Kernel.Gen

end
-- ==== Proof.K.P2Runs3.lean ====
import proofs.«413171_j1022202216836_1_alg».proof.Proof.Gen.Kernel.Launch
import proofs.«413171_j1022202216836_1_alg».proof.Proof.Gen.Kernel.Points
import proofs.«413171_j1022202216836_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1

theorem hcond3_1 : ∀ t : Fin cfg3.N, cond3_1 (grid3.coords t) ↔ t.val % 4 = 3 :=
  (by decide +kernel : ∀ t : Fin grid3.N, cond3_1 (grid3.coords t) ↔ t.val % 4 = 3)

theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

abbrev ms3_0 (t : Fin cfg3.N) : Memref sig .tc .vmem S8x1x256x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x1x256x1024 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S8x16 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S8x16 .f32 := win3_4.stage (cfg3.slots t 4)
abbrev hs3_4 (t : Fin cfg3.N) : (ms3_4 t).IsWhole := hstage3_4 ((cfg3.slots t 4).cast nbuf3_4)

abbrev scM3_0 : Memref sig .tc .vmem S8x16 .f32 := Memref.whole cc3_scratch0
abbrev scM3_1 : Memref sig .tc .vmem S8x16 .f32 := Memref.whole cc3_scratch1

abbrev VO3_3 : View sig .tc .vmem S8x16 .f32 := (Memref.whole cc3_stg3_0 : Memref sig .tc .vmem S8x16 .f32).view
abbrev VO3_4 : View sig .tc .vmem S8x16 .f32 := (Memref.whole cc3_stg4_0 : Memref sig .tc .vmem S8x16 .f32).view
abbrev VS3_0 : View sig .tc .vmem S8x16 .f32 := scM3_0.view
abbrev VS3_1 : View sig .tc .vmem S8x16 .f32 := scM3_1.view

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; rfl

end Cert.Kernel.Gen

end
-- ==== Proof.K.P2Run3.lean ====
import proofs.«413171_j1022202216836_1_alg».proof.Proof.K.P2Runs3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun3_A (c : Dev nD) (i : grid3.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : cond3_0 i) (hc1 : ¬cond3_1 i)
    (x0 : Vec F S8x1x256x1024 .f32) (x1 : Vec F S8x1x256x1024 .i32) (x2 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (xi3 xi4 : Vec F S8x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__pass2_kernel i arg2 harg2 arg3 harg3 arg4 harg4 arg5 harg5 arg6 harg6 arg7 harg7 arg8 harg8) K } := by
  refine ⟨[], [], ?_, ?_, fun xi3 xi4 E K => ?run⟩
  case run =>
    simp only [cc3__pass2_kernel_eq_skeleton]; unfold cc3__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in

noncomputable def kernelRun3_B (c : Dev nD) (i : grid3.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : ¬cond3_0 i) (hc1 : ¬cond3_1 i)
    (x0 : Vec F S8x1x256x1024 .f32) (x1 : Vec F S8x1x256x1024 .i32) (x2 : Vec F S8x16 .f32) (xs0 : Vec F S8x16 .f32) (xs1 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (xi3 xi4 : Vec F S8x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__pass2_kernel i arg2 harg2 arg3 harg3 arg4 harg4 arg5 harg5 arg6 harg6 arg7 harg7 arg8 harg8) K } := by
  refine ⟨[], [], ?_, ?_, fun xi3 xi4 E K => ?run⟩
  case run =>
    simp only [cc3__pass2_kernel_eq_skeleton]; unfold cc3__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in

noncomputable def kernelRun3_C (c : Dev nD) (i : grid3.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : ¬cond3_0 i) (hc1 : cond3_1 i)
    (x0 : Vec F S8x1x256x1024 .f32) (x1 : Vec F S8x1x256x1024 .i32) (x2 : Vec F S8x16 .f32) (xs0 : Vec F S8x16 .f32) (xs1 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__pass2_kernel i arg2 harg2 arg3 harg3 arg4 harg4 arg5 harg5 arg6 harg6 arg7 harg7 arg8 harg8) K } := by
  refine ⟨?_, ?_, ?_, ?_, fun E K => ?run⟩
  case run =>
    simp only [cc3__pass2_kernel_eq_skeleton]; unfold cc3__pass2_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Gen

end
-- ==== Proof.K.R3Dat.lean ====
import proofs.«413171_j1022202216836_1_alg».proof.Proof.K.P2Run3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev runA3 (c : Dev nD) (t : Fin cfg3.N) (h0 : t.val % 4 = 0) (h1 : ¬t.val % 4 = 3) :=
  kernelRun3_A (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => h1 ((hcond3_1 t).mp h)) (iblk3 V c 0 t) (iblk3 V c 1 t) (iblk3 V c 2 t)
abbrev runB3 (c : Dev nD) (t : Fin cfg3.N) (h0 : ¬t.val % 4 = 0) (h1 : ¬t.val % 4 = 3) (xs0 xs1 : Vec F S8x16 .f32) :=
  kernelRun3_B (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) xs0 xs1
abbrev runC3 (c : Dev nD) (t : Fin cfg3.N) (h0 : ¬t.val % 4 = 0) (h1 : t.val % 4 = 3) (xs0 xs1 : Vec F S8x16 .f32) :=
  kernelRun3_C (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) ((hcond3_1 t).mpr h1) (iblk3 V c 0 t) (iblk3 V c 1 t) (iblk3 V c 2 t) xs0 xs1

def sout3_A_0 (c : Dev nD) (t : Fin cfg3.N) (h0 : t.val % 4 = 0) (h1 : ¬t.val % 4 = 3) : Vec F S8x16 .f32 :=
  VS3_0.read (Elt F) (VS3_0.writes (Elt F) VS3_0.junk (runA3 V c t h0 h1).2.2.1)
def sout3_A_1 (c : Dev nD) (t : Fin cfg3.N) (h0 : t.val % 4 = 0) (h1 : ¬t.val % 4 = 3) : Vec F S8x16 .f32 :=
  VS3_1.read (Elt F) (VS3_1.writes (Elt F) VS3_1.junk (runA3 V c t h0 h1).2.2.2.1)

theorem scover3_B_0 (c : Dev nD) (t : Fin cfg3.N) (h0 : ¬t.val % 4 = 0) (h1 : ¬t.val % 4 = 3) (xs0 xs1 : Vec F S8x16 .f32) (y : S8x16.Idx) :
    ∃ pc ∈ (runB3 V c t h0 h1 xs0 xs1).2.2.1, y ∈ pc.1.set :=
  View.cover_of_tiledL (runB3 V c t h0 h1 xs0 xs1).2.2.1 S8x1.size (by sl_kernel_rfl) y
theorem scover3_B_1 (c : Dev nD) (t : Fin cfg3.N) (h0 : ¬t.val % 4 = 0) (h1 : ¬t.val % 4 = 3) (xs0 xs1 : Vec F S8x16 .f32) (y : S8x16.Idx) :
    ∃ pc ∈ (runB3 V c t h0 h1 xs0 xs1).2.2.2.1, y ∈ pc.1.set :=
  View.cover_of_tiledL (runB3 V c t h0 h1 xs0 xs1).2.2.2.1 S8x1.size (by sl_kernel_rfl) y
def sout3_B_0 (c : Dev nD) (t : Fin cfg3.N) (h0 : ¬t.val % 4 = 0) (h1 : ¬t.val % 4 = 3) (xs0 xs1 : Vec F S8x16 .f32) : Vec F S8x16 .f32 :=
  VS3_0.read (Elt F) (VS3_0.writes (Elt F) VS3_0.junk (runB3 V c t h0 h1 xs0 xs1).2.2.1)
def sout3_B_1 (c : Dev nD) (t : Fin cfg3.N) (h0 : ¬t.val % 4 = 0) (h1 : ¬t.val % 4 = 3) (xs0 xs1 : Vec F S8x16 .f32) : Vec F S8x16 .f32 :=
  VS3_1.read (Elt F) (VS3_1.writes (Elt F) VS3_1.junk (runB3 V c t h0 h1 xs0 xs1).2.2.2.1)

theorem scover3_C_0 (c : Dev nD) (t : Fin cfg3.N) (h0 : ¬t.val % 4 = 0) (h1 : t.val % 4 = 3) (xs0 xs1 : Vec F S8x16 .f32) (y : S8x16.Idx) :
    ∃ pc ∈ (runC3 V c t h0 h1 xs0 xs1).2.2.1, y ∈ pc.1.set :=
  View.cover_of_tiledL (runC3 V c t h0 h1 xs0 xs1).2.2.1 S8x1.size (by sl_kernel_rfl) y
theorem scover3_C_1 (c : Dev nD) (t : Fin cfg3.N) (h0 : ¬t.val % 4 = 0) (h1 : t.val % 4 = 3) (xs0 xs1 : Vec F S8x16 .f32) (y : S8x16.Idx) :
    ∃ pc ∈ (runC3 V c t h0 h1 xs0 xs1).2.2.2.1, y ∈ pc.1.set :=
  View.cover_of_tiledL (runC3 V c t h0 h1 xs0 xs1).2.2.2.1 S8x1.size (by sl_kernel_rfl) y
def out3_C_3 (c : Dev nD) (t : Fin cfg3.N) (h0 : ¬t.val % 4 = 0) (h1 : t.val % 4 = 3) (xs0 xs1 : Vec F S8x16 .f32) : Vec F S8x16 .f32 :=
  VO3_3.read (Elt F) (VO3_3.writes (Elt F) VO3_3.junk (runC3 V c t h0 h1 xs0 xs1).1)
def out3_C_4 (c : Dev nD) (t : Fin cfg3.N) (h0 : ¬t.val % 4 = 0) (h1 : t.val % 4 = 3) (xs0 xs1 : Vec F S8x16 .f32) : Vec F S8x16 .f32 :=
  VO3_4.read (Elt F) (VO3_4.writes (Elt F) VO3_4.junk (runC3 V c t h0 h1 xs0 xs1).2.1)
def sout3_C_0 (c : Dev nD) (t : Fin cfg3.N) (h0 : ¬t.val % 4 = 0) (h1 : t.val % 4 = 3) (xs0 xs1 : Vec F S8x16 .f32) : Vec F S8x16 .f32 :=
  VS3_0.read (Elt F) (VS3_0.writes (Elt F) VS3_0.junk (runC3 V c t h0 h1 xs0 xs1).2.2.1)
def sout3_C_1 (c : Dev nD) (t : Fin cfg3.N) (h0 : ¬t.val % 4 = 0) (h1 : t.val % 4 = 3) (xs0 xs1 : Vec F S8x16 .f32) : Vec F S8x16 .f32 :=
  VS3_1.read (Elt F) (VS3_1.writes (Elt F) VS3_1.junk (runC3 V c t h0 h1 xs0 xs1).2.2.2.1)

def idleOut3_3 : Vec F S8x16 .f32 := VO3_3.read (Elt F) VO3_3.junk
def idleOut3_4 : Vec F S8x16 .f32 := VO3_4.read (Elt F) VO3_4.junk

def outsAt3 (c : Dev nD) : (n : ℕ) → n < cfg3.N → Vec F S8x16 .f32 × Vec F S8x16 .f32 × Vec F S8x16 .f32 × Vec F S8x16 .f32
  | 0, hn => (idleOut3_3, idleOut3_4, sout3_A_0 V c ⟨0, hn⟩ (Nat.zero_mod _) (by show ¬0 % 4 = 3; decide), sout3_A_1 V c ⟨0, hn⟩ (Nat.zero_mod _) (by show ¬0 % 4 = 3; decide))
  | n + 1, hn =>
    if h0 : (n + 1) % 4 = 0 then
      if h1 : (n + 1) % 4 = 3 then
        False.elim (by omega)
      else
        (idleOut3_3, idleOut3_4, sout3_A_0 V c ⟨n + 1, hn⟩ h0 h1, sout3_A_1 V c ⟨n + 1, hn⟩ h0 h1)
    else
      if h1 : (n + 1) % 4 = 3 then
        (out3_C_3 V c ⟨n + 1, hn⟩ h0 h1 (outsAt3 c n (Nat.lt_of_succ_lt hn)).2.2.1 (outsAt3 c n (Nat.lt_of_succ_lt hn)).2.2.2,
         out3_C_4 V c ⟨n + 1, hn⟩ h0 h1 (outsAt3 c n (Nat.lt_of_succ_lt hn)).2.2.1 (outsAt3 c n (Nat.lt_of_succ_lt hn)).2.2.2,
         sout3_C_0 V c ⟨n + 1, hn⟩ h0 h1 (outsAt3 c n (Nat.lt_of_succ_lt hn)).2.2.1 (outsAt3 c n (Nat.lt_of_succ_lt hn)).2.2.2,
         sout3_C_1 V c ⟨n + 1, hn⟩ h0 h1 (outsAt3 c n (Nat.lt_of_succ_lt hn)).2.2.1 (outsAt3 c n (Nat.lt_of_succ_lt hn)).2.2.2)
      else
        (idleOut3_3, idleOut3_4,
         sout3_B_0 V c ⟨n + 1, hn⟩ h0 h1 (outsAt3 c n (Nat.lt_of_succ_lt hn)).2.2.1 (outsAt3 c n (Nat.lt_of_succ_lt hn)).2.2.2,
         sout3_B_1 V c ⟨n + 1, hn⟩ h0 h1 (outsAt3 c n (Nat.lt_of_succ_lt hn)).2.2.1 (outsAt3 c n (Nat.lt_of_succ_lt hn)).2.2.2)

abbrev prev3_0 (c : Dev nD) (t : Fin cfg3.N) : Vec F S8x16 .f32 := (outsAt3 V c (t.val - 1) (Nat.lt_of_le_of_lt (Nat.sub_le _ _) t.isLt)).2.2.1
abbrev prev3_1 (c : Dev nD) (t : Fin cfg3.N) : Vec F S8x16 .f32 := (outsAt3 V c (t.val - 1) (Nat.lt_of_le_of_lt (Nat.sub_le _ _) t.isLt)).2.2.2

theorem outsAt3_A (c : Dev nD) (t : Fin cfg3.N) (h0 : t.val % 4 = 0) (h1 : ¬t.val % 4 = 3) :
    outsAt3 V c t.val t.isLt = (idleOut3_3, idleOut3_4, sout3_A_0 V c t h0 h1, sout3_A_1 V c t h0 h1) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (idleOut3_3, idleOut3_4, sout3_B_0 V c t h0 h1 (prev3_0 V c t) (prev3_1 V c t), sout3_B_1 V c t h0 h1 (prev3_0 V c t) (prev3_1 V c t)) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 V c t h0 h1 (prev3_0 V c t) (prev3_1 V c t), out3_C_4 V c t h0 h1 (prev3_0 V c t) (prev3_1 V c t), sout3_C_0 V c t h0 h1 (prev3_0 V c t) (prev3_1 V c t), sout3_C_1 V c t h0 h1 (prev3_0 V c t) (prev3_1 V c t)) := by
  obtain ⟨n, hn⟩ := t
  cases n with
  | zero => exact absurd (Nat.zero_mod _) h0
  | succ n => exact (dif_neg h0).trans ((dif_pos h1).trans rfl)

abbrev rest3 (c : Dev nD) : sProp 𝕄 :=
  Pipeline.scopedRestBut (Ix := Unit) (Name := ℕ) (U := UR sig nD τ) (Lvl := ℕ) (Val := Elt F) spec3 c [cc3_scratch0, cc3_scratch1]

def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.1) ∗ owns (c : Thread nD τ) scM3_1 fullShare ((outsAt3 V c n hn).2.2.2)) ∗ rest3 c) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem q_eq3 (c : Dev nD) (w : Fin cfg3.W) : (dat3 V c).q w = fullShare := rfl

theorem owed_eq3 (c : Dev nD) (t : Fin (cfg3.N + 1)) : (dat3 V c).owed t = 0 := rfl

theorem recorded_eq3 (c : Dev nD) (t : Fin (cfg3.N + 1)) : (dat3 V c).recorded t = Set.univ := rfl

theorem after3_3 (c : Dev nD) (t : Fin cfg3.N) : (dat3 V c).after 3 t = (outsAt3 V c t.val t.isLt).1 := rfl
theorem after3_4 (c : Dev nD) (t : Fin cfg3.N) : (dat3 V c).after 4 t = (outsAt3 V c t.val t.isLt).2.1 := rfl

theorem hin3 (c : Dev nD) : (Pipeline.ΦA spec3 c : sProp 𝕄) ⊢ (dat3 V c).Φ 0 := .rfl

-- The invariant at any position entails the entry invariant: the accumulators' contents are forgotten.
theorem Phi_out3 (c : Dev nD) (t : Fin (cfg3.N + 1)) : (dat3 V c).Φ t ⊢ (Pipeline.ΦA spec3 c : sProp 𝕄) := by
  obtain ⟨_ | n, hn⟩ := t
  · exact .rfl
  rw [PhiA3_eq]
  show iprop(((_ ∗ _) ∗ _) ∗ _) ⊢ _
  iintro ⟨⟨⟨HS0, HS1⟩, Hrest⟩, Hg⟩
  iframe Hrest Hg
  isplitl [HS0] <;> iexists _ <;> iassumption

theorem hout3 (c : Dev nD) : (dat3 V c).Φ (Fin.last cfg3.N) ⊢ (Pipeline.ΦA spec3 c : sProp 𝕄) := Phi_out3 V c _

-- Past the first point the invariant names the accumulators at what the point before left.
theorem Phi_pos3 (c : Dev nD) (t : Fin cfg3.N) (hz : t.val ≠ 0) :
    (dat3 V c).Φ t.castSucc = iprop(((owns (c : Thread nD τ) scM3_0 fullShare (prev3_0 V c t) ∗ owns (c : Thread nD τ) scM3_1 fullShare (prev3_1 V c t)) ∗ rest3 c) ∗ ∃ r, prngReg c r) := by
  obtain ⟨_ | n, hn⟩ := t
  · exact absurd rfl hz
  · rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
-- The residue of the point says which run applies; the accumulators come from the invariant and go back tiled by the run's pieces.
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0_of V (dat3 V c) rfl (fun _ => rfl) t, before3_1_of V (dat3 V c) rfl (fun _ => rfl) t, before3_2_of V (dat3 V c) rfl (fun _ => rfl) t]
  rw [show (dat3 V c).owesAt () t.succ = (dat3 V c).owesAt () t.castSucc from rfl,
    show (dat3 V c).Φ t.succ = iprop(((owns (c : Thread nD τ) scM3_0 fullShare (outsAt3 V c t.val t.isLt).2.2.1 ∗ owns (c : Thread nD τ) scM3_1 fullShare (outsAt3 V c t.val t.isLt).2.2.2) ∗ rest3 c) ∗ ∃ r, prngReg c r) from rfl,
    show (dat3 V c).leavesExact 0 t = owns (c : Thread nD τ) (ms3_0 t) fullShare (iblk3 V c 0 t) from rfl,
    show (dat3 V c).leavesExact 1 t = owns (c : Thread nD τ) (ms3_1 t) fullShare (iblk3 V c 1 t) from rfl,
    show (dat3 V c).leavesExact 2 t = owns (c : Thread nD τ) (ms3_2 t) fullShare (iblk3 V c 2 t) from rfl]
  by_cases h1 : t.val % 4 = 3
  · have h0 : ¬t.val % 4 = 0 := by omega
    have hc := (hcond3_1 t).mpr h1
    rw [show (dat3 V c).leavesExact 3 t = owns (c : Thread nD τ) (ms3_3 t) fullShare (outsAt3 V c t.val t.isLt).1 from by
        unfold Dat.leavesExact; rw [liveAt3_3 t hc]; rfl,
      show (dat3 V c).leavesExact 4 t = owns (c : Thread nD τ) (ms3_4 t) fullShare (outsAt3 V c t.val t.isLt).2.1 from by
        unfold Dat.leavesExact; rw [liveAt3_4 t hc]; rfl,
      outsAt3_C V c t h0 h1, Phi_pos3 V c t fun e => h0 (by rw [e])]
    unfold out3_C_3 out3_C_4 sout3_C_0 sout3_C_1; dsimp only
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runC3 V c t h0 h1 _ _).2.2.2.2 Set.univ _
    iframe H0 H1 H2 HS0 HS1
    isplitl [H3]; · iexists _; iexact H3
    isplitl [H4]; · iexists _; iexact H4
    iintro ⟨H0, H1, H2, ⟨%f3, H3⟩, ⟨%f4, H4⟩, ⟨%f0, HS0⟩, ⟨%f1, HS1⟩⟩
    iframe Hrest Hg Ho H0 H1 H2
    isplitl [HS0 HS1]
    · isplitl [HS0]
      · ihave H' := (Ring.owns_of_writes_tiledL VS3_0 S8x1.size) $$ HS0; iapply H'; ipureintro; sl_kernel_rfl
      · ihave H' := (Ring.owns_of_writes_tiledL VS3_1 S8x1.size) $$ HS1; iapply H'; ipureintro; sl_kernel_rfl
    isplitl [H3]
    · ihave H' := (Ring.owns_of_writes_tiledL VO3_3 S8x16.size) $$ H3; iapply H'; ipureintro; sl_kernel_rfl
    · ihave H' := (Ring.owns_of_writes_tiledL VO3_4 S8x16.size) $$ H4; iapply H'; ipureintro; sl_kernel_rfl
  have hc : ¬cond3_1 (grid3.coords t) := fun h => h1 ((hcond3_1 t).mp h)
  rw [Dat.leavesExact_idle _ 3 t (idleAt3_3 t hc) (noFlush3_3 t hc), Dat.leavesExact_idle _ 4 t (idleAt3_4 t hc) (noFlush3_4 t hc)]
  by_cases h0 : t.val % 4 = 0
  on_goal 1 =>
    rw [outsAt3_A V c t h0 h1]; unfold sout3_A_0 sout3_A_1; dsimp only
    refine (sep_mono_left (Phi_out3 V c _)).trans ?_
    rw [PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runA3 V c t h0 h1).2.2.2.2 ((dat3 V c).before 3 t d3) ((dat3 V c).before 4 t d4) Set.univ _
  on_goal 2 =>
    rw [outsAt3_B V c t h0 h1, Phi_pos3 V c t fun e => h0 (by rw [e])]; unfold sout3_B_0 sout3_B_1; dsimp only
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runB3 V c t h0 h1 (prev3_0 V c t) (prev3_1 V c t)).2.2.2.2 ((dat3 V c).before 3 t d3) ((dat3 V c).before 4 t d4) Set.univ _
  all_goals
    iframe H0 H1 H2 H3 H4 HS0 HS1
    iintro ⟨H0, H1, H2, H3, H4, ⟨%f0, HS0⟩, ⟨%f1, HS1⟩⟩
    iframe Hrest Hg Ho H0 H1 H2
    isplitl [HS0 HS1]
    · isplitl [HS0]
      · ihave H' := (Ring.owns_of_writes_tiledL VS3_0 S8x1.size) $$ HS0; iapply H'; ipureintro; sl_kernel_rfl
      · ihave H' := (Ring.owns_of_writes_tiledL VS3_1 S8x1.size) $$ HS1; iapply H'; ipureintro; sl_kernel_rfl
    isplitl [H3] <;> iexists _ <;> iassumption

theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.K.P2Runs4.lean ====
import proofs.«413171_j1022202216836_1_alg».proof.Proof.Gen.Kernel.Launch
import proofs.«413171_j1022202216836_1_alg».proof.Proof.Gen.Kernel.Points
import proofs.«413171_j1022202216836_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1

theorem hcond4_0 : ∀ t : Fin cfg4.N, cond4_0 (grid4.coords t) ↔ t.val % 2 = 0 :=
  (by decide +kernel : ∀ t : Fin grid4.N, cond4_0 (grid4.coords t) ↔ t.val % 2 = 0)

abbrev cond4_1 (i : grid4.Coords) : Prop := k4_cond2 i = 1#1

theorem hcond4_1 : ∀ t : Fin cfg4.N, cond4_1 (grid4.coords t) ↔ t.val % 2 = 1 :=
  (by decide +kernel : ∀ t : Fin grid4.N, cond4_1 (grid4.coords t) ↔ t.val % 2 = 1)

theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

abbrev ms4_0 (t : Fin cfg4.N) : Memref sig .tc .vmem S8x1x256x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8x1x256x512 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S8x16 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S8x16 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S8x16 .f32 := win4_4.stage (cfg4.slots t 4)
abbrev hs4_4 (t : Fin cfg4.N) : (ms4_4 t).IsWhole := hstage4_4 ((cfg4.slots t 4).cast nbuf4_4)

abbrev scM4_0 : Memref sig .tc .vmem S8x16 .f32 := Memref.whole cc4_scratch0
abbrev scM4_1 : Memref sig .tc .vmem S8x16 .f32 := Memref.whole cc4_scratch1

abbrev VO4_3 : View sig .tc .vmem S8x16 .f32 := (Memref.whole cc4_stg3_0 : Memref sig .tc .vmem S8x16 .f32).view
abbrev VO4_4 : View sig .tc .vmem S8x16 .f32 := (Memref.whole cc4_stg4_0 : Memref sig .tc .vmem S8x16 .f32).view
abbrev VS4_0 : View sig .tc .vmem S8x16 .f32 := scM4_0.view
abbrev VS4_1 : View sig .tc .vmem S8x16 .f32 := scM4_1.view

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; rfl

end Cert.Kernel.Gen

end
-- ==== Proof.K.P2Run4.lean ====
import proofs.«413171_j1022202216836_1_alg».proof.Proof.K.P2Runs4

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun4_A (c : Dev nD) (i : grid4.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : cond4_0 i) (hc1 : ¬cond4_1 i)
    (x0 : Vec F S8x1x256x512 .f32) (x1 : Vec F S8x1x256x512 .i32) (x2 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (xi3 xi4 : Vec F S8x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pass2_kernel i arg2 harg2 arg3 harg3 arg4 harg4 arg5 harg5 arg6 harg6 arg7 harg7 arg8 harg8) K } := by
  refine ⟨[], [], ?_, ?_, fun xi3 xi4 E K => ?run⟩
  case run =>
    simp only [cc4__pass2_kernel_eq_skeleton]; unfold cc4__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in

noncomputable def kernelRun4_B (c : Dev nD) (i : grid4.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : ¬cond4_0 i) (hc1 : ¬cond4_1 i)
    (x0 : Vec F S8x1x256x512 .f32) (x1 : Vec F S8x1x256x512 .i32) (x2 : Vec F S8x16 .f32) (xs0 : Vec F S8x16 .f32) (xs1 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (xi3 xi4 : Vec F S8x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pass2_kernel i arg2 harg2 arg3 harg3 arg4 harg4 arg5 harg5 arg6 harg6 arg7 harg7 arg8 harg8) K } := by
  refine ⟨[], [], ?_, ?_, fun xi3 xi4 E K => ?run⟩
  case run =>
    simp only [cc4__pass2_kernel_eq_skeleton]; unfold cc4__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 4000000 in

noncomputable def kernelRun4_C (c : Dev nD) (i : grid4.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : ¬cond4_0 i) (hc1 : cond4_1 i)
    (x0 : Vec F S8x1x256x512 .f32) (x1 : Vec F S8x1x256x512 .i32) (x2 : Vec F S8x16 .f32) (xs0 : Vec F S8x16 .f32) (xs1 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pass2_kernel i arg2 harg2 arg3 harg3 arg4 harg4 arg5 harg5 arg6 harg6 arg7 harg7 arg8 harg8) K } := by
  refine ⟨?_, ?_, ?_, ?_, fun E K => ?run⟩
  case run =>
    simp only [cc4__pass2_kernel_eq_skeleton]; unfold cc4__pass2_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Gen

end
-- ==== Proof.K.R4Dat.lean ====
import proofs.«413171_j1022202216836_1_alg».proof.Proof.K.P2Run4

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev runA4 (c : Dev nD) (t : Fin cfg4.N) (h0 : t.val % 2 = 0) (h1 : ¬t.val % 2 = 1) :=
  kernelRun4_A (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t)
abbrev runB4 (c : Dev nD) (t : Fin cfg4.N) (h0 : ¬t.val % 2 = 0) (h1 : ¬t.val % 2 = 1) (xs0 xs1 : Vec F S8x16 .f32) :=
  kernelRun4_B (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) xs0 xs1
abbrev runC4 (c : Dev nD) (t : Fin cfg4.N) (h0 : ¬t.val % 2 = 0) (h1 : t.val % 2 = 1) (xs0 xs1 : Vec F S8x16 .f32) :=
  kernelRun4_C (F := F) c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) xs0 xs1

def sout4_A_0 (c : Dev nD) (t : Fin cfg4.N) (h0 : t.val % 2 = 0) (h1 : ¬t.val % 2 = 1) : Vec F S8x16 .f32 :=
  VS4_0.read (Elt F) (VS4_0.writes (Elt F) VS4_0.junk (runA4 V c t h0 h1).2.2.1)
def sout4_A_1 (c : Dev nD) (t : Fin cfg4.N) (h0 : t.val % 2 = 0) (h1 : ¬t.val % 2 = 1) : Vec F S8x16 .f32 :=
  VS4_1.read (Elt F) (VS4_1.writes (Elt F) VS4_1.junk (runA4 V c t h0 h1).2.2.2.1)

theorem scover4_B_0 (c : Dev nD) (t : Fin cfg4.N) (h0 : ¬t.val % 2 = 0) (h1 : ¬t.val % 2 = 1) (xs0 xs1 : Vec F S8x16 .f32) (y : S8x16.Idx) :
    ∃ pc ∈ (runB4 V c t h0 h1 xs0 xs1).2.2.1, y ∈ pc.1.set :=
  View.cover_of_tiledL (runB4 V c t h0 h1 xs0 xs1).2.2.1 S8x1.size (by sl_kernel_rfl) y
theorem scover4_B_1 (c : Dev nD) (t : Fin cfg4.N) (h0 : ¬t.val % 2 = 0) (h1 : ¬t.val % 2 = 1) (xs0 xs1 : Vec F S8x16 .f32) (y : S8x16.Idx) :
    ∃ pc ∈ (runB4 V c t h0 h1 xs0 xs1).2.2.2.1, y ∈ pc.1.set :=
  View.cover_of_tiledL (runB4 V c t h0 h1 xs0 xs1).2.2.2.1 S8x1.size (by sl_kernel_rfl) y
def sout4_B_0 (c : Dev nD) (t : Fin cfg4.N) (h0 : ¬t.val % 2 = 0) (h1 : ¬t.val % 2 = 1) (xs0 xs1 : Vec F S8x16 .f32) : Vec F S8x16 .f32 :=
  VS4_0.read (Elt F) (VS4_0.writes (Elt F) VS4_0.junk (runB4 V c t h0 h1 xs0 xs1).2.2.1)
def sout4_B_1 (c : Dev nD) (t : Fin cfg4.N) (h0 : ¬t.val % 2 = 0) (h1 : ¬t.val % 2 = 1) (xs0 xs1 : Vec F S8x16 .f32) : Vec F S8x16 .f32 :=
  VS4_1.read (Elt F) (VS4_1.writes (Elt F) VS4_1.junk (runB4 V c t h0 h1 xs0 xs1).2.2.2.1)

theorem scover4_C_0 (c : Dev nD) (t : Fin cfg4.N) (h0 : ¬t.val % 2 = 0) (h1 : t.val % 2 = 1) (xs0 xs1 : Vec F S8x16 .f32) (y : S8x16.Idx) :
    ∃ pc ∈ (runC4 V c t h0 h1 xs0 xs1).2.2.1, y ∈ pc.1.set :=
  View.cover_of_tiledL (runC4 V c t h0 h1 xs0 xs1).2.2.1 S8x1.size (by sl_kernel_rfl) y
theorem scover4_C_1 (c : Dev nD) (t : Fin cfg4.N) (h0 : ¬t.val % 2 = 0) (h1 : t.val % 2 = 1) (xs0 xs1 : Vec F S8x16 .f32) (y : S8x16.Idx) :
    ∃ pc ∈ (runC4 V c t h0 h1 xs0 xs1).2.2.2.1, y ∈ pc.1.set :=
  View.cover_of_tiledL (runC4 V c t h0 h1 xs0 xs1).2.2.2.1 S8x1.size (by sl_kernel_rfl) y
def out4_C_3 (c : Dev nD) (t : Fin cfg4.N) (h0 : ¬t.val % 2 = 0) (h1 : t.val % 2 = 1) (xs0 xs1 : Vec F S8x16 .f32) : Vec F S8x16 .f32 :=
  VO4_3.read (Elt F) (VO4_3.writes (Elt F) VO4_3.junk (runC4 V c t h0 h1 xs0 xs1).1)
def out4_C_4 (c : Dev nD) (t : Fin cfg4.N) (h0 : ¬t.val % 2 = 0) (h1 : t.val % 2 = 1) (xs0 xs1 : Vec F S8x16 .f32) : Vec F S8x16 .f32 :=
  VO4_4.read (Elt F) (VO4_4.writes (Elt F) VO4_4.junk (runC4 V c t h0 h1 xs0 xs1).2.1)
def sout4_C_0 (c : Dev nD) (t : Fin cfg4.N) (h0 : ¬t.val % 2 = 0) (h1 : t.val % 2 = 1) (xs0 xs1 : Vec F S8x16 .f32) : Vec F S8x16 .f32 :=
  VS4_0.read (Elt F) (VS4_0.writes (Elt F) VS4_0.junk (runC4 V c t h0 h1 xs0 xs1).2.2.1)
def sout4_C_1 (c : Dev nD) (t : Fin cfg4.N) (h0 : ¬t.val % 2 = 0) (h1 : t.val % 2 = 1) (xs0 xs1 : Vec F S8x16 .f32) : Vec F S8x16 .f32 :=
  VS4_1.read (Elt F) (VS4_1.writes (Elt F) VS4_1.junk (runC4 V c t h0 h1 xs0 xs1).2.2.2.1)

def idleOut4_3 : Vec F S8x16 .f32 := VO4_3.read (Elt F) VO4_3.junk
def idleOut4_4 : Vec F S8x16 .f32 := VO4_4.read (Elt F) VO4_4.junk

def outsAt4 (c : Dev nD) : (n : ℕ) → n < cfg4.N → Vec F S8x16 .f32 × Vec F S8x16 .f32 × Vec F S8x16 .f32 × Vec F S8x16 .f32
  | 0, hn => (idleOut4_3, idleOut4_4, sout4_A_0 V c ⟨0, hn⟩ (Nat.zero_mod _) (by show ¬0 % 2 = 1; decide), sout4_A_1 V c ⟨0, hn⟩ (Nat.zero_mod _) (by show ¬0 % 2 = 1; decide))
  | n + 1, hn =>
    if h0 : (n + 1) % 2 = 0 then
      if h1 : (n + 1) % 2 = 1 then
        False.elim (by omega)
      else
        (idleOut4_3, idleOut4_4, sout4_A_0 V c ⟨n + 1, hn⟩ h0 h1, sout4_A_1 V c ⟨n + 1, hn⟩ h0 h1)
    else
      if h1 : (n + 1) % 2 = 1 then
        (out4_C_3 V c ⟨n + 1, hn⟩ h0 h1 (outsAt4 c n (Nat.lt_of_succ_lt hn)).2.2.1 (outsAt4 c n (Nat.lt_of_succ_lt hn)).2.2.2,
         out4_C_4 V c ⟨n + 1, hn⟩ h0 h1 (outsAt4 c n (Nat.lt_of_succ_lt hn)).2.2.1 (outsAt4 c n (Nat.lt_of_succ_lt hn)).2.2.2,
         sout4_C_0 V c ⟨n + 1, hn⟩ h0 h1 (outsAt4 c n (Nat.lt_of_succ_lt hn)).2.2.1 (outsAt4 c n (Nat.lt_of_succ_lt hn)).2.2.2,
         sout4_C_1 V c ⟨n + 1, hn⟩ h0 h1 (outsAt4 c n (Nat.lt_of_succ_lt hn)).2.2.1 (outsAt4 c n (Nat.lt_of_succ_lt hn)).2.2.2)
      else
        (idleOut4_3, idleOut4_4,
         sout4_B_0 V c ⟨n + 1, hn⟩ h0 h1 (outsAt4 c n (Nat.lt_of_succ_lt hn)).2.2.1 (outsAt4 c n (Nat.lt_of_succ_lt hn)).2.2.2,
         sout4_B_1 V c ⟨n + 1, hn⟩ h0 h1 (outsAt4 c n (Nat.lt_of_succ_lt hn)).2.2.1 (outsAt4 c n (Nat.lt_of_succ_lt hn)).2.2.2)

abbrev prev4_0 (c : Dev nD) (t : Fin cfg4.N) : Vec F S8x16 .f32 := (outsAt4 V c (t.val - 1) (Nat.lt_of_le_of_lt (Nat.sub_le _ _) t.isLt)).2.2.1
abbrev prev4_1 (c : Dev nD) (t : Fin cfg4.N) : Vec F S8x16 .f32 := (outsAt4 V c (t.val - 1) (Nat.lt_of_le_of_lt (Nat.sub_le _ _) t.isLt)).2.2.2

theorem outsAt4_A (c : Dev nD) (t : Fin cfg4.N) (h0 : t.val % 2 = 0) (h1 : ¬t.val % 2 = 1) :
    outsAt4 V c t.val t.isLt = (idleOut4_3, idleOut4_4, sout4_A_0 V c t h0 h1, sout4_A_1 V c t h0 h1) := by
  obtain ⟨n, hn⟩ := t
  cases n with
  | zero => exact rfl
  | succ n => exact (dif_pos h0).trans ((dif_neg h1).trans rfl)

theorem outsAt4_B (c : Dev nD) (t : Fin cfg4.N) (h0 : ¬t.val % 2 = 0) (h1 : ¬t.val % 2 = 1) :
    outsAt4 V c t.val t.isLt = (idleOut4_3, idleOut4_4, sout4_B_0 V c t h0 h1 (prev4_0 V c t) (prev4_1 V c t), sout4_B_1 V c t h0 h1 (prev4_0 V c t) (prev4_1 V c t)) := by
  obtain ⟨n, hn⟩ := t
  cases n with
  | zero => exact absurd (Nat.zero_mod _) h0
  | succ n => exact (dif_neg h0).trans ((dif_neg h1).trans rfl)

theorem outsAt4_C (c : Dev nD) (t : Fin cfg4.N) (h0 : ¬t.val % 2 = 0) (h1 : t.val % 2 = 1) :
    outsAt4 V c t.val t.isLt = (out4_C_3 V c t h0 h1 (prev4_0 V c t) (prev4_1 V c t), out4_C_4 V c t h0 h1 (prev4_0 V c t) (prev4_1 V c t), sout4_C_0 V c t h0 h1 (prev4_0 V c t) (prev4_1 V c t), sout4_C_1 V c t h0 h1 (prev4_0 V c t) (prev4_1 V c t)) := by
  obtain ⟨n, hn⟩ := t
  cases n with
  | zero => exact absurd (Nat.zero_mod _) h0
  | succ n => exact (dif_neg h0).trans ((dif_pos h1).trans rfl)

abbrev rest4 (c : Dev nD) : sProp 𝕄 :=
  Pipeline.scopedRestBut (Ix := Unit) (Name := ℕ) (U := UR sig nD τ) (Lvl := ℕ) (Val := Elt F) spec4 c [cc4_scratch0, cc4_scratch1]

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ rest4 c) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem q_eq4 (c : Dev nD) (w : Fin cfg4.W) : (dat4 V c).q w = fullShare := rfl

theorem owed_eq4 (c : Dev nD) (t : Fin (cfg4.N + 1)) : (dat4 V c).owed t = 0 := rfl

theorem recorded_eq4 (c : Dev nD) (t : Fin (cfg4.N + 1)) : (dat4 V c).recorded t = Set.univ := rfl

theorem after4_3 (c : Dev nD) (t : Fin cfg4.N) : (dat4 V c).after 3 t = (outsAt4 V c t.val t.isLt).1 := rfl
theorem after4_4 (c : Dev nD) (t : Fin cfg4.N) : (dat4 V c).after 4 t = (outsAt4 V c t.val t.isLt).2.1 := rfl

theorem hin4 (c : Dev nD) : (Pipeline.ΦA spec4 c : sProp 𝕄) ⊢ (dat4 V c).Φ 0 := .rfl

-- The invariant at any position entails the entry invariant: the accumulators' contents are forgotten.
theorem Phi_out4 (c : Dev nD) (t : Fin (cfg4.N + 1)) : (dat4 V c).Φ t ⊢ (Pipeline.ΦA spec4 c : sProp 𝕄) := by
  obtain ⟨_ | n, hn⟩ := t
  · exact .rfl
  rw [PhiA4_eq]
  show iprop(((_ ∗ _) ∗ _) ∗ _) ⊢ _
  iintro ⟨⟨⟨HS0, HS1⟩, Hrest⟩, Hg⟩
  iframe Hrest Hg
  isplitl [HS0] <;> iexists _ <;> iassumption

theorem hout4 (c : Dev nD) : (dat4 V c).Φ (Fin.last cfg4.N) ⊢ (Pipeline.ΦA spec4 c : sProp 𝕄) := Phi_out4 V c _

-- Past the first point the invariant names the accumulators at what the point before left.
theorem Phi_pos4 (c : Dev nD) (t : Fin cfg4.N) (hz : t.val ≠ 0) :
    (dat4 V c).Φ t.castSucc = iprop(((owns (c : Thread nD τ) scM4_0 fullShare (prev4_0 V c t) ∗ owns (c : Thread nD τ) scM4_1 fullShare (prev4_1 V c t)) ∗ rest4 c) ∗ ∃ r, prngReg c r) := by
  obtain ⟨_ | n, hn⟩ := t
  · exact absurd rfl hz
  · rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
-- The residue of the point says which run applies; the accumulators come from the invariant and go back tiled by the run's pieces.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0_of V (dat4 V c) rfl (fun _ => rfl) t, before4_1_of V (dat4 V c) rfl (fun _ => rfl) t, before4_2_of V (dat4 V c) rfl (fun _ => rfl) t]
  rw [show (dat4 V c).owesAt () t.succ = (dat4 V c).owesAt () t.castSucc from rfl,
    show (dat4 V c).Φ t.succ = iprop(((owns (c : Thread nD τ) scM4_0 fullShare (outsAt4 V c t.val t.isLt).2.2.1 ∗ owns (c : Thread nD τ) scM4_1 fullShare (outsAt4 V c t.val t.isLt).2.2.2) ∗ rest4 c) ∗ ∃ r, prngReg c r) from rfl,
    show (dat4 V c).leavesExact 0 t = owns (c : Thread nD τ) (ms4_0 t) fullShare (iblk4 V c 0 t) from rfl,
    show (dat4 V c).leavesExact 1 t = owns (c : Thread nD τ) (ms4_1 t) fullShare (iblk4 V c 1 t) from rfl,
    show (dat4 V c).leavesExact 2 t = owns (c : Thread nD τ) (ms4_2 t) fullShare (iblk4 V c 2 t) from rfl]
  by_cases h1 : t.val % 2 = 1
  · have h0 : ¬t.val % 2 = 0 := by omega
    have hc := (hcond4_1 t).mpr h1
    rw [show (dat4 V c).leavesExact 3 t = owns (c : Thread nD τ) (ms4_3 t) fullShare (outsAt4 V c t.val t.isLt).1 from by
        unfold Dat.leavesExact; rw [liveAt4_3 t hc]; rfl,
      show (dat4 V c).leavesExact 4 t = owns (c : Thread nD τ) (ms4_4 t) fullShare (outsAt4 V c t.val t.isLt).2.1 from by
        unfold Dat.leavesExact; rw [liveAt4_4 t hc]; rfl,
      outsAt4_C V c t h0 h1, Phi_pos4 V c t fun e => h0 (by rw [e])]
    unfold out4_C_3 out4_C_4 sout4_C_0 sout4_C_1; dsimp only
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runC4 V c t h0 h1 _ _).2.2.2.2 Set.univ _
    iframe H0 H1 H2 HS0 HS1
    isplitl [H3]; · iexists _; iexact H3
    isplitl [H4]; · iexists _; iexact H4
    iintro ⟨H0, H1, H2, ⟨%f3, H3⟩, ⟨%f4, H4⟩, ⟨%f0, HS0⟩, ⟨%f1, HS1⟩⟩
    iframe Hrest Hg Ho H0 H1 H2
    isplitl [HS0 HS1]
    · isplitl [HS0]
      · ihave H' := (Ring.owns_of_writes_tiledL VS4_0 S8x1.size) $$ HS0; iapply H'; ipureintro; sl_kernel_rfl
      · ihave H' := (Ring.owns_of_writes_tiledL VS4_1 S8x1.size) $$ HS1; iapply H'; ipureintro; sl_kernel_rfl
    isplitl [H3]
    · ihave H' := (Ring.owns_of_writes_tiledL VO4_3 S8x16.size) $$ H3; iapply H'; ipureintro; sl_kernel_rfl
    · ihave H' := (Ring.owns_of_writes_tiledL VO4_4 S8x16.size) $$ H4; iapply H'; ipureintro; sl_kernel_rfl
  have hc : ¬cond4_1 (grid4.coords t) := fun h => h1 ((hcond4_1 t).mp h)
  rw [Dat.leavesExact_idle _ 3 t (idleAt4_3 t hc) (noFlush4_3 t hc), Dat.leavesExact_idle _ 4 t (idleAt4_4 t hc) (noFlush4_4 t hc)]
  by_cases h0 : t.val % 2 = 0
  on_goal 1 =>
    rw [outsAt4_A V c t h0 h1]; unfold sout4_A_0 sout4_A_1; dsimp only
    refine (sep_mono_left (Phi_out4 V c _)).trans ?_
    rw [PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runA4 V c t h0 h1).2.2.2.2 ((dat4 V c).before 3 t d3) ((dat4 V c).before 4 t d4) Set.univ _
  on_goal 2 =>
    rw [outsAt4_B V c t h0 h1, Phi_pos4 V c t fun e => h0 (by rw [e])]; unfold sout4_B_0 sout4_B_1; dsimp only
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (runB4 V c t h0 h1 (prev4_0 V c t) (prev4_1 V c t)).2.2.2.2 ((dat4 V c).before 3 t d3) ((dat4 V c).before 4 t d4) Set.univ _
  all_goals
    iframe H0 H1 H2 H3 H4 HS0 HS1
    iintro ⟨H0, H1, H2, H3, H4, ⟨%f0, HS0⟩, ⟨%f1, HS1⟩⟩
    iframe Hrest Hg Ho H0 H1 H2
    isplitl [HS0 HS1]
    · isplitl [HS0]
      · ihave H' := (Ring.owns_of_writes_tiledL VS4_0 S8x1.size) $$ HS0; iapply H'; ipureintro; sl_kernel_rfl
      · ihave H' := (Ring.owns_of_writes_tiledL VS4_1 S8x1.size) $$ HS1; iapply H'; ipureintro; sl_kernel_rfl
    isplitl [H3] <;> iexists _ <;> iassumption

theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.K.P2Runs5.lean ====
import proofs.«413171_j1022202216836_1_alg».proof.Proof.Gen.Kernel.Launch
import proofs.«413171_j1022202216836_1_alg».proof.Proof.Gen.Kernel.Points
import proofs.«413171_j1022202216836_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 1).val) 0#32)) 0#32) = 1#1

theorem hcond5_0 : ∀ t : Fin cfg5.N, cond5_0 (grid5.coords t) ↔ t.val % 1 = 0 :=
  (by decide +kernel : ∀ t : Fin grid5.N, cond5_0 (grid5.coords t) ↔ t.val % 1 = 0)

abbrev cond5_1 (i : grid5.Coords) : Prop := k5_cond2 i = 1#1

theorem hcond5_1 : ∀ t : Fin cfg5.N, cond5_1 (grid5.coords t) ↔ t.val % 1 = 0 :=
  (by decide +kernel : ∀ t : Fin grid5.N, cond5_1 (grid5.coords t) ↔ t.val % 1 = 0)

theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

abbrev ms5_0 (t : Fin cfg5.N) : Memref sig .tc .vmem S8x1x256x256 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8x1x256x256 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S8x16 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S8x16 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S8x16 .f32 := win5_4.stage (cfg5.slots t 4)
abbrev hs5_4 (t : Fin cfg5.N) : (ms5_4 t).IsWhole := hstage5_4 ((cfg5.slots t 4).cast nbuf5_4)

abbrev scM5_0 : Memref sig .tc .vmem S8x16 .f32 := Memref.whole cc5_scratch0
abbrev scM5_1 : Memref sig .tc .vmem S8x16 .f32 := Memref.whole cc5_scratch1

abbrev VO5_3 : View sig .tc .vmem S8x16 .f32 := (Memref.whole cc5_stg3_0 : Memref sig .tc .vmem S8x16 .f32).view
abbrev VO5_4 : View sig .tc .vmem S8x16 .f32 := (Memref.whole cc5_stg4_0 : Memref sig .tc .vmem S8x16 .f32).view
abbrev VS5_0 : View sig .tc .vmem S8x16 .f32 := scM5_0.view
abbrev VS5_1 : View sig .tc .vmem S8x16 .f32 := scM5_1.view

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; rfl

end Cert.Kernel.Gen

end
-- ==== Proof.K.P2Run5.lean ====
import proofs.«413171_j1022202216836_1_alg».proof.Proof.K.P2Runs5

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun5_D (c : Dev nD) (i : grid5.Coords) (arg2 : Memref sig .tc .vmem S8x1x256x256 .f32) (harg2 : arg2.IsWhole) (arg3 : Memref sig .tc .vmem S8x1x256x256 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole) (arg8 : Memref sig .tc .vmem S8x16 .f32) (harg8 : arg8.IsWhole) (hc0 : cond5_0 i) (hc1 : cond5_1 i)
    (x0 : Vec F S8x1x256x256 .f32) (x1 : Vec F S8x1x256x256 .i32) (x2 : Vec F S8x16 .f32) :
    Σ' (L3 : List (View.Piece (Elt F) S8x16 .f32)) (L4 : List (View.Piece (Elt F) S8x16 .f32)) (LS0 : List (View.Piece (Elt F) S8x16 .f32)), { LS1 : List (View.Piece (Elt F) S8x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc5__pass2_kernel i arg2 harg2 arg3 harg3 arg4 harg4 arg5 harg5 arg6 harg6 arg7 harg7 arg8 harg8) K } := by
  refine ⟨?_, ?_, ?_, ?_, fun E K => ?run⟩
  case run =>
    simp only [cc5__pass2_kernel_eq_skeleton]; unfold cc5__pass2_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Gen

end
-- ==== Proof.K.R5Dat.lean ====
import proofs.«413171_j1022202216836_1_alg».proof.Proof.K.P2Run5

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev runD5 (c : Dev nD) (t : Fin cfg5.N) :=
  kernelRun5_D (F := F) c (grid5.coords t) (ms5_0 t) (hs5_0 t) (ms5_1 t) (hs5_1 t) (ms5_2 t) (hs5_2 t) (ms5_3 t) (hs5_3 t) (ms5_4 t) (hs5_4 t) scM5_0 (Memref.isWhole_whole _) scM5_1 (Memref.isWhole_whole _) ((hcond5_0 t).mpr (Nat.mod_one _)) ((hcond5_1 t).mpr (Nat.mod_one _)) (iblk5 V c 0 t) (iblk5 V c 1 t) (iblk5 V c 2 t)

def out5_D_3 (c : Dev nD) (t : Fin cfg5.N) : Vec F S8x16 .f32 := VO5_3.read (Elt F) (VO5_3.writes (Elt F) VO5_3.junk (runD5 V c t).1)
def out5_D_4 (c : Dev nD) (t : Fin cfg5.N) : Vec F S8x16 .f32 := VO5_4.read (Elt F) (VO5_4.writes (Elt F) VO5_4.junk (runD5 V c t).2.1)
def sout5_D_0 (c : Dev nD) (t : Fin cfg5.N) : Vec F S8x16 .f32 := VS5_0.read (Elt F) (VS5_0.writes (Elt F) VS5_0.junk (runD5 V c t).2.2.1)
def sout5_D_1 (c : Dev nD) (t : Fin cfg5.N) : Vec F S8x16 .f32 := VS5_1.read (Elt F) (VS5_1.writes (Elt F) VS5_1.junk (runD5 V c t).2.2.2.1)

def outsAt5 (c : Dev nD) (n : ℕ) (hn : n < cfg5.N) : Vec F S8x16 .f32 × Vec F S8x16 .f32 × Vec F S8x16 .f32 × Vec F S8x16 .f32 :=
  (out5_D_3 V c ⟨n, hn⟩, out5_D_4 V c ⟨n, hn⟩, sout5_D_0 V c ⟨n, hn⟩, sout5_D_1 V c ⟨n, hn⟩)

abbrev rest5 (c : Dev nD) : sProp 𝕄 :=
  Pipeline.scopedRestBut (Ix := Unit) (Name := ℕ) (U := UR sig nD τ) (Lvl := ℕ) (Val := Elt F) spec5 c [cc5_scratch0, cc5_scratch1]

def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.1) ∗ owns (c : Thread nD τ) scM5_1 fullShare ((outsAt5 V c n hn).2.2.2)) ∗ rest5 c) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
    | ⟨4, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem q_eq5 (c : Dev nD) (w : Fin cfg5.W) : (dat5 V c).q w = fullShare := rfl

theorem owed_eq5 (c : Dev nD) (t : Fin (cfg5.N + 1)) : (dat5 V c).owed t = 0 := rfl

theorem recorded_eq5 (c : Dev nD) (t : Fin (cfg5.N + 1)) : (dat5 V c).recorded t = Set.univ := rfl

theorem after5_3 (c : Dev nD) (t : Fin cfg5.N) : (dat5 V c).after 3 t = (outsAt5 V c t.val t.isLt).1 := rfl
theorem after5_4 (c : Dev nD) (t : Fin cfg5.N) : (dat5 V c).after 4 t = (outsAt5 V c t.val t.isLt).2.1 := rfl

theorem hin5 (c : Dev nD) : (Pipeline.ΦA spec5 c : sProp 𝕄) ⊢ (dat5 V c).Φ 0 := .rfl

-- The invariant at any position entails the entry invariant: the accumulators' contents are forgotten.
theorem Phi_out5 (c : Dev nD) (t : Fin (cfg5.N + 1)) : (dat5 V c).Φ t ⊢ (Pipeline.ΦA spec5 c : sProp 𝕄) := by
  obtain ⟨_ | n, hn⟩ := t
  · exact .rfl
  rw [PhiA5_eq]
  show iprop(((_ ∗ _) ∗ _) ∗ _) ⊢ _
  iintro ⟨⟨⟨HS0, HS1⟩, Hrest⟩, Hg⟩
  iframe Hrest Hg
  isplitl [HS0] <;> iexists _ <;> iassumption

theorem hout5 (c : Dev nD) : (dat5 V c).Φ (Fin.last cfg5.N) ⊢ (Pipeline.ΦA spec5 c : sProp 𝕄) := Phi_out5 V c _

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
-- The body at any point: the one run applies from the accumulators at anything, and each buffer it writes is tiled by its pieces.
theorem sound_body5 (c : Dev nD) (t : Fin cfg5.N) :
    bodyPre5 V c t ⊢ wp frame (wpE (defs₀ (F := F)) Variants.none c none) Set.univ (bodyAt5 t) (fun _ => bodyPost5 V c t) := by
  have hc := (hcond5_1 t).mpr (Nat.mod_one _)
  unfold bodyPre5 bodyPost5 bodyAt5
  simp only [before5_0_of V (dat5 V c) rfl (fun _ => rfl) t, before5_1_of V (dat5 V c) rfl (fun _ => rfl) t, before5_2_of V (dat5 V c) rfl (fun _ => rfl) t]
  rw [show (dat5 V c).owesAt () t.succ = (dat5 V c).owesAt () t.castSucc from rfl,
    show (dat5 V c).Φ t.succ = iprop(((owns (c : Thread nD τ) scM5_0 fullShare (sout5_D_0 V c t) ∗ owns (c : Thread nD τ) scM5_1 fullShare (sout5_D_1 V c t)) ∗ rest5 c) ∗ ∃ r, prngReg c r) from rfl,
    show (dat5 V c).leavesExact 0 t = owns (c : Thread nD τ) (ms5_0 t) fullShare (iblk5 V c 0 t) from rfl,
    show (dat5 V c).leavesExact 1 t = owns (c : Thread nD τ) (ms5_1 t) fullShare (iblk5 V c 1 t) from rfl,
    show (dat5 V c).leavesExact 2 t = owns (c : Thread nD τ) (ms5_2 t) fullShare (iblk5 V c 2 t) from rfl,
    show (dat5 V c).leavesExact 3 t = owns (c : Thread nD τ) (ms5_3 t) fullShare (out5_D_3 V c t) from by
      unfold Dat.leavesExact; rw [liveAt5_3 t hc]; rfl,
    show (dat5 V c).leavesExact 4 t = owns (c : Thread nD τ) (ms5_4 t) fullShare (out5_D_4 V c t) from by
      unfold Dat.leavesExact; rw [liveAt5_4 t hc]; rfl]
  unfold out5_D_3 out5_D_4 sout5_D_0 sout5_D_1
  refine (sep_mono_left (Phi_out5 V c _)).trans ?_
  rw [PhiA5_eq]
  iintro ⟨⟨⟨⟨HS0, HS1⟩, Hrest⟩, Hg⟩, Ho, ⟨%d0, H0⟩, ⟨%d1, H1⟩, ⟨%d2, H2⟩, ⟨%d3, H3⟩, ⟨%d4, H4⟩⟩
  iapply (runD5 V c t).2.2.2.2 Set.univ _
  iframe H0 H1 H2 HS0 HS1
  isplitl [H3]; · iexists _; iexact H3
  isplitl [H4]; · iexists _; iexact H4
  iintro ⟨H0, H1, H2, ⟨%f3, H3⟩, ⟨%f4, H4⟩, ⟨%f0, HS0⟩, ⟨%f1, HS1⟩⟩
  iframe Hrest Hg Ho H0 H1 H2
  isplitl [HS0 HS1]
  · isplitl [HS0]
    · ihave H' := (Ring.owns_of_writes_tiledL VS5_0 S8x1.size) $$ HS0; iapply H'; ipureintro; sl_kernel_rfl
    · ihave H' := (Ring.owns_of_writes_tiledL VS5_1 S8x1.size) $$ HS1; iapply H'; ipureintro; sl_kernel_rfl
  isplitl [H3]
  · ihave H' := (Ring.owns_of_writes_tiledL VO5_3 S8x16.size) $$ H3; iapply H'; ipureintro; sl_kernel_rfl
  · ihave H' := (Ring.owns_of_writes_tiledL VO5_4 S8x16.size) $$ H4; iapply H'; ipureintro; sl_kernel_rfl

theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.K.RunW.lean ====
import proofs.«413171_j1022202216836_1_alg».proof.Proof.Gen.Kernel.Regions
import proofs.«413171_j1022202216836_1_alg».proof.Proof.K.R0Dat
import proofs.«413171_j1022202216836_1_alg».proof.Proof.K.R1Dat
import proofs.«413171_j1022202216836_1_alg».proof.Proof.K.R2Dat
import proofs.«413171_j1022202216836_1_alg».proof.Proof.K.R3Dat
import proofs.«413171_j1022202216836_1_alg».proof.Proof.K.R4Dat
import proofs.«413171_j1022202216836_1_alg».proof.Proof.K.R5Dat
import Idealize.ShloMosaic.Lib.Pipeline.RegionsLoop
import Idealize.ShloMosaic.Lib.Pipeline.FrameSuffix

noncomputable section

namespace Cert.Kernel.Gen

open Idealize.ShloMosaic Idealize.ShloMosaic.TcCoe

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)

abbrev Ventry0 : (c : Dev nD) → (b : Ref sig .tc) → Buf (Elt F) ((c : Thread nD τ).loc b) := fun c b => W0 m ρ c b

def Wafter0 (c : Dev nD) : Valuation τ sig (Elt F) :=
  Pipeline.withArrays spec0 c (W0 m ρ c) fun w => (dat0 (Ventry0 m ρ) c).arrAt w cfg0.N
theorem Wafter0_arr (c : Dev nD) (w : Fin cfg0.W) :
    Wafter0 m ρ c (Proc.devRef .tc (Pipeline.arrRef spec0 w)) = (dat0 (Ventry0 m ρ) c).arrAt w cfg0.N :=
  Pipeline.withArrays_arr spec0 launch0.win.arr_inj c _ _ w
theorem Wafter0_of_ne (c : Dev nD) (b : Ref sig .tc) (hb : ∀ w, Pipeline.arrRef spec0 w ≠ b) :
    Wafter0 m ρ c (Proc.devRef .tc b) = W0 m ρ c (Proc.devRef .tc b) :=
  Pipeline.withArrays_of_ne spec0 c _ _ b hb

theorem Wafter0_in (c : Dev nD) (w : Fin cfg0.W) (hin : (cfg0.win w).isOut = false) :
    Wafter0 m ρ c (Proc.devRef .tc (Pipeline.arrRef spec0 w)) = W0 m ρ c (Proc.devRef .tc (Pipeline.arrRef spec0 w)) :=
  (Wafter0_arr m ρ c w).trans (((dat0 (Ventry0 m ρ) c).arrAt_in w hin _).trans (A_eq0 (Ventry0 m ρ) c w))

abbrev Ventry1 : (c : Dev nD) → (b : Ref sig .tc) → Buf (Elt F) ((c : Thread nD τ).loc b) := fun c b => Wafter0 m ρ c b

def Wafter1 (c : Dev nD) : Valuation τ sig (Elt F) :=
  Pipeline.withArrays spec1 c (Wafter0 m ρ c) fun w => (dat1 (Ventry1 m ρ) c).arrAt w cfg1.N
theorem Wafter1_arr (c : Dev nD) (w : Fin cfg1.W) :
    Wafter1 m ρ c (Proc.devRef .tc (Pipeline.arrRef spec1 w)) = (dat1 (Ventry1 m ρ) c).arrAt w cfg1.N :=
  Pipeline.withArrays_arr spec1 launch1.win.arr_inj c _ _ w
theorem Wafter1_of_ne (c : Dev nD) (b : Ref sig .tc) (hb : ∀ w, Pipeline.arrRef spec1 w ≠ b) :
    Wafter1 m ρ c (Proc.devRef .tc b) = Wafter0 m ρ c (Proc.devRef .tc b) :=
  Pipeline.withArrays_of_ne spec1 c _ _ b hb

theorem Wafter1_in (c : Dev nD) (w : Fin cfg1.W) (hin : (cfg1.win w).isOut = false) :
    Wafter1 m ρ c (Proc.devRef .tc (Pipeline.arrRef spec1 w)) = Wafter0 m ρ c (Proc.devRef .tc (Pipeline.arrRef spec1 w)) :=
  (Wafter1_arr m ρ c w).trans (((dat1 (Ventry1 m ρ) c).arrAt_in w hin _).trans (A_eq1 (Ventry1 m ρ) c w))

abbrev Ventry2 : (c : Dev nD) → (b : Ref sig .tc) → Buf (Elt F) ((c : Thread nD τ).loc b) := fun c b => Wafter1 m ρ c b

def Wafter2 (c : Dev nD) : Valuation τ sig (Elt F) :=
  Pipeline.withArrays spec2 c (Wafter1 m ρ c) fun w => (dat2 (Ventry2 m ρ) c).arrAt w cfg2.N
theorem Wafter2_arr (c : Dev nD) (w : Fin cfg2.W) :
    Wafter2 m ρ c (Proc.devRef .tc (Pipeline.arrRef spec2 w)) = (dat2 (Ventry2 m ρ) c).arrAt w cfg2.N :=
  Pipeline.withArrays_arr spec2 launch2.win.arr_inj c _ _ w
theorem Wafter2_of_ne (c : Dev nD) (b : Ref sig .tc) (hb : ∀ w, Pipeline.arrRef spec2 w ≠ b) :
    Wafter2 m ρ c (Proc.devRef .tc b) = Wafter1 m ρ c (Proc.devRef .tc b) :=
  Pipeline.withArrays_of_ne spec2 c _ _ b hb

theorem Wafter2_in (c : Dev nD) (w : Fin cfg2.W) (hin : (cfg2.win w).isOut = false) :
    Wafter2 m ρ c (Proc.devRef .tc (Pipeline.arrRef spec2 w)) = Wafter1 m ρ c (Proc.devRef .tc (Pipeline.arrRef spec2 w)) :=
  (Wafter2_arr m ρ c w).trans (((dat2 (Ventry2 m ρ) c).arrAt_in w hin _).trans (A_eq2 (Ventry2 m ρ) c w))

abbrev Wh3 : Dev nD → Valuation τ sig (Elt F) := fun c => StableHlo.after hostOps3 (Wafter2 m ρ c)

theorem Wh3_of (c : Dev nD) (r : Ref sig .tc) (h : r ∉ hostOps3_W) : Wh3 m ρ c (Proc.devRef .tc r) = Wafter2 m ρ c (Proc.devRef .tc r) :=
  StableHlo.after_of_writes_sub hostOps3 _ hostOps3_writes h

abbrev Ventry3 : (c : Dev nD) → (b : Ref sig .tc) → Buf (Elt F) ((c : Thread nD τ).loc b) := fun c b => Wh3 m ρ c b

def Wafter3 (c : Dev nD) : Valuation τ sig (Elt F) :=
  Pipeline.withArrays spec3 c (Wh3 m ρ c) fun w => (dat3 (Ventry3 m ρ) c).arrAt w cfg3.N
theorem Wafter3_arr (c : Dev nD) (w : Fin cfg3.W) :
    Wafter3 m ρ c (Proc.devRef .tc (Pipeline.arrRef spec3 w)) = (dat3 (Ventry3 m ρ) c).arrAt w cfg3.N :=
  Pipeline.withArrays_arr spec3 launch3.win.arr_inj c _ _ w
theorem Wafter3_of_ne (c : Dev nD) (b : Ref sig .tc) (hb : ∀ w, Pipeline.arrRef spec3 w ≠ b) :
    Wafter3 m ρ c (Proc.devRef .tc b) = Wh3 m ρ c (Proc.devRef .tc b) :=
  Pipeline.withArrays_of_ne spec3 c _ _ b hb

theorem Wafter3_in (c : Dev nD) (w : Fin cfg3.W) (hin : (cfg3.win w).isOut = false) :
    Wafter3 m ρ c (Proc.devRef .tc (Pipeline.arrRef spec3 w)) = Wh3 m ρ c (Proc.devRef .tc (Pipeline.arrRef spec3 w)) :=
  (Wafter3_arr m ρ c w).trans (((dat3 (Ventry3 m ρ) c).arrAt_in w hin _).trans (A_eq3 (Ventry3 m ρ) c w))

abbrev Wh4 : Dev nD → Valuation τ sig (Elt F) := fun c => StableHlo.after hostOps4 (Wafter3 m ρ c)

theorem Wh4_of (c : Dev nD) (r : Ref sig .tc) (h : r ∉ hostOps4_W) : Wh4 m ρ c (Proc.devRef .tc r) = Wafter3 m ρ c (Proc.devRef .tc r) :=
  StableHlo.after_of_writes_sub hostOps4 _ hostOps4_writes h

abbrev Wh4_1 : Dev nD → Valuation τ sig (Elt F) := fun c => StableHlo.after hostOps4_1 (Wh4 m ρ c)

theorem Wh4_1_of (c : Dev nD) (r : Ref sig .tc) (h : r ∉ hostOps4_1_W) : Wh4_1 m ρ c (Proc.devRef .tc r) = Wh4 m ρ c (Proc.devRef .tc r) :=
  StableHlo.after_of_writes_sub hostOps4_1 _ hostOps4_1_writes h

abbrev Wh4_2 : Dev nD → Valuation τ sig (Elt F) := fun c => StableHlo.after hostOps4_2 (Wh4_1 m ρ c)

theorem Wh4_2_of (c : Dev nD) (r : Ref sig .tc) (h : r ∉ hostOps4_2_W) : Wh4_2 m ρ c (Proc.devRef .tc r) = Wh4_1 m ρ c (Proc.devRef .tc r) :=
  StableHlo.after_of_writes_sub hostOps4_2 _ hostOps4_2_writes h

abbrev Ventry4 : (c : Dev nD) → (b : Ref sig .tc) → Buf (Elt F) ((c : Thread nD τ).loc b) := fun c b => Wh4_2 m ρ c b

def Wafter4 (c : Dev nD) : Valuation τ sig (Elt F) :=
  Pipeline.withArrays spec4 c (Wh4_2 m ρ c) fun w => (dat4 (Ventry4 m ρ) c).arrAt w cfg4.N
theorem Wafter4_arr (c : Dev nD) (w : Fin cfg4.W) :
    Wafter4 m ρ c (Proc.devRef .tc (Pipeline.arrRef spec4 w)) = (dat4 (Ventry4 m ρ) c).arrAt w cfg4.N :=
  Pipeline.withArrays_arr spec4 launch4.win.arr_inj c _ _ w
theorem Wafter4_of_ne (c : Dev nD) (b : Ref sig .tc) (hb : ∀ w, Pipeline.arrRef spec4 w ≠ b) :
    Wafter4 m ρ c (Proc.devRef .tc b) = Wh4_2 m ρ c (Proc.devRef .tc b) :=
  Pipeline.withArrays_of_ne spec4 c _ _ b hb

theorem Wafter4_in (c : Dev nD) (w : Fin cfg4.W) (hin : (cfg4.win w).isOut = false) :
    Wafter4 m ρ c (Proc.devRef .tc (Pipeline.arrRef spec4 w)) = Wh4_2 m ρ c (Proc.devRef .tc (Pipeline.arrRef spec4 w)) :=
  (Wafter4_arr m ρ c w).trans (((dat4 (Ventry4 m ρ) c).arrAt_in w hin _).trans (A_eq4 (Ventry4 m ρ) c w))

abbrev Wh5 : Dev nD → Valuation τ sig (Elt F) := fun c => StableHlo.after hostOps5 (Wafter4 m ρ c)

theorem Wh5_of (c : Dev nD) (r : Ref sig .tc) (h : r ∉ hostOps5_W) : Wh5 m ρ c (Proc.devRef .tc r) = Wafter4 m ρ c (Proc.devRef .tc r) :=
  StableHlo.after_of_writes_sub hostOps5 _ hostOps5_writes h

abbrev Wh5_1 : Dev nD → Valuation τ sig (Elt F) := fun c => StableHlo.after hostOps5_1 (Wh5 m ρ c)

theorem Wh5_1_of (c : Dev nD) (r : Ref sig .tc) (h : r ∉ hostOps5_1_W) : Wh5_1 m ρ c (Proc.devRef .tc r) = Wh5 m ρ c (Proc.devRef .tc r) :=
  StableHlo.after_of_writes_sub hostOps5_1 _ hostOps5_1_writes h

abbrev Wh5_2 : Dev nD → Valuation τ sig (Elt F) := fun c => StableHlo.after hostOps5_2 (Wh5_1 m ρ c)

theorem Wh5_2_of (c : Dev nD) (r : Ref sig .tc) (h : r ∉ hostOps5_2_W) : Wh5_2 m ρ c (Proc.devRef .tc r) = Wh5_1 m ρ c (Proc.devRef .tc r) :=
  StableHlo.after_of_writes_sub hostOps5_2 _ hostOps5_2_writes h

abbrev Ventry5 : (c : Dev nD) → (b : Ref sig .tc) → Buf (Elt F) ((c : Thread nD τ).loc b) := fun c b => Wh5_2 m ρ c b

def Wafter5 (c : Dev nD) : Valuation τ sig (Elt F) :=
  Pipeline.withArrays spec5 c (Wh5_2 m ρ c) fun w => (dat5 (Ventry5 m ρ) c).arrAt w cfg5.N
theorem Wafter5_arr (c : Dev nD) (w : Fin cfg5.W) :
    Wafter5 m ρ c (Proc.devRef .tc (Pipeline.arrRef spec5 w)) = (dat5 (Ventry5 m ρ) c).arrAt w cfg5.N :=
  Pipeline.withArrays_arr spec5 launch5.win.arr_inj c _ _ w
theorem Wafter5_of_ne (c : Dev nD) (b : Ref sig .tc) (hb : ∀ w, Pipeline.arrRef spec5 w ≠ b) :
    Wafter5 m ρ c (Proc.devRef .tc b) = Wh5_2 m ρ c (Proc.devRef .tc b) :=
  Pipeline.withArrays_of_ne spec5 c _ _ b hb

theorem Wafter5_in (c : Dev nD) (w : Fin cfg5.W) (hin : (cfg5.win w).isOut = false) :
    Wafter5 m ρ c (Proc.devRef .tc (Pipeline.arrRef spec5 w)) = Wh5_2 m ρ c (Proc.devRef .tc (Pipeline.arrRef spec5 w)) :=
  (Wafter5_arr m ρ c w).trans (((dat5 (Ventry5 m ρ) c).arrAt_in w hin _).trans (A_eq5 (Ventry5 m ρ) c w))

abbrev Wh6 : Dev nD → Valuation τ sig (Elt F) := fun c => StableHlo.after hostOps6 (Wafter5 m ρ c)

abbrev Wh6_1 : Dev nD → Valuation τ sig (Elt F) := fun c => StableHlo.after hostOps6_1 (Wh6 m ρ c)

abbrev Wh6_2 : Dev nD → Valuation τ sig (Elt F) := fun c => StableHlo.after hostOps6_2 (Wh6_1 m ρ c)

abbrev Wh6_3 : Dev nD → Valuation τ sig (Elt F) := fun c => StableHlo.after hostOps6_3 (Wh6_2 m ρ c)

abbrev Wh6_4 : Dev nD → Valuation τ sig (Elt F) := fun c => StableHlo.after hostOps6_4 (Wh6_3 m ρ c)

abbrev Wh6_5 : Dev nD → Valuation τ sig (Elt F) := fun c => StableHlo.after hostOps6_5 (Wh6_4 m ρ c)

abbrev Wh6_6 : Dev nD → Valuation τ sig (Elt F) := fun c => StableHlo.after hostOps6_6 (Wh6_5 m ρ c)

abbrev Wend : Dev nD → Valuation τ sig (Elt F) := Wh6_6 m ρ

/-- By cases on whether `r` is one of the arrays `ar w`: either way `X` and `Y` agree at it. -/
theorem keep_region {W : ℕ} {ar : Fin W → Ref sig .tc} {out : Fin W → Bool} {X Y : Valuation τ sig (Elt F)} (r : Ref sig .tc)
    (hin : ∀ w, out w = false → X (Proc.devRef .tc (ar w)) = Y (Proc.devRef .tc (ar w)))
    (hne : ∀ b, (∀ w, ar w ≠ b) → X (Proc.devRef .tc b) = Y (Proc.devRef .tc b))
    (h : ∀ w, ar w = r → out w = false) : X (Proc.devRef .tc r) = Y (Proc.devRef .tc r) := by
  by_cases e : ∃ w, ar w = r
  · obtain ⟨w, rfl⟩ := e; exact hin w (h w rfl)
  · exact hne r fun w ew => e ⟨w, ew⟩

/-- A buffer none of the twenty items writes ends as launched. -/
theorem Wend_keep (c : Dev nD) (r : Ref sig .tc)
    (h : r ∉ hostOps3_W ∧ r ∉ hostOps4_W ∧ r ∉ hostOps4_1_W ∧ r ∉ hostOps4_2_W ∧ r ∉ hostOps5_W ∧ r ∉ hostOps5_1_W ∧ r ∉ hostOps5_2_W
      ∧ r ∉ hostOps6_W ∧ r ∉ hostOps6_1_W ∧ r ∉ hostOps6_2_W ∧ r ∉ hostOps6_3_W ∧ r ∉ hostOps6_4_W ∧ r ∉ hostOps6_5_W ∧ r ∉ hostOps6_6_W
      ∧ (∀ w, Pipeline.arrRef spec0 w = r → (cfg0.win w).isOut = false) ∧ (∀ w, Pipeline.arrRef spec1 w = r → (cfg1.win w).isOut = false)
      ∧ (∀ w, Pipeline.arrRef spec2 w = r → (cfg2.win w).isOut = false) ∧ (∀ w, Pipeline.arrRef spec3 w = r → (cfg3.win w).isOut = false)
      ∧ (∀ w, Pipeline.arrRef spec4 w = r → (cfg4.win w).isOut = false) ∧ ∀ w, Pipeline.arrRef spec5 w = r → (cfg5.win w).isOut = false) :
    Wend m ρ c (Proc.devRef .tc r) = m ((c : Thread nD τ).loc r) := by
  obtain ⟨a3, a4, a41, a42, a5, a51, a52, a6, a61, a62, a63, a64, a65, a66, b0, b1, b2, b3, b4, b5⟩ := h
  exact (StableHlo.after_of_writes_sub hostOps6_6 _ hostOps6_6_writes a66).trans <|
    (StableHlo.after_of_writes_sub hostOps6_5 _ hostOps6_5_writes a65).trans <|
    (StableHlo.after_of_writes_sub hostOps6_4 _ hostOps6_4_writes a64).trans <|
    (StableHlo.after_of_writes_sub hostOps6_3 _ hostOps6_3_writes a63).trans <|
    (StableHlo.after_of_writes_sub hostOps6_2 _ hostOps6_2_writes a62).trans <|
    (StableHlo.after_of_writes_sub hostOps6_1 _ hostOps6_1_writes a61).trans <|
    (StableHlo.after_of_writes_sub hostOps6 _ hostOps6_writes a6).trans <|
    (keep_region r (Wafter5_in m ρ c) (Wafter5_of_ne m ρ c) b5).trans <|
    (Wh5_2_of m ρ c r a52).trans <| (Wh5_1_of m ρ c r a51).trans <| (Wh5_of m ρ c r a5).trans <|
    (keep_region r (Wafter4_in m ρ c) (Wafter4_of_ne m ρ c) b4).trans <|
    (Wh4_2_of m ρ c r a42).trans <| (Wh4_1_of m ρ c r a41).trans <| (Wh4_of m ρ c r a4).trans <|
    (keep_region r (Wafter3_in m ρ c) (Wafter3_of_ne m ρ c) b3).trans <| (Wh3_of m ρ c r a3).trans <|
    (keep_region r (Wafter2_in m ρ c) (Wafter2_of_ne m ρ c) b2).trans <|
    (keep_region r (Wafter1_in m ρ c) (Wafter1_of_ne m ρ c) b1).trans <|
    keep_region r (Wafter0_in m ρ c) (Wafter0_of_ne m ρ c) b0

theorem Wend_main_arg0 (c : Dev nD) : Wend m ρ c (Proc.devRef .tc main_arg0) = m ((c : Thread nD τ).loc main_arg0) :=
  Wend_keep m ρ c main_arg0 (by decide)
theorem Wend_main_arg1 (c : Dev nD) : Wend m ρ c (Proc.devRef .tc main_arg1) = m ((c : Thread nD τ).loc main_arg1) :=
  Wend_keep m ρ c main_arg1 (by decide)
theorem Wend_main_arg2 (c : Dev nD) : Wend m ρ c (Proc.devRef .tc main_arg2) = m ((c : Thread nD τ).loc main_arg2) :=
  Wend_keep m ρ c main_arg2 (by decide)
theorem Wend_main_arg3 (c : Dev nD) : Wend m ρ c (Proc.devRef .tc main_arg3) = m ((c : Thread nD τ).loc main_arg3) :=
  Wend_keep m ρ c main_arg3 (by decide)
theorem Wend_main_arg4 (c : Dev nD) : Wend m ρ c (Proc.devRef .tc main_arg4) = m ((c : Thread nD τ).loc main_arg4) :=
  Wend_keep m ρ c main_arg4 (by decide)
theorem Wend_main_arg5 (c : Dev nD) : Wend m ρ c (Proc.devRef .tc main_arg5) = m ((c : Thread nD τ).loc main_arg5) :=
  Wend_keep m ρ c main_arg5 (by decide)

end Cert.Kernel.Gen

end
-- ==== Proof.K.RunRegs.lean ====
import proofs.«413171_j1022202216836_1_alg».proof.Proof.K.RunW
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Gen

open Idealize.ShloMosaic Idealize.ShloMosaic.TcCoe
open Idealize.SL Idealize.SL.RA Idealize.SL.BI
open Idealize.SL.BI.BIBase Idealize.SL.ProofMode
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 6) → (c : Dev nD) → Dat τ (Elt F) Unit ℕ (UR sig nD τ) ℕ (Pipeline.pin (pcfgs (F := F)) adm p) c
  | ⟨0, _⟩ => fun c => dat0 (Ventry0 m ρ) c
  | ⟨1, _⟩ => fun c => dat1 (Ventry1 m ρ) c
  | ⟨2, _⟩ => fun c => dat2 (Ventry2 m ρ) c
  | ⟨3, _⟩ => fun c => dat3 (Ventry3 m ρ) c
  | ⟨4, _⟩ => fun c => dat4 (Ventry4 m ρ) c
  | ⟨5, _⟩ => fun c => dat5 (Ventry5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem owesAt_intro {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩; iexists W; isplitr
  · ipureintro; exact fun x _ => Or.inl (by rw [hr]; exact Set.mem_univ x)
  iexact HO

theorem owesAt_elim {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

set_option backward.isDefEq.respectTransparency.types false in
/-- The one constructor of all six regions' segments, from entry contents `Wi`, exit contents `Wo` and the facts of the region's proof data. -/
def mkReg (p : Fin 6) (lf : Pipeline.LaunchFacts (nD := nD) (τ := τ) cfgs p) (Wi Wo : Dev nD → Valuation τ sig (Elt F))
    (harr : ∀ c w, Wo c (Proc.devRef .tc (Pipeline.arrRef (cfgs p).spec w)) = (pdats m ρ p c).arrAt w (cfgs p).N)
    (hne : ∀ c b, (∀ w, Pipeline.arrRef (cfgs p).spec w ≠ b) → Wo c (Proc.devRef .tc b) = Wi c (Proc.devRef .tc b))
    (hB : ∀ c, BodyObligation (pdats m ρ p c) (defs₀ (F := F)) Variants.none () Set.univ)
    (hO : ∀ c t, (pdats m ρ p c).owed t = 0) (hR : ∀ c, (pdats m ρ p c).recorded 0 = Set.univ)
    (hQ : ∀ c w, (pdats m ρ p c).q w = fullShare)
    (hA : ∀ c w, (pdats m ρ p c).A w = Wi c (Proc.devRef .tc (Pipeline.arrRef (cfgs p).spec w)))
    (hI : ∀ c, (Pipeline.ΦA (cfgs p).spec c : sProp 𝕄) ⊢ (pdats m ρ p c).Φ 0)
    (hU : ∀ c, (pdats m ρ p c).Φ (Fin.last (cfgs p).N) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hB c).loose
  hwaits := Pipeline.hwaits_of_owed_zero _ _ _ _ L lv p hO
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hQ c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m ρ p c) 0 (hO c 0) (hR c))
      iexact HO
    isplitl [Hp]; · iexact Hp
    iexact Hrest
  hin c := by
    refine BIBase.Entails.trans ?_ (hI c)
    unfold Pipeline.ΦA
    iintro ⟨Hp, -, Hr⟩
    isplitl [Hr]; · iexact Hr
    iexact Hp
  hout c := by
    rw [Pipeline.ownSems0_none]
    refine BIBase.Entails.trans (hU c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hQ c)) (fun b => Wi c b) (fun b => Wo c b)
      ((pdats m ρ p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m ρ p c) (Fin.last (cfgs p).N) (hO c _))
    iexact HO

set_option backward.isDefEq.respectTransparency.types false in
def reg0 :=
  mkReg m ρ 0 launch0 (W0 m ρ) (Wafter0 m ρ) (Wafter0_arr m ρ) (Wafter0_of_ne m ρ) (body_obligation0 (Ventry0 m ρ)) (owed_eq0 _)
    (recorded_eq0 _ · 0) (q_eq0 _) (A_eq0 _) (hin0 _) (hout0 _)

set_option backward.isDefEq.respectTransparency.types false in
def reg1 :=
  mkReg m ρ 1 launch1 (Wafter0 m ρ) (Wafter1 m ρ) (Wafter1_arr m ρ) (Wafter1_of_ne m ρ) (body_obligation1 (Ventry1 m ρ)) (owed_eq1 _)
    (recorded_eq1 _ · 0) (q_eq1 _) (A_eq1 _) (hin1 _) (hout1 _)

set_option backward.isDefEq.respectTransparency.types false in
def reg2 :=
  mkReg m ρ 2 launch2 (Wafter1 m ρ) (Wafter2 m ρ) (Wafter2_arr m ρ) (Wafter2_of_ne m ρ) (body_obligation2 (Ventry2 m ρ)) (owed_eq2 _)
    (recorded_eq2 _ · 0) (q_eq2 _) (A_eq2 _) (hin2 _) (hout2 _)

set_option backward.isDefEq.respectTransparency.types false in
def reg3 :=
  mkReg m ρ 3 launch3 (Wh3 m ρ) (Wafter3 m ρ) (Wafter3_arr m ρ) (Wafter3_of_ne m ρ) (body_obligation3 (Ventry3 m ρ)) (owed_eq3 _)
    (recorded_eq3 _ · 0) (q_eq3 _) (A_eq3 _) (hin3 _) (hout3 _)

set_option backward.isDefEq.respectTransparency.types false in
def reg4 :=
  mkReg m ρ 4 launch4 (Wh4_2 m ρ) (Wafter4 m ρ) (Wafter4_arr m ρ) (Wafter4_of_ne m ρ) (body_obligation4 (Ventry4 m ρ)) (owed_eq4 _)
    (recorded_eq4 _ · 0) (q_eq4 _) (A_eq4 _) (hin4 _) (hout4 _)

set_option backward.isDefEq.respectTransparency.types false in
def reg5 :=
  mkReg m ρ 5 launch5 (Wh5_2 m ρ) (Wafter5 m ρ) (Wafter5_arr m ρ) (Wafter5_of_ne m ρ) (body_obligation5 (Ventry5 m ρ)) (owed_eq5 _)
    (recorded_eq5 _ · 0) (q_eq5 _) (A_eq5 _) (hin5 _) (hout5 _)

end Cert.Kernel.Gen

end
-- ==== Proof.K.Run.lean ====
import proofs.«413171_j1022202216836_1_alg».proof.Proof.K.RunRegs
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Gen

open Idealize.ShloMosaic Idealize.ShloMosaic.TcCoe
open Idealize.SL Idealize.SL.BI
open Idealize.SL.BI.BIBase Idealize.SL.ProofMode
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Tₙ (c : Dev nD) : sProp 𝕄 := iprop(StableHlo.held (c : Thread nD τ) (Pipeline.ucRefs τ sig) (Wend m ρ c) ∗ ∃ r, prngReg c r)

abbrev runSegs : List (Pipeline.Seg (pcfgs (F := F)) adm (pdats m ρ) () defs₀ 𝒱₀ L lv) :=
  [ .region (reg0 m ρ),
    .region (reg1 m ρ),
    .region (reg2 m ρ),
    .host (hseg hostOps3 hostOps3_sub hostOps3_fresh (Wafter2 m ρ)),
    .region (reg3 m ρ),
    .host (hseg hostOps4 hostOps4_sub hostOps4_fresh (Wafter3 m ρ)),
    .host (hseg hostOps4_1 hostOps4_1_sub hostOps4_1_fresh (Wh4 m ρ)),
    .host (hseg hostOps4_2 hostOps4_2_sub hostOps4_2_fresh (Wh4_1 m ρ)),
    .region (reg4 m ρ),
    .host (hseg hostOps5 hostOps5_sub hostOps5_fresh (Wafter4 m ρ)),
    .host (hseg hostOps5_1 hostOps5_1_sub hostOps5_1_fresh (Wh5 m ρ)),
    .host (hseg hostOps5_2 hostOps5_2_sub hostOps5_2_fresh (Wh5_1 m ρ)),
    .region (reg5 m ρ),
    .host (hseg hostOps6 hostOps6_sub hostOps6_fresh (Wafter5 m ρ)),
    .host (hseg hostOps6_1 hostOps6_1_sub hostOps6_1_fresh (Wh6 m ρ)),
    .host (hseg hostOps6_2 hostOps6_2_sub hostOps6_2_fresh (Wh6_1 m ρ)),
    .host (hseg hostOps6_3 hostOps6_3_sub hostOps6_3_fresh (Wh6_2 m ρ)),
    .host (hseg hostOps6_4 hostOps6_4_sub hostOps6_4_fresh (Wh6_3 m ρ)),
    .host (hseg hostOps6_5 hostOps6_5_sub hostOps6_5_fresh (Wh6_4 m ρ)),
    .host (hseg hostOps6_6 hostOps6_6_sub hostOps6_6_fresh (Wh6_5 m ρ)) ]

theorem runSegs_pipes : Pipeline.Seg.pipes (runSegs m ρ) = [0, 1, 2, 3, 4, 5] := rfl

theorem main_run (c : Dev nD) : main (F := F) c = Pipeline.Seg.run (runSegs m ρ) := by
  rw [main_chain c, Pipeline.Seg.run_eq_chain]; rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  Pipeline.θ_run_regions_kit (pcfgs (F := F)) adm (pdats m ρ) () cellOf_inj emb₁ defs₀ 𝒱₀ L lv m ρ main (runSegs m ρ)
    (fun c Q => by rw [main_run m ρ c])
    (by rw [runSegs_pipes]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun _ h => h)

end Cert.Kernel.Gen

end
-- ==== Proof.Frames.lean ====
import proofs.«413171_j1022202216836_1_alg».proof.Defs
import proofs.«413171_j1022202216836_1_alg».proof.Proof.Gen.Kernel
import proofs.«413171_j1022202216836_1_alg».proof.Proof.Gen.KernelIdeal
import proofs.«413171_j1022202216836_1_alg».proof.Proof.Gen.Pre_finite_inputs
import proofs.«413171_j1022202216836_1_alg».proof.Proof.KI.Run
import proofs.«413171_j1022202216836_1_alg».proof.Proof.K.Run

noncomputable section

namespace Cert.Proof.Frames

open Idealize.ShloMosaic Idealize.SL.Sem

theorem frame_ki : Cert.frame_KernelIdeal := fun m g _ =>
  (θ_run _ _ _).mono (fun r h c =>
    ⟨(h c _ (Cert.KernelIdeal.Gen.mem_uc Cert.KernelIdeal.main_arg0 (by decide))).trans (Cert.KernelIdeal.Gen.Wend_main_arg0 m g c),
      (h c _ (Cert.KernelIdeal.Gen.mem_uc Cert.KernelIdeal.main_arg1 (by decide))).trans (Cert.KernelIdeal.Gen.Wend_main_arg1 m g c),
      (h c _ (Cert.KernelIdeal.Gen.mem_uc Cert.KernelIdeal.main_arg2 (by decide))).trans (Cert.KernelIdeal.Gen.Wend_main_arg2 m g c),
      (h c _ (Cert.KernelIdeal.Gen.mem_uc Cert.KernelIdeal.main_arg3 (by decide))).trans (Cert.KernelIdeal.Gen.Wend_main_arg3 m g c),
      (h c _ (Cert.KernelIdeal.Gen.mem_uc Cert.KernelIdeal.main_arg4 (by decide))).trans (Cert.KernelIdeal.Gen.Wend_main_arg4 m g c),
      (h c _ (Cert.KernelIdeal.Gen.mem_uc Cert.KernelIdeal.main_arg5 (by decide))).trans (Cert.KernelIdeal.Gen.Wend_main_arg5 m g c)⟩)
    (Cert.KernelIdeal.Gen.run_all (F := Ideal) m g)

theorem frame_k : Cert.frame_Kernel := fun m g _ =>
  (θ_run _ _ _).mono (fun r h c =>
    ⟨(h c _ (Cert.Kernel.Gen.mem_uc Cert.Kernel.main_arg0 (by decide))).trans (Cert.Kernel.Gen.Wend_main_arg0 m g c),
      (h c _ (Cert.Kernel.Gen.mem_uc Cert.Kernel.main_arg1 (by decide))).trans (Cert.Kernel.Gen.Wend_main_arg1 m g c),
      (h c _ (Cert.Kernel.Gen.mem_uc Cert.Kernel.main_arg2 (by decide))).trans (Cert.Kernel.Gen.Wend_main_arg2 m g c),
      (h c _ (Cert.Kernel.Gen.mem_uc Cert.Kernel.main_arg3 (by decide))).trans (Cert.Kernel.Gen.Wend_main_arg3 m g c),
      (h c _ (Cert.Kernel.Gen.mem_uc Cert.Kernel.main_arg4 (by decide))).trans (Cert.Kernel.Gen.Wend_main_arg4 m g c),
      (h c _ (Cert.Kernel.Gen.mem_uc Cert.Kernel.main_arg5 (by decide))).trans (Cert.Kernel.Gen.Wend_main_arg5 m g c)⟩)
    (Cert.Kernel.Gen.run_all (F := Bits) m g)

end Cert.Proof.Frames

end
-- ==== Proof.Tail.lean ====
import Idealize.ShloMosaic.PureOps.Ideal

noncomputable section

namespace Cert.Tail

open Idealize.ShloMosaic

abbrev S_ : Shape := ⟨0, ![]⟩
abbrev S16x16 : Shape := ⟨2, ![16, 16]⟩
abbrev S16x16x1 : Shape := ⟨3, ![16, 16, 1]⟩
abbrev S16x1x16 : Shape := ⟨3, ![16, 1, 16]⟩
abbrev S16x16x16 : Shape := ⟨3, ![16, 16, 16]⟩
abbrev S1x16x16 : Shape := ⟨3, ![1, 16, 16]⟩

theorem natLt_1_32 : 1 < 32 := by decide
theorem h_S_ : 0 < S_.numel := by decide
theorem bcast_S_S16x16 : S_.BroadcastsInDim S16x16 (![] : Fin 0 → Fin S16x16.rank) := by decide
theorem bcast_S_S16x16x16 : S_.BroadcastsInDim S16x16x16 (![] : Fin 0 → Fin S16x16x16.rank) := by decide
theorem bcast_S16x16_S16x16x1_0_1 : S16x16.BroadcastsInDim S16x16x1 (![0, 1] : Fin 2 → Fin S16x16x1.rank) := by decide
theorem bcast_S16x16_S16x1x16_0_2 : S16x16.BroadcastsInDim S16x1x16 (![0, 2] : Fin 2 → Fin S16x1x16.rank) := by decide
theorem bcast_S16x16x1_S16x16x16_0_1_2 : S16x16x1.BroadcastsInDim S16x16x16 (![0, 1, 2] : Fin 3 → Fin S16x16x16.rank) := by decide
theorem bcast_S16x1x16_S16x16x16_0_1_2 : S16x1x16.BroadcastsInDim S16x16x16 (![0, 1, 2] : Fin 3 → Fin S16x16x16.rank) := by decide
theorem bcast_S16x16_S1x16x16_1_2 : S16x16.BroadcastsInDim S1x16x16 (![1, 2] : Fin 2 → Fin S1x16x16.rank) := by decide
theorem bcast_S1x16x16_S16x16x16_0_1_2 : S1x16x16.BroadcastsInDim S16x16x16 (![0, 1, 2] : Fin 3 → Fin S16x16x16.rank) := by decide
theorem reducesTo_S16x16_S_d0_1 : S16x16.ReducesTo [0, 1] S_ := by decide
theorem reducesTo_S16x16x16_S_d0_1_2 : S16x16x16.ReducesTo [0, 1, 2] S_ := by decide

abbrev Map2 : Type := S16x16.Idx → EReal
abbrev Scal : Type := S_.Idx → EReal

def zero0 : Scal := constant (F := Ideal) S_ .f32 0x00000000#32
def one0 : Scal := constant (F := Ideal) S_ .f32 0x3F800000#32
def three0 : Scal := constant (F := Ideal) S_ .f32 0x40400000#32
def zeros2 : Map2 := broadcastInDim S16x16 ![] bcast_S_S16x16 zero0
def ones2 : Map2 := broadcastInDim S16x16 ![] bcast_S_S16x16 one0

def meanOf (s n : Map2) : Map2 :=
  Host.divf (F := Ideal) (φ := .f32) s (maximumf (F := Ideal) (φ := .f32) n ones2)

def pullTerm (s n : Map2) : Map2 :=
  select (cmpf (F := Ideal) (φ := .f32) .ogt n zeros2) (meanOf s n) (broadcastInDim S16x16 ![] bcast_S_S16x16 zero0)

def present (cnt : Map2) : IVec S16x16 1 := cmpf (F := Ideal) (φ := .f32) .ogt cnt zeros2

def nPull (cnt : Map2) : Scal :=
  sitofp (F := Ideal) .f32
    (maxsi (Host.reduce IntOp.addi (extui 32 (present cnt) natLt_1_32) (constantI S_ 32 0#32) reducesTo_S16x16_S_d0_1 h_S_)
      (constantI S_ 32 1#32))

def pullLoss (cnt pull : Map2) : Scal :=
  mulf (F := Ideal) (φ := .f32)
    (Host.divf (F := Ideal) (φ := .f32)
      (Host.reduceAdd (F := Ideal) (φ := .f32)
        (select (present cnt) pull (broadcastInDim S16x16 ![] bcast_S_S16x16 zero0)) zero0 reducesTo_S16x16_S_d0_1 h_S_)
      (nPull cnt))
    one0

def pushTerm (mean : Map2) : S16x16x16.Idx → EReal :=
  (fun h => mulf (F := Ideal) (φ := .f32) h h)
    (maximumf (F := Ideal) (φ := .f32)
      (subf (F := Ideal) (φ := .f32) (broadcastInDim S16x16x16 ![] bcast_S_S16x16x16 three0)
        (Host.absf (F := Ideal) (φ := .f32)
          (subf (F := Ideal) (φ := .f32)
            (broadcastInDim S16x16x16 ![0, 1, 2] bcast_S16x16x1_S16x16x16_0_1_2 (broadcastInDim S16x16x1 ![0, 1] bcast_S16x16_S16x16x1_0_1 mean))
            (broadcastInDim S16x16x16 ![0, 1, 2] bcast_S16x1x16_S16x16x16_0_1_2 (broadcastInDim S16x1x16 ![0, 2] bcast_S16x16_S16x1x16_0_2 mean)))))
      (broadcastInDim S16x16x16 ![] bcast_S_S16x16x16 zero0))

def eye : IVec S16x16 1 :=
  cmpi .eq (addi (iotaInDim S16x16 32 0) (broadcastInDim S16x16 ![] bcast_S_S16x16 (constantI S_ 32 0#32))) (iotaInDim S16x16 32 1)

def pairMask (cnt : Map2) : IVec S16x16x16 1 :=
  andi
    (andi
      (broadcastInDim S16x16x16 ![0, 1, 2] bcast_S16x16x1_S16x16x16_0_1_2 (broadcastInDim S16x16x1 ![0, 1] bcast_S16x16_S16x16x1_0_1 (present cnt)))
      (broadcastInDim S16x16x16 ![0, 1, 2] bcast_S16x1x16_S16x16x16_0_1_2 (broadcastInDim S16x1x16 ![0, 2] bcast_S16x16_S16x1x16_0_2 (present cnt))))
    (broadcastInDim S16x16x16 ![0, 1, 2] bcast_S1x16x16_S16x16x16_0_1_2
      (noti (broadcastInDim S1x16x16 ![1, 2] bcast_S16x16_S1x16x16_1_2 eye)))

def nPush (cnt : Map2) : Scal :=
  sitofp (F := Ideal) .f32
    (maxsi (Host.reduce IntOp.addi (extui 32 (pairMask cnt) natLt_1_32) (constantI S_ 32 0#32) reducesTo_S16x16x16_S_d0_1_2 h_S_)
      (constantI S_ 32 1#32))

def pushLoss (cnt mean : Map2) : Scal :=
  mulf (F := Ideal) (φ := .f32)
    (Host.divf (F := Ideal) (φ := .f32)
      (Host.reduceAdd (F := Ideal) (φ := .f32)
        (select (pairMask cnt) (pushTerm mean) (broadcastInDim S16x16x16 ![] bcast_S_S16x16x16 zero0)) zero0 reducesTo_S16x16x16_S_d0_1_2 h_S_)
      (nPush cnt))
    one0

def tail (cnt pull mean : Map2) : Scal :=
  addf (F := Ideal) (φ := .f32) (pushLoss cnt mean) (pullLoss cnt pull)

end Cert.Tail

end
-- ==== Proof.KI.Host3.lean ====
import proofs.«413171_j1022202216836_1_alg».proof.Proof.Gen.KernelIdeal.Launch
import proofs.«413171_j1022202216836_1_alg».proof.Proof.Tail
import Idealize.ShloMosaic.Lib.StableHlo.Run
import Idealize.ShloMosaic.PureOps.Ideal

set_option maxRecDepth 1280

noncomputable section

namespace Cert.KernelIdeal.Gen

open Idealize.ShloMosaic Idealize.ShloMosaic.TcCoe
open Cert.Tail (Map2 Scal zero0 one0 zeros2 meanOf pullTerm present nPull pullLoss pushTerm pairMask nPush pushLoss tail)

variable (W : Valuation τ sig (Elt Ideal))

theorem host3_v6 :
    (StableHlo.after (hostOps3 (F := Ideal)) W (Proc.devRef .tc main_v6) : Map2)
      = addf (F := Ideal) (φ := .f32) (addf (F := Ideal) (φ := .f32) (W (Proc.devRef .tc main_v0_1)) (W (Proc.devRef .tc main_v1_1))) (W (Proc.devRef .tc main_v2_1)) := by
  after_results_simp <;> rfl

theorem host3_v9 :
    (StableHlo.after (hostOps3 (F := Ideal)) W (Proc.devRef .tc main_v9) : Map2)
      = meanOf (addf (F := Ideal) (φ := .f32) (addf (F := Ideal) (φ := .f32) (W (Proc.devRef .tc main_v0_0)) (W (Proc.devRef .tc main_v1_0))) (W (Proc.devRef .tc main_v2_0)))
          (addf (F := Ideal) (φ := .f32) (addf (F := Ideal) (φ := .f32) (W (Proc.devRef .tc main_v0_1)) (W (Proc.devRef .tc main_v1_1))) (W (Proc.devRef .tc main_v2_1))) := by
  after_results_simp <;> rfl

theorem host3_v10 :
    (StableHlo.after (hostOps3 (F := Ideal)) W (Proc.devRef .tc main_v10) : Map2) = zeros2 := by
  after_results_simp <;> rfl

end Cert.KernelIdeal.Gen

end
-- ==== Proof.KI.Host45.lean ====
import proofs.«413171_j1022202216836_1_alg».proof.Proof.Gen.KernelIdeal.Launch
import proofs.«413171_j1022202216836_1_alg».proof.Proof.Tail
import Idealize.ShloMosaic.Lib.StableHlo.Run
import Idealize.ShloMosaic.PureOps.Ideal

set_option maxRecDepth 1280

noncomputable section

namespace Cert.KernelIdeal.Gen

open Idealize.ShloMosaic Idealize.ShloMosaic.TcCoe
open Cert.Tail (Map2 Scal zero0 one0 zeros2 meanOf pullTerm present nPull pullLoss pushTerm pairMask nPush pushLoss tail)

variable (W : Valuation τ sig (Elt Ideal))

theorem host4_v18 :
    (StableHlo.after (hostOps4_2 (F := Ideal)) (StableHlo.after (hostOps4_1 (F := Ideal)) (StableHlo.after (hostOps4 (F := Ideal)) W)) (Proc.devRef .tc main_v18) : Map2)
      = addf (F := Ideal) (φ := .f32) (W (Proc.devRef .tc main_v10)) (pullTerm (W (Proc.devRef .tc main_v11_0)) (W (Proc.devRef .tc main_v11_1))) := by
  after_results_simp <;> rfl

theorem host4_keep_v6 :
    (StableHlo.after (hostOps4_2 (F := Ideal)) (StableHlo.after (hostOps4_1 (F := Ideal)) (StableHlo.after (hostOps4 (F := Ideal)) W)) (Proc.devRef .tc main_v6) : Map2) = W (Proc.devRef .tc main_v6) := by
  after_results_simp <;> rfl

theorem host4_keep_v9 :
    (StableHlo.after (hostOps4_2 (F := Ideal)) (StableHlo.after (hostOps4_1 (F := Ideal)) (StableHlo.after (hostOps4 (F := Ideal)) W)) (Proc.devRef .tc main_v9) : Map2) = W (Proc.devRef .tc main_v9) := by
  after_results_simp <;> rfl

theorem host5_v26 :
    (StableHlo.after (hostOps5_2 (F := Ideal)) (StableHlo.after (hostOps5_1 (F := Ideal)) (StableHlo.after (hostOps5 (F := Ideal)) W)) (Proc.devRef .tc main_v26) : Map2)
      = addf (F := Ideal) (φ := .f32) (W (Proc.devRef .tc main_v18)) (pullTerm (W (Proc.devRef .tc main_v19_0)) (W (Proc.devRef .tc main_v19_1))) := by
  after_results_simp <;> rfl

theorem host5_keep_v6 :
    (StableHlo.after (hostOps5_2 (F := Ideal)) (StableHlo.after (hostOps5_1 (F := Ideal)) (StableHlo.after (hostOps5 (F := Ideal)) W)) (Proc.devRef .tc main_v6) : Map2) = W (Proc.devRef .tc main_v6) := by
  after_results_simp <;> rfl

theorem host5_keep_v9 :
    (StableHlo.after (hostOps5_2 (F := Ideal)) (StableHlo.after (hostOps5_1 (F := Ideal)) (StableHlo.after (hostOps5 (F := Ideal)) W)) (Proc.devRef .tc main_v9) : Map2) = W (Proc.devRef .tc main_v9) := by
  after_results_simp <;> rfl

end Cert.KernelIdeal.Gen

end
-- ==== Proof.KI.HostTail.lean ====
import proofs.«413171_j1022202216836_1_alg».proof.Proof.Gen.KernelIdeal.Launch
import proofs.«413171_j1022202216836_1_alg».proof.Proof.Tail
import Idealize.ShloMosaic.Lib.StableHlo.Run
import Idealize.ShloMosaic.PureOps.Ideal

set_option maxRecDepth 1280

noncomputable section

namespace Cert.KernelIdeal.Gen

open Idealize.ShloMosaic Idealize.ShloMosaic.TcCoe
open Cert.Tail (Map2 Scal zero0 one0 zeros2 meanOf pullTerm present nPull pullLoss pushTerm pairMask nPush pushLoss tail)

variable (W : Valuation τ sig (Elt Ideal))

set_option maxRecDepth 8192 in
set_option maxHeartbeats 8000000 in

theorem host6_v78 :
    (StableHlo.after (hostOps6_6 (F := Ideal)) (StableHlo.after (hostOps6_5 (F := Ideal)) (StableHlo.after (hostOps6_4 (F := Ideal)) (StableHlo.after (hostOps6_3 (F := Ideal)) (StableHlo.after (hostOps6_2 (F := Ideal)) (StableHlo.after (hostOps6_1 (F := Ideal)) (StableHlo.after (hostOps6 (F := Ideal)) W)))))) (Proc.devRef .tc main_v78) : Scal)
      = tail (W (Proc.devRef .tc main_v6)) (addf (F := Ideal) (φ := .f32) (W (Proc.devRef .tc main_v26)) (pullTerm (W (Proc.devRef .tc main_v27_0)) (W (Proc.devRef .tc main_v27_1)))) (W (Proc.devRef .tc main_v9)) := by
  after_results_simp <;> rfl

end Cert.KernelIdeal.Gen

end
-- ==== Proof.KI.HostChain.lean ====
import proofs.«413171_j1022202216836_1_alg».proof.Proof.KI.RunW
import proofs.«413171_j1022202216836_1_alg».proof.Proof.KI.Host3
import proofs.«413171_j1022202216836_1_alg».proof.Proof.KI.Host45
import proofs.«413171_j1022202216836_1_alg».proof.Proof.KI.HostTail

set_option maxRecDepth 1280

noncomputable section

namespace Cert.KernelIdeal.Gen

open Idealize.ShloMosaic Idealize.ShloMosaic.TcCoe
open Idealize.SL Idealize.SL.Sem
open Idealize.ShloMosaic.Pipeline (Dat Cfg Window)
open Cert.Tail (Map2 Scal zeros2 meanOf pullTerm tail)

variable (m : (ℓ : Loc nD τ sig) → Buf (Elt Ideal) ℓ) (ρ : Dev nD → PrngReg) (c : Dev nD)

abbrev outSum0 : Map2 := (dat0 (Ventry0 m ρ) c).arrAt 2 cfg0.N
abbrev outCnt0 : Map2 := (dat0 (Ventry0 m ρ) c).arrAt 3 cfg0.N

abbrev outSum1 : Map2 := (dat1 (Ventry1 m ρ) c).arrAt 2 cfg1.N
abbrev outCnt1 : Map2 := (dat1 (Ventry1 m ρ) c).arrAt 3 cfg1.N

abbrev outSum2 : Map2 := (dat2 (Ventry2 m ρ) c).arrAt 2 cfg2.N
abbrev outCnt2 : Map2 := (dat2 (Ventry2 m ρ) c).arrAt 3 cfg2.N

abbrev outPull3 : Map2 := (dat3 (Ventry3 m ρ) c).arrAt 3 cfg3.N
abbrev outPCnt3 : Map2 := (dat3 (Ventry3 m ρ) c).arrAt 4 cfg3.N

abbrev outPull4 : Map2 := (dat4 (Ventry4 m ρ) c).arrAt 3 cfg4.N
abbrev outPCnt4 : Map2 := (dat4 (Ventry4 m ρ) c).arrAt 4 cfg4.N

abbrev outPull5 : Map2 := (dat5 (Ventry5 m ρ) c).arrAt 3 cfg5.N
abbrev outPCnt5 : Map2 := (dat5 (Ventry5 m ρ) c).arrAt 4 cfg5.N

def hostCnt : Map2 := addf (F := Ideal) (φ := .f32) (addf (F := Ideal) (φ := .f32) (outCnt0 m ρ c) (outCnt1 m ρ c)) (outCnt2 m ρ c)
def hostMean : Map2 := meanOf (addf (F := Ideal) (φ := .f32) (addf (F := Ideal) (φ := .f32) (outSum0 m ρ c) (outSum1 m ρ c)) (outSum2 m ρ c)) (hostCnt m ρ c)
def hostPull : Map2 :=
  addf (F := Ideal) (φ := .f32) (addf (F := Ideal) (φ := .f32) (addf (F := Ideal) (φ := .f32) (zeros2) (pullTerm (outPull3 m ρ c) (outPCnt3 m ρ c))) (pullTerm (outPull4 m ρ c) (outPCnt4 m ρ c))) (pullTerm (outPull5 m ρ c) (outPCnt5 m ρ c))

theorem after2_v0_0 : (Wafter2 m ρ c (Proc.devRef .tc main_v0_0) : Map2) = outSum0 m ρ c :=
  (Wafter2_of_ne m ρ c main_v0_0 (by decide)).trans ((Wafter1_of_ne m ρ c main_v0_0 (by decide)).trans (Wafter0_arr m ρ c 2))
theorem after2_v0_1 : (Wafter2 m ρ c (Proc.devRef .tc main_v0_1) : Map2) = outCnt0 m ρ c :=
  (Wafter2_of_ne m ρ c main_v0_1 (by decide)).trans ((Wafter1_of_ne m ρ c main_v0_1 (by decide)).trans (Wafter0_arr m ρ c 3))
theorem after2_v1_0 : (Wafter2 m ρ c (Proc.devRef .tc main_v1_0) : Map2) = outSum1 m ρ c :=
  (Wafter2_of_ne m ρ c main_v1_0 (by decide)).trans (Wafter1_arr m ρ c 2)
theorem after2_v1_1 : (Wafter2 m ρ c (Proc.devRef .tc main_v1_1) : Map2) = outCnt1 m ρ c :=
  (Wafter2_of_ne m ρ c main_v1_1 (by decide)).trans (Wafter1_arr m ρ c 3)
theorem after2_v2_0 : (Wafter2 m ρ c (Proc.devRef .tc main_v2_0) : Map2) = outSum2 m ρ c := Wafter2_arr m ρ c 2
theorem after2_v2_1 : (Wafter2 m ρ c (Proc.devRef .tc main_v2_1) : Map2) = outCnt2 m ρ c := Wafter2_arr m ρ c 3

theorem h3_v6 : (Wh3 m ρ c (Proc.devRef .tc main_v6) : Map2) = hostCnt m ρ c := by
  show (StableHlo.after (hostOps3 (F := Ideal)) (Wafter2 m ρ c) (Proc.devRef .tc main_v6) : Map2) = _
  rw [host3_v6, after2_v0_1, after2_v1_1, after2_v2_1]; rfl
theorem h3_v9 : (Wh3 m ρ c (Proc.devRef .tc main_v9) : Map2) = hostMean m ρ c := by
  show (StableHlo.after (hostOps3 (F := Ideal)) (Wafter2 m ρ c) (Proc.devRef .tc main_v9) : Map2) = _
  rw [host3_v9, after2_v0_0, after2_v1_0, after2_v2_0, after2_v0_1, after2_v1_1, after2_v2_1]; rfl
theorem h3_v10 : (Wh3 m ρ c (Proc.devRef .tc main_v10) : Map2) = zeros2 := host3_v10 (Wafter2 m ρ c)

theorem after3_v6 : (Wafter3 m ρ c (Proc.devRef .tc main_v6) : Map2) = hostCnt m ρ c :=
  (Wafter3_of_ne m ρ c main_v6 (by decide)).trans (h3_v6 m ρ c)
theorem after3_v9 : (Wafter3 m ρ c (Proc.devRef .tc main_v9) : Map2) = hostMean m ρ c :=
  (Wafter3_in m ρ c 2 rfl).trans (h3_v9 m ρ c)
theorem after3_v10 : (Wafter3 m ρ c (Proc.devRef .tc main_v10) : Map2) = zeros2 :=
  (Wafter3_of_ne m ρ c main_v10 (by decide)).trans (h3_v10 m ρ c)
theorem after3_v11_0 : (Wafter3 m ρ c (Proc.devRef .tc main_v11_0) : Map2) = outPull3 m ρ c := Wafter3_arr m ρ c 3
theorem after3_v11_1 : (Wafter3 m ρ c (Proc.devRef .tc main_v11_1) : Map2) = outPCnt3 m ρ c := Wafter3_arr m ρ c 4

theorem h4_v18 : (Wh4_2 m ρ c (Proc.devRef .tc main_v18) : Map2) = addf (F := Ideal) (φ := .f32) (zeros2) (pullTerm (outPull3 m ρ c) (outPCnt3 m ρ c)) := by
  show (StableHlo.after (hostOps4_2 (F := Ideal)) (StableHlo.after (hostOps4_1 (F := Ideal)) (StableHlo.after (hostOps4 (F := Ideal)) (Wafter3 m ρ c))) (Proc.devRef .tc main_v18) : Map2) = _
  rw [host4_v18, after3_v10, after3_v11_0, after3_v11_1]
theorem h4_v6 : (Wh4_2 m ρ c (Proc.devRef .tc main_v6) : Map2) = hostCnt m ρ c :=
  (host4_keep_v6 (Wafter3 m ρ c)).trans (after3_v6 m ρ c)
theorem h4_v9 : (Wh4_2 m ρ c (Proc.devRef .tc main_v9) : Map2) = hostMean m ρ c :=
  (host4_keep_v9 (Wafter3 m ρ c)).trans (after3_v9 m ρ c)

theorem after4_v6 : (Wafter4 m ρ c (Proc.devRef .tc main_v6) : Map2) = hostCnt m ρ c :=
  (Wafter4_of_ne m ρ c main_v6 (by decide)).trans (h4_v6 m ρ c)
theorem after4_v9 : (Wafter4 m ρ c (Proc.devRef .tc main_v9) : Map2) = hostMean m ρ c :=
  (Wafter4_in m ρ c 2 rfl).trans (h4_v9 m ρ c)
theorem after4_v18 : (Wafter4 m ρ c (Proc.devRef .tc main_v18) : Map2) = addf (F := Ideal) (φ := .f32) (zeros2) (pullTerm (outPull3 m ρ c) (outPCnt3 m ρ c)) :=
  (Wafter4_of_ne m ρ c main_v18 (by decide)).trans (h4_v18 m ρ c)
theorem after4_v19_0 : (Wafter4 m ρ c (Proc.devRef .tc main_v19_0) : Map2) = outPull4 m ρ c := Wafter4_arr m ρ c 3
theorem after4_v19_1 : (Wafter4 m ρ c (Proc.devRef .tc main_v19_1) : Map2) = outPCnt4 m ρ c := Wafter4_arr m ρ c 4

theorem h5_v26 : (Wh5_2 m ρ c (Proc.devRef .tc main_v26) : Map2) = addf (F := Ideal) (φ := .f32) (addf (F := Ideal) (φ := .f32) (zeros2) (pullTerm (outPull3 m ρ c) (outPCnt3 m ρ c))) (pullTerm (outPull4 m ρ c) (outPCnt4 m ρ c)) := by
  show (StableHlo.after (hostOps5_2 (F := Ideal)) (StableHlo.after (hostOps5_1 (F := Ideal)) (StableHlo.after (hostOps5 (F := Ideal)) (Wafter4 m ρ c))) (Proc.devRef .tc main_v26) : Map2) = _
  rw [host5_v26, after4_v18, after4_v19_0, after4_v19_1]
theorem h5_v6 : (Wh5_2 m ρ c (Proc.devRef .tc main_v6) : Map2) = hostCnt m ρ c :=
  (host5_keep_v6 (Wafter4 m ρ c)).trans (after4_v6 m ρ c)
theorem h5_v9 : (Wh5_2 m ρ c (Proc.devRef .tc main_v9) : Map2) = hostMean m ρ c :=
  (host5_keep_v9 (Wafter4 m ρ c)).trans (after4_v9 m ρ c)

theorem after5_v6 : (Wafter5 m ρ c (Proc.devRef .tc main_v6) : Map2) = hostCnt m ρ c :=
  (Wafter5_of_ne m ρ c main_v6 (by decide)).trans (h5_v6 m ρ c)
theorem after5_v9 : (Wafter5 m ρ c (Proc.devRef .tc main_v9) : Map2) = hostMean m ρ c :=
  (Wafter5_in m ρ c 2 rfl).trans (h5_v9 m ρ c)
theorem after5_v26 : (Wafter5 m ρ c (Proc.devRef .tc main_v26) : Map2) = addf (F := Ideal) (φ := .f32) (addf (F := Ideal) (φ := .f32) (zeros2) (pullTerm (outPull3 m ρ c) (outPCnt3 m ρ c))) (pullTerm (outPull4 m ρ c) (outPCnt4 m ρ c)) :=
  (Wafter5_of_ne m ρ c main_v26 (by decide)).trans (h5_v26 m ρ c)
theorem after5_v27_0 : (Wafter5 m ρ c (Proc.devRef .tc main_v27_0) : Map2) = outPull5 m ρ c := Wafter5_arr m ρ c 3
theorem after5_v27_1 : (Wafter5 m ρ c (Proc.devRef .tc main_v27_1) : Map2) = outPCnt5 m ρ c := Wafter5_arr m ρ c 4

theorem Wend_v78 : (Wend m ρ c (Proc.devRef .tc main_v78) : Scal) = tail (hostCnt m ρ c) (hostPull m ρ c) (hostMean m ρ c) := by
  show (StableHlo.after (hostOps6_6 (F := Ideal)) (StableHlo.after (hostOps6_5 (F := Ideal)) (StableHlo.after (hostOps6_4 (F := Ideal)) (StableHlo.after (hostOps6_3 (F := Ideal)) (StableHlo.after (hostOps6_2 (F := Ideal)) (StableHlo.after (hostOps6_1 (F := Ideal)) (StableHlo.after (hostOps6 (F := Ideal)) (Wafter5 m ρ c))))))) (Proc.devRef .tc main_v78) : Scal) = _
  rw [host6_v78, after5_v6, after5_v26, after5_v27_0, after5_v27_1, after5_v9]; rfl

theorem Ventry3_v9 : (Ventry3 m ρ c main_v9 : Map2) = hostMean m ρ c := h3_v9 m ρ c
theorem Ventry4_v9 : (Ventry4 m ρ c main_v9 : Map2) = hostMean m ρ c := h4_v9 m ρ c
theorem Ventry5_v9 : (Ventry5 m ρ c main_v9 : Map2) = hostMean m ρ c := h5_v9 m ρ c

theorem Ventry0_main_arg0 : Ventry0 m ρ c main_arg0 = m ((c : Thread nD τ).loc main_arg0) :=
  rfl
theorem Ventry0_main_arg3 : Ventry0 m ρ c main_arg3 = m ((c : Thread nD τ).loc main_arg3) :=
  rfl
theorem Ventry1_main_arg1 : Ventry1 m ρ c main_arg1 = m ((c : Thread nD τ).loc main_arg1) :=
  (Wafter0_of_ne m ρ c main_arg1 (by decide)).trans <| rfl
theorem Ventry1_main_arg4 : Ventry1 m ρ c main_arg4 = m ((c : Thread nD τ).loc main_arg4) :=
  (Wafter0_of_ne m ρ c main_arg4 (by decide)).trans <| rfl
theorem Ventry2_main_arg2 : Ventry2 m ρ c main_arg2 = m ((c : Thread nD τ).loc main_arg2) :=
  (Wafter1_of_ne m ρ c main_arg2 (by decide)).trans <| (Wafter0_of_ne m ρ c main_arg2 (by decide)).trans <| rfl
theorem Ventry2_main_arg5 : Ventry2 m ρ c main_arg5 = m ((c : Thread nD τ).loc main_arg5) :=
  (Wafter1_of_ne m ρ c main_arg5 (by decide)).trans <| (Wafter0_of_ne m ρ c main_arg5 (by decide)).trans <| rfl
theorem Ventry3_main_arg0 : Ventry3 m ρ c main_arg0 = m ((c : Thread nD τ).loc main_arg0) :=
  (Wh3_of m ρ c main_arg0 (by decide)).trans <| (Wafter2_of_ne m ρ c main_arg0 (by decide)).trans <| (Wafter1_of_ne m ρ c main_arg0 (by decide)).trans <| (Wafter0_in m ρ c 0 rfl).trans <| rfl
theorem Ventry3_main_arg3 : Ventry3 m ρ c main_arg3 = m ((c : Thread nD τ).loc main_arg3) :=
  (Wh3_of m ρ c main_arg3 (by decide)).trans <| (Wafter2_of_ne m ρ c main_arg3 (by decide)).trans <| (Wafter1_of_ne m ρ c main_arg3 (by decide)).trans <| (Wafter0_in m ρ c 1 rfl).trans <| rfl
theorem Ventry4_main_arg1 : Ventry4 m ρ c main_arg1 = m ((c : Thread nD τ).loc main_arg1) :=
  (Wh4_2_of m ρ c main_arg1 (by decide)).trans <| (Wh4_1_of m ρ c main_arg1 (by decide)).trans <| (Wh4_of m ρ c main_arg1 (by decide)).trans <| (Wafter3_of_ne m ρ c main_arg1 (by decide)).trans <| (Wh3_of m ρ c main_arg1 (by decide)).trans <| (Wafter2_of_ne m ρ c main_arg1 (by decide)).trans <| (Wafter1_in m ρ c 0 rfl).trans <| (Wafter0_of_ne m ρ c main_arg1 (by decide)).trans <| rfl
theorem Ventry4_main_arg4 : Ventry4 m ρ c main_arg4 = m ((c : Thread nD τ).loc main_arg4) :=
  (Wh4_2_of m ρ c main_arg4 (by decide)).trans <| (Wh4_1_of m ρ c main_arg4 (by decide)).trans <| (Wh4_of m ρ c main_arg4 (by decide)).trans <| (Wafter3_of_ne m ρ c main_arg4 (by decide)).trans <| (Wh3_of m ρ c main_arg4 (by decide)).trans <| (Wafter2_of_ne m ρ c main_arg4 (by decide)).trans <| (Wafter1_in m ρ c 1 rfl).trans <| (Wafter0_of_ne m ρ c main_arg4 (by decide)).trans <| rfl
theorem Ventry5_main_arg2 : Ventry5 m ρ c main_arg2 = m ((c : Thread nD τ).loc main_arg2) :=
  (Wh5_2_of m ρ c main_arg2 (by decide)).trans <| (Wh5_1_of m ρ c main_arg2 (by decide)).trans <| (Wh5_of m ρ c main_arg2 (by decide)).trans <| (Wafter4_of_ne m ρ c main_arg2 (by decide)).trans <| (Wh4_2_of m ρ c main_arg2 (by decide)).trans <| (Wh4_1_of m ρ c main_arg2 (by decide)).trans <| (Wh4_of m ρ c main_arg2 (by decide)).trans <| (Wafter3_of_ne m ρ c main_arg2 (by decide)).trans <| (Wh3_of m ρ c main_arg2 (by decide)).trans <| (Wafter2_in m ρ c 0 rfl).trans <| (Wafter1_of_ne m ρ c main_arg2 (by decide)).trans <| (Wafter0_of_ne m ρ c main_arg2 (by decide)).trans <| rfl
theorem Ventry5_main_arg5 : Ventry5 m ρ c main_arg5 = m ((c : Thread nD τ).loc main_arg5) :=
  (Wh5_2_of m ρ c main_arg5 (by decide)).trans <| (Wh5_1_of m ρ c main_arg5 (by decide)).trans <| (Wh5_of m ρ c main_arg5 (by decide)).trans <| (Wafter4_of_ne m ρ c main_arg5 (by decide)).trans <| (Wh4_2_of m ρ c main_arg5 (by decide)).trans <| (Wh4_1_of m ρ c main_arg5 (by decide)).trans <| (Wh4_of m ρ c main_arg5 (by decide)).trans <| (Wafter3_of_ne m ρ c main_arg5 (by decide)).trans <| (Wh3_of m ρ c main_arg5 (by decide)).trans <| (Wafter2_in m ρ c 1 rfl).trans <| (Wafter1_of_ne m ρ c main_arg5 (by decide)).trans <| (Wafter0_of_ne m ρ c main_arg5 (by decide)).trans <| rfl

end Cert.KernelIdeal.Gen

end
-- ==== Proof.Spec.lean ====
import Idealize.ShloMosaic.PureOps.Ideal
import Idealize.ShloMosaic.Lib.ValueIdx

noncomputable section

namespace Cert.Spec

open Idealize.ShloMosaic Idealize.ShloMosaic.ValueIdx

def lab (c : Fin 16) : BitVec 32 := BitVec.ofNat 32 (c.val + 1)

abbrev FMap (H W : Nat) := (⟨4, ![16, 1, H, W]⟩ : Shape).Idx → EReal
abbrev GMap (H W : Nat) := (⟨4, ![16, 1, H, W]⟩ : Shape).Idx → BitVec 32

def margin : EReal := Ideal.ofBits .f32 0x3DCCCCCD#32

def hinge (x μ : EReal) : EReal :=
  max (max (x - μ) (-(x - μ)) - margin) (Ideal.ofBits .f32 0x00000000#32) * max (max (x - μ) (-(x - μ)) - margin) (Ideal.ofBits .f32 0x00000000#32)

def segSum {H W : Nat} (f : FMap H W) (g : GMap H W) (b c : Fin 16) : EReal :=
  ∑ h : Fin H, ∑ w : Fin W, if g (ix4 b 0 h w) = lab c then f (ix4 b 0 h w) else 0

def segCnt {H W : Nat} (g : GMap H W) (b c : Fin 16) : EReal :=
  ∑ h : Fin H, ∑ w : Fin W, if g (ix4 b 0 h w) = lab c then (1 : EReal) else 0

def segPull {H W : Nat} (f : FMap H W) (g : GMap H W) (μ : EReal) (b c : Fin 16) : EReal :=
  ∑ h : Fin H, ∑ w : Fin W, if g (ix4 b 0 h w) = lab c then hinge (f (ix4 b 0 h w)) μ else 0

end Cert.Spec

end
-- ==== Proof.Final.lean ====
import proofs.«413171_j1022202216836_1_alg».proof.Proof.Spec
import proofs.«413171_j1022202216836_1_alg».proof.Proof.Tail

noncomputable section

namespace Cert.Final

open Idealize.ShloMosaic Idealize.ShloMosaic.ValueIdx Cert.Spec Cert.Tail

variable (f0 : FMap 1024 1024) (g0 : GMap 1024 1024) (f1 : FMap 512 512) (g1 : GMap 512 512) (f2 : FMap 256 256) (g2 : GMap 256 256)

def totSum : Map2 := fun j => segSum f0 g0 (j 0) (j 1) + segSum f1 g1 (j 0) (j 1) + segSum f2 g2 (j 0) (j 1)

def totCnt : Map2 := fun j => segCnt g0 (j 0) (j 1) + segCnt g1 (j 0) (j 1) + segCnt g2 (j 0) (j 1)

def centre : Map2 := meanOf (totSum f0 g0 f1 g1 f2 g2) (totCnt g0 g1 g2)

def pullSum {H W : Nat} (f : FMap H W) (g : GMap H W) (μ : Map2) : Map2 := fun j => segPull f g (μ j) (j 0) (j 1)
def cntOf {H W : Nat} (g : GMap H W) : Map2 := fun j => segCnt g (j 0) (j 1)

def pullSeg : Map2 := fun j =>
  pullTerm (pullSum f0 g0 (centre f0 g0 f1 g1 f2 g2)) (cntOf g0) j
    + pullTerm (pullSum f1 g1 (centre f0 g0 f1 g1 f2 g2)) (cntOf g1) j
    + pullTerm (pullSum f2 g2 (centre f0 g0 f1 g1 f2 g2)) (cntOf g2) j

def result : Scal := tail (totCnt g0 g1 g2) (pullSeg f0 g0 f1 g1 f2 g2) (centre f0 g0 f1 g1 f2 g2)

end Cert.Final

end
-- ==== Proof.KI.ValueOf.lean ====
import proofs.«413171_j1022202216836_1_alg».proof.Proof.KI.HostChain
import proofs.«413171_j1022202216836_1_alg».proof.Proof.Final
import Idealize.ShloMosaic.Lib.ValueIdx
import Idealize.ShloMosaic.PureOps.Ideal.Laws

set_option maxRecDepth 1280

noncomputable section

namespace Cert.KernelIdeal.Gen

open Idealize.ShloMosaic Idealize.ShloMosaic.TcCoe Idealize.ShloMosaic.ValueIdx
open Cert.Tail (Map2 Scal zeros2 meanOf pullTerm tail)

theorem zeros2_apply (j : Cert.Tail.S16x16.Idx) : zeros2 j = 0 := Ideal.ofBits_zero_f32

theorem map2_ext {x y : Map2} (h : ∀ b k : Fin 16, x (ix2 b k) = y (ix2 b k)) : x = y := by
  funext j; rw [eq_ix2 j]; exact h (j 0) (j 1)

structure RegionValues : Prop where

  sum0 : ∀ (V : (c : Dev nD) → (b : Ref sig .tc) → Buf (Elt Ideal) ((c : Thread nD τ).loc b)) (c : Dev nD) (b k : Fin 16),
    (dat0 (F := Ideal) V c).arrAt 2 cfg0.N (ix2 b k) = Cert.Spec.segSum (V c main_arg0) (V c main_arg3) b k

  cnt0 : ∀ (V : (c : Dev nD) → (b : Ref sig .tc) → Buf (Elt Ideal) ((c : Thread nD τ).loc b)) (c : Dev nD) (b k : Fin 16),
    (dat0 (F := Ideal) V c).arrAt 3 cfg0.N (ix2 b k) = Cert.Spec.segCnt (V c main_arg3) b k

  sum1 : ∀ (V : (c : Dev nD) → (b : Ref sig .tc) → Buf (Elt Ideal) ((c : Thread nD τ).loc b)) (c : Dev nD) (b k : Fin 16),
    (dat1 (F := Ideal) V c).arrAt 2 cfg1.N (ix2 b k) = Cert.Spec.segSum (V c main_arg1) (V c main_arg4) b k

  cnt1 : ∀ (V : (c : Dev nD) → (b : Ref sig .tc) → Buf (Elt Ideal) ((c : Thread nD τ).loc b)) (c : Dev nD) (b k : Fin 16),
    (dat1 (F := Ideal) V c).arrAt 3 cfg1.N (ix2 b k) = Cert.Spec.segCnt (V c main_arg4) b k

  sum2 : ∀ (V : (c : Dev nD) → (b : Ref sig .tc) → Buf (Elt Ideal) ((c : Thread nD τ).loc b)) (c : Dev nD) (b k : Fin 16),
    (dat2 (F := Ideal) V c).arrAt 2 cfg2.N (ix2 b k) = Cert.Spec.segSum (V c main_arg2) (V c main_arg5) b k

  cnt2 : ∀ (V : (c : Dev nD) → (b : Ref sig .tc) → Buf (Elt Ideal) ((c : Thread nD τ).loc b)) (c : Dev nD) (b k : Fin 16),
    (dat2 (F := Ideal) V c).arrAt 3 cfg2.N (ix2 b k) = Cert.Spec.segCnt (V c main_arg5) b k

  pull3 : ∀ (V : (c : Dev nD) → (b : Ref sig .tc) → Buf (Elt Ideal) ((c : Thread nD τ).loc b)) (c : Dev nD) (b k : Fin 16),
    (dat3 (F := Ideal) V c).arrAt 3 cfg3.N (ix2 b k) = Cert.Spec.segPull (V c main_arg0) (V c main_arg3) (V c main_v9 (ix2 b k)) b k

  pcnt3 : ∀ (V : (c : Dev nD) → (b : Ref sig .tc) → Buf (Elt Ideal) ((c : Thread nD τ).loc b)) (c : Dev nD) (b k : Fin 16),
    (dat3 (F := Ideal) V c).arrAt 4 cfg3.N (ix2 b k) = Cert.Spec.segCnt (V c main_arg3) b k

  pull4 : ∀ (V : (c : Dev nD) → (b : Ref sig .tc) → Buf (Elt Ideal) ((c : Thread nD τ).loc b)) (c : Dev nD) (b k : Fin 16),
    (dat4 (F := Ideal) V c).arrAt 3 cfg4.N (ix2 b k) = Cert.Spec.segPull (V c main_arg1) (V c main_arg4) (V c main_v9 (ix2 b k)) b k

  pcnt4 : ∀ (V : (c : Dev nD) → (b : Ref sig .tc) → Buf (Elt Ideal) ((c : Thread nD τ).loc b)) (c : Dev nD) (b k : Fin 16),
    (dat4 (F := Ideal) V c).arrAt 4 cfg4.N (ix2 b k) = Cert.Spec.segCnt (V c main_arg4) b k

  pull5 : ∀ (V : (c : Dev nD) → (b : Ref sig .tc) → Buf (Elt Ideal) ((c : Thread nD τ).loc b)) (c : Dev nD) (b k : Fin 16),
    (dat5 (F := Ideal) V c).arrAt 3 cfg5.N (ix2 b k) = Cert.Spec.segPull (V c main_arg2) (V c main_arg5) (V c main_v9 (ix2 b k)) b k

  pcnt5 : ∀ (V : (c : Dev nD) → (b : Ref sig .tc) → Buf (Elt Ideal) ((c : Thread nD τ).loc b)) (c : Dev nD) (b k : Fin 16),
    (dat5 (F := Ideal) V c).arrAt 4 cfg5.N (ix2 b k) = Cert.Spec.segCnt (V c main_arg5) b k

section Assembly

variable (H : RegionValues) (m : (ℓ : Loc nD τ sig) → Buf (Elt Ideal) ℓ) (ρ : Dev nD → PrngReg) (c : Dev nD)

include H

theorem outSum0_eq : outSum0 m ρ c = fun j => Cert.Spec.segSum (m ((c : Thread nD τ).loc main_arg0)) (m ((c : Thread nD τ).loc main_arg3)) (j 0) (j 1) :=
  map2_ext fun b k => by
    show (dat0 (Ventry0 m ρ) c).arrAt 2 cfg0.N (ix2 b k) = _
    rw [H.sum0, Ventry0_main_arg0, Ventry0_main_arg3]
theorem outCnt0_eq : outCnt0 m ρ c = Cert.Final.cntOf (m ((c : Thread nD τ).loc main_arg3)) :=
  map2_ext fun b k => by
    show (dat0 (Ventry0 m ρ) c).arrAt 3 cfg0.N (ix2 b k) = _
    rw [H.cnt0, Ventry0_main_arg3]; rfl

theorem outSum1_eq : outSum1 m ρ c = fun j => Cert.Spec.segSum (m ((c : Thread nD τ).loc main_arg1)) (m ((c : Thread nD τ).loc main_arg4)) (j 0) (j 1) :=
  map2_ext fun b k => by
    show (dat1 (Ventry1 m ρ) c).arrAt 2 cfg1.N (ix2 b k) = _
    rw [H.sum1, Ventry1_main_arg1, Ventry1_main_arg4]
theorem outCnt1_eq : outCnt1 m ρ c = Cert.Final.cntOf (m ((c : Thread nD τ).loc main_arg4)) :=
  map2_ext fun b k => by
    show (dat1 (Ventry1 m ρ) c).arrAt 3 cfg1.N (ix2 b k) = _
    rw [H.cnt1, Ventry1_main_arg4]; rfl

theorem outSum2_eq : outSum2 m ρ c = fun j => Cert.Spec.segSum (m ((c : Thread nD τ).loc main_arg2)) (m ((c : Thread nD τ).loc main_arg5)) (j 0) (j 1) :=
  map2_ext fun b k => by
    show (dat2 (Ventry2 m ρ) c).arrAt 2 cfg2.N (ix2 b k) = _
    rw [H.sum2, Ventry2_main_arg2, Ventry2_main_arg5]
theorem outCnt2_eq : outCnt2 m ρ c = Cert.Final.cntOf (m ((c : Thread nD τ).loc main_arg5)) :=
  map2_ext fun b k => by
    show (dat2 (Ventry2 m ρ) c).arrAt 3 cfg2.N (ix2 b k) = _
    rw [H.cnt2, Ventry2_main_arg5]; rfl

theorem hostCnt_eq : hostCnt m ρ c = Cert.Final.totCnt (m ((c : Thread nD τ).loc main_arg3)) (m ((c : Thread nD τ).loc main_arg4)) (m ((c : Thread nD τ).loc main_arg5)) := by
  unfold hostCnt
  rw [outCnt0_eq H m ρ c, outCnt1_eq H m ρ c, outCnt2_eq H m ρ c]
  rfl

theorem hostMean_eq : hostMean m ρ c = Cert.Final.centre (m ((c : Thread nD τ).loc main_arg0)) (m ((c : Thread nD τ).loc main_arg3)) (m ((c : Thread nD τ).loc main_arg1)) (m ((c : Thread nD τ).loc main_arg4)) (m ((c : Thread nD τ).loc main_arg2)) (m ((c : Thread nD τ).loc main_arg5)) := by
  unfold hostMean Cert.Final.centre
  rw [hostCnt_eq H m ρ c, outSum0_eq H m ρ c, outSum1_eq H m ρ c, outSum2_eq H m ρ c]
  rfl

theorem outPull3_eq : outPull3 m ρ c = Cert.Final.pullSum (m ((c : Thread nD τ).loc main_arg0)) (m ((c : Thread nD τ).loc main_arg3)) (Cert.Final.centre (m ((c : Thread nD τ).loc main_arg0)) (m ((c : Thread nD τ).loc main_arg3)) (m ((c : Thread nD τ).loc main_arg1)) (m ((c : Thread nD τ).loc main_arg4)) (m ((c : Thread nD τ).loc main_arg2)) (m ((c : Thread nD τ).loc main_arg5))) :=
  map2_ext fun b k => by
    show (dat3 (Ventry3 m ρ) c).arrAt 3 cfg3.N (ix2 b k) = _
    rw [H.pull3, Ventry3_main_arg0, Ventry3_main_arg3, Ventry3_v9, hostMean_eq H m ρ c]; rfl
theorem outPCnt3_eq : outPCnt3 m ρ c = Cert.Final.cntOf (m ((c : Thread nD τ).loc main_arg3)) :=
  map2_ext fun b k => by
    show (dat3 (Ventry3 m ρ) c).arrAt 4 cfg3.N (ix2 b k) = _
    rw [H.pcnt3, Ventry3_main_arg3]; rfl

theorem outPull4_eq : outPull4 m ρ c = Cert.Final.pullSum (m ((c : Thread nD τ).loc main_arg1)) (m ((c : Thread nD τ).loc main_arg4)) (Cert.Final.centre (m ((c : Thread nD τ).loc main_arg0)) (m ((c : Thread nD τ).loc main_arg3)) (m ((c : Thread nD τ).loc main_arg1)) (m ((c : Thread nD τ).loc main_arg4)) (m ((c : Thread nD τ).loc main_arg2)) (m ((c : Thread nD τ).loc main_arg5))) :=
  map2_ext fun b k => by
    show (dat4 (Ventry4 m ρ) c).arrAt 3 cfg4.N (ix2 b k) = _
    rw [H.pull4, Ventry4_main_arg1, Ventry4_main_arg4, Ventry4_v9, hostMean_eq H m ρ c]; rfl
theorem outPCnt4_eq : outPCnt4 m ρ c = Cert.Final.cntOf (m ((c : Thread nD τ).loc main_arg4)) :=
  map2_ext fun b k => by
    show (dat4 (Ventry4 m ρ) c).arrAt 4 cfg4.N (ix2 b k) = _
    rw [H.pcnt4, Ventry4_main_arg4]; rfl

theorem outPull5_eq : outPull5 m ρ c = Cert.Final.pullSum (m ((c : Thread nD τ).loc main_arg2)) (m ((c : Thread nD τ).loc main_arg5)) (Cert.Final.centre (m ((c : Thread nD τ).loc main_arg0)) (m ((c : Thread nD τ).loc main_arg3)) (m ((c : Thread nD τ).loc main_arg1)) (m ((c : Thread nD τ).loc main_arg4)) (m ((c : Thread nD τ).loc main_arg2)) (m ((c : Thread nD τ).loc main_arg5))) :=
  map2_ext fun b k => by
    show (dat5 (Ventry5 m ρ) c).arrAt 3 cfg5.N (ix2 b k) = _
    rw [H.pull5, Ventry5_main_arg2, Ventry5_main_arg5, Ventry5_v9, hostMean_eq H m ρ c]; rfl
theorem outPCnt5_eq : outPCnt5 m ρ c = Cert.Final.cntOf (m ((c : Thread nD τ).loc main_arg5)) :=
  map2_ext fun b k => by
    show (dat5 (Ventry5 m ρ) c).arrAt 4 cfg5.N (ix2 b k) = _
    rw [H.pcnt5, Ventry5_main_arg5]; rfl

theorem hostPull_eq : hostPull m ρ c = Cert.Final.pullSeg (m ((c : Thread nD τ).loc main_arg0)) (m ((c : Thread nD τ).loc main_arg3)) (m ((c : Thread nD τ).loc main_arg1)) (m ((c : Thread nD τ).loc main_arg4)) (m ((c : Thread nD τ).loc main_arg2)) (m ((c : Thread nD τ).loc main_arg5)) := by
  funext j
  show zeros2 j + pullTerm (outPull3 m ρ c) (outPCnt3 m ρ c) j + pullTerm (outPull4 m ρ c) (outPCnt4 m ρ c) j
      + pullTerm (outPull5 m ρ c) (outPCnt5 m ρ c) j = _
  rw [zeros2_apply, zero_add, outPull3_eq H m ρ c, outPCnt3_eq H m ρ c, outPull4_eq H m ρ c, outPCnt4_eq H m ρ c,
    outPull5_eq H m ρ c, outPCnt5_eq H m ρ c]
  rfl

theorem kernel_value_of :
    Wend (F := Ideal) m ρ c (Proc.devRef .tc main_v78)
      = Cert.Final.result (m ((c : Thread nD τ).loc main_arg0)) (m ((c : Thread nD τ).loc main_arg3)) (m ((c : Thread nD τ).loc main_arg1)) (m ((c : Thread nD τ).loc main_arg4)) (m ((c : Thread nD τ).loc main_arg2)) (m ((c : Thread nD τ).loc main_arg5)) := by
  refine (Wend_v78 m ρ c).trans ?_
  rw [hostCnt_eq H m ρ c, hostPull_eq H m ρ c, hostMean_eq H m ρ c]
  rfl

end Assembly

end Cert.KernelIdeal.Gen

end
-- ==== Proof.LibTileSum.lean ====
import Mathlib.Algebra.BigOperators.Fin
import Mathlib.Logic.Equiv.Fin.Basic

namespace Cert.LibTileSum

def row {n R : Nat} (i : Fin n) (r : Fin R) : Fin (n * R) :=
  ⟨i.val * R + r.val, by
    have hi : i.val + 1 ≤ n := i.isLt
    have h1 : (i.val + 1) * R ≤ n * R := Nat.mul_le_mul_right R hi
    have h2 : i.val * R + r.val < (i.val + 1) * R := by rw [Nat.add_mul, Nat.one_mul]; exact Nat.add_lt_add_left r.isLt _
    exact lt_of_lt_of_le h2 h1⟩

theorem row_val {n R : Nat} (i : Fin n) (r : Fin R) : (row i r).val = i.val * R + r.val := rfl

theorem sum_rows_eq_sum_tiles {M : Type*} [AddCommMonoid M] {n R : Nat} (u : Fin (n * R) → M) :
    ∑ h : Fin (n * R), u h = ∑ i : Fin n, ∑ r : Fin R, u (row i r) := by
  rw [← (Equiv.sum_comp finProdFinEquiv u), Fintype.sum_prod_type]
  refine Finset.sum_congr rfl fun i _ => Finset.sum_congr rfl fun r _ => congrArg u ?_
  apply Fin.ext
  simp only [finProdFinEquiv_apply_val, row_val]
  rw [Nat.mul_comm R i.val, Nat.add_comm]

end Cert.LibTileSum
-- ==== Proof.KI.V1Gen.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«413171_j1022202216836_1_alg».proof.Proof.Spec
import proofs.«413171_j1022202216836_1_alg».proof.Proof.LibTileSum

noncomputable section

namespace Cert.KernelIdeal.Gen.V1

open Idealize.ShloMosaic Idealize.ShloMosaic.ValueIdx
open scoped BigOperators

abbrev B4 (W : Nat) : Shape := ⟨4, ![8, 1, 256, W]⟩
abbrev B3 (W : Nat) : Shape := ⟨3, ![8, 256, W]⟩
abbrev R2 : Shape := ⟨2, ![8, 256]⟩
abbrev R3 : Shape := ⟨3, ![8, 256, 1]⟩
abbrev C2 : Shape := ⟨2, ![8, 1]⟩
abbrev C3 : Shape := ⟨3, ![8, 1, 1]⟩

theorem cmpi_eq_self {n : Nat} (x : BitVec n) : IntOp.cmpi .eq x x = 1#1 := by
  unfold IntOp.cmpi; simp

theorem cmpi_eq_of_ne {n : Nat} {x y : BitVec n} (h : ¬x = y) : IntOp.cmpi .eq x y = 0#1 := by
  unfold IntOp.cmpi
  have hb : (x == y) = false := by simpa using h
  rw [hb]; rfl

theorem select_cmpi_eq {α : Type} {n : Nat} (x y : BitVec n) (a b : α) :
    Scalar.select (IntOp.cmpi .eq x y) a b = if x = y then a else b := by
  by_cases h : x = y
  · subst h; rw [cmpi_eq_self, select_one, if_pos rfl]
  · rw [cmpi_eq_of_ne h, select_zero, if_neg h]

theorem sitofp_extui_cmpi_eq {n : Nat} (x y : BitVec n) :
    (FloatOps.sitofp .f32 ((IntOp.cmpi .eq x y).setWidth 32) : Ideal .f32) = if x = y then (1 : EReal) else 0 := by
  by_cases h : x = y
  · subst h
    rw [cmpi_eq_self, if_pos rfl]
    show (((BitVec.toInt ((1#1 : BitVec 1).setWidth 32) : ℤ) : ℝ) : EReal) = 1
    have e : BitVec.toInt ((1#1 : BitVec 1).setWidth 32) = 1 := by decide
    rw [e]; simp
  · rw [cmpi_eq_of_ne h, if_neg h]
    show (((BitVec.toInt ((0#1 : BitVec 1).setWidth 32) : ℤ) : ℝ) : EReal) = 0
    have e : BitVec.toInt ((0#1 : BitVec 1).setWidth 32) = 0 := by decide
    rw [e]; simp

section AtIndex
variable {W : Nat}

theorem laneSum_apply (y : FVec Ideal (B3 W) .f32) (h : (B3 W).Reduces [2] R2) (hφ : FKind.Formats .f32)
    (hacc : (0x00000000#32 : BitVec 32) = FKind.add.neutral .f32 hφ) (b : Fin 8) (r : Fin 256) :
    multiReduction .add [2] R2 y 0x00000000#32 h hφ hacc (ix2 b r) = ∑ w : Fin W, y (ix3 b r w) := by
  refine (Ideal.multiReduction_add_single y _ h hφ hacc (ix2 b r)).trans ?_
  refine Finset.sum_congr rfl fun w _ => congrArg y ?_
  funext c
  match c with
  | ⟨0, _⟩ => rfl
  | ⟨1, _⟩ => rfl
  | ⟨2, _⟩ => rfl

theorem colStack_apply {α : Type} (v : R2.Idx → α) (h : R2.ShapeCasts R3) (b : Fin 8) (r : Fin 256) (u : Fin 1) :
    shapeCast R3 v h (ix3 b r u) = v (ix2 b r) :=
  shapeCast_apply v h _ _ (by
    have hu : u.val = 0 := by omega
    rw [Shape.rowMajor_val_two, Shape.rowMajor_val_three]
    show b.val * 256 + r.val = (b.val * 256 + r.val) * 1 + u.val
    omega)

theorem rowSum_apply (y : FVec Ideal R3 .f32) (h : R3.Reduces [1] C2) (hφ : FKind.Formats .f32)
    (hacc : (0x00000000#32 : BitVec 32) = FKind.add.neutral .f32 hφ) (b : Fin 8) (u : Fin 1) :
    multiReduction .add [1] C2 y 0x00000000#32 h hφ hacc (ix2 b u) = ∑ r : Fin 256, y (ix3 b r u) := by
  refine (Ideal.multiReduction_add_single y _ h hφ hacc (ix2 b u)).trans ?_
  refine Finset.sum_congr rfl fun r _ => congrArg y ?_
  funext c
  match c with
  | ⟨0, _⟩ => rfl
  | ⟨1, _⟩ => rfl
  | ⟨2, _⟩ => rfl

theorem colChain_apply (s : FVec Ideal R2 .f32) (prev : FVec Ideal C2 .f32) (c1 : R2.ShapeCasts R3)
    (h1 : R3.Reduces [1] C2) (hφ : FKind.Formats .f32) (hacc : (0x00000000#32 : BitVec 32) = FKind.add.neutral .f32 hφ)
    (c2 : C2.ShapeCasts C3) (c3 : C3.ShapeCasts C2) (c4 : C2.ShapeCasts C2) (b : Fin 8) :
    shapeCast C2 (addf prev (shapeCast C2 (shapeCast C3
        (multiReduction .add [1] C2 (shapeCast R3 s c1) 0x00000000#32 h1 hφ hacc) c2) c3)) c4 (ix2 b 0)
      = prev (ix2 b 0) + ∑ r : Fin 256, s (ix2 b r) := by
  refine (congrFun (shapeCast_self _ c4) (ix2 b 0)).trans ?_
  refine (addf_apply _ _ _).trans ?_
  refine congrArg (prev (ix2 b 0) + ·) ?_
  refine (congrFun (shapeCast_shapeCast _ c2 c3) (ix2 b 0)).trans ?_
  refine (rowSum_apply _ h1 hφ hacc b 0).trans ?_
  exact Finset.sum_congr rfl fun r _ => colStack_apply s c1 b r 0

theorem dropUnit_apply {α : Type} (v : (B4 W).Idx → α) (h : (B4 W).ShapeCasts (B3 W)) (b : Fin 8) (r : Fin 256)
    (w : Fin W) : shapeCast (B3 W) v h (ix3 b r w) = v (ix4 b 0 r w) :=
  shapeCast_apply v h _ _ (by
    rw [Shape.rowMajor_val_four, Shape.rowMajor_val_three]
    show ((b.val * 1 + 0) * 256 + r.val) * W + w.val = (b.val * 256 + r.val) * W + w.val
    rw [Nat.mul_one, Nat.add_zero])

end AtIndex

theorem casts_R2_R3 : R2.ShapeCasts R3 := by decide
theorem reduces_R3_C2 : R3.Reduces [1] C2 := by decide
theorem casts_C2_C3 : C2.ShapeCasts C3 := by decide
theorem casts_C3_C2 : C3.ShapeCasts C2 := by decide
theorem casts_C2_C2 : C2.ShapeCasts C2 := by decide

section Updates
variable {F : FTy → Type} [FloatOps F] {W : Nat}

def sumUpd (x : FVec F (B3 W) .f32) (g : IVec (B3 W) 32) (L : BitVec 32) (prev : FVec F C2 .f32)
    (h2 : (B3 W).Reduces [2] R2) : FVec F C2 .f32 :=
  shapeCast C2 (addf prev (shapeCast C2 (shapeCast C3 (multiReduction .add [1] C2 (shapeCast R3
    (multiReduction .add [2] R2
      (select (cmpi .eq g (broadcast (B3 W) L)) x (broadcast (B3 W) (Scalar.ofBits .f32 0x00000000#32)))
      0x00000000#32 h2 (.inl rfl) rfl)
    casts_R2_R3) 0x00000000#32 reduces_R3_C2 (.inl rfl) rfl) casts_C2_C3) casts_C3_C2)) casts_C2_C2

def cntUpd (g : IVec (B3 W) 32) (L : BitVec 32) (prev : FVec F C2 .f32) (h2 : (B3 W).Reduces [2] R2)
    (hlt : 1 < 32) : FVec F C2 .f32 :=
  shapeCast C2 (addf prev (shapeCast C2 (shapeCast C3 (multiReduction .add [1] C2 (shapeCast R3
    (multiReduction .add [2] R2
      (sitofp .f32 (extui 32 (cmpi .eq g (broadcast (B3 W) L)) hlt))
      0x00000000#32 h2 (.inl rfl) rfl)
    casts_R2_R3) 0x00000000#32 reduces_R3_C2 (.inl rfl) rfl) casts_C2_C3) casts_C3_C2)) casts_C2_C2

end Updates

section Values
variable {W : Nat}

def tileSum (x : (B4 W).Idx → EReal) (g : (B4 W).Idx → BitVec 32) (L : BitVec 32) (b : Fin 8) : EReal :=
  ∑ r : Fin 256, ∑ w : Fin W, if g (ix4 b 0 r w) = L then x (ix4 b 0 r w) else 0

def tileCnt (g : (B4 W).Idx → BitVec 32) (L : BitVec 32) (b : Fin 8) : EReal :=
  ∑ r : Fin 256, ∑ w : Fin W, if g (ix4 b 0 r w) = L then (1 : EReal) else 0

theorem sumUpd_apply (x : FVec Ideal (B3 W) .f32) (g : IVec (B3 W) 32) (L : BitVec 32) (prev : FVec Ideal C2 .f32)
    (h2 : (B3 W).Reduces [2] R2) (b : Fin 8) :
    sumUpd x g L prev h2 (ix2 b 0)
      = prev (ix2 b 0) + ∑ r : Fin 256, ∑ w : Fin W, if g (ix3 b r w) = L then x (ix3 b r w) else 0 := by
  unfold sumUpd
  refine (colChain_apply _ prev casts_R2_R3 reduces_R3_C2 _ _ casts_C2_C3 casts_C3_C2 casts_C2_C2 b).trans ?_
  refine congrArg (prev (ix2 b 0) + ·) (Finset.sum_congr rfl fun r _ => ?_)
  refine (laneSum_apply _ h2 _ _ b r).trans (Finset.sum_congr rfl fun w _ => ?_)
  show Scalar.select (IntOp.cmpi .eq (g (ix3 b r w)) L) (x (ix3 b r w)) (Ideal.ofBits .f32 0x00000000#32) = _
  rw [select_cmpi_eq, Ideal.ofBits_zero_f32]

theorem cntUpd_apply (g : IVec (B3 W) 32) (L : BitVec 32) (prev : FVec Ideal C2 .f32)
    (h2 : (B3 W).Reduces [2] R2) (hlt : 1 < 32) (b : Fin 8) :
    cntUpd g L prev h2 hlt (ix2 b 0)
      = prev (ix2 b 0) + ∑ r : Fin 256, ∑ w : Fin W, if g (ix3 b r w) = L then (1 : EReal) else 0 := by
  unfold cntUpd
  refine (colChain_apply _ prev casts_R2_R3 reduces_R3_C2 _ _ casts_C2_C3 casts_C3_C2 casts_C2_C2 b).trans ?_
  refine congrArg (prev (ix2 b 0) + ·) (Finset.sum_congr rfl fun r _ => ?_)
  refine (laneSum_apply _ h2 _ _ b r).trans (Finset.sum_congr rfl fun w _ => ?_)
  exact sitofp_extui_cmpi_eq (g (ix3 b r w)) L

theorem sumUpd_block_apply (v3 : FVec Ideal (B4 W) .f32) (v5 : IVec (B4 W) 32) (L : BitVec 32)
    (prev : FVec Ideal C2 .f32) (c0 : (B4 W).ShapeCasts (B3 W)) (h2 : (B3 W).Reduces [2] R2) (b : Fin 8) :
    sumUpd (shapeCast (B3 W) v3 c0) (shapeCast (B3 W) v5 c0) L prev h2 (ix2 b 0)
      = prev (ix2 b 0) + tileSum v3 v5 L b := by
  refine (sumUpd_apply _ _ L prev h2 b).trans ?_
  refine congrArg (prev (ix2 b 0) + ·) ?_
  unfold tileSum
  refine Finset.sum_congr rfl fun r _ => Finset.sum_congr rfl fun w _ => ?_
  rw [dropUnit_apply v3 c0 b r w, dropUnit_apply v5 c0 b r w]

theorem cntUpd_block_apply (v5 : IVec (B4 W) 32) (L : BitVec 32) (prev : FVec Ideal C2 .f32)
    (c0 : (B4 W).ShapeCasts (B3 W)) (h2 : (B3 W).Reduces [2] R2) (hlt : 1 < 32) (b : Fin 8) :
    cntUpd (shapeCast (B3 W) v5 c0) L prev h2 hlt (ix2 b 0) = prev (ix2 b 0) + tileCnt v5 L b := by
  refine (cntUpd_apply _ L prev h2 hlt b).trans ?_
  refine congrArg (prev (ix2 b 0) + ·) ?_
  unfold tileCnt
  refine Finset.sum_congr rfl fun r _ => Finset.sum_congr rfl fun w _ => ?_
  rw [dropUnit_apply v5 c0 b r w]

theorem sum_tileSum_eq_segSum {n : Nat} (f : Spec.FMap (n * 256) W) (g : Spec.GMap (n * 256) W) (B c : Fin 16)
    (b : Fin 8) (x : Fin n → (B4 W).Idx → EReal) (gg : Fin n → (B4 W).Idx → BitVec 32)
    (hx : ∀ i r w, x i (ix4 b 0 r w) = f (ix4 B 0 (LibTileSum.row i r) w))
    (hg : ∀ i r w, gg i (ix4 b 0 r w) = g (ix4 B 0 (LibTileSum.row i r) w)) :
    ∑ i : Fin n, tileSum (x i) (gg i) (Spec.lab c) b = Spec.segSum f g B c := by
  unfold Spec.segSum tileSum
  rw [LibTileSum.sum_rows_eq_sum_tiles]
  refine Finset.sum_congr rfl fun i _ => Finset.sum_congr rfl fun r _ => Finset.sum_congr rfl fun w _ => ?_
  rw [hx, hg]

theorem sum_tileCnt_eq_segCnt {n : Nat} (g : Spec.GMap (n * 256) W) (B c : Fin 16)
    (b : Fin 8) (gg : Fin n → (B4 W).Idx → BitVec 32)
    (hg : ∀ i r w, gg i (ix4 b 0 r w) = g (ix4 B 0 (LibTileSum.row i r) w)) :
    ∑ i : Fin n, tileCnt (gg i) (Spec.lab c) b = Spec.segCnt g B c := by
  unfold Spec.segCnt tileCnt
  rw [LibTileSum.sum_rows_eq_sum_tiles]
  refine Finset.sum_congr rfl fun i _ => Finset.sum_congr rfl fun r _ => Finset.sum_congr rfl fun w _ => ?_
  rw [hg]

end Values

end Cert.KernelIdeal.Gen.V1

end
-- ==== Proof.KI.V1Col.lean ====
import Idealize.ShloMosaic.Lib.Pipeline.Value
import Idealize.ShloMosaic.Lib.Pipeline.FrameBody
import proofs.«413171_j1022202216836_1_alg».proof.Proof.KI.V1Gen

noncomputable section

namespace Cert.KernelIdeal.Gen.V1

open Idealize.ShloMosaic Idealize.ShloMosaic.ValueIdx

abbrev A2 : Shape := ⟨2, ![8, 16]⟩

theorem hz2 : (![0, 0] : Fin 2 → Nat) = fun _ => 0 := funext fun a => by fin_cases a <;> rfl
theorem hz4 : (![0, 0, 0, 0] : Fin 4 → Nat) = fun _ => 0 := funext fun a => by fin_cases a <;> rfl

def colsTo (n : ℕ) (Z : Fin 8 → Fin 16 → EReal) (T : Fin 16 → Fin 8 → EReal) (b : Fin 8) (k : Fin 16) : EReal :=
  if k.val < n then Z b k + T k b else Z b k

theorem colsTo_zero (Z : Fin 8 → Fin 16 → EReal) (T : Fin 16 → Fin 8 → EReal) (b : Fin 8) (k : Fin 16) :
    colsTo 0 Z T b k = Z b k := if_neg (Nat.not_lt_zero _)
theorem colsTo_all (Z : Fin 8 → Fin 16 → EReal) (T : Fin 16 → Fin 8 → EReal) (b : Fin 8) (k : Fin 16) :
    colsTo 16 Z T b k = Z b k + T k b := if_pos k.isLt
theorem colsTo_self (Z : Fin 8 → Fin 16 → EReal) (T : Fin 16 → Fin 8 → EReal) (b : Fin 8) (j : Fin 16) :
    colsTo j.val Z T b j = Z b j := if_neg (Nat.lt_irrefl _)
theorem colsTo_succ_self (Z : Fin 8 → Fin 16 → EReal) (T : Fin 16 → Fin 8 → EReal) (b : Fin 8) (j : Fin 16) :
    colsTo (j.val + 1) Z T b j = Z b j + T j b := if_pos (Nat.lt_succ_self _)
theorem colsTo_succ_of_ne (Z : Fin 8 → Fin 16 → EReal) (T : Fin 16 → Fin 8 → EReal) (b : Fin 8) {j k : Fin 16}
    (h : ¬k = j) : colsTo (j.val + 1) Z T b k = colsTo j.val Z T b k := by
  have hv : k.val ≠ j.val := fun e => h (Fin.ext e)
  unfold colsTo
  by_cases hlt : k.val < j.val
  · rw [if_pos hlt, if_pos (by omega)]
  · rw [if_neg hlt, if_neg (by omega)]

theorem col_idx (j : Fin 16) (inb : ∀ a, (![0, j.val] : Fin 2 → ℕ) a + C2.size a ≤ A2.size a) (b : Fin 8) :
    (Rect.unit (s := A2) ![0, j.val] C2.size inb).toLoadRect.idx (ix2 b 0) = ix2 b j := by
  funext a
  refine Fin.ext ?_
  match a with
  | ⟨0, _⟩ => show 0 + 1 * b.val = b.val; omega
  | ⟨1, _⟩ => show j.val + 1 * 0 = j.val; omega

theorem col_emb (j : Fin 16) (inb : ∀ a, (![0, j.val] : Fin 2 → ℕ) a + C2.size a ≤ A2.size a) (b : Fin 8) :
    (Rect.unit (s := A2) ![0, j.val] C2.size inb).emb (ix2 b 0) = ix2 b j := col_idx j inb b

theorem mem_col_iff (j : Fin 16) (inb : ∀ a, (![0, j.val] : Fin 2 → ℕ) a + C2.size a ≤ A2.size a) (b : Fin 8)
    (k : Fin 16) : ix2 b k ∈ (Rect.unit (s := A2) ![0, j.val] C2.size inb).set ↔ k = j := by
  rw [Rect.mem_set_unit]
  constructor
  · intro h
    have h1 : j.val ≤ k.val ∧ k.val < j.val + 1 := h 1
    exact Fin.ext (by omega)
  · rintro rfl a
    match a with
    | ⟨0, _⟩ => exact ⟨Nat.zero_le _, (show b.val < 0 + 8 by omega)⟩
    | ⟨1, _⟩ => exact ⟨Nat.le_refl _, (show k.val < k.val + 1 by omega)⟩

section Loads
variable {sig : RefSig} {κ : Kind} {sp : Space}

theorem readCov_col (v : View sig κ sp A2 .f32) (L : List (View.Piece (Elt Ideal) A2 .f32)) (j : Fin 16)
    (inb : ∀ a, (![0, j.val] : Fin 2 → ℕ) a + C2.size a ≤ A2.size a) (b : Fin 8) :
    v.readCov L (Rect.unit (s := A2) ![0, j.val] C2.size inb).toLoadRect (ix2 b 0) = View.canon L (ix2 b j) := by
  rw [View.readCov_eq_canon']
  exact congrArg (View.canon L) (col_idx j inb b)

theorem ld_col (X : A2.Idx → EReal) (j : Fin 16) (inb : ∀ a, (![0, j.val] : Fin 2 → ℕ) a + C2.size a ≤ A2.size a)
    (b : Fin 8) : View.ld (Val := Elt Ideal) (e' := .f32) X (Rect.unit (s := A2) ![0, j.val] C2.size inb) (ix2 b 0) = X (ix2 b j) :=
  congrArg X (col_idx j inb b)

theorem readCov_whole (v : View sig κ sp A2 .f32) (L : List (View.Piece (Elt Ideal) A2 .f32))
    (inb : ∀ a, (![0, 0] : Fin 2 → ℕ) a + A2.size a ≤ A2.size a) :
    v.readCov L (Rect.unit (s := A2) ![0, 0] A2.size inb).toLoadRect = View.canon L := by
  rw [View.readCov_eq_canon']
  exact View.ld_unit_zero (Val := Elt Ideal) (e := .f32) hz2 inb (View.canon L)

end Loads

theorem zeros_apply (h : A2.ShapeCasts A2) (y : A2.Idx) :
    shapeCast A2 (broadcast A2 (Scalar.ofBits (F := Ideal) .f32 0x00000000#32)) h y = (0 : EReal) := by
  rw [shapeCast_self]
  exact Ideal.ofBits_zero_f32

theorem canon_col_self (L : List (View.Piece (Elt Ideal) A2 .f32)) (j : Fin 16)
    (inb : ∀ a, (![0, j.val] : Fin 2 → ℕ) a + C2.size a ≤ A2.size a) (pay : C2.Idx → EReal) (b : Fin 8) :
    View.canon ((⟨Rect.unit (s := A2) ![0, j.val] C2.size inb, pay⟩ : View.Piece (Elt Ideal) A2 .f32) :: L) (ix2 b j)
      = pay (ix2 b 0) :=
  (congrArg (View.canon ((⟨Rect.unit (s := A2) ![0, j.val] C2.size inb, pay⟩ : View.Piece (Elt Ideal) A2 .f32) :: L))
      (col_emb j inb b).symm).trans
    (View.canon_cons_emb (Val := Elt Ideal) (Rect.unit (s := A2) ![0, j.val] C2.size inb) pay L (ix2 b 0))

theorem canon_col_of_ne (L : List (View.Piece (Elt Ideal) A2 .f32)) (j : Fin 16)
    (inb : ∀ a, (![0, j.val] : Fin 2 → ℕ) a + C2.size a ≤ A2.size a) (pay : C2.Idx → EReal) (b : Fin 8) {k : Fin 16}
    (hk : ¬k = j) :
    View.canon ((⟨Rect.unit (s := A2) ![0, j.val] C2.size inb, pay⟩ : View.Piece (Elt Ideal) A2 .f32) :: L) (ix2 b k)
      = View.canon L (ix2 b k) :=
  View.canon_cons_of_not_mem (Val := Elt Ideal)
    (⟨Rect.unit (s := A2) ![0, j.val] C2.size inb, pay⟩ : View.Piece (Elt Ideal) A2 .f32) L
    (y := ix2 b k) (fun h => hk ((mem_col_iff j inb b k).mp h))

theorem canon_col_cons (L : List (View.Piece (Elt Ideal) A2 .f32)) (j : Fin 16)
    (inb : ∀ a, (![0, j.val] : Fin 2 → ℕ) a + C2.size a ≤ A2.size a) (pay : C2.Idx → EReal)
    (Z : Fin 8 → Fin 16 → EReal) (T : Fin 16 → Fin 8 → EReal)
    (hL : ∀ b k, View.canon L (ix2 b k) = colsTo j.val Z T b k)
    (hpay : ∀ b, pay (ix2 b 0) = View.canon L (ix2 b j) + T j b) :
    ∀ b k, View.canon ((⟨Rect.unit (s := A2) ![0, j.val] C2.size inb, pay⟩ : View.Piece (Elt Ideal) A2 .f32) :: L) (ix2 b k)
      = colsTo (j.val + 1) Z T b k := by
  intro b k
  by_cases hk : k = j
  · subst hk
    rw [canon_col_self L k inb pay b, hpay b, hL b k, colsTo_self, colsTo_succ_self]
  · rw [canon_col_of_ne L j inb pay b hk, hL b k, colsTo_succ_of_ne Z T b hk]

theorem canon_col_cons_lt (L : List (View.Piece (Elt Ideal) A2 .f32)) (j : Fin 16)
    (inb : ∀ a, (![0, j.val] : Fin 2 → ℕ) a + C2.size a ≤ A2.size a) (pay : C2.Idx → EReal)
    (Z : Fin 8 → Fin 16 → EReal) (T : Fin 16 → Fin 8 → EReal)
    (hL : ∀ b k, k.val < j.val → View.canon L (ix2 b k) = Z b k + T k b)
    (hpay : ∀ b, pay (ix2 b 0) = Z b j + T j b) :
    ∀ b k, k.val < j.val + 1 →
      View.canon ((⟨Rect.unit (s := A2) ![0, j.val] C2.size inb, pay⟩ : View.Piece (Elt Ideal) A2 .f32) :: L) (ix2 b k)
        = Z b k + T k b := by
  intro b k hlt
  by_cases hk : k = j
  · subst hk
    rw [canon_col_self L k inb pay b, hpay b]
  · have hv : k.val ≠ j.val := fun e => hk (Fin.ext e)
    rw [canon_col_of_ne L j inb pay b hk]
    exact hL b k (by omega)

end Cert.KernelIdeal.Gen.V1

end
-- ==== Proof.KI.V1Cases0.lean ====
import proofs.«413171_j1022202216836_1_alg».proof.Proof.KI.P1Outs0
import proofs.«413171_j1022202216836_1_alg».proof.Proof.KI.V1Col
import Idealize.ShloMosaic.Lib.Tactic

noncomputable section

namespace Cert.KernelIdeal.Gen

open Idealize.ShloMosaic Idealize.ShloMosaic.Tactic Idealize.ShloMosaic.ValueIdx

variable {F : FTy → Type} [FloatOps F] (c : Dev nD) (i : grid0.Coords) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole)

section
variable (x0 : Vec Ideal S8x1x256x1024 .f32) (x1 : Vec Ideal S8x1x256x1024 .i32)

/-- First tile: each column store adds its class's term to the zero the clearing store left in that column. -/
theorem sout0_A_0_apply (hc0 : cond0_0 i) (hc1 : ¬cond0_1 i) (b : Fin 8) (k : Fin 16) :
    sout0_A_0 (F := Ideal) c i arg2 harg2 arg3 harg3 arg4 harg4 arg5 harg5 arg6 harg6 arg7 harg7 x0 x1 hc0 hc1 (ix2 b k) = 0 + V1.tileSum x0 x1 (Spec.lab k) b := by
  unfold sout0_A_0
  rw [View.read_writes_junk_eq_canon]
  unfold kernelRun0_A
  dsimp only
  sl_unfold_words
  simp only [View.readAt_eq_ld, harg2.read_unread, harg3.read_unread, View.ld_unit_zero (S := S8x1x256x1024) V1.hz4]
  revert b k
  suffices h : ∀ b k, _ = V1.colsTo 16 (fun _ _ => (0 : EReal)) (fun k b => V1.tileSum x0 x1 (Spec.lab k) b) b k from fun b k => (h b k).trans (V1.colsTo_all _ _ b k)
  iterate 16
    refine V1.canon_col_cons _ ⟨_, by decide⟩ _ _ _ _ ?_
      fun b => (V1.sumUpd_block_apply x0 x1 _ _ _ _ b).trans (congrArg (· + _) (V1.readCov_col _ _ ⟨_, _⟩ _ b))
  exact fun b k => (congrFun (View.canon_unit_zero V1.hz2 _ _) _).trans ((V1.zeros_apply _ _).trans (V1.colsTo_zero (fun _ _ => 0) _ b k).symm)

theorem sout0_A_1_apply (hc0 : cond0_0 i) (hc1 : ¬cond0_1 i) (b : Fin 8) (k : Fin 16) :
    sout0_A_1 (F := Ideal) c i arg2 harg2 arg3 harg3 arg4 harg4 arg5 harg5 arg6 harg6 arg7 harg7 x0 x1 hc0 hc1 (ix2 b k) = 0 + V1.tileCnt x1 (Spec.lab k) b := by
  unfold sout0_A_1
  rw [View.read_writes_junk_eq_canon]
  unfold kernelRun0_A
  dsimp only
  sl_unfold_words
  simp only [View.readAt_eq_ld, harg3.read_unread, View.ld_unit_zero (S := S8x1x256x1024) V1.hz4]
  revert b k
  suffices h : ∀ b k, _ = V1.colsTo 16 (fun _ _ => (0 : EReal)) (fun k b => V1.tileCnt x1 (Spec.lab k) b) b k from fun b k => (h b k).trans (V1.colsTo_all _ _ b k)
  iterate 16
    refine V1.canon_col_cons _ ⟨_, by decide⟩ _ _ _ _ ?_
      fun b => (V1.cntUpd_block_apply x1 _ _ _ _ natLt_1_32 b).trans (congrArg (· + _) (V1.readCov_col _ _ ⟨_, _⟩ _ b))
  exact fun b k => (congrFun (View.canon_unit_zero V1.hz2 _ _) _).trans ((V1.zeros_apply _ _).trans (V1.colsTo_zero (fun _ _ => 0) _ b k).symm)

variable (xs0 xs1 : Vec Ideal S8x16 .f32)

/-- Middle tile: each column store adds its class's term to what the column held. -/
theorem sout0_B_0_apply (hc0 : ¬cond0_0 i) (hc1 : ¬cond0_1 i) (b : Fin 8) (k : Fin 16) :
    sout0_B_0 (F := Ideal) c i arg2 harg2 arg3 harg3 arg4 harg4 arg5 harg5 arg6 harg6 arg7 harg7 x0 x1 xs0 xs1 hc0 hc1 (ix2 b k) = xs0 (ix2 b k) + V1.tileSum x0 x1 (Spec.lab k) b := by
  unfold sout0_B_0
  rw [View.read_writes_junk_eq_canon]
  unfold kernelRun0_B
  dsimp only
  sl_unfold_words
  simp only [View.readAt_eq_ld, harg2.read_unread, harg3.read_unread, harg6.read_unread, View.ld_unit_zero (S := S8x1x256x1024) V1.hz4]
  revert b k
  suffices h : ∀ b (k : Fin 16), k.val < 16 → _ from fun b k => h b k k.isLt
  iterate 16
    refine V1.canon_col_cons_lt _ ⟨_, by decide⟩ _ _ (fun b k => xs0 (ix2 b k)) (fun k b => V1.tileSum x0 x1 (Spec.lab k) b) ?_
      fun b => (V1.sumUpd_block_apply x0 x1 _ _ _ _ b).trans (congrArg (· + _) (V1.ld_col xs0 ⟨_, _⟩ _ b))
  exact fun _ _ h => absurd h (Nat.not_lt_zero _)

theorem sout0_B_1_apply (hc0 : ¬cond0_0 i) (hc1 : ¬cond0_1 i) (b : Fin 8) (k : Fin 16) :
    sout0_B_1 (F := Ideal) c i arg2 harg2 arg3 harg3 arg4 harg4 arg5 harg5 arg6 harg6 arg7 harg7 x0 x1 xs0 xs1 hc0 hc1 (ix2 b k) = xs1 (ix2 b k) + V1.tileCnt x1 (Spec.lab k) b := by
  unfold sout0_B_1
  rw [View.read_writes_junk_eq_canon]
  unfold kernelRun0_B
  dsimp only
  sl_unfold_words
  simp only [View.readAt_eq_ld, harg3.read_unread, harg7.read_unread, View.ld_unit_zero (S := S8x1x256x1024) V1.hz4]
  revert b k
  suffices h : ∀ b (k : Fin 16), k.val < 16 → _ from fun b k => h b k k.isLt
  iterate 16
    refine V1.canon_col_cons_lt _ ⟨_, by decide⟩ _ _ (fun b k => xs1 (ix2 b k)) (fun k b => V1.tileCnt x1 (Spec.lab k) b) ?_
      fun b => (V1.cntUpd_block_apply x1 _ _ _ _ natLt_1_32 b).trans (congrArg (· + _) (V1.ld_col xs1 ⟨_, _⟩ _ b))
  exact fun _ _ h => absurd h (Nat.not_lt_zero _)

/-- Last tile: the accumulators are updated as on a middle tile. -/
theorem sout0_C_0_apply (hc0 : ¬cond0_0 i) (hc1 : cond0_1 i) (b : Fin 8) (k : Fin 16) :
    sout0_C_0 (F := Ideal) c i arg2 harg2 arg3 harg3 arg4 harg4 arg5 harg5 arg6 harg6 arg7 harg7 x0 x1 xs0 xs1 hc0 hc1 (ix2 b k) = xs0 (ix2 b k) + V1.tileSum x0 x1 (Spec.lab k) b := by
  unfold sout0_C_0
  rw [View.read_writes_junk_eq_canon]
  unfold kernelRun0_C
  dsimp only
  sl_unfold_words
  simp only [View.readAt_eq_ld, harg2.read_unread, harg3.read_unread, harg6.read_unread, View.ld_unit_zero (S := S8x1x256x1024) V1.hz4]
  revert b k
  suffices h : ∀ b (k : Fin 16), k.val < 16 → _ from fun b k => h b k k.isLt
  iterate 16
    refine V1.canon_col_cons_lt _ ⟨_, by decide⟩ _ _ (fun b k => xs0 (ix2 b k)) (fun k b => V1.tileSum x0 x1 (Spec.lab k) b) ?_
      fun b => (V1.sumUpd_block_apply x0 x1 _ _ _ _ b).trans (congrArg (· + _) (V1.ld_col xs0 ⟨_, _⟩ _ b))
  exact fun _ _ h => absurd h (Nat.not_lt_zero _)

theorem sout0_C_1_apply (hc0 : ¬cond0_0 i) (hc1 : cond0_1 i) (b : Fin 8) (k : Fin 16) :
    sout0_C_1 (F := Ideal) c i arg2 harg2 arg3 harg3 arg4 harg4 arg5 harg5 arg6 harg6 arg7 harg7 x0 x1 xs0 xs1 hc0 hc1 (ix2 b k) = xs1 (ix2 b k) + V1.tileCnt x1 (Spec.lab k) b := by
  unfold sout0_C_1
  rw [View.read_writes_junk_eq_canon]
  unfold kernelRun0_C
  dsimp only
  sl_unfold_words
  simp only [View.readAt_eq_ld, harg3.read_unread, harg7.read_unread, View.ld_unit_zero (S := S8x1x256x1024) V1.hz4]
  revert b k
  suffices h : ∀ b (k : Fin 16), k.val < 16 → _ from fun b k => h b k k.isLt
  iterate 16
    refine V1.canon_col_cons_lt _ ⟨_, by decide⟩ _ _ (fun b k => xs1 (ix2 b k)) (fun k b => V1.tileCnt x1 (Spec.lab k) b) ?_
      fun b => (V1.cntUpd_block_apply x1 _ _ _ _ natLt_1_32 b).trans (congrArg (· + _) (V1.ld_col xs1 ⟨_, _⟩ _ b))
  exact fun _ _ h => absurd h (Nat.not_lt_zero _)

end

variable (x0 : Vec F S8x1x256x1024 .f32) (x1 : Vec F S8x1x256x1024 .i32) (xs0 xs1 : Vec F S8x16 .f32)

/-- Last tile: each output receives a whole copy of its accumulator. -/
theorem out0_C_2_eq (hc0 : ¬cond0_0 i) (hc1 : cond0_1 i) :
    out0_C_2 (F := F) c i arg2 harg2 arg3 harg3 arg4 harg4 arg5 harg5 arg6 harg6 arg7 harg7 x0 x1 xs0 xs1 hc0 hc1 = sout0_C_0 (F := F) c i arg2 harg2 arg3 harg3 arg4 harg4 arg5 harg5 arg6 harg6 arg7 harg7 x0 x1 xs0 xs1 hc0 hc1 := by
  unfold out0_C_2 sout0_C_0
  rw [View.read_writes_junk_eq_canon, View.read_writes_junk_eq_canon]
  unfold kernelRun0_C
  dsimp only
  sl_unfold_words
  rw [View.canon_unit_zero V1.hz2]
  exact (View.readCov_eq_canon' _ _ _).trans (View.ld_unit_zero (S := S8x16) V1.hz2 _ _)

theorem out0_C_3_eq (hc0 : ¬cond0_0 i) (hc1 : cond0_1 i) :
    out0_C_3 (F := F) c i arg2 harg2 arg3 harg3 arg4 harg4 arg5 harg5 arg6 harg6 arg7 harg7 x0 x1 xs0 xs1 hc0 hc1 = sout0_C_1 (F := F) c i arg2 harg2 arg3 harg3 arg4 harg4 arg5 harg5 arg6 harg6 arg7 harg7 x0 x1 xs0 xs1 hc0 hc1 := by
  unfold out0_C_3 sout0_C_1
  rw [View.read_writes_junk_eq_canon, View.read_writes_junk_eq_canon]
  unfold kernelRun0_C
  dsimp only
  sl_unfold_words
  rw [View.canon_unit_zero V1.hz2]
  exact (View.readCov_eq_canon' _ _ _).trans (View.ld_unit_zero (S := S8x16) V1.hz2 _ _)

end Cert.KernelIdeal.Gen

end
-- ==== Proof.KI.V1Blk0.lean ====
import proofs.«413171_j1022202216836_1_alg».proof.Proof.KI.P1Outs0
import proofs.«413171_j1022202216836_1_alg».proof.Proof.KI.V1Gen
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev xblk0 (c : Dev nD) (t : Fin cfg0.N) : Vec Ideal S8x1x256x1024 .f32 := iblk0 V c 0 t
abbrev gblk0 (c : Dev nD) (t : Fin cfg0.N) : Vec Ideal S8x1x256x1024 .i32 := iblk0 V c 1 t
abbrev farr0 (c : Dev nD) : Vec Ideal S16x1x1024x1024 .f32 := V c main_arg0
abbrev garr0 (c : Dev nD) : Vec Ideal S16x1x1024x1024 .i32 := V c main_arg3

-- Grid point 4 q + i is row tile i of batch chunk q; the chunk holds batch rows 8 q + b.
def pt0 (q : Fin 2) (i : Fin 4) : Fin cfg0.N := ⟨4 * q.val + i.val, by rw [show cfg0.N = 8 from N_0]; omega⟩
def brow (q : Fin 2) (b : Fin 8) : Fin 16 := ⟨8 * q.val + b.val, by omega⟩

theorem index0_0 (t : Fin cfg0.N) :
    win0_0.index t 0 = t.val / 4 ∧ win0_0.index t 1 = 0 ∧ win0_0.index t 2 = t.val % 4 ∧ win0_0.index t 3 = 0 := by
  rcases fin_N0 t with rfl | rfl | rfl | rfl | rfl | rfl | rfl | rfl <;> decide

-- Element (b, 0, r, w) of either input block of tile i of chunk q is element (8 q + b, 0, 256 i + r, w) of its map.
theorem emb0_0 (q : Fin 2) (i : Fin 4) (b : Fin 8) (r : Fin 256) (w : Fin 1024) :
    ((cfg0.win 0).blk (pt0 q i)).view.emb (ix4 b 0 r w) = ix4 (brow q b) 0 (LibTileSum.row i r) w := by
  obtain ⟨i0, i1, i2, i3⟩ := index0_0 (pt0 q i)
  rw [show (pt0 q i).val = 4 * q.val + i.val from rfl] at i0 i2
  funext a
  apply Fin.ext
  match a with
  | ⟨0, _⟩ => show win0_0.index (pt0 q i) 0 * 8 + 1 * b.val = 8 * q.val + b.val; rw [i0]; omega
  | ⟨1, _⟩ => show win0_0.index (pt0 q i) 1 * 1 + 1 * 0 = 0; rw [i1]
  | ⟨2, _⟩ => show win0_0.index (pt0 q i) 2 * 256 + 1 * r.val = i.val * 256 + r.val; rw [i2]; omega
  | ⟨3, _⟩ => show win0_0.index (pt0 q i) 3 * 1024 + 1 * w.val = w.val; rw [i3]; omega

theorem xblk0_apply (c : Dev nD) (q : Fin 2) (i : Fin 4) (b : Fin 8) (r : Fin 256) (w : Fin 1024) :
    xblk0 V c (pt0 q i) (ix4 b 0 r w) = farr0 V c (ix4 (brow q b) 0 (LibTileSum.row i r) w) := by
  show iblk0 V c 0 (pt0 q i) (ix4 b 0 r w) = V c main_arg0 (ix4 (brow q b) 0 (LibTileSum.row i r) w)
  unfold iblk0
  rw [View.read_apply]
  show V c main_arg0 _ = V c main_arg0 _
  congr 1
  exact emb0_0 q i b r w

theorem gblk0_apply (c : Dev nD) (q : Fin 2) (i : Fin 4) (b : Fin 8) (r : Fin 256) (w : Fin 1024) :
    gblk0 V c (pt0 q i) (ix4 b 0 r w) = garr0 V c (ix4 (brow q b) 0 (LibTileSum.row i r) w) := by
  show iblk0 V c 1 (pt0 q i) (ix4 b 0 r w) = V c main_arg3 (ix4 (brow q b) 0 (LibTileSum.row i r) w)
  unfold iblk0
  rw [View.read_apply]
  show V c main_arg3 _ = V c main_arg3 _
  congr 1
  exact emb0_0 q i b r w

-- The row tiles of a batch chunk partition the map's rows, so their masked sums and counts add up to the whole map's.
theorem tiles0_sum (c : Dev nD) (q : Fin 2) (b : Fin 8) (k : Fin 16) :
    ∑ i : Fin 4, V1.tileSum (xblk0 V c (pt0 q i)) (gblk0 V c (pt0 q i)) (Spec.lab k) b
      = Spec.segSum (V c main_arg0) (V c main_arg3) (brow q b) k :=
  V1.sum_tileSum_eq_segSum (n := 4) (W := 1024) (farr0 V c) (garr0 V c) (brow q b) k b
    (fun i => xblk0 V c (pt0 q i)) (fun i => gblk0 V c (pt0 q i))
    (fun i => xblk0_apply V c q i b) (fun i => gblk0_apply V c q i b)

theorem tiles0_cnt (c : Dev nD) (q : Fin 2) (b : Fin 8) (k : Fin 16) :
    ∑ i : Fin 4, V1.tileCnt (gblk0 V c (pt0 q i)) (Spec.lab k) b = Spec.segCnt (V c main_arg3) (brow q b) k :=
  V1.sum_tileCnt_eq_segCnt (n := 4) (W := 1024) (garr0 V c) (brow q b) k b (fun i => gblk0 V c (pt0 q i))
    (fun i => gblk0_apply V c q i b)

end Cert.KernelIdeal.Gen

end
-- ==== Proof.KI.V1Val0.lean ====
import proofs.«413171_j1022202216836_1_alg».proof.Proof.KI.V1Cases0
import proofs.«413171_j1022202216836_1_alg».proof.Proof.KI.V1Blk0

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

def prev0 (t : Fin cfg0.N) : Fin cfg0.N := ⟨t.val - 1, Nat.lt_of_le_of_lt (Nat.sub_le _ _) t.isLt⟩

-- A chunk's first tile clears the two accumulators and leaves its own masked sums and counts in them.
theorem acc0_first (c : Dev nD) (t : Fin cfg0.N) (h0 : t.val % 4 = 0) (b : Fin 8) (k : Fin 16) :
    (outsAt0 V c t.val t.isLt).2.2.1 (ix2 b k) = 0 + V1.tileSum (xblk0 V c t) (gblk0 V c t) (Spec.lab k) b
      ∧ (outsAt0 V c t.val t.isLt).2.2.2 (ix2 b k) = 0 + V1.tileCnt (gblk0 V c t) (Spec.lab k) b := by
  have hc1 : ¬cond0_1 (grid0.coords t) := fun h => by have := (hcond0_1 t).mp h; omega
  rw [outsAt0_A V c t h0 ((hcond0_0 t).mpr h0) hc1]
  unfold stepA0
  dsimp only
  exact ⟨sout0_A_0_apply .., sout0_A_1_apply ..⟩

-- Every later tile, the last included, adds its own to what the tile before left.
theorem acc0_step (c : Dev nD) (t : Fin cfg0.N) (h0 : ¬t.val % 4 = 0) (b : Fin 8) (k : Fin 16) :
    (outsAt0 V c t.val t.isLt).2.2.1 (ix2 b k) = (outsAt0 V c (prev0 t).val (prev0 t).isLt).2.2.1 (ix2 b k)
        + V1.tileSum (xblk0 V c t) (gblk0 V c t) (Spec.lab k) b
      ∧ (outsAt0 V c t.val t.isLt).2.2.2 (ix2 b k) = (outsAt0 V c (prev0 t).val (prev0 t).isLt).2.2.2 (ix2 b k)
        + V1.tileCnt (gblk0 V c t) (Spec.lab k) b := by
  have hc0 : ¬cond0_0 (grid0.coords t) := fun h => h0 ((hcond0_0 t).mp h)
  by_cases h1 : t.val % 4 = 3
  · rw [outsAt0_C V c t h0 h1 hc0 ((hcond0_1 t).mpr h1)]
    unfold stepC0
    dsimp only
    exact ⟨sout0_C_0_apply .., sout0_C_1_apply ..⟩
  · rw [outsAt0_B V c t h0 h1 hc0 fun h => h1 ((hcond0_1 t).mp h)]
    unfold stepB0
    dsimp only
    exact ⟨sout0_B_0_apply .., sout0_B_1_apply ..⟩

-- So after the last tile of chunk q the accumulators hold the four tiles' totals.
theorem acc0_last (c : Dev nD) (q : Fin 2) (b : Fin 8) (k : Fin 16) :
    (outsAt0 V c (pt0 q 3).val (pt0 q 3).isLt).2.2.1 (ix2 b k)
        = ∑ i : Fin 4, V1.tileSum (xblk0 V c (pt0 q i)) (gblk0 V c (pt0 q i)) (Spec.lab k) b
      ∧ (outsAt0 V c (pt0 q 3).val (pt0 q 3).isLt).2.2.2 (ix2 b k)
        = ∑ i : Fin 4, V1.tileCnt (gblk0 V c (pt0 q i)) (Spec.lab k) b := by
  have e3 := acc0_step V c (pt0 q 3) (by show ¬(4 * q.val + 3) % 4 = 0; omega) b k
  have e2 := acc0_step V c (pt0 q 2) (by show ¬(4 * q.val + 2) % 4 = 0; omega) b k
  have e1 := acc0_step V c (pt0 q 1) (by show ¬(4 * q.val + 1) % 4 = 0; omega) b k
  have e0 := acc0_first V c (pt0 q 0) (by show (4 * q.val + 0) % 4 = 0; omega) b k
  rw [show prev0 (pt0 q 3) = pt0 q 2 from Fin.ext (by show 4 * q.val + 3 - 1 = 4 * q.val + 2; omega)] at e3
  rw [show prev0 (pt0 q 2) = pt0 q 1 from Fin.ext (by show 4 * q.val + 2 - 1 = 4 * q.val + 1; omega)] at e2
  rw [show prev0 (pt0 q 1) = pt0 q 0 from Fin.ext (by show 4 * q.val + 1 - 1 = 4 * q.val + 0; omega)] at e1
  constructor
  · rw [e3.1, e2.1, e1.1, e0.1, Fin.sum_univ_four, zero_add]
  · rw [e3.2, e2.2, e1.2, e0.2, Fin.sum_univ_four, zero_add]

-- The last tile also copies the accumulators to the outputs' blocks, which so hold the chunk's segment sums and counts.
theorem out0_last (c : Dev nD) (q : Fin 2) (b : Fin 8) (k : Fin 16) :
    (outsAt0 V c (pt0 q 3).val (pt0 q 3).isLt).1 (ix2 b k) = Spec.segSum (V c main_arg0) (V c main_arg3) (brow q b) k
      ∧ (outsAt0 V c (pt0 q 3).val (pt0 q 3).isLt).2.1 (ix2 b k) = Spec.segCnt (V c main_arg3) (brow q b) k := by
  have h1 : (pt0 q 3).val % 4 = 3 := by show (4 * q.val + 3) % 4 = 3; omega
  have h0 : ¬(pt0 q 3).val % 4 = 0 := by omega
  have e : (outsAt0 V c (pt0 q 3).val (pt0 q 3).isLt).1 = (outsAt0 V c (pt0 q 3).val (pt0 q 3).isLt).2.2.1
      ∧ (outsAt0 V c (pt0 q 3).val (pt0 q 3).isLt).2.1 = (outsAt0 V c (pt0 q 3).val (pt0 q 3).isLt).2.2.2 := by
    rw [outsAt0_C V c (pt0 q 3) h0 h1 (fun h => h0 ((hcond0_0 _).mp h)) ((hcond0_1 _).mpr h1)]
    unfold stepC0
    dsimp only
    exact ⟨out0_C_2_eq .., out0_C_3_eq ..⟩
  obtain ⟨s, n⟩ := acc0_last V c q b k
  exact ⟨(congrFun e.1 _).trans (s.trans (tiles0_sum V c q b k)), (congrFun e.2 _).trans (n.trans (tiles0_cnt V c q b k))⟩

theorem index0_2 (t : Fin cfg0.N) : win0_2.index t 0 = t.val / 4 ∧ win0_2.index t 1 = 0 := by
  rcases fin_N0 t with rfl | rfl | rfl | rfl | rfl | rfl | rfl | rfl <;> decide

theorem exists_pt0_of_last (t : Fin cfg0.N) (h3 : t.val % 4 = 3) : ∃ q : Fin 2, t = pt0 q 3 := by
  have hN : cfg0.N = 8 := N_0
  have := t.isLt
  exact ⟨⟨t.val / 4, by omega⟩, Fin.ext (by show t.val = 4 * (t.val / 4) + 3; omega)⟩

def G0s (c : Dev nD) : Vec Ideal S16x16 .f32 := fun i => Spec.segSum (V c main_arg0) (V c main_arg3) (i 0) (i 1)
def G0c (c : Dev nD) : Vec Ideal S16x16 .f32 := fun i => Spec.segCnt (V c main_arg3) (i 0) (i 1)

-- Element (b, k) of the output block of chunk q's last tile is element (8 q + b, k) of either result array.
theorem emb0_2 (q : Fin 2) (b : Fin 8) (k : Fin 16) :
    (((cfg0.win 2).blk (pt0 q 3)).view.emb (ix2 b k) 0 : Fin 16) = brow q b
      ∧ (((cfg0.win 2).blk (pt0 q 3)).view.emb (ix2 b k) 1 : Fin 16) = k := by
  obtain ⟨hi0, hi1⟩ := index0_2 (pt0 q 3)
  constructor <;> apply Fin.ext
  · show win0_2.index (pt0 q 3) 0 * 8 + 1 * b.val = 8 * q.val + b.val
    rw [hi0]; show (4 * q.val + 3) / 4 * 8 + 1 * b.val = _; omega
  · show win0_2.index (pt0 q 3) 1 * 16 + 1 * k.val = k.val; rw [hi1]; omega

-- So the output block of a chunk's last tile is that chunk's rows of the map of segment sums (counts).
theorem flushed0_2 (c : Dev nD) (t : Fin cfg0.N) (hf : (cfg0.win 2).flush t = true) :
    (dat0 V c).flushed 2 t = ((cfg0.win 2).blk t).view.read (Elt Ideal) (G0s V c) := by
  obtain ⟨q, e⟩ := exists_pt0_of_last t ((flush0_2 t).mp hf)
  funext y
  obtain ⟨b, k, rfl⟩ : ∃ (b : Fin 8) (k : Fin 16), y = ix2 b k := ⟨y 0, y 1, eq_ix2 y⟩
  rw [View.read_apply]
  show (dat0 V c).after 2 t (ix2 b k) = G0s V c _
  rw [after0_2]
  subst e
  exact (out0_last V c q b k).1.trans
    (congrArg₂ (Spec.segSum (V c main_arg0) (V c main_arg3)) (emb0_2 q b k).1 (emb0_2 q b k).2).symm
theorem flushed0_3 (c : Dev nD) (t : Fin cfg0.N) (hf : (cfg0.win 3).flush t = true) :
    (dat0 V c).flushed 3 t = ((cfg0.win 3).blk t).view.read (Elt Ideal) (G0c V c) := by
  obtain ⟨q, e⟩ := exists_pt0_of_last t ((flush0_3 t).mp hf)
  funext y
  obtain ⟨b, k, rfl⟩ : ∃ (b : Fin 8) (k : Fin 16), y = ix2 b k := ⟨y 0, y 1, eq_ix2 y⟩
  rw [View.read_apply]
  show (dat0 V c).after 3 t (ix2 b k) = G0c V c _
  rw [after0_3]
  subst e
  exact (out0_last V c q b k).2.trans
    (congrArg₂ (Spec.segCnt (V c main_arg3)) (emb0_2 q b k).1 (emb0_2 q b k).2).symm

-- And row i of a result array lies in the output block of chunk i / 8's last tile.
theorem cover0_2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : ℕ) < 16 := (i 0).isLt
  obtain ⟨q, hq⟩ : ∃ q : Fin 2, q.val = (i 0 : ℕ) / 8 := ⟨⟨(i 0 : ℕ) / 8, by omega⟩, rfl⟩
  obtain ⟨b, hb⟩ : ∃ b : Fin 8, b.val = (i 0 : ℕ) % 8 := ⟨⟨(i 0 : ℕ) % 8, by omega⟩, rfl⟩
  obtain ⟨e0, e1⟩ := emb0_2 q b (i 1)
  have e : ((cfg0.win 2).blk (pt0 q 3)).view.emb (ix2 b (i 1)) = i :=
    Shape.idx_ext₂ ((congrArg Fin.val e0).trans (by show 8 * q.val + b.val = (i 0 : ℕ); omega)) (congrArg Fin.val e1)
  exact ⟨pt0 q 3, (flush0_2 _).mpr (by show (4 * q.val + 3) % 4 = 3; omega), e ▸ View.emb_mem_set _ _⟩
theorem cover0_3 (c : Dev nD) (i : ((cfg0.win 3).arr.view.loc (c.tc : Thread nD τ)).2.ty.Idx) :
    ∃ t : Fin cfg0.N, (cfg0.win 3).flush t = true ∧ i ∈ ((cfg0.win 3).blk t).view.set := by
  obtain ⟨t, hf, hi⟩ := cover0_2 c i
  exact ⟨t, (flush0_3 t).mpr ((flush0_2 t).mp hf), hi⟩

theorem sum0 (c : Dev nD) (b k : Fin 16) :
    (dat0 (F := Ideal) V c).arrAt 2 cfg0.N (ix2 b k) = Cert.Spec.segSum (V c main_arg0) (V c main_arg3) b k :=
  congrFun ((dat0 V c).arrAt_eq_of_cover 2 (G0s V c) (flushed0_2 V c) (cover0_2 c)) (ix2 b k)

theorem cnt0 (c : Dev nD) (b k : Fin 16) :
    (dat0 (F := Ideal) V c).arrAt 3 cfg0.N (ix2 b k) = Cert.Spec.segCnt (V c main_arg3) b k :=
  congrFun ((dat0 V c).arrAt_eq_of_cover 3 (G0c V c) (flushed0_3 V c) (cover0_3 c)) (ix2 b k)

end Cert.KernelIdeal.Gen

end
-- ==== Proof.KI.V1Cases1.lean ====
import proofs.«413171_j1022202216836_1_alg».proof.Proof.KI.P1Outs1
import proofs.«413171_j1022202216836_1_alg».proof.Proof.KI.V1Col
import Idealize.ShloMosaic.Lib.Tactic

noncomputable section

namespace Cert.KernelIdeal.Gen

open Idealize.ShloMosaic Idealize.ShloMosaic.Tactic Idealize.ShloMosaic.ValueIdx

variable {F : FTy → Type} [FloatOps F] (c : Dev nD) (i : grid1.Coords) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg5 : Memref sig .tc .vmem S8x16 .f32) (harg5 : arg5.IsWhole) (arg6 : Memref sig .tc .vmem S8x16 .f32) (harg6 : arg6.IsWhole) (arg7 : Memref sig .tc .vmem S8x16 .f32) (harg7 : arg7.IsWhole)

section
variable (x0 : Vec Ideal S8x1x256x512 .f32) (x1 : Vec Ideal S8x1x256x512 .i32)

/-- First tile: each column store adds its class's term to the zero the clearing store left in that column. -/
theorem sout1_A_0_apply (hc0 : cond1_0 i) (hc1 : ¬cond1_1 i) (b : Fin 8) (k : Fin 16) :
    sout1_A_0 (F := Ideal) c i arg2 harg2 arg3 harg3 arg4 harg4 arg5 harg5 arg6 harg6 arg7 harg7 x0 x1 hc0 hc1 (ix2 b k) = 0 + V1.tileSum x0 x1 (Spec.lab k) b := by
  unfold sout1_A_0
  rw [View.read_writes_junk_eq_canon]
  unfold kernelRun1_A
  dsimp only
  sl_unfold_words
  simp only [View.readAt_eq_ld, harg2.read_unread, harg3.read_unread, View.ld_unit_zero (S := S8x1x256x512) V1.hz4]
  revert b k
  suffices h : ∀ b k, _ = V1.colsTo 16 (fun _ _ => (0 : EReal)) (fun k b => V1.tileSum x0 x1 (Spec.lab k) b) b k from fun b k => (h b k).trans (V1.colsTo_all _ _ b k)
  iterate 16
    refine V1.canon_col_cons _ ⟨_, by decide⟩ _ _ _ _ ?_
      fun b => (V1.sumUpd_block_apply x0 x1 _ _ _ _ b).trans (congrArg (· + _) (V1.readCov_col _ _ ⟨_, _⟩ _ b))
  exact fun b k => (congrFun (View.canon_unit_zero V1.hz2 _ _) _).trans ((V1.zeros_apply _ _).trans (V1.colsTo_zero (fun _ _ => 0) _ b k).symm)

theorem sout1_A_1_apply (hc0 : cond1_0 i) (hc1 : ¬cond1_1 i) (b : Fin 8) (k : Fin 16) :
    sout1_A_1 (F := Ideal) c i arg2 harg2 arg3 harg3 arg4 harg4 arg5 harg5 arg6 harg6 arg7 harg7 x0 x1 hc0 hc1 (ix2 b k) = 0 + V1.tileCnt x1 (Spec.lab k) b := by
  unfold sout1_A_1
  rw [View.read_writes_junk_eq_canon]
  unfold kernelRun1_A
  dsimp only
  sl_unfold_words
  simp only [View.readAt_eq_ld, harg3.read_unread, View.ld_unit_zero (S := S8x1x256x512) V1.hz4]
  revert b k
  suffices h : ∀ b k, _ = V1.colsTo 16 (fun _ _ => (0 : EReal)) (fun k b => V1.tileCnt x1 (Spec.lab k) b) b k from fun b k => (h b k).trans (V1.colsTo_all _ _ b k)
  iterate 16
    refine V1.canon_col_cons _ ⟨_, by decide⟩ _ _ _ _ ?_
      fun b => (V1.cntUpd_block_apply x1 _ _ _ _ natLt_1_32 b).trans (congrArg (· + _) (V1.readCov_col _ _ ⟨_, _⟩ _ b))
  exact fun b k => (congrFun (View.canon_unit_zero V1.hz2 _ _) _).trans ((V1.zeros_apply _ _).trans (V1.colsTo_zero (fun _ _ => 0) _ b k).symm)

variable (xs0 xs1 : Vec Ideal S8x16 .f32)

/-- Last tile: the accumulators are updated as on a middle tile. -/
theorem sout1_C_0_apply (hc0 : ¬cond1_0 i) (hc1 : cond1_1 i) (b : Fin 8) (k : Fin 16) :
    sout1_C_0 (F := Ideal) c i arg2 harg2 arg3 harg3 arg4 harg4 arg5 harg5 arg6 harg6 arg7 harg7 x0 x1 xs0 xs1 hc0 hc1 (ix2 b k) = xs0 (ix2 b k) + V1.tileSum x0 x1 (Spec.lab k) b := by
  unfold sout1_C_0
  rw [View.read_writes_junk_eq_canon]
  unfold kernelRun1_C
  dsimp only
  sl_unfold_words
  simp only [View.readAt_eq_ld, harg2.read_unread, harg3.read_unread, harg6.read_unread, View.ld_unit_zero (S := S8x1x256x512) V1.hz4]
  revert b k
  suffices h : ∀ b (k : Fin 16), k.val < 16 → _ from fun b k => h b k k.isLt
  iterate 16
    refine V1.canon_col_cons_lt _ ⟨_, by decide⟩ _ _ (fun b k => xs0 (ix2 b k)) (fun k b => V1.tileSum x0 x1 (Spec.lab k) b) ?_
      fun b => (V1.sumUpd_block_apply x0 x1 _ _ _ _ b).trans (congrArg (· + _) (V1.ld_col xs0 ⟨_, _⟩ _ b))
  exact fun _ _ h => absurd h (Nat.not_lt_zero _)

theorem sout1_C_1_apply (hc0 : ¬cond1_0 i) (hc1 : cond1_1 i) (b : Fin 8) (k : Fin 16) :
    sout1_C_1 (F := Ideal) c i arg2 harg2 arg3 harg3 arg4 harg4 arg5 harg5 arg6 harg6 arg7 harg7 x0 x1 xs0 xs1 hc0 hc1 (ix2 b k) = xs1 (ix2 b k) + V1.tileCnt x1 (Spec.lab k) b := by
  unfold sout1_C_1
  rw [View.read_writes_junk_eq_canon]
  unfold kernelRun1_C
  dsimp only
  sl_unfold_words
  simp only [View.readAt_eq_ld, harg3.read_unread, harg7.read_unread, View.ld_unit_zero (S := S8x1x256x512) V1.hz4]
  revert b k
  suffices h : ∀ b (k : Fin 16), k.val < 16 → _ from fun b k => h b k k.isLt
  iterate 16
    refine V1.canon_col_cons_lt _ ⟨_, by decide⟩ _ _ (fun b k => xs1 (ix2 b k)) (fun k b => V1.tileCnt x1 (Spec.lab k) b) ?_
      fun b => (V1.cntUpd_block_apply x1 _ _ _ _ natLt_1_32 b).trans (congrArg (· + _) (V1.ld_col xs1 ⟨_, _⟩ _ b))
  exact fun _ _ h => absurd h (Nat.not_lt_zero _)

end

variable (x0 : Vec F S8x1x256x512 .f32) (x1 : Vec F S8x1x256x512 .i32) (xs0 xs1 : Vec F S8x16 .f32)

/-- Last tile: each output receives a whole copy of its accumulator. -/
theorem out1_C_2_eq (hc0 : ¬cond1_0 i) (hc1 : cond1_1 i) :
    out1_C_2 (F := F) c i arg2 harg2 arg3 harg3 arg4 harg4 arg5 harg5 arg6 harg6 arg7 harg7 x0 x1 xs0 xs1 hc0 hc1 = sout1_C_0 (F := F) c i arg2 harg2 arg3 harg3 arg4 harg4 arg5 harg5 arg6 harg6 arg7 harg7 x0 x1 xs0 xs1 hc0 hc1 := by
  unfold out1_C_2 sout1_C_0
  rw [View.read_writes_junk_eq_canon, View.read_writes_junk_eq_canon]
  unfold kernelRun1_C
  dsimp only
  sl_unfold_words
  rw [View.canon_unit_zero V1.hz2]
  exact (View.readCov_eq_canon' _ _ _).trans (View.ld_unit_zero (S := S8x16) V1.hz2 _ _)

theorem out1_C_3_eq (hc0 : ¬cond1_0 i) (hc1 : cond1_1 i) :
    out1_C_3 (F := F) c i arg2 harg2 arg3 harg3 arg4 harg4 arg5 harg5 arg6 harg6 arg7 harg7 x0 x1 xs0 xs1 hc0 hc1 = sout1_C_1 (F := F) c i arg2 harg2 arg3 harg3 arg4 harg4 arg5 harg5 arg6 harg6 arg7 harg7 x0 x1 xs0 xs1 hc0 hc1 := by
  unfold out1_C_3 sout1_C_1
  rw [View.read_writes_junk_eq_canon, View.read_writes_junk_eq_canon]
  unfold kernelRun1_C
  dsimp only
  sl_unfold_words
  rw [View.canon_unit_zero V1.hz2]
  exact (View.readCov_eq_canon' _ _ _).trans (View.ld_unit_zero (S := S8x16) V1.hz2 _ _)

end Cert.KernelIdeal.Gen

end
-- ==== Proof.KI.V1Blk1.lean ====
import proofs.«413171_j1022202216836_1_alg».proof.Proof.KI.P1Outs1
import proofs.«413171_j1022202216836_1_alg».proof.Proof.KI.V1Gen
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev xblk1 (c : Dev nD) (t : Fin cfg1.N) : Vec Ideal S8x1x256x512 .f32 := iblk1 V c 0 t
abbrev gblk1 (c : Dev nD) (t : Fin cfg1.N) : Vec Ideal S8x1x256x512 .i32 := iblk1 V c 1 t
abbrev farr1 (c : Dev nD) : Vec Ideal S16x1x512x512 .f32 := V c main_arg1
abbrev garr1 (c : Dev nD) : Vec Ideal S16x1x512x512 .i32 := V c main_arg4

-- Grid point 2 q + i is row tile i of batch chunk q; the chunk holds batch rows 8 q + b.
def pt1 (q : Fin 2) (i : Fin 2) : Fin cfg1.N := ⟨2 * q.val + i.val, by rw [show cfg1.N = 4 from N_1]; omega⟩
def brow1 (q : Fin 2) (b : Fin 8) : Fin 16 := ⟨8 * q.val + b.val, by omega⟩

theorem index1_0 (t : Fin cfg1.N) :
    win1_0.index t 0 = t.val / 2 ∧ win1_0.index t 1 = 0 ∧ win1_0.index t 2 = t.val % 2 ∧ win1_0.index t 3 = 0 := by
  rcases fin_N1 t with rfl | rfl | rfl | rfl <;> decide

-- Element (b, 0, r, w) of either input block of tile i of chunk q is element (8 q + b, 0, 256 i + r, w) of its map.
theorem emb1_0 (q : Fin 2) (i : Fin 2) (b : Fin 8) (r : Fin 256) (w : Fin 512) :
    ((cfg1.win 0).blk (pt1 q i)).view.emb (ix4 b 0 r w) = ix4 (brow1 q b) 0 (LibTileSum.row i r) w := by
  obtain ⟨i0, i1, i2, i3⟩ := index1_0 (pt1 q i)
  rw [show (pt1 q i).val = 2 * q.val + i.val from rfl] at i0 i2
  funext a
  apply Fin.ext
  match a with
  | ⟨0, _⟩ => show win1_0.index (pt1 q i) 0 * 8 + 1 * b.val = 8 * q.val + b.val; rw [i0]; omega
  | ⟨1, _⟩ => show win1_0.index (pt1 q i) 1 * 1 + 1 * 0 = 0; rw [i1]
  | ⟨2, _⟩ => show win1_0.index (pt1 q i) 2 * 256 + 1 * r.val = i.val * 256 + r.val; rw [i2]; omega
  | ⟨3, _⟩ => show win1_0.index (pt1 q i) 3 * 512 + 1 * w.val = w.val; rw [i3]; omega

theorem xblk1_apply (c : Dev nD) (q : Fin 2) (i : Fin 2) (b : Fin 8) (r : Fin 256) (w : Fin 512) :
    xblk1 V c (pt1 q i) (ix4 b 0 r w) = farr1 V c (ix4 (brow1 q b) 0 (LibTileSum.row i r) w) := by
  show iblk1 V c 0 (pt1 q i) (ix4 b 0 r w) = V c main_arg1 (ix4 (brow1 q b) 0 (LibTileSum.row i r) w)
  unfold iblk1
  rw [View.read_apply]
  show V c main_arg1 _ = V c main_arg1 _
  congr 1
  exact emb1_0 q i b r w

theorem gblk1_apply (c : Dev nD) (q : Fin 2) (i : Fin 2) (b : Fin 8) (r : Fin 256) (w : Fin 512) :
    gblk1 V c (pt1 q i) (ix4 b 0 r w) = garr1 V c (ix4 (brow1 q b) 0 (LibTileSum.row i r) w) := by
  show iblk1 V c 1 (pt1 q i) (ix4 b 0 r w) = V c main_arg4 (ix4 (brow1 q b) 0 (LibTileSum.row i r) w)
  unfold iblk1
  rw [View.read_apply]
  show V c main_arg4 _ = V c main_arg4 _
  congr 1
  exact emb1_0 q i b r w

-- The row tiles of a batch chunk partition the map's rows, so their masked sums and counts add up to the whole map's.
theorem tiles1_sum (c : Dev nD) (q : Fin 2) (b : Fin 8) (k : Fin 16) :
    ∑ i : Fin 2, V1.tileSum (xblk1 V c (pt1 q i)) (gblk1 V c (pt1 q i)) (Spec.lab k) b
      = Spec.segSum (V c main_arg1) (V c main_arg4) (brow1 q b) k :=
  V1.sum_tileSum_eq_segSum (n := 2) (W := 512) (farr1 V c) (garr1 V c) (brow1 q b) k b
    (fun i => xblk1 V c (pt1 q i)) (fun i => gblk1 V c (pt1 q i))
    (fun i => xblk1_apply V c q i b) (fun i => gblk1_apply V c q i b)

theorem tiles1_cnt (c : Dev nD) (q : Fin 2) (b : Fin 8) (k : Fin 16) :
    ∑ i : Fin 2, V1.tileCnt (gblk1 V c (pt1 q i)) (Spec.lab k) b = Spec.segCnt (V c main_arg4) (brow1 q b) k :=
  V1.sum_tileCnt_eq_segCnt (n := 2) (W := 512) (garr1 V c) (brow1 q b) k b (fun i => gblk1 V c (pt1 q i))
    (fun i => gblk1_apply V c q i b)

end Cert.KernelIdeal.Gen

end
-- ==== Proof.KI.V1Val1.lean ====
import proofs.«413171_j1022202216836_1_alg».proof.Proof.KI.V1Cases1
import proofs.«413171_j1022202216836_1_alg».proof.Proof.KI.V1Blk1

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Val1

def prev (t : Fin cfg1.N) : Fin cfg1.N := ⟨t.val - 1, Nat.lt_of_le_of_lt (Nat.sub_le _ _) t.isLt⟩

-- A chunk's first tile clears the two accumulators and leaves its own masked sums and counts in them.
theorem acc_first (c : Dev nD) (t : Fin cfg1.N) (h0 : t.val % 2 = 0) (b : Fin 8) (k : Fin 16) :
    (outsAt1 V c t.val t.isLt).2.2.1 (ix2 b k) = 0 + V1.tileSum (xblk1 V c t) (gblk1 V c t) (Spec.lab k) b
      ∧ (outsAt1 V c t.val t.isLt).2.2.2 (ix2 b k) = 0 + V1.tileCnt (gblk1 V c t) (Spec.lab k) b := by
  have hc1 : ¬cond1_1 (grid1.coords t) := fun h => by have := (hcond1_1 t).mp h; omega
  rw [outsAt1_A V c t h0 ((hcond1_0 t).mpr h0) hc1]
  unfold stepA1
  dsimp only
  exact ⟨sout1_A_0_apply .., sout1_A_1_apply ..⟩

-- Its second and last tile adds its own and copies the totals to the outputs' blocks.
theorem out_step (c : Dev nD) (t : Fin cfg1.N) (h0 : ¬t.val % 2 = 0) (b : Fin 8) (k : Fin 16) :
    (outsAt1 V c t.val t.isLt).1 (ix2 b k) = (outsAt1 V c (prev t).val (prev t).isLt).2.2.1 (ix2 b k)
        + V1.tileSum (xblk1 V c t) (gblk1 V c t) (Spec.lab k) b
      ∧ (outsAt1 V c t.val t.isLt).2.1 (ix2 b k) = (outsAt1 V c (prev t).val (prev t).isLt).2.2.2 (ix2 b k)
        + V1.tileCnt (gblk1 V c t) (Spec.lab k) b := by
  rw [outsAt1_C V c t h0 (fun h => h0 ((hcond1_0 t).mp h)) ((hcond1_1 t).mpr (by omega))]
  unfold stepC1
  dsimp only
  rw [out1_C_2_eq, out1_C_3_eq]
  exact ⟨sout1_C_0_apply .., sout1_C_1_apply ..⟩

-- So the output blocks of chunk q's last tile hold its batch rows' segment sums and counts.
theorem out_last (c : Dev nD) (q : Fin 2) (b : Fin 8) (k : Fin 16) :
    (outsAt1 V c (pt1 q 1).val (pt1 q 1).isLt).1 (ix2 b k) = Spec.segSum (V c main_arg1) (V c main_arg4) (brow1 q b) k
      ∧ (outsAt1 V c (pt1 q 1).val (pt1 q 1).isLt).2.1 (ix2 b k) = Spec.segCnt (V c main_arg4) (brow1 q b) k := by
  have e1 := out_step V c (pt1 q 1) (by show ¬(2 * q.val + 1) % 2 = 0; omega) b k
  have e0 := acc_first V c (pt1 q 0) (by show (2 * q.val + 0) % 2 = 0; omega) b k
  rw [show prev (pt1 q 1) = pt1 q 0 from Fin.ext (by show 2 * q.val + 1 - 1 = 2 * q.val + 0; omega)] at e1
  constructor
  · rw [e1.1, e0.1, ← tiles1_sum V c q b k, Fin.sum_univ_two, zero_add]
  · rw [e1.2, e0.2, ← tiles1_cnt V c q b k, Fin.sum_univ_two, zero_add]

theorem index_2 (t : Fin cfg1.N) : win1_2.index t 0 = t.val / 2 ∧ win1_2.index t 1 = 0 := by
  rcases fin_N1 t with rfl | rfl | rfl | rfl <;> decide

theorem exists_pt1_of_last (t : Fin cfg1.N) (h : t.val % 2 = 1) : ∃ q : Fin 2, t = pt1 q 1 := by
  have hN : cfg1.N = 4 := N_1
  have := t.isLt
  exact ⟨⟨t.val / 2, by omega⟩, Fin.ext (by show t.val = 2 * (t.val / 2) + 1; omega)⟩

def GS (c : Dev nD) : Buf (Elt Ideal) ((c : Thread nD τ).loc main_v1_0) :=
  fun i => Spec.segSum (V c main_arg1) (V c main_arg4) (i 0) (i 1)
def GC (c : Dev nD) : Buf (Elt Ideal) ((c : Thread nD τ).loc main_v1_1) :=
  fun i => Spec.segCnt (V c main_arg4) (i 0) (i 1)

-- Element (b, k) of the output block of chunk q's last tile is element (8 q + b, k) of either result array.
theorem emb_2 (q : Fin 2) (b : Fin 8) (k : Fin 16) :
    (((cfg1.win 2).blk (pt1 q 1)).view.emb (ix2 b k) 0 : Fin 16) = brow1 q b
      ∧ (((cfg1.win 2).blk (pt1 q 1)).view.emb (ix2 b k) 1 : Fin 16) = k := by
  obtain ⟨hi0, hi1⟩ := index_2 (pt1 q 1)
  constructor <;> apply Fin.ext
  · show win1_2.index (pt1 q 1) 0 * 8 + 1 * b.val = 8 * q.val + b.val
    rw [hi0]; show (2 * q.val + 1) / 2 * 8 + 1 * b.val = _; omega
  · show win1_2.index (pt1 q 1) 1 * 16 + 1 * k.val = k.val; rw [hi1]; omega

-- So the output block of a chunk's last tile is that chunk's rows of the map of segment sums (counts).
theorem flushed_2 (c : Dev nD) (t : Fin cfg1.N) (hf : (cfg1.win 2).flush t = true) :
    (dat1 V c).flushed 2 t = ((cfg1.win 2).blk t).view.read (Elt Ideal) (GS V c) := by
  obtain ⟨q, e⟩ := exists_pt1_of_last t ((flush1_2 t).mp hf)
  funext y
  obtain ⟨b, k, rfl⟩ : ∃ (b : Fin 8) (k : Fin 16), y = ix2 b k := ⟨y 0, y 1, eq_ix2 y⟩
  rw [View.read_apply]
  show (dat1 V c).after 2 t (ix2 b k) = GS V c _
  rw [after1_2]
  subst e
  exact (out_last V c q b k).1.trans
    (congrArg₂ (Spec.segSum (V c main_arg1) (V c main_arg4)) (emb_2 q b k).1 (emb_2 q b k).2).symm
theorem flushed_3 (c : Dev nD) (t : Fin cfg1.N) (hf : (cfg1.win 3).flush t = true) :
    (dat1 V c).flushed 3 t = ((cfg1.win 3).blk t).view.read (Elt Ideal) (GC V c) := by
  obtain ⟨q, e⟩ := exists_pt1_of_last t ((flush1_3 t).mp hf)
  funext y
  obtain ⟨b, k, rfl⟩ : ∃ (b : Fin 8) (k : Fin 16), y = ix2 b k := ⟨y 0, y 1, eq_ix2 y⟩
  rw [View.read_apply]
  show (dat1 V c).after 3 t (ix2 b k) = GC V c _
  rw [after1_3]
  subst e
  exact (out_last V c q b k).2.trans
    (congrArg₂ (Spec.segCnt (V c main_arg4)) (emb_2 q b k).1 (emb_2 q b k).2).symm

-- And row i of a result array lies in the output block of chunk i / 8's last tile.
theorem cover_2 (c : Dev nD) (i : ((cfg1.win 2).arr.view.loc (c.tc : Thread nD τ)).2.ty.Idx) :
    ∃ t : Fin cfg1.N, (cfg1.win 2).flush t = true ∧ i ∈ ((cfg1.win 2).blk t).view.set := by
  have h0 : (i 0 : ℕ) < 16 := (i 0).isLt
  obtain ⟨q, hq⟩ : ∃ q : Fin 2, q.val = (i 0 : ℕ) / 8 := ⟨⟨(i 0 : ℕ) / 8, by omega⟩, rfl⟩
  obtain ⟨b, hb⟩ : ∃ b : Fin 8, b.val = (i 0 : ℕ) % 8 := ⟨⟨(i 0 : ℕ) % 8, by omega⟩, rfl⟩
  obtain ⟨e0, e1⟩ := emb_2 q b (i 1)
  have e : ((cfg1.win 2).blk (pt1 q 1)).view.emb (ix2 b (i 1)) = i :=
    Shape.idx_ext₂ ((congrArg Fin.val e0).trans (by show 8 * q.val + b.val = (i 0 : ℕ); omega)) (congrArg Fin.val e1)
  exact ⟨pt1 q 1, (flush1_2 _).mpr (by show (2 * q.val + 1) % 2 = 1; omega), e ▸ View.emb_mem_set _ _⟩
theorem cover_3 (c : Dev nD) (i : ((cfg1.win 3).arr.view.loc (c.tc : Thread nD τ)).2.ty.Idx) :
    ∃ t : Fin cfg1.N, (cfg1.win 3).flush t = true ∧ i ∈ ((cfg1.win 3).blk t).view.set := by
  obtain ⟨t, hf, hi⟩ := cover_2 c i
  exact ⟨t, (flush1_3 t).mpr ((flush1_2 t).mp hf), hi⟩

end Val1

theorem sum1 (c : Dev nD) (b k : Fin 16) :
    (dat1 (F := Ideal) V c).arrAt 2 cfg1.N (ix2 b k) = Cert.Spec.segSum (V c main_arg1) (V c main_arg4) b k :=
  congrFun ((dat1 V c).arrAt_eq_of_cover 2 (Val1.GS V c) (Val1.flushed_2 V c) (Val1.cover_2 c)) (ix2 b k)

theorem cnt1 (c : Dev nD) (b k : Fin 16) :
    (dat1 (F := Ideal) V c).arrAt 3 cfg1.N (ix2 b k) = Cert.Spec.segCnt (V c main_arg4) b k :=
  congrFun ((dat1 V c).arrAt_eq_of_cover 3 (Val1.GC V c) (Val1.flushed_3 V c) (Val1.cover_3 c)) (ix2 b k)

end Cert.KernelIdeal.Gen

end
-- ==== Proof.KI.V1Val2.lean ====
import proofs.«413171_j1022202216836_1_alg».proof.Proof.KI.P1Outs2
import proofs.«413171_j1022202216836_1_alg».proof.Proof.KI.V1Col

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

namespace P1V

open V1

section
variable {sg : RefSig} {κ : Kind} {sp : Space} {W n : ℕ} {v : View sg κ sp A2 .f32} {g : IVec (B4 W) 32}
  {c0 : (B4 W).ShapeCasts (B3 W)} {h2 : (B3 W).Reduces [2] R2} {Z : Fin 8 → Fin 16 → EReal}
  {inb : ∀ a, (![0, n] : Fin 2 → ℕ) a + C2.size a ≤ A2.size a} {L : List (View.Piece (Elt Ideal) A2 .f32)}

/-- Storing class `n`'s SUM update of column `n`, loaded over the writes `L`, on top of `L` fills one more column. -/
theorem sum_col {x : FVec Ideal (B4 W) .f32}
    (hL : ∀ b k, View.canon L (ix2 b k) = colsTo n Z (fun k b => tileSum x g (Spec.lab k) b) b k) (hn : n < 16 := by decide) :
    ∀ b k, View.canon ((⟨Rect.unit (s := A2) ![0, n] C2.size inb, sumUpd (shapeCast (B3 W) x c0) (shapeCast (B3 W) g c0)
        (Spec.lab ⟨n, hn⟩) (v.readCov L (Rect.unit (s := A2) ![0, n] C2.size inb).toLoadRect) h2⟩ : View.Piece (Elt Ideal) A2 .f32) :: L) (ix2 b k)
      = colsTo (n + 1) Z (fun k b => tileSum x g (Spec.lab k) b) b k :=
  canon_col_cons L ⟨n, hn⟩ inb _ Z _ hL fun b =>
    (sumUpd_block_apply x g _ _ c0 h2 b).trans (congrArg (· + _) (readCov_col v L ⟨n, hn⟩ inb b))

/-- Likewise for the COUNT update. -/
theorem cnt_col
    (hL : ∀ b k, View.canon L (ix2 b k) = colsTo n Z (fun k b => tileCnt g (Spec.lab k) b) b k) (hn : n < 16 := by decide) :
    ∀ b k, View.canon ((⟨Rect.unit (s := A2) ![0, n] C2.size inb, cntUpd (F := Ideal) (shapeCast (B3 W) g c0)
        (Spec.lab ⟨n, hn⟩) (v.readCov L (Rect.unit (s := A2) ![0, n] C2.size inb).toLoadRect) h2 (by decide)⟩ : View.Piece (Elt Ideal) A2 .f32) :: L) (ix2 b k)
      = colsTo (n + 1) Z (fun k b => tileCnt g (Spec.lab k) b) b k :=
  canon_col_cons L ⟨n, hn⟩ inb _ Z _ hL fun b =>
    (cntUpd_block_apply g _ _ c0 h2 _ b).trans (congrArg (· + _) (readCov_col v L ⟨n, hn⟩ inb b))
end

/-- Under the zero store alone no column is filled. -/
theorem zero_cols (T : Fin 16 → Fin 8 → EReal) (inb : ∀ a, (![0, 0] : Fin 2 → ℕ) a + A2.size a ≤ A2.size a) (h : A2.ShapeCasts A2)
    (b : Fin 8) (k : Fin 16) :
    View.canon [(⟨Rect.unit (s := A2) ![0, 0] A2.size inb, shapeCast A2 (broadcast A2 (Scalar.ofBits (F := Ideal) .f32 0x00000000#32)) h⟩ :
        View.Piece (Elt Ideal) A2 .f32)] (ix2 b k) = colsTo 0 (fun _ _ => 0) T b k :=
  (congrFun (View.canon_unit_zero hz2 inb _) _).trans ((zeros_apply h _).trans (colsTo_zero (fun _ _ => 0) T b k).symm)

end P1V

namespace Val2

section Chain
variable {e : EltTy} {c : Dev nD} {arg2 : Memref sig .tc .vmem S8x1x256x256 .f32} {harg2 : arg2.IsWhole}
  {arg3 : Memref sig .tc .vmem S8x1x256x256 .i32} {harg3 : arg3.IsWhole} {arg6 arg7 : Memref sig .tc .vmem S8x16 .f32}
  {x0 : Vec Ideal S8x1x256x256 .f32} {x1 : Vec Ideal S8x1x256x256 .i32}

/-- The whole-block load the body makes of an input; it returns the block. -/
def ld (m : Memref sig .tc .vmem S8x1x256x256 e) (h : m.IsWhole) (x : Vec Ideal S8x1x256x256 e) : Vec Ideal S8x1x256x256 e :=
  View.readAt (Elt Ideal) m.view (Rect.unit (s := S8x1x256x256) ![0, 0, 0, 0] S8x1x256x256.size
    inb_S8x1x256x256_S8x1x256x256_0_0_0_0).toLoadRect (h.unread x)

theorem ld_eq (m : Memref sig .tc .vmem S8x1x256x256 e) (h : m.IsWhole) (x : Vec Ideal S8x1x256x256 e) : ld m h x = x := by
  unfold ld; rw [View.readAt_eq_ld, h.read_unread, View.ld_unit_zero (S := S8x1x256x256) V1.hz4]

variable (arg2 harg2 arg3 harg3 x0 x1) in
/-- `L` holds every class's tile sum (count) on the columns below `n`, zero from `n` on. -/
def SumTo (n : ℕ) (L : List (View.Piece (Elt Ideal) S8x16 .f32)) : Prop :=
  ∀ b k, View.canon L (ix2 b k) = V1.colsTo n (fun _ _ => 0) (fun k b => V1.tileSum (ld arg2 harg2 x0) (ld arg3 harg3 x1) (Spec.lab k) b) b k
variable (arg3 harg3 x1) in
def CntTo (n : ℕ) (L : List (View.Piece (Elt Ideal) S8x16 .f32)) : Prop :=
  ∀ b k, View.canon L (ix2 b k) = V1.colsTo n (fun _ _ => 0) (fun k b => V1.tileCnt (ld arg3 harg3 x1) (Spec.lab k) b) b k

theorem sum_0 : SumTo arg2 harg2 arg3 harg3 x0 x1 0 (kernelRun2_D.sl.HS0_1 (F := Ideal)) := P1V.zero_cols _ _ _
theorem sum_1 : SumTo arg2 harg2 arg3 harg3 x0 x1 1 (kernelRun2_D.sl.HS0_2 c arg2 harg2 arg3 harg3 arg6 x0 x1) := P1V.sum_col sum_0
theorem sum_2 : SumTo arg2 harg2 arg3 harg3 x0 x1 2 (kernelRun2_D.sl.HS0_3 c arg2 harg2 arg3 harg3 arg6 x0 x1) := P1V.sum_col sum_1
theorem sum_3 : SumTo arg2 harg2 arg3 harg3 x0 x1 3 (kernelRun2_D.sl.HS0_4 c arg2 harg2 arg3 harg3 arg6 x0 x1) := P1V.sum_col sum_2
theorem sum_4 : SumTo arg2 harg2 arg3 harg3 x0 x1 4 (kernelRun2_D.sl.HS0_5 c arg2 harg2 arg3 harg3 arg6 x0 x1) := P1V.sum_col sum_3
theorem sum_5 : SumTo arg2 harg2 arg3 harg3 x0 x1 5 (kernelRun2_D.sl.HS0_6 c arg2 harg2 arg3 harg3 arg6 x0 x1) := P1V.sum_col sum_4
theorem sum_6 : SumTo arg2 harg2 arg3 harg3 x0 x1 6 (kernelRun2_D.sl.HS0_7 c arg2 harg2 arg3 harg3 arg6 x0 x1) := P1V.sum_col sum_5
theorem sum_7 : SumTo arg2 harg2 arg3 harg3 x0 x1 7 (kernelRun2_D.sl.HS0_8 c arg2 harg2 arg3 harg3 arg6 x0 x1) := P1V.sum_col sum_6
theorem sum_8 : SumTo arg2 harg2 arg3 harg3 x0 x1 8 (kernelRun2_D.sl.HS0_9 c arg2 harg2 arg3 harg3 arg6 x0 x1) := P1V.sum_col sum_7
theorem sum_9 : SumTo arg2 harg2 arg3 harg3 x0 x1 9 (kernelRun2_D.sl.HS0_10 c arg2 harg2 arg3 harg3 arg6 x0 x1) := P1V.sum_col sum_8
theorem sum_10 : SumTo arg2 harg2 arg3 harg3 x0 x1 10 (kernelRun2_D.sl.HS0_11 c arg2 harg2 arg3 harg3 arg6 x0 x1) := P1V.sum_col sum_9
theorem sum_11 : SumTo arg2 harg2 arg3 harg3 x0 x1 11 (kernelRun2_D.sl.HS0_12 c arg2 harg2 arg3 harg3 arg6 x0 x1) := P1V.sum_col sum_10
theorem sum_12 : SumTo arg2 harg2 arg3 harg3 x0 x1 12 (kernelRun2_D.sl.HS0_13 c arg2 harg2 arg3 harg3 arg6 x0 x1) := P1V.sum_col sum_11
theorem sum_13 : SumTo arg2 harg2 arg3 harg3 x0 x1 13 (kernelRun2_D.sl.HS0_14 c arg2 harg2 arg3 harg3 arg6 x0 x1) := P1V.sum_col sum_12
theorem sum_14 : SumTo arg2 harg2 arg3 harg3 x0 x1 14 (kernelRun2_D.sl.HS0_15 c arg2 harg2 arg3 harg3 arg6 x0 x1) := P1V.sum_col sum_13
theorem sum_15 : SumTo arg2 harg2 arg3 harg3 x0 x1 15 (kernelRun2_D.sl.HS0_16 c arg2 harg2 arg3 harg3 arg6 x0 x1) := P1V.sum_col sum_14
theorem sum_16 : SumTo arg2 harg2 arg3 harg3 x0 x1 16 (kernelRun2_D.sl.HS0_17 c arg2 harg2 arg3 harg3 arg6 x0 x1) := P1V.sum_col sum_15

theorem cnt_0 : CntTo arg3 harg3 x1 0 (kernelRun2_D.sl.HS1_1 (F := Ideal)) := P1V.zero_cols _ _ _
theorem cnt_1 : CntTo arg3 harg3 x1 1 (kernelRun2_D.sl.HS1_2 c arg3 harg3 arg7 x1) := P1V.cnt_col cnt_0
theorem cnt_2 : CntTo arg3 harg3 x1 2 (kernelRun2_D.sl.HS1_3 c arg3 harg3 arg7 x1) := P1V.cnt_col cnt_1
theorem cnt_3 : CntTo arg3 harg3 x1 3 (kernelRun2_D.sl.HS1_4 c arg3 harg3 arg7 x1) := P1V.cnt_col cnt_2
theorem cnt_4 : CntTo arg3 harg3 x1 4 (kernelRun2_D.sl.HS1_5 c arg3 harg3 arg7 x1) := P1V.cnt_col cnt_3
theorem cnt_5 : CntTo arg3 harg3 x1 5 (kernelRun2_D.sl.HS1_6 c arg3 harg3 arg7 x1) := P1V.cnt_col cnt_4
theorem cnt_6 : CntTo arg3 harg3 x1 6 (kernelRun2_D.sl.HS1_7 c arg3 harg3 arg7 x1) := P1V.cnt_col cnt_5
theorem cnt_7 : CntTo arg3 harg3 x1 7 (kernelRun2_D.sl.HS1_8 c arg3 harg3 arg7 x1) := P1V.cnt_col cnt_6
theorem cnt_8 : CntTo arg3 harg3 x1 8 (kernelRun2_D.sl.HS1_9 c arg3 harg3 arg7 x1) := P1V.cnt_col cnt_7
theorem cnt_9 : CntTo arg3 harg3 x1 9 (kernelRun2_D.sl.HS1_10 c arg3 harg3 arg7 x1) := P1V.cnt_col cnt_8
theorem cnt_10 : CntTo arg3 harg3 x1 10 (kernelRun2_D.sl.HS1_11 c arg3 harg3 arg7 x1) := P1V.cnt_col cnt_9
theorem cnt_11 : CntTo arg3 harg3 x1 11 (kernelRun2_D.sl.HS1_12 c arg3 harg3 arg7 x1) := P1V.cnt_col cnt_10
theorem cnt_12 : CntTo arg3 harg3 x1 12 (kernelRun2_D.sl.HS1_13 c arg3 harg3 arg7 x1) := P1V.cnt_col cnt_11
theorem cnt_13 : CntTo arg3 harg3 x1 13 (kernelRun2_D.sl.HS1_14 c arg3 harg3 arg7 x1) := P1V.cnt_col cnt_12
theorem cnt_14 : CntTo arg3 harg3 x1 14 (kernelRun2_D.sl.HS1_15 c arg3 harg3 arg7 x1) := P1V.cnt_col cnt_13
theorem cnt_15 : CntTo arg3 harg3 x1 15 (kernelRun2_D.sl.HS1_16 c arg3 harg3 arg7 x1) := P1V.cnt_col cnt_14
theorem cnt_16 : CntTo arg3 harg3 x1 16 (kernelRun2_D.sl.HS1_17 c arg3 harg3 arg7 x1) := P1V.cnt_col cnt_15

end Chain

section Arrays
variable (V : (c : Dev nD) → (b : Ref sig .tc) → Buf (Elt Ideal) ((c : Thread nD τ).loc b))

/-- The blocks flushed at point `t` hold the tile sums, respectively counts, of the point's input blocks. -/
theorem flushed_2_apply (c : Dev nD) (t : Fin cfg2.N) (b : Fin 8) (k : Fin 16) :
    (dat2 V c).flushed 2 t (ix2 b k) = V1.tileSum (iblk2 V c 0 t) (iblk2 V c 1 t) (Spec.lab k) b := by
  show (dat2 V c).after 2 t (ix2 b k) = _
  rw [after2_2]
  unfold outsAt2 stepD2 out2_D_2 kernelRun2_D
  dsimp only
  rw [View.read_writes_junk_eq_canon, View.canon_unit_zero V1.hz2]
  unfold kernelRun2_D.sl.v426
  rw [V1.readCov_whole, sum_16 b k, V1.colsTo_all, zero_add, ld_eq, ld_eq]
theorem flushed_3_apply (c : Dev nD) (t : Fin cfg2.N) (b : Fin 8) (k : Fin 16) :
    (dat2 V c).flushed 3 t (ix2 b k) = V1.tileCnt (iblk2 V c 1 t) (Spec.lab k) b := by
  show (dat2 V c).after 3 t (ix2 b k) = _
  rw [after2_3]
  unfold outsAt2 stepD2 out2_D_3 kernelRun2_D
  dsimp only
  rw [View.read_writes_junk_eq_canon, View.canon_unit_zero V1.hz2]
  unfold kernelRun2_D.sl.v428
  rw [V1.readCov_whole, cnt_16 b k, V1.colsTo_all, zero_add, ld_eq]

/-- What the two result arrays are to hold: the argument maps' segment sums and counts. -/
def GS (c : Dev nD) : Buf (Elt Ideal) ((c : Thread nD τ).loc main_v2_0) :=
  fun i => Spec.segSum (V c main_arg2) (V c main_arg5) (i 0) (i 1)
def GC (c : Dev nD) : Buf (Elt Ideal) ((c : Thread nD τ).loc main_v2_1) :=
  fun i => Spec.segCnt (V c main_arg5) (i 0) (i 1)

theorem index_in0 (t : Fin cfg2.N) : win2_0.index t 0 = t.val ∧ win2_0.index t 1 = 0 ∧ win2_0.index t 2 = 0 ∧ win2_0.index t 3 = 0 := by
  rcases fin_N2 t with rfl | rfl <;> decide
theorem index_in1 (t : Fin cfg2.N) : win2_1.index t 0 = t.val ∧ win2_1.index t 1 = 0 ∧ win2_1.index t 2 = 0 ∧ win2_1.index t 3 = 0 := by
  rcases fin_N2 t with rfl | rfl <;> decide
theorem index_out2 (t : Fin cfg2.N) : win2_2.index t 0 = t.val ∧ win2_2.index t 1 = 0 := by
  rcases fin_N2 t with rfl | rfl <;> decide
theorem index_out3 (t : Fin cfg2.N) : win2_3.index t 0 = t.val ∧ win2_3.index t 1 = 0 := by
  rcases fin_N2 t with rfl | rfl <;> decide

/-- Point `t`'s input blocks are rows 8 t … 8 t + 7 of the argument maps. -/
theorem iblk_0_apply (c : Dev nD) (t : Fin cfg2.N) (b : Fin 8) (B : Fin 16) (hB : B.val = 8 * t.val + b.val) (i : Fin 1) (r : Fin 256) (w : Fin 256) :
    iblk2 V c 0 t (ix4 b 0 r w) = V c main_arg2 (ix4 B 0 (LibTileSum.row i r) w) := by
  have hi := index_in0 t
  unfold iblk2
  rw [View.read_apply]
  refine congrArg (V c main_arg2) (funext fun a => Fin.ext ?_)
  match a with
  | ⟨0, _⟩ => show win2_0.index t 0 * 8 + 1 * b.val = B.val; rw [hi.1]; omega
  | ⟨1, _⟩ => show win2_0.index t 1 * 1 + 1 * 0 = 0; rw [hi.2.1]
  | ⟨2, _⟩ => show win2_0.index t 2 * 256 + 1 * r.val = (LibTileSum.row i r).val; rw [hi.2.2.1, LibTileSum.row_val]; have := i.isLt; omega
  | ⟨3, _⟩ => show win2_0.index t 3 * 256 + 1 * w.val = w.val; rw [hi.2.2.2]; omega
theorem iblk_1_apply (c : Dev nD) (t : Fin cfg2.N) (b : Fin 8) (B : Fin 16) (hB : B.val = 8 * t.val + b.val) (i : Fin 1) (r : Fin 256) (w : Fin 256) :
    iblk2 V c 1 t (ix4 b 0 r w) = V c main_arg5 (ix4 B 0 (LibTileSum.row i r) w) := by
  have hi := index_in1 t
  unfold iblk2
  rw [View.read_apply]
  refine congrArg (V c main_arg5) (funext fun a => Fin.ext ?_)
  match a with
  | ⟨0, _⟩ => show win2_1.index t 0 * 8 + 1 * b.val = B.val; rw [hi.1]; omega
  | ⟨1, _⟩ => show win2_1.index t 1 * 1 + 1 * 0 = 0; rw [hi.2.1]
  | ⟨2, _⟩ => show win2_1.index t 2 * 256 + 1 * r.val = (LibTileSum.row i r).val; rw [hi.2.2.1, LibTileSum.row_val]; have := i.isLt; omega
  | ⟨3, _⟩ => show win2_1.index t 3 * 256 + 1 * w.val = w.val; rw [hi.2.2.2]; omega

/-- A tile spans the map's full height, so its sums and counts are already the segment's. -/
theorem tile_eq_seg (c : Dev nD) (t : Fin cfg2.N) (b : Fin 8) (B K : Fin 16) (hB : B.val = 8 * t.val + b.val) :
    V1.tileSum (iblk2 V c 0 t) (iblk2 V c 1 t) (Spec.lab K) b = Spec.segSum (V c main_arg2) (V c main_arg5) B K := by
  have h := V1.sum_tileSum_eq_segSum (n := 1) (W := 256) (V c main_arg2) (V c main_arg5) B K b (fun _ => iblk2 V c 0 t) (fun _ => iblk2 V c 1 t)
    (fun i r w => iblk_0_apply V c t b B hB i r w) (fun i r w => iblk_1_apply V c t b B hB i r w)
  rw [Fin.sum_univ_one] at h
  exact h
theorem tile_eq_segCnt (c : Dev nD) (t : Fin cfg2.N) (b : Fin 8) (B K : Fin 16) (hB : B.val = 8 * t.val + b.val) :
    V1.tileCnt (iblk2 V c 1 t) (Spec.lab K) b = Spec.segCnt (V c main_arg5) B K := by
  have h := V1.sum_tileCnt_eq_segCnt (n := 1) (W := 256) (V c main_arg5) B K b (fun _ => iblk2 V c 1 t)
    (fun i r w => iblk_1_apply V c t b B hB i r w)
  rw [Fin.sum_univ_one] at h
  exact h

/-- Hence each flushed block is that block of the segment sums (counts). -/
theorem flushed_eq_2 (c : Dev nD) (t : Fin cfg2.N) :
    (dat2 V c).flushed 2 t = ((cfg2.win 2).blk t).view.read (Elt Ideal) (GS V c) := by
  have hi := index_out2 t
  funext y
  obtain ⟨b, k, rfl⟩ : ∃ (b : Fin 8) (k : Fin 16), y = ix2 b k := ⟨y 0, y 1, eq_ix2 y⟩
  rw [flushed_2_apply, View.read_apply]
  show _ = GS V c _
  unfold GS
  refine (tile_eq_seg V c t b _ k ?_).trans (congrArg _ (Fin.ext ?_))
  · show win2_2.index t 0 * 8 + 1 * b.val = 8 * t.val + b.val; rw [hi.1]; omega
  · show k.val = win2_2.index t 1 * 16 + 1 * k.val; rw [hi.2]; omega
theorem flushed_eq_3 (c : Dev nD) (t : Fin cfg2.N) :
    (dat2 V c).flushed 3 t = ((cfg2.win 3).blk t).view.read (Elt Ideal) (GC V c) := by
  have hi := index_out3 t
  funext y
  obtain ⟨b, k, rfl⟩ : ∃ (b : Fin 8) (k : Fin 16), y = ix2 b k := ⟨y 0, y 1, eq_ix2 y⟩
  rw [flushed_3_apply, View.read_apply]
  show _ = GC V c _
  unfold GC
  refine (tile_eq_segCnt V c t b _ k ?_).trans (congrArg _ (Fin.ext ?_))
  · show win2_3.index t 0 * 8 + 1 * b.val = 8 * t.val + b.val; rw [hi.1]; omega
  · show k.val = win2_3.index t 1 * 16 + 1 * k.val; rw [hi.2]; omega

/-- Each of the sixteen rows belongs to the eight rows of point 0 or of point 1. -/
theorem row_pt (r : ℕ) (hr : r < 16) : ∃ t : Fin grid2.N, 8 * t.val ≤ r ∧ r < 8 * t.val + 8 := by
  by_cases h : r < 8
  · exact ⟨t2_0, show 8 * 0 ≤ r ∧ r < 8 * 0 + 8 by omega⟩
  · exact ⟨t2_1, show 8 * 1 ≤ r ∧ r < 8 * 1 + 8 by omega⟩

/-- The two points' blocks cover a result array, so it ends as the segment sums (counts). -/
theorem arr_2 (c : Dev nD) : (dat2 V c).arrAt 2 cfg2.N = GS V c :=
  (dat2 V c).arrAt_eq_of_cover 2 (GS V c) (fun t _ => flushed_eq_2 V c t) fun i => by
    have hw : ∀ t : Fin grid2.N, win2_2.index t 0 * win2_2.size 0 = 8 * t.val ∧ win2_2.xsize (grid2.coords t) 0 = 8
        ∧ win2_2.index t 1 * win2_2.size 1 = 0 ∧ win2_2.xsize (grid2.coords t) 1 = 16 := by decide +kernel
    have h1 : (i 1 : ℕ) < 16 := (i 1).isLt
    obtain ⟨t, ht⟩ := row_pt (i 0) (i 0).isLt
    obtain ⟨e0, e1, e2, e3⟩ := hw t
    refine ⟨t, flush2_2 t, ?_⟩
    show i ∈ ((View.whole main_v2_0).slice (win2_2.rect t)).set
    rw [View.set_slice_whole, Rect.mem_set_unit]
    intro a
    match a with
    | ⟨0, _⟩ => show win2_2.index t 0 * win2_2.size 0 ≤ (i 0 : ℕ) ∧ (i 0 : ℕ) < win2_2.index t 0 * win2_2.size 0 + win2_2.xsize (grid2.coords t) 0
                rw [e0, e1]; exact ht
    | ⟨1, _⟩ => show win2_2.index t 1 * win2_2.size 1 ≤ (i 1 : ℕ) ∧ (i 1 : ℕ) < win2_2.index t 1 * win2_2.size 1 + win2_2.xsize (grid2.coords t) 1
                rw [e2, e3]; omega
theorem arr_3 (c : Dev nD) : (dat2 V c).arrAt 3 cfg2.N = GC V c :=
  (dat2 V c).arrAt_eq_of_cover 3 (GC V c) (fun t _ => flushed_eq_3 V c t) fun i => by
    have hw : ∀ t : Fin grid2.N, win2_3.index t 0 * win2_3.size 0 = 8 * t.val ∧ win2_3.xsize (grid2.coords t) 0 = 8
        ∧ win2_3.index t 1 * win2_3.size 1 = 0 ∧ win2_3.xsize (grid2.coords t) 1 = 16 := by decide +kernel
    have h1 : (i 1 : ℕ) < 16 := (i 1).isLt
    obtain ⟨t, ht⟩ := row_pt (i 0) (i 0).isLt
    obtain ⟨e0, e1, e2, e3⟩ := hw t
    refine ⟨t, flush2_3 t, ?_⟩
    show i ∈ ((View.whole main_v2_1).slice (win2_3.rect t)).set
    rw [View.set_slice_whole, Rect.mem_set_unit]
    intro a
    match a with
    | ⟨0, _⟩ => show win2_3.index t 0 * win2_3.size 0 ≤ (i 0 : ℕ) ∧ (i 0 : ℕ) < win2_3.index t 0 * win2_3.size 0 + win2_3.xsize (grid2.coords t) 0
                rw [e0, e1]; exact ht
    | ⟨1, _⟩ => show win2_3.index t 1 * win2_3.size 1 ≤ (i 1 : ℕ) ∧ (i 1 : ℕ) < win2_3.index t 1 * win2_3.size 1 + win2_3.xsize (grid2.coords t) 1
                rw [e2, e3]; omega

end Arrays

end Val2

variable (V : (c : Dev nD) → (b : Ref sig .tc) → Buf (Elt Ideal) ((c : Thread nD τ).loc b))

/-- Region 2's first result at (b, k): batch row b's feature sum over class k; -/
theorem sum2 (c : Dev nD) (b k : Fin 16) :
    (dat2 (F := Ideal) V c).arrAt 2 cfg2.N (ix2 b k) = Cert.Spec.segSum (V c main_arg2) (V c main_arg5) b k := by
  rw [Val2.arr_2 V c]; rfl

/-- its second: that class's pixel count. -/
theorem cnt2 (c : Dev nD) (b k : Fin 16) :
    (dat2 (F := Ideal) V c).arrAt 3 cfg2.N (ix2 b k) = Cert.Spec.segCnt (V c main_arg5) b k := by
  rw [Val2.arr_3 V c]; rfl

end Cert.KernelIdeal.Gen

end
-- ==== Proof.KI.V2Lib.lean ====
import Idealize.ShloMosaic.PureOps.Ideal.Laws
import Idealize.ShloMosaic.Lib.ValueIdx
import Idealize.ShloMosaic.Lib.Pipeline.Value
import Idealize.ShloMosaic.Lib.ValueLayout
import proofs.«413171_j1022202216836_1_alg».proof.Proof.Spec
import proofs.«413171_j1022202216836_1_alg».proof.Proof.LibTileSum

noncomputable section

open scoped BigOperators

namespace Cert.V2Lib

open Idealize.ShloMosaic Idealize.ShloMosaic.ValueIdx

variable {A R W C : Nat}

theorem lift_lane (h : (⟨3, ![A, R, W]⟩ : Shape).Reduces [2] ⟨2, ![A, R]⟩) (b : Fin A) (r : Fin R) (w : Fin W) :
    h.lift (ix2 b r) w = ix3 b r w := by
  funext c
  match c with
  | ⟨0, _⟩ => exact Fin.ext rfl
  | ⟨1, _⟩ => exact Fin.ext rfl
  | ⟨2, _⟩ => exact Fin.ext rfl

theorem lift_row (h : (⟨3, ![A, R, 1]⟩ : Shape).Reduces [1] ⟨2, ![A, 1]⟩) (b : Fin A) (z : Fin 1) (r : Fin R) :
    h.lift (ix2 b z) r = ix3 b r z := by
  funext c
  match c with
  | ⟨0, _⟩ => exact Fin.ext rfl
  | ⟨1, _⟩ => exact Fin.ext rfl
  | ⟨2, _⟩ => exact Fin.ext rfl

theorem laneSum_apply (v : FVec Ideal ⟨3, ![A, R, W]⟩ .f32) (h : (⟨3, ![A, R, W]⟩ : Shape).Reduces [2] ⟨2, ![A, R]⟩)
    (hφ : FKind.Formats .f32) (hacc : (0x00000000#32 : BitVec 32) = 0x00000000#32) (b : Fin A) (r : Fin R) :
    multiReduction (F := Ideal) .add [2] ⟨2, ![A, R]⟩ v 0x00000000#32 h hφ hacc (ix2 b r) = ∑ w : Fin W, v (ix3 b r w) := by
  refine (Ideal.multiReduction_add_single v 0x00000000#32 h hφ hacc (ix2 b r)).trans ?_
  exact Finset.sum_congr rfl fun w _ => congrArg v (lift_lane h b r w)

theorem rowSum_apply (v : FVec Ideal ⟨3, ![A, R, 1]⟩ .f32) (h : (⟨3, ![A, R, 1]⟩ : Shape).Reduces [1] ⟨2, ![A, 1]⟩)
    (hφ : FKind.Formats .f32) (hacc : (0x00000000#32 : BitVec 32) = 0x00000000#32) (b : Fin A) (z : Fin 1) :
    multiReduction (F := Ideal) .add [1] ⟨2, ![A, 1]⟩ v 0x00000000#32 h hφ hacc (ix2 b z) = ∑ r : Fin R, v (ix3 b r z) := by
  refine (Ideal.multiReduction_add_single v 0x00000000#32 h hφ hacc (ix2 b z)).trans ?_
  exact Finset.sum_congr rfl fun r _ => congrArg v (lift_row h b z r)

variable {α : Type}

theorem shapeCast_ab_ab1_apply (x : (⟨2, ![A, R]⟩ : Shape).Idx → α) (h : (⟨2, ![A, R]⟩ : Shape).ShapeCasts ⟨3, ![A, R, 1]⟩)
    (b : Fin A) (r : Fin R) (z : Fin 1) : shapeCast ⟨3, ![A, R, 1]⟩ x h (ix3 b r z) = x (ix2 b r) :=
  shapeCast_apply x h _ _ (by
    have hz : z.val = 0 := by omega
    rw [Shape.rowMajor_val_three, Shape.rowMajor_val_two]
    show b.val * R + r.val = (b.val * R + r.val) * 1 + z.val
    rw [hz, Nat.mul_one, Nat.add_zero])

theorem shapeCast_a1_a11_apply (x : (⟨2, ![A, 1]⟩ : Shape).Idx → α) (h : (⟨2, ![A, 1]⟩ : Shape).ShapeCasts ⟨3, ![A, 1, 1]⟩)
    (b : Fin A) (z z' : Fin 1) : shapeCast ⟨3, ![A, 1, 1]⟩ x h (ix3 b z z') = x (ix2 b z) :=
  shapeCast_ab_ab1_apply x h b z z'

theorem shapeCast_a11_a1_apply (x : (⟨3, ![A, 1, 1]⟩ : Shape).Idx → α) (h : (⟨3, ![A, 1, 1]⟩ : Shape).ShapeCasts ⟨2, ![A, 1]⟩)
    (b : Fin A) (z : Fin 1) : shapeCast ⟨2, ![A, 1]⟩ x h (ix2 b z) = x (ix3 b z (0 : Fin 1)) :=
  shapeCast_apply x h _ _ (by
    rw [Shape.rowMajor_val_three, Shape.rowMajor_val_two]
    show (b.val * 1 + z.val) * 1 + 0 = b.val * 1 + z.val
    rw [Nat.mul_one, Nat.add_zero])

theorem shapeCast_a1rw_arw_apply (x : (⟨4, ![A, 1, R, W]⟩ : Shape).Idx → α)
    (h : (⟨4, ![A, 1, R, W]⟩ : Shape).ShapeCasts ⟨3, ![A, R, W]⟩) (b : Fin A) (r : Fin R) (w : Fin W) :
    shapeCast ⟨3, ![A, R, W]⟩ x h (ix3 b r w) = x (ix4 b (0 : Fin 1) r w) :=
  shapeCast_apply x h _ _ (by
    rw [Shape.rowMajor_val_four, Shape.rowMajor_val_three]
    show ((b.val * 1 + 0) * R + r.val) * W + w.val = (b.val * R + r.val) * W + w.val
    rw [Nat.mul_one, Nat.add_zero])

theorem broadcastTo_a11_arw_apply (x : (⟨3, ![A, 1, 1]⟩ : Shape).Idx → α)
    (h : (⟨3, ![A, 1, 1]⟩ : Shape).Broadcasts ⟨3, ![A, R, W]⟩) (b : Fin A) (r : Fin R) (w : Fin W) :
    broadcastTo ⟨3, ![A, R, W]⟩ x h (ix3 b r w) = x (ix3 b (0 : Fin 1) (0 : Fin 1)) :=
  broadcastTo_apply x h _ _ (fun a => by
    match a with
    | ⟨0, _⟩ =>
      show b.val = if A = 1 then 0 else b.val
      split
      · omega
      · rfl
    | ⟨1, _⟩ => rfl
    | ⟨2, _⟩ => rfl)

theorem slice_col_apply (x : (⟨2, ![A, C]⟩ : Shape).Idx → α) (o : Nat) (c : Fin C) (ho : o = c.val)
    (h : (⟨2, ![A, C]⟩ : Shape).Slices ![0, o] ⟨2, ![A, 1]⟩) (b : Fin A) (z : Fin 1) :
    extractStridedSlice ⟨2, ![A, 1]⟩ ![0, o] x h (ix2 b z) = x (ix2 b c) :=
  extractStridedSlice_apply _ x h _ _ (fun a => by
    have hz : z.val = 0 := by omega
    match a with
    | ⟨0, _⟩ => show b.val = 0 + b.val; omega
    | ⟨1, _⟩ => show c.val = o + z.val; omega)

theorem colSum_apply (v : FVec Ideal ⟨3, ![A, R, W]⟩ .f32)
    (h1 : (⟨3, ![A, R, W]⟩ : Shape).Reduces [2] ⟨2, ![A, R]⟩) (h2 : (⟨2, ![A, R]⟩ : Shape).ShapeCasts ⟨3, ![A, R, 1]⟩)
    (h3 : (⟨3, ![A, R, 1]⟩ : Shape).Reduces [1] ⟨2, ![A, 1]⟩) (h4 : (⟨2, ![A, 1]⟩ : Shape).ShapeCasts ⟨3, ![A, 1, 1]⟩)
    (hφ : FKind.Formats .f32) (hacc : (0x00000000#32 : BitVec 32) = 0x00000000#32) (b : Fin A) :
    shapeCast ⟨3, ![A, 1, 1]⟩
        (multiReduction (F := Ideal) .add [1] ⟨2, ![A, 1]⟩
          (shapeCast ⟨3, ![A, R, 1]⟩ (multiReduction (F := Ideal) .add [2] ⟨2, ![A, R]⟩ v 0x00000000#32 h1 hφ hacc) h2)
          0x00000000#32 h3 hφ hacc) h4 (ix3 b (0 : Fin 1) (0 : Fin 1))
      = ∑ r : Fin R, ∑ w : Fin W, v (ix3 b r w) := by
  refine (shapeCast_a1_a11_apply _ h4 b 0 0).trans ?_
  refine (rowSum_apply _ h3 hφ hacc b 0).trans ?_
  refine Finset.sum_congr rfl fun r _ => ?_
  refine (shapeCast_ab_ab1_apply _ h2 b r 0).trans ?_
  exact laneSum_apply v h1 hφ hacc b r

theorem select_eq_apply {s : Shape} {β : Type} (g : IVec s 32) (L : BitVec 32) (t e : s.Idx → β) (i : s.Idx) :
    select (cmpi .eq g (broadcast s L)) t e i = if g i = L then t i else e i := by
  show Scalar.select (IntOp.cmpi .eq (g i) L) (t i) (e i) = _
  unfold Scalar.select IntOp.cmpi
  by_cases h : g i = L
  · simp [h]
  · have hb : (g i == L) = false := by simpa using h
    simp [h, hb]

theorem indicator_apply {s : Shape} (g : IVec s 32) (L : BitVec 32) (hlt : 1 < 32) (i : s.Idx) :
    (sitofp (F := Ideal) .f32 (extui 32 (cmpi .eq g (broadcast s L)) hlt)) i = if g i = L then (1 : EReal) else 0 := by
  show ((((IntOp.cmpi .eq (g i) L).setWidth 32).toInt : ℝ) : EReal) = _
  unfold IntOp.cmpi
  by_cases h : g i = L
  · rw [if_pos h]
    have e : (BitVec.setWidth 32 (BitVec.ofBool (g i == L))).toInt = 1 := by rw [h]; simp
    rw [e]; simp
  · rw [if_neg h]
    have e : (BitVec.setWidth 32 (BitVec.ofBool (g i == L))).toInt = 0 := by
      have : (g i == L) = false := by simpa using h
      rw [this]; simp
    rw [e]; simp

theorem hinge_apply (x : FVec Ideal ⟨3, ![A, R, W]⟩ .f32) (m : FVec Ideal ⟨2, ![A, C]⟩ .f32) (o : Nat) (c : Fin C) (ho : o = c.val)
    (hs : (⟨2, ![A, C]⟩ : Shape).Slices ![0, o] ⟨2, ![A, 1]⟩) (h7 : (⟨2, ![A, 1]⟩ : Shape).ShapeCasts ⟨3, ![A, 1, 1]⟩)
    (h8 : (⟨3, ![A, 1, 1]⟩ : Shape).Broadcasts ⟨3, ![A, R, W]⟩) (b : Fin A) (r : Fin R) (w : Fin W) :
    mulf
        (maximumf
          (subf (absf (subf x (broadcastTo ⟨3, ![A, R, W]⟩ (shapeCast ⟨3, ![A, 1, 1]⟩ (extractStridedSlice ⟨2, ![A, 1]⟩ ![0, o] m hs) h7) h8)))
            (broadcast ⟨3, ![A, R, W]⟩ (Scalar.ofBits (F := Ideal) .f32 0x3DCCCCCD#32)))
          (broadcast ⟨3, ![A, R, W]⟩ (Scalar.ofBits (F := Ideal) .f32 0x00000000#32)))
        (maximumf
          (subf (absf (subf x (broadcastTo ⟨3, ![A, R, W]⟩ (shapeCast ⟨3, ![A, 1, 1]⟩ (extractStridedSlice ⟨2, ![A, 1]⟩ ![0, o] m hs) h7) h8)))
            (broadcast ⟨3, ![A, R, W]⟩ (Scalar.ofBits (F := Ideal) .f32 0x3DCCCCCD#32)))
          (broadcast ⟨3, ![A, R, W]⟩ (Scalar.ofBits (F := Ideal) .f32 0x00000000#32)))
        (ix3 b r w)
      = Cert.Spec.hinge (x (ix3 b r w)) (m (ix2 b c)) := by
  have hμ : broadcastTo ⟨3, ![A, R, W]⟩ (shapeCast ⟨3, ![A, 1, 1]⟩ (extractStridedSlice ⟨2, ![A, 1]⟩ ![0, o] m hs) h7) h8 (ix3 b r w)
      = m (ix2 b c) :=
    (broadcastTo_a11_arw_apply _ h8 b r w).trans
      ((shapeCast_a1_a11_apply _ h7 b 0 0).trans (slice_col_apply m o c ho hs b 0))
  unfold Cert.Spec.hinge Cert.Spec.margin
  rw [← hμ]
  rfl

def tileSum (f : (⟨4, ![A, 1, R, W]⟩ : Shape).Idx → EReal) (g : (⟨4, ![A, 1, R, W]⟩ : Shape).Idx → BitVec 32) (b : Fin A)
    (L : BitVec 32) : EReal :=
  ∑ r : Fin R, ∑ w : Fin W, if g (ix4 b (0 : Fin 1) r w) = L then f (ix4 b (0 : Fin 1) r w) else 0

def tileCnt (g : (⟨4, ![A, 1, R, W]⟩ : Shape).Idx → BitVec 32) (b : Fin A) (L : BitVec 32) : EReal :=
  ∑ r : Fin R, ∑ w : Fin W, if g (ix4 b (0 : Fin 1) r w) = L then (1 : EReal) else 0

def tilePull (f : (⟨4, ![A, 1, R, W]⟩ : Shape).Idx → EReal) (g : (⟨4, ![A, 1, R, W]⟩ : Shape).Idx → BitVec 32) (μ : EReal)
    (b : Fin A) (L : BitVec 32) : EReal :=
  ∑ r : Fin R, ∑ w : Fin W, if g (ix4 b (0 : Fin 1) r w) = L then Cert.Spec.hinge (f (ix4 b (0 : Fin 1) r w)) μ else 0

theorem colAdd_apply (prev : FVec Ideal ⟨2, ![A, 1]⟩ .f32) (s : FVec Ideal ⟨3, ![A, 1, 1]⟩ .f32)
    (h5 : (⟨3, ![A, 1, 1]⟩ : Shape).ShapeCasts ⟨2, ![A, 1]⟩) (h6 : (⟨2, ![A, 1]⟩ : Shape).ShapeCasts ⟨2, ![A, 1]⟩) (b : Fin A) :
    shapeCast ⟨2, ![A, 1]⟩ (addf prev (shapeCast ⟨2, ![A, 1]⟩ s h5)) h6 (ix2 b (0 : Fin 1))
      = prev (ix2 b (0 : Fin 1)) + s (ix3 b (0 : Fin 1) (0 : Fin 1)) := by
  rw [shapeCast_self]
  exact congrArg (fun t => prev (ix2 b (0 : Fin 1)) + t) (shapeCast_a11_a1_apply s h5 b 0)

theorem pull_update_apply (v3 : FVec Ideal ⟨4, ![A, 1, R, W]⟩ .f32) (v5 : IVec ⟨4, ![A, 1, R, W]⟩ 32) (v7 : FVec Ideal ⟨2, ![A, C]⟩ .f32)
    (o : Nat) (c : Fin C) (ho : o = c.val) (L : BitVec 32) (prev : FVec Ideal ⟨2, ![A, 1]⟩ .f32)
    (hX : (⟨4, ![A, 1, R, W]⟩ : Shape).ShapeCasts ⟨3, ![A, R, W]⟩) (hM : (⟨2, ![A, C]⟩ : Shape).ShapeCasts ⟨2, ![A, C]⟩)
    (hs : (⟨2, ![A, C]⟩ : Shape).Slices ![0, o] ⟨2, ![A, 1]⟩) (h7 : (⟨2, ![A, 1]⟩ : Shape).ShapeCasts ⟨3, ![A, 1, 1]⟩)
    (h8 : (⟨3, ![A, 1, 1]⟩ : Shape).Broadcasts ⟨3, ![A, R, W]⟩)
    (h1 : (⟨3, ![A, R, W]⟩ : Shape).Reduces [2] ⟨2, ![A, R]⟩) (h2 : (⟨2, ![A, R]⟩ : Shape).ShapeCasts ⟨3, ![A, R, 1]⟩)
    (h3 : (⟨3, ![A, R, 1]⟩ : Shape).Reduces [1] ⟨2, ![A, 1]⟩) (h4 : (⟨2, ![A, 1]⟩ : Shape).ShapeCasts ⟨3, ![A, 1, 1]⟩)
    (h5 : (⟨3, ![A, 1, 1]⟩ : Shape).ShapeCasts ⟨2, ![A, 1]⟩) (h6 : (⟨2, ![A, 1]⟩ : Shape).ShapeCasts ⟨2, ![A, 1]⟩)
    (hφ : FKind.Formats .f32) (hacc : (0x00000000#32 : BitVec 32) = 0x00000000#32) (b : Fin A) :
    shapeCast ⟨2, ![A, 1]⟩
        (addf prev
          (shapeCast ⟨2, ![A, 1]⟩
            (shapeCast ⟨3, ![A, 1, 1]⟩
              (multiReduction (F := Ideal) .add [1] ⟨2, ![A, 1]⟩
                (shapeCast ⟨3, ![A, R, 1]⟩
                  (multiReduction (F := Ideal) .add [2] ⟨2, ![A, R]⟩
                    (select (cmpi .eq (shapeCast ⟨3, ![A, R, W]⟩ v5 hX) (broadcast ⟨3, ![A, R, W]⟩ L))
                      (mulf
                        (maximumf
                          (subf (absf (subf (shapeCast ⟨3, ![A, R, W]⟩ v3 hX) (broadcastTo ⟨3, ![A, R, W]⟩ (shapeCast ⟨3, ![A, 1, 1]⟩ (extractStridedSlice ⟨2, ![A, 1]⟩ ![0, o] (shapeCast ⟨2, ![A, C]⟩ v7 hM) hs) h7) h8)))
                            (broadcast ⟨3, ![A, R, W]⟩ (Scalar.ofBits (F := Ideal) .f32 0x3DCCCCCD#32)))
                          (broadcast ⟨3, ![A, R, W]⟩ (Scalar.ofBits (F := Ideal) .f32 0x00000000#32)))
                        (maximumf
                          (subf (absf (subf (shapeCast ⟨3, ![A, R, W]⟩ v3 hX) (broadcastTo ⟨3, ![A, R, W]⟩ (shapeCast ⟨3, ![A, 1, 1]⟩ (extractStridedSlice ⟨2, ![A, 1]⟩ ![0, o] (shapeCast ⟨2, ![A, C]⟩ v7 hM) hs) h7) h8)))
                            (broadcast ⟨3, ![A, R, W]⟩ (Scalar.ofBits (F := Ideal) .f32 0x3DCCCCCD#32)))
                          (broadcast ⟨3, ![A, R, W]⟩ (Scalar.ofBits (F := Ideal) .f32 0x00000000#32))))
                      (broadcast ⟨3, ![A, R, W]⟩ (Scalar.ofBits (F := Ideal) .f32 0x00000000#32)))
                    0x00000000#32 h1 hφ hacc) h2)
                0x00000000#32 h3 hφ hacc) h4) h5)) h6 (ix2 b (0 : Fin 1))
      = prev (ix2 b (0 : Fin 1)) + tilePull v3 v5 (v7 (ix2 b c)) b L := by
  refine (colAdd_apply prev _ h5 h6 b).trans ?_
  refine congrArg (fun t => prev (ix2 b (0 : Fin 1)) + t) ?_
  refine (colSum_apply _ h1 h2 h3 h4 hφ hacc b).trans ?_
  unfold tilePull
  refine Finset.sum_congr rfl fun r _ => Finset.sum_congr rfl fun w _ => ?_
  refine (select_eq_apply _ L _ _ (ix3 b r w)).trans ?_
  rw [shapeCast_a1rw_arw_apply v5 hX b r w]
  refine if_congr Iff.rfl ?_ ?_
  · refine (hinge_apply _ (shapeCast ⟨2, ![A, C]⟩ v7 hM) o c ho hs h7 h8 b r w).trans ?_
    rw [shapeCast_a1rw_arw_apply v3 hX b r w, shapeCast_self]
  · exact Ideal.ofBits_zero_f32

theorem cnt_update_apply (v5 : IVec ⟨4, ![A, 1, R, W]⟩ 32) (L : BitVec 32) (prev : FVec Ideal ⟨2, ![A, 1]⟩ .f32)
    (hX : (⟨4, ![A, 1, R, W]⟩ : Shape).ShapeCasts ⟨3, ![A, R, W]⟩) (hlt : 1 < 32)
    (h1 : (⟨3, ![A, R, W]⟩ : Shape).Reduces [2] ⟨2, ![A, R]⟩) (h2 : (⟨2, ![A, R]⟩ : Shape).ShapeCasts ⟨3, ![A, R, 1]⟩)
    (h3 : (⟨3, ![A, R, 1]⟩ : Shape).Reduces [1] ⟨2, ![A, 1]⟩) (h4 : (⟨2, ![A, 1]⟩ : Shape).ShapeCasts ⟨3, ![A, 1, 1]⟩)
    (h5 : (⟨3, ![A, 1, 1]⟩ : Shape).ShapeCasts ⟨2, ![A, 1]⟩) (h6 : (⟨2, ![A, 1]⟩ : Shape).ShapeCasts ⟨2, ![A, 1]⟩)
    (hφ : FKind.Formats .f32) (hacc : (0x00000000#32 : BitVec 32) = 0x00000000#32) (b : Fin A) :
    shapeCast ⟨2, ![A, 1]⟩
        (addf prev
          (shapeCast ⟨2, ![A, 1]⟩
            (shapeCast ⟨3, ![A, 1, 1]⟩
              (multiReduction (F := Ideal) .add [1] ⟨2, ![A, 1]⟩
                (shapeCast ⟨3, ![A, R, 1]⟩
                  (multiReduction (F := Ideal) .add [2] ⟨2, ![A, R]⟩
                    (sitofp (F := Ideal) .f32 (extui 32 (cmpi .eq (shapeCast ⟨3, ![A, R, W]⟩ v5 hX) (broadcast ⟨3, ![A, R, W]⟩ L)) hlt))
                    0x00000000#32 h1 hφ hacc) h2)
                0x00000000#32 h3 hφ hacc) h4) h5)) h6 (ix2 b (0 : Fin 1))
      = prev (ix2 b (0 : Fin 1)) + tileCnt v5 b L := by
  refine (colAdd_apply prev _ h5 h6 b).trans ?_
  refine congrArg (fun t => prev (ix2 b (0 : Fin 1)) + t) ?_
  refine (colSum_apply _ h1 h2 h3 h4 hφ hacc b).trans ?_
  unfold tileCnt
  refine Finset.sum_congr rfl fun r _ => Finset.sum_congr rfl fun w _ => ?_
  refine (indicator_apply _ L hlt (ix3 b r w)).trans ?_
  rw [shapeCast_a1rw_arw_apply v5 hX b r w]

open Cert.LibTileSum in

theorem sum_tilePull {n : Nat} (f : Cert.Spec.FMap (n * R) W) (g : Cert.Spec.GMap (n * R) W) (μ : EReal) (bb cc : Fin 16)
    (fb : Fin n → (⟨4, ![A, 1, R, W]⟩ : Shape).Idx → EReal) (gb : Fin n → (⟨4, ![A, 1, R, W]⟩ : Shape).Idx → BitVec 32) (b : Fin A)
    (hf : ∀ i r w, fb i (ix4 b (0 : Fin 1) r w) = f (ix4 bb (0 : Fin 1) (row i r) w))
    (hg : ∀ i r w, gb i (ix4 b (0 : Fin 1) r w) = g (ix4 bb (0 : Fin 1) (row i r) w)) :
    ∑ i : Fin n, tilePull (fb i) (gb i) μ b (Cert.Spec.lab cc) = Cert.Spec.segPull f g μ bb cc := by
  unfold Cert.Spec.segPull tilePull
  rw [sum_rows_eq_sum_tiles]
  refine Finset.sum_congr rfl fun i _ => Finset.sum_congr rfl fun r _ => Finset.sum_congr rfl fun w _ => ?_
  rw [hf i r w, hg i r w]

open Cert.LibTileSum in

theorem sum_tileCnt {n : Nat} (g : Cert.Spec.GMap (n * R) W) (bb cc : Fin 16)
    (gb : Fin n → (⟨4, ![A, 1, R, W]⟩ : Shape).Idx → BitVec 32) (b : Fin A)
    (hg : ∀ i r w, gb i (ix4 b (0 : Fin 1) r w) = g (ix4 bb (0 : Fin 1) (row i r) w)) :
    ∑ i : Fin n, tileCnt (gb i) b (Cert.Spec.lab cc) = Cert.Spec.segCnt g bb cc := by
  unfold Cert.Spec.segCnt tileCnt
  rw [sum_rows_eq_sum_tiles]
  refine Finset.sum_congr rfl fun i _ => Finset.sum_congr rfl fun r _ => Finset.sum_congr rfl fun w _ => ?_
  rw [hg i r w]

open Cert.LibTileSum in

theorem sum_tileSum {n : Nat} (f : Cert.Spec.FMap (n * R) W) (g : Cert.Spec.GMap (n * R) W) (bb cc : Fin 16)
    (fb : Fin n → (⟨4, ![A, 1, R, W]⟩ : Shape).Idx → EReal) (gb : Fin n → (⟨4, ![A, 1, R, W]⟩ : Shape).Idx → BitVec 32) (b : Fin A)
    (hf : ∀ i r w, fb i (ix4 b (0 : Fin 1) r w) = f (ix4 bb (0 : Fin 1) (row i r) w))
    (hg : ∀ i r w, gb i (ix4 b (0 : Fin 1) r w) = g (ix4 bb (0 : Fin 1) (row i r) w)) :
    ∑ i : Fin n, tileSum (fb i) (gb i) b (Cert.Spec.lab cc) = Cert.Spec.segSum f g bb cc := by
  unfold Cert.Spec.segSum tileSum
  rw [sum_rows_eq_sum_tiles]
  refine Finset.sum_congr rfl fun i _ => Finset.sum_congr rfl fun r _ => Finset.sum_congr rfl fun w _ => ?_
  rw [hf i r w, hg i r w]

end Cert.V2Lib

end
-- ==== Proof.KI.V2R3.lean ====
import proofs.«413171_j1022202216836_1_alg».proof.Proof.Gen.KernelIdeal.Skeleton
import proofs.«413171_j1022202216836_1_alg».proof.Proof.KI.V2Lib

noncomputable section

namespace Cert.KernelIdeal.Gen.V2R3

open Idealize.ShloMosaic Idealize.ShloMosaic.ValueIdx Cert.V2Lib Cert.KernelIdeal.Gen

theorem init_pull (j : S8x16.Idx) : k3_pay2 (F := Ideal) j = 0 := by
  unfold k3_pay2
  exact (congrFun (shapeCast_self _ _) j).trans Ideal.ofBits_zero_f32

theorem init_cnt (j : S8x16.Idx) : k3_pay3 (F := Ideal) j = 0 := by
  unfold k3_pay3
  exact (congrFun (shapeCast_self _ _) j).trans Ideal.ofBits_zero_f32

variable (v3 : Vec Ideal S8x1x256x1024 .f32) (v5 : Vec Ideal S8x1x256x1024 .i32) (v7 : Vec Ideal S8x16 .f32)
  (prev : Vec Ideal S8x1 .f32) (b : Fin 8)

-- Every stored column below is the general one-class update at this width, at the class's label word and centre column.

theorem pull_0 :
    k3_pay10 (F := Ideal) prev (k3_pay9 v3 v5 v7) (ix2 b (0 : Fin 1))
      = prev (ix2 b (0 : Fin 1)) + tilePull v3 v5 (v7 (ix2 b (0 : Fin 16))) b (Cert.Spec.lab (0 : Fin 16)) :=
  pull_update_apply v3 v5 v7 0 0 rfl _ prev _ _ _ _ _ _ _ _ _ _ _ _ _ b

theorem pull_1 :
    k3_pay14 (F := Ideal) (k3_pay4 v3) (k3_pay5 (F := Ideal) v5) (k3_pay6 v7) prev (ix2 b (0 : Fin 1))
      = prev (ix2 b (0 : Fin 1)) + tilePull v3 v5 (v7 (ix2 b (1 : Fin 16))) b (Cert.Spec.lab (1 : Fin 16)) :=
  pull_update_apply v3 v5 v7 1 1 rfl _ prev _ _ _ _ _ _ _ _ _ _ _ _ _ b

theorem pull_2 :
    k3_pay17 (F := Ideal) (k3_pay4 v3) (k3_pay5 (F := Ideal) v5) (k3_pay6 v7) prev (ix2 b (0 : Fin 1))
      = prev (ix2 b (0 : Fin 1)) + tilePull v3 v5 (v7 (ix2 b (2 : Fin 16))) b (Cert.Spec.lab (2 : Fin 16)) :=
  pull_update_apply v3 v5 v7 2 2 rfl _ prev _ _ _ _ _ _ _ _ _ _ _ _ _ b

theorem pull_3 :
    k3_pay21 (F := Ideal) (k3_pay4 v3) (k3_pay5 (F := Ideal) v5) (k3_pay6 v7) prev (ix2 b (0 : Fin 1))
      = prev (ix2 b (0 : Fin 1)) + tilePull v3 v5 (v7 (ix2 b (3 : Fin 16))) b (Cert.Spec.lab (3 : Fin 16)) :=
  pull_update_apply v3 v5 v7 3 3 rfl _ prev _ _ _ _ _ _ _ _ _ _ _ _ _ b

theorem pull_4 :
    k3_pay24 (F := Ideal) (k3_pay4 v3) (k3_pay5 (F := Ideal) v5) (k3_pay6 v7) prev (ix2 b (0 : Fin 1))
      = prev (ix2 b (0 : Fin 1)) + tilePull v3 v5 (v7 (ix2 b (4 : Fin 16))) b (Cert.Spec.lab (4 : Fin 16)) :=
  pull_update_apply v3 v5 v7 4 4 rfl _ prev _ _ _ _ _ _ _ _ _ _ _ _ _ b

theorem pull_5 :
    k3_pay29 (F := Ideal) (k3_pay4 v3) (k3_pay26 (k3_pay5 (F := Ideal) v5)) (k3_pay28 (k3_pay6 v7)) prev (ix2 b (0 : Fin 1))
      = prev (ix2 b (0 : Fin 1)) + tilePull v3 v5 (v7 (ix2 b (5 : Fin 16))) b (Cert.Spec.lab (5 : Fin 16)) := by
  unfold k3_pay28
  exact pull_update_apply v3 v5 v7 5 5 rfl _ prev _ _ _ _ _ _ _ _ _ _ _ _ _ b

theorem pull_6 :
    k3_pay35 (F := Ideal) (k3_pay31 (k3_pay5 (F := Ideal) v5)) (k3_pay33 (k3_pay4 v3) (k3_pay6 v7)) k3_pay34 prev (ix2 b (0 : Fin 1))
      = prev (ix2 b (0 : Fin 1)) + tilePull v3 v5 (v7 (ix2 b (6 : Fin 16))) b (Cert.Spec.lab (6 : Fin 16)) :=
  pull_update_apply v3 v5 v7 6 6 rfl _ prev _ _ _ _ _ _ _ _ _ _ _ _ _ b

theorem pull_7 :
    k3_pay40 (F := Ideal) (k3_pay37 (k3_pay5 (F := Ideal) v5)) (k3_pay39 (k3_pay4 v3) (k3_pay6 v7)) (Scalar.ofBits (F := Ideal) .f32 0x00000000#32) prev (ix2 b (0 : Fin 1))
      = prev (ix2 b (0 : Fin 1)) + tilePull v3 v5 (v7 (ix2 b (7 : Fin 16))) b (Cert.Spec.lab (7 : Fin 16)) :=
  pull_update_apply v3 v5 v7 7 7 rfl _ prev _ _ _ _ _ _ _ _ _ _ _ _ _ b

theorem pull_8 :
    k3_pay45 (F := Ideal) (k3_pay44 (k3_pay4 v3) (k3_pay5 (F := Ideal) v5) (k3_pay6 v7)) prev (ix2 b (0 : Fin 1))
      = prev (ix2 b (0 : Fin 1)) + tilePull v3 v5 (v7 (ix2 b (8 : Fin 16))) b (Cert.Spec.lab (8 : Fin 16)) :=
  pull_update_apply v3 v5 v7 8 8 rfl _ prev _ _ _ _ _ _ _ _ _ _ _ _ _ b

theorem pull_9 :
    k3_pay50 (F := Ideal) (k3_pay48 (k3_pay4 v3) (k3_pay5 (F := Ideal) v5) (k3_pay6 v7)) prev (ix2 b (0 : Fin 1))
      = prev (ix2 b (0 : Fin 1)) + tilePull v3 v5 (v7 (ix2 b (9 : Fin 16))) b (Cert.Spec.lab (9 : Fin 16)) :=
  pull_update_apply v3 v5 v7 9 9 rfl _ prev _ _ _ _ _ _ _ _ _ _ _ _ _ b

theorem pull_10 :
    k3_pay55 (F := Ideal) prev (k3_pay54 (k3_pay4 v3) (k3_pay5 (F := Ideal) v5) (k3_pay6 v7)) (ix2 b (0 : Fin 1))
      = prev (ix2 b (0 : Fin 1)) + tilePull v3 v5 (v7 (ix2 b (10 : Fin 16))) b (Cert.Spec.lab (10 : Fin 16)) :=
  pull_update_apply v3 v5 v7 10 10 rfl _ prev _ _ _ _ _ _ _ _ _ _ _ _ _ b

theorem pull_11 :
    k3_pay59 (F := Ideal) (k3_pay4 v3) (k3_pay5 (F := Ideal) v5) (k3_pay6 v7) prev (ix2 b (0 : Fin 1))
      = prev (ix2 b (0 : Fin 1)) + tilePull v3 v5 (v7 (ix2 b (11 : Fin 16))) b (Cert.Spec.lab (11 : Fin 16)) :=
  pull_update_apply v3 v5 v7 11 11 rfl _ prev _ _ _ _ _ _ _ _ _ _ _ _ _ b

theorem pull_12 :
    k3_pay62 (F := Ideal) (k3_pay4 v3) (k3_pay5 (F := Ideal) v5) (k3_pay6 v7) prev (ix2 b (0 : Fin 1))
      = prev (ix2 b (0 : Fin 1)) + tilePull v3 v5 (v7 (ix2 b (12 : Fin 16))) b (Cert.Spec.lab (12 : Fin 16)) :=
  pull_update_apply v3 v5 v7 12 12 rfl _ prev _ _ _ _ _ _ _ _ _ _ _ _ _ b

theorem pull_13 :
    k3_pay66 (F := Ideal) (k3_pay4 v3) (k3_pay5 (F := Ideal) v5) (k3_pay6 v7) prev (ix2 b (0 : Fin 1))
      = prev (ix2 b (0 : Fin 1)) + tilePull v3 v5 (v7 (ix2 b (13 : Fin 16))) b (Cert.Spec.lab (13 : Fin 16)) :=
  pull_update_apply v3 v5 v7 13 13 rfl _ prev _ _ _ _ _ _ _ _ _ _ _ _ _ b

theorem pull_14 :
    k3_pay69 (F := Ideal) (k3_pay4 v3) (k3_pay5 (F := Ideal) v5) (k3_pay6 v7) prev (ix2 b (0 : Fin 1))
      = prev (ix2 b (0 : Fin 1)) + tilePull v3 v5 (v7 (ix2 b (14 : Fin 16))) b (Cert.Spec.lab (14 : Fin 16)) :=
  pull_update_apply v3 v5 v7 14 14 rfl _ prev _ _ _ _ _ _ _ _ _ _ _ _ _ b

theorem pull_15 :
    k3_pay74 (F := Ideal) (k3_pay4 v3) (k3_pay71 (k3_pay5 (F := Ideal) v5)) (k3_pay73 (k3_pay6 v7)) prev (ix2 b (0 : Fin 1))
      = prev (ix2 b (0 : Fin 1)) + tilePull v3 v5 (v7 (ix2 b (15 : Fin 16))) b (Cert.Spec.lab (15 : Fin 16)) := by
  unfold k3_pay73
  exact pull_update_apply v3 v5 v7 15 15 rfl _ prev _ _ _ _ _ _ _ _ _ _ _ _ _ b

theorem cnt_0 :
    k3_pay11 (F := Ideal) (k3_pay8 v5) prev (ix2 b (0 : Fin 1))
      = prev (ix2 b (0 : Fin 1)) + tileCnt v5 b (Cert.Spec.lab (0 : Fin 16)) :=
  cnt_update_apply v5 _ prev _ _ _ _ _ _ _ _ _ _ b

theorem cnt_1 :
    k3_pay15 (F := Ideal) (k3_pay13 (k3_pay5 (F := Ideal) v5)) prev (ix2 b (0 : Fin 1))
      = prev (ix2 b (0 : Fin 1)) + tileCnt v5 b (Cert.Spec.lab (1 : Fin 16)) :=
  cnt_update_apply v5 _ prev _ _ _ _ _ _ _ _ _ _ b

theorem cnt_2 :
    k3_pay19 (F := Ideal) (k3_pay18 (k3_pay5 (F := Ideal) v5) prev) (ix2 b (0 : Fin 1))
      = prev (ix2 b (0 : Fin 1)) + tileCnt v5 b (Cert.Spec.lab (2 : Fin 16)) :=
  cnt_update_apply v5 _ prev _ _ _ _ _ _ _ _ _ _ b

theorem cnt_3 :
    k3_pay22 (F := Ideal) (k3_pay5 (F := Ideal) v5) prev (ix2 b (0 : Fin 1))
      = prev (ix2 b (0 : Fin 1)) + tileCnt v5 b (Cert.Spec.lab (3 : Fin 16)) :=
  cnt_update_apply v5 _ prev _ _ _ _ _ _ _ _ _ _ b

theorem cnt_4 :
    k3_pay25 (F := Ideal) (k3_pay5 (F := Ideal) v5) prev (ix2 b (0 : Fin 1))
      = prev (ix2 b (0 : Fin 1)) + tileCnt v5 b (Cert.Spec.lab (4 : Fin 16)) :=
  cnt_update_apply v5 _ prev _ _ _ _ _ _ _ _ _ _ b

theorem cnt_5 :
    k3_pay30 (F := Ideal) (k3_pay27 (k3_pay5 (F := Ideal) v5)) prev (ix2 b (0 : Fin 1))
      = prev (ix2 b (0 : Fin 1)) + tileCnt v5 b (Cert.Spec.lab (5 : Fin 16)) :=
  cnt_update_apply v5 _ prev _ _ _ _ _ _ _ _ _ _ b

theorem cnt_6 :
    k3_pay36 (F := Ideal) (k3_pay32 (k3_pay5 (F := Ideal) v5)) prev (ix2 b (0 : Fin 1))
      = prev (ix2 b (0 : Fin 1)) + tileCnt v5 b (Cert.Spec.lab (6 : Fin 16)) :=
  cnt_update_apply v5 _ prev _ _ _ _ _ _ _ _ _ _ b

theorem cnt_7 :
    k3_pay41 (F := Ideal) (k3_pay38 (k3_pay5 (F := Ideal) v5)) prev (ix2 b (0 : Fin 1))
      = prev (ix2 b (0 : Fin 1)) + tileCnt v5 b (Cert.Spec.lab (7 : Fin 16)) :=
  cnt_update_apply v5 _ prev _ _ _ _ _ _ _ _ _ _ b

theorem cnt_8 :
    k3_pay46 (F := Ideal) (k3_pay43 (k3_pay5 (F := Ideal) v5)) prev (ix2 b (0 : Fin 1))
      = prev (ix2 b (0 : Fin 1)) + tileCnt v5 b (Cert.Spec.lab (8 : Fin 16)) :=
  cnt_update_apply v5 _ prev _ _ _ _ _ _ _ _ _ _ b

theorem cnt_9 :
    k3_pay51 (F := Ideal) (k3_pay49 (k3_pay5 (F := Ideal) v5)) prev (ix2 b (0 : Fin 1))
      = prev (ix2 b (0 : Fin 1)) + tileCnt v5 b (Cert.Spec.lab (9 : Fin 16)) :=
  cnt_update_apply v5 _ prev _ _ _ _ _ _ _ _ _ _ b

theorem cnt_10 :
    k3_pay56 (F := Ideal) (k3_pay53 (k3_pay5 (F := Ideal) v5)) prev (ix2 b (0 : Fin 1))
      = prev (ix2 b (0 : Fin 1)) + tileCnt v5 b (Cert.Spec.lab (10 : Fin 16)) :=
  cnt_update_apply v5 _ prev _ _ _ _ _ _ _ _ _ _ b

theorem cnt_11 :
    k3_pay60 (F := Ideal) (k3_pay58 (k3_pay5 (F := Ideal) v5)) prev (ix2 b (0 : Fin 1))
      = prev (ix2 b (0 : Fin 1)) + tileCnt v5 b (Cert.Spec.lab (11 : Fin 16)) :=
  cnt_update_apply v5 _ prev _ _ _ _ _ _ _ _ _ _ b

theorem cnt_12 :
    k3_pay64 (F := Ideal) (k3_pay63 (k3_pay5 (F := Ideal) v5) prev) (ix2 b (0 : Fin 1))
      = prev (ix2 b (0 : Fin 1)) + tileCnt v5 b (Cert.Spec.lab (12 : Fin 16)) :=
  cnt_update_apply v5 _ prev _ _ _ _ _ _ _ _ _ _ b

theorem cnt_13 :
    k3_pay67 (F := Ideal) (k3_pay5 (F := Ideal) v5) prev (ix2 b (0 : Fin 1))
      = prev (ix2 b (0 : Fin 1)) + tileCnt v5 b (Cert.Spec.lab (13 : Fin 16)) :=
  cnt_update_apply v5 _ prev _ _ _ _ _ _ _ _ _ _ b

theorem cnt_14 :
    k3_pay70 (F := Ideal) (k3_pay5 (F := Ideal) v5) prev (ix2 b (0 : Fin 1))
      = prev (ix2 b (0 : Fin 1)) + tileCnt v5 b (Cert.Spec.lab (14 : Fin 16)) :=
  cnt_update_apply v5 _ prev _ _ _ _ _ _ _ _ _ _ b

theorem cnt_15 :
    k3_pay1 (F := Ideal) (k3_pay75 (k3_pay72 (k3_pay5 (F := Ideal) v5)) prev) (ix2 b (0 : Fin 1))
      = prev (ix2 b (0 : Fin 1)) + tileCnt v5 b (Cert.Spec.lab (15 : Fin 16)) :=
  cnt_update_apply v5 _ prev _ _ _ _ _ _ _ _ _ _ b

end Cert.KernelIdeal.Gen.V2R3

end
-- ==== Proof.KI.V2Chain.lean ====
import Idealize.ShloMosaic.PureOps.Ideal.Laws
import Idealize.ShloMosaic.Lib.ValueIdx
import Idealize.ShloMosaic.Lib.Pipeline.FrameBody
import Idealize.ShloMosaic.Lib.Pipeline.Value

noncomputable section

namespace Cert.V2Chain

open Idealize.ShloMosaic Idealize.ShloMosaic.ValueIdx

variable {A C : Nat}

abbrev colRect (o : Nat) (inb : ∀ a, (![0, o] : Fin 2 → Nat) a + (⟨2, ![A, 1]⟩ : Shape).size a ≤ (⟨2, ![A, C]⟩ : Shape).size a) :
    Rect ⟨2, ![A, C]⟩ :=
  Rect.unit ![0, o] (⟨2, ![A, 1]⟩ : Shape).size inb

-- The column's local index (b, z) sits at (b, k) of the buffer, k the column.
theorem col_emb (o : Nat) (k : Fin C) (ho : o = k.val) (inb) (b : Fin A) (z : Fin 1) :
    (colRect (A := A) (C := C) o inb).emb (ix2 b z) = ix2 b k := by
  have hz : z.val = 0 := by omega
  funext a
  apply Fin.ext
  match a with
  | ⟨0, _⟩ => show 0 + 1 * b.val = b.val; omega
  | ⟨1, _⟩ => show o + 1 * z.val = k.val; omega

theorem not_mem_col (o : Nat) (inb) (b : Fin A) (k : Fin C) (h : k.val ≠ o) :
    ix2 b k ∉ (colRect (A := A) (C := C) o inb).set := fun hm => by
  have h1 : o ≤ k.val ∧ k.val < o + 1 := Rect.mem_set_unit.mp hm 1
  omega

theorem ld_col (xs : (⟨2, ![A, C]⟩ : Shape).Idx → EReal) (o : Nat) (k : Fin C) (ho : o = k.val) (inb) (b : Fin A) :
    View.ld (Val := Elt Ideal) (e' := .f32) xs (colRect (A := A) (C := C) o inb) (ix2 b (0 : Fin 1)) = xs (ix2 b k) :=
  congrArg xs (col_emb o k ho inb b 0)

theorem readCov_col {sig : RefSig} {κ : Kind} {sp : Space} (v : View sig κ sp ⟨2, ![A, C]⟩ .f32)
    (L : List (View.Piece (Elt Ideal) ⟨2, ![A, C]⟩ .f32)) (o : Nat) (k : Fin C) (ho : o = k.val) (inb) (b : Fin A) :
    v.readCov L (colRect (A := A) (C := C) o inb).toLoadRect (ix2 b (0 : Fin 1)) = View.canon L (ix2 b k) := by
  rw [View.readCov_eq_canon']
  exact congrArg (View.canon L) (col_emb o k ho inb b 0)

theorem piece_of_col (G : (⟨2, ![A, C]⟩ : Shape).Idx → EReal) (o : Nat) (k : Fin C) (ho : o = k.val) (inb)
    (w : (colRect (A := A) (C := C) o inb).shape.Idx → EReal)
    (hw : ∀ b : Fin A, w (ix2 b (0 : Fin 1)) = G (ix2 b k)) :
    ∀ x, w x = G ((colRect (A := A) (C := C) o inb).emb x) := by
  intro x
  obtain ⟨b, z, rfl⟩ : ∃ (b : Fin A) (z : Fin 1), x = ix2 b z := ⟨x 0, x 1, eq_ix2 x⟩
  obtain rfl : z = 0 := Subsingleton.elim _ _
  rw [col_emb o k ho inb b 0]
  exact hw b

def accUpto (Z : (⟨2, ![A, C]⟩ : Shape).Idx → EReal) (T : Fin C → Fin A → EReal) (j : Nat)
    (y : (⟨2, ![A, C]⟩ : Shape).Idx) : EReal :=
  if (y 1).val < j then Z y + T (y 1) (y 0) else Z y

theorem accUpto_ix2 (Z : (⟨2, ![A, C]⟩ : Shape).Idx → EReal) (T : Fin C → Fin A → EReal) (j : Nat) (b : Fin A) (k : Fin C) :
    accUpto Z T j (ix2 b k) = if k.val < j then Z (ix2 b k) + T k b else Z (ix2 b k) := rfl

theorem accUpto_full (Z : (⟨2, ![A, C]⟩ : Shape).Idx → EReal) (T : Fin C → Fin A → EReal) (b : Fin A) (k : Fin C) :
    accUpto Z T C (ix2 b k) = Z (ix2 b k) + T k b := by
  rw [accUpto_ix2, if_pos k.isLt]

-- One column's step: the store of column j adds T j to what the earlier writes left there and touches no other column.
theorem chain_step (Z : (⟨2, ![A, C]⟩ : Shape).Idx → EReal) (T : Fin C → Fin A → EReal) (j : Nat) (hj : j < C)
    (o : Nat) (ho : o = j) (inb) (L : List (View.Piece (Elt Ideal) ⟨2, ![A, C]⟩ .f32))
    (w : (colRect (A := A) (C := C) o inb).shape.Idx → EReal)
    (hL : ∀ y, View.canon L y = accUpto Z T j y)
    (hW : ∀ b : Fin A, w (ix2 b (0 : Fin 1)) = View.canon L (ix2 b (⟨j, hj⟩ : Fin C)) + T ⟨j, hj⟩ b) :
    ∀ y, View.canon ((⟨colRect (A := A) (C := C) o inb, w⟩ : View.Piece (Elt Ideal) ⟨2, ![A, C]⟩ .f32) :: L) y = accUpto Z T (j + 1) y := by
  intro y
  obtain ⟨b, k, rfl⟩ : ∃ (b : Fin A) (k : Fin C), y = ix2 b k := ⟨y 0, y 1, eq_ix2 y⟩
  by_cases hk : k.val = j
  · obtain rfl : k = ⟨j, hj⟩ := Fin.ext hk
    rw [← col_emb o ⟨j, hj⟩ ho inb b 0, View.canon_cons_emb, hW b, hL, col_emb o ⟨j, hj⟩ ho inb b 0, accUpto_ix2, accUpto_ix2,
      if_neg (Nat.lt_irrefl j), if_pos (Nat.lt_succ_self j)]
  · rw [View.canon_cons_of_not_mem (⟨colRect (A := A) (C := C) o inb, w⟩ : View.Piece (Elt Ideal) ⟨2, ![A, C]⟩ .f32) L
        (not_mem_col o inb b k (by omega)), hL, accUpto_ix2, accUpto_ix2]
    by_cases hlt : k.val < j
    · rw [if_pos hlt, if_pos (Nat.lt_succ_of_lt hlt)]
    · rw [if_neg hlt, if_neg (by omega)]

-- chain_step with the column's earlier value given as the read of the earlier writes.
theorem chain_step_ld {sig : RefSig} {κ : Kind} {sp : Space} {v : View sig κ sp ⟨2, ![A, C]⟩ .f32}
    {Z : (⟨2, ![A, C]⟩ : Shape).Idx → EReal} {T : Fin C → Fin A → EReal} (j : Nat) (hj : j < C) {inb}
    {L : List (View.Piece (Elt Ideal) ⟨2, ![A, C]⟩ .f32)} {w : (colRect (A := A) (C := C) j inb).shape.Idx → EReal}
    (hL : ∀ y, View.canon L y = accUpto Z T j y)
    (hW : ∀ b : Fin A, w (ix2 b (0 : Fin 1)) = v.readCov L (colRect (A := A) (C := C) j inb).toLoadRect (ix2 b (0 : Fin 1)) + T ⟨j, hj⟩ b) :
    ∀ y, View.canon ((⟨colRect (A := A) (C := C) j inb, w⟩ : View.Piece (Elt Ideal) ⟨2, ![A, C]⟩ .f32) :: L) y = accUpto Z T (j + 1) y :=
  chain_step Z T j hj j rfl inb L w hL fun b =>
    (hW b).trans (congrArg (· + T ⟨j, hj⟩ b) (readCov_col v L j ⟨j, hj⟩ rfl inb b))

theorem accUpto_zero (Z : (⟨2, ![A, C]⟩ : Shape).Idx → EReal) (T : Fin C → Fin A → EReal) (y : (⟨2, ![A, C]⟩ : Shape).Idx) :
    accUpto Z T 0 y = Z y := if_neg (Nat.not_lt_zero _)

end Cert.V2Chain

end
-- ==== Proof.KI.V2A3.lean ====
import proofs.«413171_j1022202216836_1_alg».proof.Proof.KI.P2Run3
import proofs.«413171_j1022202216836_1_alg».proof.Proof.KI.V2R3
import proofs.«413171_j1022202216836_1_alg».proof.Proof.KI.V2Chain
import Idealize.ShloMosaic.Lib.Pipeline.Value

noncomputable section

namespace Cert.KernelIdeal.Gen.V2A3

open Idealize.ShloMosaic Idealize.ShloMosaic.ValueIdx Idealize.SL.Sem Cert.V2Lib Cert.V2Chain Cert.KernelIdeal.Gen

theorem hz2 : (![0, 0] : Fin 2 → Nat) = fun _ => 0 := funext fun a => by fin_cases a <;> rfl
theorem hz4 : (![0, 0, 0, 0] : Fin 4 → Nat) = fun _ => 0 := funext fun a => by fin_cases a <;> rfl

def TP (x0 : Vec Ideal S8x1x256x1024 .f32) (x1 : Vec Ideal S8x1x256x1024 .i32) (x2 : Vec Ideal S8x16 .f32) (k : Fin 16) (b : Fin 8) : EReal :=
  tilePull x0 x1 (x2 (ix2 b k)) b (Cert.Spec.lab k)

def TC (x1 : Vec Ideal S8x1x256x1024 .i32) (k : Fin 16) (b : Fin 8) : EReal := tileCnt x1 b (Cert.Spec.lab k)

macro "sl_open_A3" : tactic => `(tactic| simp only [kernelRun3_A.sl.cst_110, kernelRun3_A.sl.r, kernelRun3_A.sl.r_1, kernelRun3_A.sl.r_10, kernelRun3_A.sl.r_11, kernelRun3_A.sl.r_12, kernelRun3_A.sl.r_13, kernelRun3_A.sl.r_14, kernelRun3_A.sl.r_15, kernelRun3_A.sl.r_16, kernelRun3_A.sl.r_17, kernelRun3_A.sl.r_18, kernelRun3_A.sl.r_19, kernelRun3_A.sl.r_2, kernelRun3_A.sl.r_20, kernelRun3_A.sl.r_21, kernelRun3_A.sl.r_22, kernelRun3_A.sl.r_23, kernelRun3_A.sl.r_24, kernelRun3_A.sl.r_25, kernelRun3_A.sl.r_26, kernelRun3_A.sl.r_27, kernelRun3_A.sl.r_28, kernelRun3_A.sl.r_29, kernelRun3_A.sl.r_3, kernelRun3_A.sl.r_4, kernelRun3_A.sl.r_5, kernelRun3_A.sl.r_6, kernelRun3_A.sl.r_7, kernelRun3_A.sl.r_8, kernelRun3_A.sl.r_9, kernelRun3_A.sl.v105, kernelRun3_A.sl.v111, kernelRun3_A.sl.v141, kernelRun3_A.sl.v147, kernelRun3_A.sl.v177, kernelRun3_A.sl.v183, kernelRun3_A.sl.v213, kernelRun3_A.sl.v219, kernelRun3_A.sl.v249, kernelRun3_A.sl.v255, kernelRun3_A.sl.v285, kernelRun3_A.sl.v291, kernelRun3_A.sl.v321, kernelRun3_A.sl.v327, kernelRun3_A.sl.v33, kernelRun3_A.sl.v357, kernelRun3_A.sl.v363, kernelRun3_A.sl.v39, kernelRun3_A.sl.v393, kernelRun3_A.sl.v399, kernelRun3_A.sl.v429, kernelRun3_A.sl.v435, kernelRun3_A.sl.v465, kernelRun3_A.sl.v471, kernelRun3_A.sl.v501, kernelRun3_A.sl.v507, kernelRun3_A.sl.v537, kernelRun3_A.sl.v543, kernelRun3_A.sl.v573, kernelRun3_A.sl.v579, kernelRun3_A.sl.v69, kernelRun3_A.sl.v75])

variable (c : Dev nD) (arg2 : Memref sig .tc .vmem S8x1x256x1024 .f32) (harg2 : arg2.IsWhole) (arg3 : Memref sig .tc .vmem S8x1x256x1024 .i32) (harg3 : arg3.IsWhole) (arg4 : Memref sig .tc .vmem S8x16 .f32) (harg4 : arg4.IsWhole) (arg7 arg8 : Memref sig .tc .vmem S8x16 .f32) (x0 : Vec Ideal S8x1x256x1024 .f32) (x1 : Vec Ideal S8x1x256x1024 .i32) (x2 : Vec Ideal S8x16 .f32)

-- Reading a whole array through its full rectangle gives the array.
theorem ld0 : View.readAt (Elt Ideal) arg2.view (Rect.unit ![0, 0, 0, 0] S8x1x256x1024.size inb_S8x1x256x1024_S8x1x256x1024_0_0_0_0).toLoadRect (harg2.unread x0) = x0 := by
  rw [View.readAt_eq_ld, harg2.read_unread, View.ld_unit_zero hz4]

theorem ld1 : View.readAt (Elt Ideal) arg3.view (Rect.unit ![0, 0, 0, 0] S8x1x256x1024.size inb_S8x1x256x1024_S8x1x256x1024_0_0_0_0).toLoadRect (harg3.unread x1) = x1 := by
  rw [View.readAt_eq_ld, harg3.read_unread, View.ld_unit_zero hz4]

theorem ld2 : View.readAt (Elt Ideal) arg4.view (Rect.unit ![0, 0] S8x16.size inb_S8x16_S8x16_0_0).toLoadRect (harg4.unread x2) = x2 := by
  rw [View.readAt_eq_ld, harg4.read_unread, View.ld_unit_zero hz2]

-- Column k's write adds class k's tile term to the column's earlier value: one chain step a class, the terms first stated over the arrays as read.
theorem E0_15 : ∀ y, View.canon (kernelRun3_A.sl.HS0_16 (F := Ideal) c arg2 harg2 arg3 harg3 arg4 harg4 arg7 x0 x1 x2) y = accUpto (A := 8) (C := 16) (fun _ => 0) (TP x0 x1 x2) 15 y := by
  rw [← show TP _ _ _ = TP x0 x1 x2 from congr (congr (congrArg TP (ld0 arg2 harg2 x0)) (ld1 arg3 harg3 x1)) (ld2 arg4 harg4 x2)]
  refine chain_step_ld 14 (by decide) ?_ fun b => V2R3.pull_14 _ _ _ _ b
  refine chain_step_ld 13 (by decide) ?_ fun b => V2R3.pull_13 _ _ _ _ b
  refine chain_step_ld 12 (by decide) ?_ fun b => V2R3.pull_12 _ _ _ _ b
  refine chain_step_ld 11 (by decide) ?_ fun b => V2R3.pull_11 _ _ _ _ b
  refine chain_step_ld 10 (by decide) ?_ fun b => V2R3.pull_10 _ _ _ _ b
  refine chain_step_ld 9 (by decide) ?_ fun b => V2R3.pull_9 _ _ _ _ b
  refine chain_step_ld 8 (by decide) ?_ fun b => V2R3.pull_8 _ _ _ _ b
  refine chain_step_ld 7 (by decide) ?_ fun b => V2R3.pull_7 _ _ _ _ b
  refine chain_step_ld 6 (by decide) ?_ fun b => V2R3.pull_6 _ _ _ _ b
  refine chain_step_ld 5 (by decide) ?_ fun b => V2R3.pull_5 _ _ _ _ b
  refine chain_step_ld 4 (by decide) ?_ fun b => V2R3.pull_4 _ _ _ _ b
  refine chain_step_ld 3 (by decide) ?_ fun b => V2R3.pull_3 _ _ _ _ b
  refine chain_step_ld 2 (by decide) ?_ fun b => V2R3.pull_2 _ _ _ _ b
  refine chain_step_ld 1 (by decide) ?_ fun b => V2R3.pull_1 _ _ _ _ b
  refine chain_step_ld 0 (by decide) ?_ fun b => V2R3.pull_0 _ _ _ _ b
  intro y
  rw [accUpto_zero]
  exact (congrFun (View.canon_unit_zero hz2 _ _) y).trans (V2R3.init_pull y)

theorem E1_15 : ∀ y, View.canon (kernelRun3_A.sl.HS1_16 (F := Ideal) c arg3 harg3 arg8 x1) y = accUpto (A := 8) (C := 16) (fun _ => 0) (TC x1) 15 y := by
  rw [← show TC _ = TC x1 from congrArg TC (ld1 arg3 harg3 x1)]
  refine chain_step_ld 14 (by decide) ?_ fun b => V2R3.cnt_14 _ _ b
  refine chain_step_ld 13 (by decide) ?_ fun b => V2R3.cnt_13 _ _ b
  refine chain_step_ld 12 (by decide) ?_ fun b => V2R3.cnt_12 _ _ b
  refine chain_step_ld 11 (by decide) ?_ fun b => V2R3.cnt_11 _ _ b
  refine chain_step_ld 10 (by decide) ?_ fun b => V2R3.cnt_10 _ _ b
  refine chain_step_ld 9 (by decide) ?_ fun b => V2R3.cnt_9 _ _ b
  refine chain_step_ld 8 (by decide) ?_ fun b => V2R3.cnt_8 _ _ b
  refine chain_step_ld 7 (by decide) ?_ fun b => V2R3.cnt_7 _ _ b
  refine chain_step_ld 6 (by decide) ?_ fun b => V2R3.cnt_6 _ _ b
  refine chain_step_ld 5 (by decide) ?_ fun b => V2R3.cnt_5 _ _ b
  refine chain_step_ld 4 (by decide) ?_ fun b => V2R3.cnt_4 _ _ b
  refine chain_step_ld 3 (by decide) ?_ fun b => V2R3.cnt_3 _ _ b
  refine chain_step_ld 2 (by decide) ?_ fun b => V2R3.cnt_2 _ _ b
  refine chain_step_ld 1 (by decide) ?_ fun b => V2R3.cnt_1 _ _ b
  refine chain_step_ld 0 (by decide) ?_ fun b => V2R3.cnt_0 _ _ b
  intro y
  rw [accUpto_zero]
  exact (congrFun (View.canon_unit_zero hz2 _ _) y).trans (V2R3.init_cnt y)

end Cert.KernelIdeal.Gen.V2A3

end
-- ==== Proof.KI.V2Cases3.lean ====
import proofs.«413171_j1022202216836_1_alg».proof.Proof.KI.R3Dat
import proofs.«413171_j1022202216836_1_alg».proof.Proof.KI.V2A3
import Idealize.ShloMosaic.Lib.Pipeline.Value
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.V2Lib Cert.V2Chain

variable (V : (c : Dev nD) → (b : Ref sig .tc) → Buf (Elt Ideal) ((c : Thread nD τ).loc b))

abbrev xb3 (c : Dev nD) (t : Fin cfg3.N) : Vec Ideal S8x1x256x1024 .f32 := iblk3 V c 0 t
abbrev gb3 (c : Dev nD) (t : Fin cfg3.N) : Vec Ideal S8x1x256x1024 .i32 := iblk3 V c 1 t
abbrev mb3 (c : Dev nD) (t : Fin cfg3.N) : Vec Ideal S8x16 .f32 := iblk3 V c 2 t

theorem read_unread_sc3_0 (h : scM3_0.IsWhole) (X : Vec Ideal S8x16 .f32) :
    View.read (Elt Ideal) (View.whole cc3_scratch0) (h.unread X) = X := h.read_unread X
theorem read_unread_sc3_1 (h : scM3_1.IsWhole) (X : Vec Ideal S8x16 .f32) :
    View.read (Elt Ideal) (View.whole cc3_scratch1) (h.unread X) = X := h.read_unread X

-- One more column piece agrees with `accUpto xs T 16` when its payload is the column read from `xs` plus class k's term.
private theorem cons_acc {xs : (⟨2, ![8, 16]⟩ : Shape).Idx → EReal} {T : Fin 16 → Fin 8 → EReal} {o : Nat} {inb}
    {w : (colRect (A := 8) (C := 16) o inb).shape.Idx → EReal} {L : List (View.Piece (Elt Ideal) ⟨2, ![8, 16]⟩ .f32)}
    (k : Fin 16) (ho : o = k.val)
    (hw : ∀ b : Fin 8, w (ix2 b (0 : Fin 1)) = View.ld (Val := Elt Ideal) (e' := .f32) xs (colRect o inb) (ix2 b (0 : Fin 1)) + T k b)
    (hL : ∀ p ∈ L, ∀ x : p.1.shape.Idx, p.2 x = accUpto xs T 16 (p.1.emb x)) :
    ∀ p ∈ (⟨colRect o inb, w⟩ : View.Piece (Elt Ideal) ⟨2, ![8, 16]⟩ .f32) :: L, ∀ x : p.1.shape.Idx, p.2 x = accUpto xs T 16 (p.1.emb x) :=
  List.forall_mem_cons.2 ⟨piece_of_col _ o k ho inb w fun b =>
    (hw b).trans ((congrArg (· + T k b) (ld_col xs o k ho inb b)).trans (accUpto_full xs T b k).symm), hL⟩

theorem soutA3_0 (c : Dev nD) (t : Fin cfg3.N) (h0 : t.val % 4 = 0) (h1 : ¬t.val % 4 = 3) (b : Fin 8) (k : Fin 16) :
    sout3_A_0 (F := Ideal) V c t h0 h1 (ix2 b k)
      = 0 + tilePull (xb3 V c t) (gb3 V c t) (mb3 V c t (ix2 b k)) b (Cert.Spec.lab k) := by
  unfold sout3_A_0
  rw [View.read_writes_junk_eq_canon]
  unfold runA3 kernelRun3_A
  dsimp only
  refine (chain_step (A := 8) (C := 16) (fun _ => 0) (V2A3.TP (xb3 V c t) (gb3 V c t) (mb3 V c t)) 15 (by decide) 15 rfl _ _ _
    (V2A3.E0_15 c (ms3_0 t) (hs3_0 t) (ms3_1 t) (hs3_1 t) (ms3_2 t) (hs3_2 t) scM3_0 (xb3 V c t) (gb3 V c t) (mb3 V c t))
    (fun b => ?_) (ix2 b k)).trans (accUpto_full _ _ b k)
  sl_open_A3
  simp only [View.readAt_eq_ld, Memref.IsWhole.read_unread, View.ld_unit_zero (S := S8x1x256x1024) V2A3.hz4, View.ld_unit_zero (S := S8x16) V2A3.hz2]
  refine (V2R3.pull_15 (xb3 V c t) (gb3 V c t) (mb3 V c t) _ b).trans ?_
  exact congrArg (fun u => u + V2A3.TP (xb3 V c t) (gb3 V c t) (mb3 V c t) ⟨15, by decide⟩ b) (readCov_col _ _ 15 (15 : Fin 16) rfl _ b)

theorem soutA3_1 (c : Dev nD) (t : Fin cfg3.N) (h0 : t.val % 4 = 0) (h1 : ¬t.val % 4 = 3) (b : Fin 8) (k : Fin 16) :
    sout3_A_1 (F := Ideal) V c t h0 h1 (ix2 b k) = 0 + tileCnt (gb3 V c t) b (Cert.Spec.lab k) := by
  unfold sout3_A_1
  rw [View.read_writes_junk_eq_canon]
  unfold runA3 kernelRun3_A
  dsimp only
  refine (chain_step (A := 8) (C := 16) (fun _ => 0) (V2A3.TC (gb3 V c t)) 15 (by decide) 15 rfl _ _ _
    (V2A3.E1_15 c (ms3_1 t) (hs3_1 t) scM3_1 (gb3 V c t))
    (fun b => ?_) (ix2 b k)).trans (accUpto_full _ _ b k)
  sl_open_A3
  simp only [View.readAt_eq_ld, Memref.IsWhole.read_unread, View.ld_unit_zero (S := S8x1x256x1024) V2A3.hz4]
  refine (V2R3.cnt_15 (gb3 V c t) _ b).trans ?_
  exact congrArg (fun u => u + V2A3.TC (gb3 V c t) ⟨15, by decide⟩ b) (readCov_col _ _ 15 (15 : Fin 16) rfl _ b)

-- The middle and the last tile alike: the pull accumulator is what it held plus the tile's pull sums, class by class.
private theorem soutBC3_0 (c : Dev nD) (t : Fin cfg3.N) (h0 : ¬t.val % 4 = 0) (xs0 xs1 : Vec Ideal S8x16 .f32) (b : Fin 8) (k : Fin 16) :
    (∀ h1, sout3_B_0 (F := Ideal) V c t h0 h1 xs0 xs1 (ix2 b k) = xs0 (ix2 b k) + V2A3.TP (xb3 V c t) (gb3 V c t) (mb3 V c t) k b) ∧
    ∀ h1, sout3_C_0 (F := Ideal) V c t h0 h1 xs0 xs1 (ix2 b k) = xs0 (ix2 b k) + V2A3.TP (xb3 V c t) (gb3 V c t) (mb3 V c t) k b := by
  refine ⟨fun h1 => ?_, fun h1 => ?_⟩
  all_goals
    first | unfold sout3_B_0 | unfold sout3_C_0
    rw [View.read_writes_junk_eq_canon]
    refine (View.canon_apply_of_pieces (accUpto (A := 8) (C := 16) xs0 (V2A3.TP (xb3 V c t) (gb3 V c t) (mb3 V c t)) 16) _ ?_ (ix2 b k)
      (by first | exact scover3_B_0 V c t h0 h1 xs0 xs1 _ | exact scover3_C_0 V c t h0 h1 xs0 xs1 _)).trans (accUpto_full _ _ b k)
    first | unfold runB3 kernelRun3_B | unfold runC3 kernelRun3_C
    dsimp only
    sl_unfold_words
    simp only [View.readAt_eq_ld, Memref.IsWhole.read_unread, read_unread_sc3_0, read_unread_sc3_1, View.ld_unit_zero (S := S8x1x256x1024) V2A3.hz4, View.ld_unit_zero (S := S8x16) V2A3.hz2]
    refine cons_acc 15 rfl (V2R3.pull_15 _ _ _ _) ?_
    refine cons_acc 14 rfl (V2R3.pull_14 _ _ _ _) ?_
    refine cons_acc 13 rfl (V2R3.pull_13 _ _ _ _) ?_
    refine cons_acc 12 rfl (V2R3.pull_12 _ _ _ _) ?_
    refine cons_acc 11 rfl (V2R3.pull_11 _ _ _ _) ?_
    refine cons_acc 10 rfl (V2R3.pull_10 _ _ _ _) ?_
    refine cons_acc 9 rfl (V2R3.pull_9 _ _ _ _) ?_
    refine cons_acc 8 rfl (V2R3.pull_8 _ _ _ _) ?_
    refine cons_acc 7 rfl (V2R3.pull_7 _ _ _ _) ?_
    refine cons_acc 6 rfl (V2R3.pull_6 _ _ _ _) ?_
    refine cons_acc 5 rfl (V2R3.pull_5 _ _ _ _) ?_
    refine cons_acc 4 rfl (V2R3.pull_4 _ _ _ _) ?_
    refine cons_acc 3 rfl (V2R3.pull_3 _ _ _ _) ?_
    refine cons_acc 2 rfl (V2R3.pull_2 _ _ _ _) ?_
    refine cons_acc 1 rfl (V2R3.pull_1 _ _ _ _) ?_
    refine cons_acc 0 rfl (V2R3.pull_0 _ _ _ _) ?_
    exact fun _ h => absurd h List.not_mem_nil

theorem soutB3_0 (c : Dev nD) (t : Fin cfg3.N) (h0 : ¬t.val % 4 = 0) (h1 : ¬t.val % 4 = 3) (xs0 xs1 : Vec Ideal S8x16 .f32) (b : Fin 8) (k : Fin 16) :
    sout3_B_0 (F := Ideal) V c t h0 h1 xs0 xs1 (ix2 b k)
      = xs0 (ix2 b k) + tilePull (xb3 V c t) (gb3 V c t) (mb3 V c t (ix2 b k)) b (Cert.Spec.lab k) :=
  (soutBC3_0 V c t h0 xs0 xs1 b k).1 h1

-- The middle and the last tile alike: the count accumulator is what it held plus the tile's counts, class by class.
private theorem soutBC3_1 (c : Dev nD) (t : Fin cfg3.N) (h0 : ¬t.val % 4 = 0) (xs0 xs1 : Vec Ideal S8x16 .f32) (b : Fin 8) (k : Fin 16) :
    (∀ h1, sout3_B_1 (F := Ideal) V c t h0 h1 xs0 xs1 (ix2 b k) = xs1 (ix2 b k) + V2A3.TC (gb3 V c t) k b) ∧
    ∀ h1, sout3_C_1 (F := Ideal) V c t h0 h1 xs0 xs1 (ix2 b k) = xs1 (ix2 b k) + V2A3.TC (gb3 V c t) k b := by
  refine ⟨fun h1 => ?_, fun h1 => ?_⟩
  all_goals
    first | unfold sout3_B_1 | unfold sout3_C_1
    rw [View.read_writes_junk_eq_canon]
    refine (View.canon_apply_of_pieces (accUpto (A := 8) (C := 16) xs1 (V2A3.TC (gb3 V c t)) 16) _ ?_ (ix2 b k)
      (by first | exact scover3_B_1 V c t h0 h1 xs0 xs1 _ | exact scover3_C_1 V c t h0 h1 xs0 xs1 _)).trans (accUpto_full _ _ b k)
    first | unfold runB3 kernelRun3_B | unfold runC3 kernelRun3_C
    dsimp only
    sl_unfold_words
    simp only [View.readAt_eq_ld, Memref.IsWhole.read_unread, read_unread_sc3_0, read_unread_sc3_1, View.ld_unit_zero (S := S8x1x256x1024) V2A3.hz4, View.ld_unit_zero (S := S8x16) V2A3.hz2]
    refine cons_acc 15 rfl (V2R3.cnt_15 _ _) ?_
    refine cons_acc 14 rfl (V2R3.cnt_14 _ _) ?_
    refine cons_acc 13 rfl (V2R3.cnt_13 _ _) ?_
    refine cons_acc 12 rfl (V2R3.cnt_12 _ _) ?_
    refine cons_acc 11 rfl (V2R3.cnt_11 _ _) ?_
    refine cons_acc 10 rfl (V2R3.cnt_10 _ _) ?_
    refine cons_acc 9 rfl (V2R3.cnt_9 _ _) ?_
    refine cons_acc 8 rfl (V2R3.cnt_8 _ _) ?_
    refine cons_acc 7 rfl (V2R3.cnt_7 _ _) ?_
    refine cons_acc 6 rfl (V2R3.cnt_6 _ _) ?_
    refine cons_acc 5 rfl (V2R3.cnt_5 _ _) ?_
    refine cons_acc 4 rfl (V2R3.cnt_4 _ _) ?_
    refine cons_acc 3 rfl (V2R3.cnt_3 _ _) ?_
    refine cons_acc 2 rfl (V2R3.cnt_2 _ _) ?_
    refine cons_acc 1 rfl (V2R3.cnt_1 _ _) ?_
    refine cons_acc 0 rfl (V2R3.cnt_0 _ _) ?_
    exact fun _ h => absurd h List.not_mem_nil

theorem soutB3_1 (c : Dev nD) (t : Fin cfg3.N) (h0 : ¬t.val % 4 = 0) (h1 : ¬t.val % 4 = 3) (xs0 xs1 : Vec Ideal S8x16 .f32) (b : Fin 8) (k : Fin 16) :
    sout3_B_1 (F := Ideal) V c t h0 h1 xs0 xs1 (ix2 b k) = xs1 (ix2 b k) + tileCnt (gb3 V c t) b (Cert.Spec.lab k) :=
  (soutBC3_1 V c t h0 xs0 xs1 b k).1 h1

theorem soutC3_0 (c : Dev nD) (t : Fin cfg3.N) (h0 : ¬t.val % 4 = 0) (h1 : t.val % 4 = 3) (xs0 xs1 : Vec Ideal S8x16 .f32) (b : Fin 8) (k : Fin 16) :
    sout3_C_0 (F := Ideal) V c t h0 h1 xs0 xs1 (ix2 b k)
      = xs0 (ix2 b k) + tilePull (xb3 V c t) (gb3 V c t) (mb3 V c t (ix2 b k)) b (Cert.Spec.lab k) :=
  (soutBC3_0 V c t h0 xs0 xs1 b k).2 h1

theorem soutC3_1 (c : Dev nD) (t : Fin cfg3.N) (h0 : ¬t.val % 4 = 0) (h1 : t.val % 4 = 3) (xs0 xs1 : Vec Ideal S8x16 .f32) (b : Fin 8) (k : Fin 16) :
    sout3_C_1 (F := Ideal) V c t h0 h1 xs0 xs1 (ix2 b k) = xs1 (ix2 b k) + tileCnt (gb3 V c t) b (Cert.Spec.lab k) :=
  (soutBC3_1 V c t h0 xs0 xs1 b k).2 h1

theorem outC3_3 (c : Dev nD) (t : Fin cfg3.N) (h0 : ¬t.val % 4 = 0) (h1 : t.val % 4 = 3) (xs0 xs1 : Vec Ideal S8x16 .f32) :
    out3_C_3 (F := Ideal) V c t h0 h1 xs0 xs1 = sout3_C_0 (F := Ideal) V c t h0 h1 xs0 xs1 := by
  unfold out3_C_3 sout3_C_0
  rw [View.read_writes_junk_eq_canon, View.read_writes_junk_eq_canon]
  unfold runC3 kernelRun3_C
  dsimp only
  rw [View.canon_unit_zero V2A3.hz2]
  unfold kernelRun3_C.sl.v588
  rw [View.readCov_eq_canon']
  exact View.ld_unit_zero V2A3.hz2 _ _

theorem outC3_4 (c : Dev nD) (t : Fin cfg3.N) (h0 : ¬t.val % 4 = 0) (h1 : t.val % 4 = 3) (xs0 xs1 : Vec Ideal S8x16 .f32) :
    out3_C_4 (F := Ideal) V c t h0 h1 xs0 xs1 = sout3_C_1 (F := Ideal) V c t h0 h1 xs0 xs1 := by
  unfold out3_C_4 sout3_C_1
  rw [View.read_writes_junk_eq_canon, View.read_writes_junk_eq_canon]
  unfold runC3 kernelRun3_C
  dsimp only
  rw [View.canon_unit_zero V2A3.hz2]
  unfold kernelRun3_C.sl.v590
  rw [View.readCov_eq_canon']
  exact View.ld_unit_zero V2A3.hz2 _ _

end Cert.KernelIdeal.Gen

end
-- ==== Proof.KI.V2Run.lean ====
import Idealize.ShloMosaic.Lib.Pipeline.Value

namespace Cert.V2Run

open Idealize.ShloMosaic

/-- A quantity that restarts as `0 + τ` at the multiples of `J` and elsewhere adds `τ` to its value at the point before is, `j < J` points into a run, the sum of `τ` over the run so far. -/
theorem sum_run {M : Type*} [AddCommMonoid M] {N : ℕ} (f : (n : ℕ) → n < N → M) (τ : Fin N → M) (J : ℕ)
    (h0 : ∀ (n : ℕ) (h : n < N), n % J = 0 → f n h = 0 + τ ⟨n, h⟩)
    (hs : ∀ (n : ℕ) (h : n + 1 < N), ¬(n + 1) % J = 0 → f (n + 1) h = f n (Nat.lt_of_succ_lt h) + τ ⟨n + 1, h⟩)
    (q j : ℕ) (hj : j < J) (h : J * q + j < N) :
    f (J * q + j) h = ∑ i : Fin (j + 1), τ ⟨J * q + i.val, by omega⟩ := by
  rw [Pipeline.eq_accAt f J (fun n h => 0 + τ ⟨n, h⟩) (fun n h x => x + τ ⟨n, h⟩) h0 hs q j hj h]
  induction j with
  | zero => rw [Fin.sum_univ_castSucc, Fin.sum_univ_zero]; rfl
  | succ j ih =>
    rw [Fin.sum_univ_castSucc]
    exact congrArg (· + τ ⟨J * q + (j + 1), h⟩) (ih (Nat.lt_of_succ_lt hj) (Nat.lt_of_succ_lt h))

end Cert.V2Run
-- ==== Proof.KI.V2Blk3.lean ====
import proofs.«413171_j1022202216836_1_alg».proof.Proof.KI.R3Dat
import proofs.«413171_j1022202216836_1_alg».proof.Proof.KI.V2Lib
import proofs.«413171_j1022202216836_1_alg».proof.Proof.KI.V2Run

noncomputable section

namespace Cert.KernelIdeal.Gen

open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev xblk3 (c : Dev nD) (t : Fin cfg3.N) : Vec Ideal S8x1x256x1024 .f32 := iblk3 V c 0 t
abbrev gblk3 (c : Dev nD) (t : Fin cfg3.N) : Vec Ideal S8x1x256x1024 .i32 := iblk3 V c 1 t
abbrev mblk3 (c : Dev nD) (t : Fin cfg3.N) : Vec Ideal S8x16 .f32 := iblk3 V c 2 t
abbrev farr3 (c : Dev nD) : Vec Ideal S16x1x1024x1024 .f32 := V c main_arg0
abbrev garr3 (c : Dev nD) : Vec Ideal S16x1x1024x1024 .i32 := V c main_arg3
abbrev marr3 (c : Dev nD) : Vec Ideal S16x16 .f32 := V c main_v9

def pt3 (q : Fin 2) (i : Fin 4) : Fin cfg3.N := ⟨4 * q.val + i.val, by rw [show cfg3.N = 8 from N_3]; omega⟩
def brow3 (q : Fin 2) (b : Fin 8) : Fin 16 := ⟨8 * q.val + b.val, by omega⟩

theorem index3_0 : ∀ (q : Fin 2) (i : Fin 4), win3_0.index (pt3 q i) 0 = q.val ∧ win3_0.index (pt3 q i) 1 = 0
    ∧ win3_0.index (pt3 q i) 2 = i.val ∧ win3_0.index (pt3 q i) 3 = 0 := by decide
theorem index3_2 : ∀ (q : Fin 2) (i : Fin 4), win3_2.index (pt3 q i) 0 = q.val ∧ win3_2.index (pt3 q i) 1 = 0 := by decide

/-- At row tile `i` of batch chunk `q` a map's block sits at batch rows 8·q … and map rows 256·i … of the map. -/
theorem emb3_in (q : Fin 2) (i : Fin 4) (b : Fin 8) (r : Fin 256) (w : Fin 1024) :
    (win3_0.rect (pt3 q i)).emb (ix4 b 0 r w) = ix4 (brow3 q b) 0 (LibTileSum.row i r) w := by
  obtain ⟨i0, i1, i2, i3⟩ := index3_0 q i
  funext a
  apply Fin.ext
  match a with
  | ⟨0, _⟩ => show win3_0.index (pt3 q i) 0 * 8 + 1 * b.val = 8 * q.val + b.val; rw [i0]; omega
  | ⟨1, _⟩ => show win3_0.index (pt3 q i) 1 * 1 + 1 * 0 = 0; rw [i1]
  | ⟨2, _⟩ => show win3_0.index (pt3 q i) 2 * 256 + 1 * r.val = i.val * 256 + r.val; rw [i2]; omega
  | ⟨3, _⟩ => show win3_0.index (pt3 q i) 3 * 1024 + 1 * w.val = w.val; rw [i3]; omega

/-- The [8, 16] blocks (the centres', the two results') sit at batch rows 8·q … of their [16, 16] arrays. -/
theorem emb3_o (q : Fin 2) (i : Fin 4) (y : S8x16.Idx) : (win3_2.rect (pt3 q i)).emb y = ix2 (brow3 q (y 0)) (y 1) := by
  obtain ⟨i0, i1⟩ := index3_2 q i
  refine Shape.idx_ext₂ ?_ ?_
  · show win3_2.index (pt3 q i) 0 * 8 + 1 * (y 0).val = 8 * q.val + (y 0).val; rw [i0]; omega
  · show win3_2.index (pt3 q i) 1 * 16 + 1 * (y 1).val = (y 1).val; rw [i1]; omega

/-- A block that holds, at (b, k), the map `G` at (8·q + b, k) is `G`'s block at the chunk's last tile. -/
theorem blockOf3 (o : Vec Ideal S8x16 .f32) (G : Vec Ideal S16x16 .f32) (q : Fin 2)
    (h : ∀ b k, o (ix2 b k) = G (ix2 (brow3 q b) k)) (y : S8x16.Idx) : o y = G ((win3_2.rect (pt3 q 3)).emb y) :=
  (congrArg o (eq_ix2 y)).trans ((h (y 0) (y 1)).trans (congrArg G (emb3_o q 3 y)).symm)

theorem mblk3_chunk (c : Dev nD) (q : Fin 2) (i : Fin 4) (b : Fin 8) (k : Fin 16) :
    mblk3 V c (pt3 q i) (ix2 b k) = V c main_v9 (ix2 (brow3 q b) k) :=
  congrArg (V c main_v9) (emb3_o q i (ix2 b k))

/-- The tiles of batch chunk `q` add up to batch row 8·q + b's segment sum of hinged squared distances from any centre `μ`, -/
theorem tiles3_pull (c : Dev nD) (q : Fin 2) (b : Fin 8) (k : Fin 16) (μ : EReal) :
    ∑ i : Fin 4, Cert.V2Lib.tilePull (xblk3 V c (pt3 q i)) (gblk3 V c (pt3 q i)) μ b (Spec.lab k)
      = Spec.segPull (V c main_arg0) (V c main_arg3) μ (brow3 q b) k :=
  Cert.V2Lib.sum_tilePull (A := 8) (R := 256) (W := 1024) (n := 4) (farr3 V c) (garr3 V c) μ (brow3 q b) k
    (fun i => xblk3 V c (pt3 q i)) (fun i => gblk3 V c (pt3 q i)) b
    (fun i r w => congrArg (farr3 V c) (emb3_in q i b r w)) (fun i r w => congrArg (garr3 V c) (emb3_in q i b r w))

/-- and to its segment count. -/
theorem tiles3_cnt (c : Dev nD) (q : Fin 2) (b : Fin 8) (k : Fin 16) :
    ∑ i : Fin 4, Cert.V2Lib.tileCnt (gblk3 V c (pt3 q i)) b (Spec.lab k) = Spec.segCnt (V c main_arg3) (brow3 q b) k :=
  Cert.V2Lib.sum_tileCnt (A := 8) (R := 256) (W := 1024) (n := 4) (garr3 V c) (brow3 q b) k
    (fun i => gblk3 V c (pt3 q i)) b (fun i r w => congrArg (garr3 V c) (emb3_in q i b r w))

end Cert.KernelIdeal.Gen

end
-- ==== Proof.KI.V2Val3.lean ====
import proofs.«413171_j1022202216836_1_alg».proof.Proof.KI.V2Cases3
import proofs.«413171_j1022202216836_1_alg».proof.Proof.KI.V2Blk3

noncomputable section

namespace Cert.KernelIdeal.Gen

open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

def tP3 (c : Dev nD) (t : Fin cfg3.N) (b : Fin 8) (k : Fin 16) : EReal :=
  Cert.V2Lib.tilePull (xblk3 V c t) (gblk3 V c t) (mblk3 V c t (ix2 b k)) b (Spec.lab k)
def tC3 (c : Dev nD) (t : Fin cfg3.N) (b : Fin 8) (k : Fin 16) : EReal :=
  Cert.V2Lib.tileCnt (gblk3 V c t) b (Spec.lab k)

theorem last3 (q : Fin 2) : (pt3 q 3).val % 4 = 3 ∧ ¬(pt3 q 3).val % 4 = 0 := by
  constructor
  · show (4 * q.val + 3) % 4 = 3; omega
  · show ¬(4 * q.val + 3) % 4 = 0; omega

/-- Each accumulator restarts at a chunk's first tile and adds the tile's term at the others, so at the last tile it holds the chunk's total: the hinged sums, -/
theorem scr3_0_last (c : Dev nD) (q : Fin 2) (b : Fin 8) (k : Fin 16) :
    (outsAt3 V c (pt3 q 3).val (pt3 q 3).isLt).2.2.1 (ix2 b k) = ∑ i : Fin 4, tP3 V c (pt3 q i) b k :=
  Cert.V2Run.sum_run (J := 4) (fun n h => (outsAt3 V c n h).2.2.1 (ix2 b k)) (fun t => tP3 V c t b k)
    (fun n h h0 => by
      have h1 : ¬n % 4 = 3 := by omega
      rw [outsAt3_A V c ⟨n, h⟩ h0 h1]
      exact soutA3_0 V c ⟨n, h⟩ h0 h1 b k)
    (fun n h h0 => by
      by_cases h1 : (n + 1) % 4 = 3
      · rw [outsAt3_C V c ⟨n + 1, h⟩ h0 h1]
        exact soutC3_0 V c ⟨n + 1, h⟩ h0 h1 _ (prev3_1 V c ⟨n + 1, h⟩) b k
      · rw [outsAt3_B V c ⟨n + 1, h⟩ h0 h1]
        exact soutB3_0 V c ⟨n + 1, h⟩ h0 h1 _ (prev3_1 V c ⟨n + 1, h⟩) b k)
    q.val 3 (by omega) (pt3 q 3).isLt

/-- and the counts. -/
theorem scr3_1_last (c : Dev nD) (q : Fin 2) (b : Fin 8) (k : Fin 16) :
    (outsAt3 V c (pt3 q 3).val (pt3 q 3).isLt).2.2.2 (ix2 b k) = ∑ i : Fin 4, tC3 V c (pt3 q i) b k :=
  Cert.V2Run.sum_run (J := 4) (fun n h => (outsAt3 V c n h).2.2.2 (ix2 b k)) (fun t => tC3 V c t b k)
    (fun n h h0 => by
      have h1 : ¬n % 4 = 3 := by omega
      rw [outsAt3_A V c ⟨n, h⟩ h0 h1]
      exact soutA3_1 V c ⟨n, h⟩ h0 h1 b k)
    (fun n h h0 => by
      by_cases h1 : (n + 1) % 4 = 3
      · rw [outsAt3_C V c ⟨n + 1, h⟩ h0 h1]
        exact soutC3_1 V c ⟨n + 1, h⟩ h0 h1 (prev3_0 V c ⟨n + 1, h⟩) _ b k
      · rw [outsAt3_B V c ⟨n + 1, h⟩ h0 h1]
        exact soutB3_1 V c ⟨n + 1, h⟩ h0 h1 (prev3_0 V c ⟨n + 1, h⟩) _ b k)
    q.val 3 (by omega) (pt3 q 3).isLt

def G3p (c : Dev nD) : Vec Ideal S16x16 .f32 :=
  fun i => Spec.segPull (V c main_arg0) (V c main_arg3) (marr3 V c i) (i 0) (i 1)
def G3c (c : Dev nD) : Vec Ideal S16x16 .f32 := fun i => Spec.segCnt (V c main_arg3) (i 0) (i 1)

/-- At the last tile the outputs equal the accumulators; the centre block is the same at every tile of the chunk, so the totals are the whole rows' segment sums from their own centres, -/
theorem out3_3_last (c : Dev nD) (q : Fin 2) (b : Fin 8) (k : Fin 16) :
    (outsAt3 V c (pt3 q 3).val (pt3 q 3).isLt).1 (ix2 b k) = G3p V c (ix2 (brow3 q b) k) := by
  obtain ⟨h1, h0⟩ := last3 q
  have e : (outsAt3 V c (pt3 q 3).val (pt3 q 3).isLt).1 = (outsAt3 V c (pt3 q 3).val (pt3 q 3).isLt).2.2.1 := by
    rw [outsAt3_C V c (pt3 q 3) h0 h1]
    exact outC3_3 V c (pt3 q 3) h0 h1 (prev3_0 V c (pt3 q 3)) (prev3_1 V c (pt3 q 3))
  rw [e, scr3_0_last V c q b k]
  exact (Finset.sum_congr rfl fun i _ => by unfold tP3; rw [mblk3_chunk V c q i b k]).trans (tiles3_pull V c q b k _)

/-- and segment counts. -/
theorem out3_4_last (c : Dev nD) (q : Fin 2) (b : Fin 8) (k : Fin 16) :
    (outsAt3 V c (pt3 q 3).val (pt3 q 3).isLt).2.1 (ix2 b k) = G3c V c (ix2 (brow3 q b) k) := by
  obtain ⟨h1, h0⟩ := last3 q
  have e : (outsAt3 V c (pt3 q 3).val (pt3 q 3).isLt).2.1 = (outsAt3 V c (pt3 q 3).val (pt3 q 3).isLt).2.2.2 := by
    rw [outsAt3_C V c (pt3 q 3) h0 h1]
    exact outC3_4 V c (pt3 q 3) h0 h1 (prev3_0 V c (pt3 q 3)) (prev3_1 V c (pt3 q 3))
  rw [e, scr3_1_last V c q b k]
  exact tiles3_cnt V c q b k

theorem exists_pt3_of_last (t : Fin cfg3.N) (hl : t.val % 4 = 3) : ∃ q : Fin 2, t = pt3 q 3 := by
  have hN : cfg3.N = 8 := N_3
  have := t.isLt
  exact ⟨⟨t.val / 4, by omega⟩, Fin.ext (by show t.val = 4 * (t.val / 4) + 3; omega)⟩

/-- The block flushed at a chunk's last tile is that tile's block of the map of results. -/
theorem flushed3_3 (c : Dev nD) (t : Fin cfg3.N) (hf : (cfg3.win 3).flush t = true) :
    (dat3 V c).flushed 3 t = ((cfg3.win 3).blk t).view.read (Elt Ideal) (G3p V c) := by
  obtain ⟨q, rfl⟩ := exists_pt3_of_last t ((flush3_3 t).mp hf)
  exact funext (blockOf3 _ (G3p V c) q (out3_3_last V c q))
theorem flushed3_4 (c : Dev nD) (t : Fin cfg3.N) (hf : (cfg3.win 4).flush t = true) :
    (dat3 V c).flushed 4 t = ((cfg3.win 4).blk t).view.read (Elt Ideal) (G3c V c) := by
  obtain ⟨q, rfl⟩ := exists_pt3_of_last t ((flush3_4 t).mp hf)
  exact funext (blockOf3 _ (G3c V c) q (out3_4_last V c q))

/-- Every index of a result array lies in the block of its batch chunk's last tile. -/
theorem cover3_3 (c : Dev nD) (i : ((cfg3.win 3).arr.view.loc (c.tc : Thread nD τ)).2.ty.Idx) :
    ∃ t : Fin cfg3.N, (cfg3.win 3).flush t = true ∧ i ∈ ((cfg3.win 3).blk t).view.set := by
  have h0 : (i 0 : ℕ) < 16 := (i 0).isLt
  obtain ⟨q, hq⟩ : ∃ q : Fin 2, q.val = (i 0 : ℕ) / 8 := ⟨⟨(i 0 : ℕ) / 8, by omega⟩, rfl⟩
  refine ⟨pt3 q 3, (flush3_3 _).mpr (last3 q).1, ?_⟩
  rw [show i = ((cfg3.win 3).blk (pt3 q 3)).view.emb (ix2 (⟨(i 0 : ℕ) % 8, by omega⟩ : Fin 8) (i 1 : Fin 16)) from
    ((emb3_o q 3 (ix2 (⟨(i 0 : ℕ) % 8, by omega⟩ : Fin 8) (i 1 : Fin 16))).trans
      (Shape.idx_ext₂ (y := i) (by show 8 * q.val + (i 0 : ℕ) % 8 = (i 0 : ℕ); omega) rfl)).symm]
  exact View.emb_mem_set _ _
theorem cover3_4 (c : Dev nD) (i : ((cfg3.win 4).arr.view.loc (c.tc : Thread nD τ)).2.ty.Idx) :
    ∃ t : Fin cfg3.N, (cfg3.win 4).flush t = true ∧ i ∈ ((cfg3.win 4).blk t).view.set :=
  (cover3_3 c i).imp fun t h => ⟨(flush3_4 t).mpr ((flush3_3 t).mp h.1), h.2⟩

theorem pull3 (c : Dev nD) (b k : Fin 16) :
    (dat3 (F := Ideal) V c).arrAt 3 cfg3.N (ix2 b k)
      = Cert.Spec.segPull (V c main_arg0) (V c main_arg3) (V c main_v9 (ix2 b k)) b k :=
  congrFun ((dat3 V c).arrAt_eq_of_cover 3 (G3p V c) (flushed3_3 V c) (cover3_3 c)) (ix2 b k)

theorem pcnt3 (c : Dev nD) (b k : Fin 16) :
    (dat3 (F := Ideal) V c).arrAt 4 cfg3.N (ix2 b k) = Cert.Spec.segCnt (V c main_arg3) b k :=
  congrFun ((dat3 V c).arrAt_eq_of_cover 4 (G3c V c) (flushed3_4 V c) (cover3_4 c)) (ix2 b k)

end Cert.KernelIdeal.Gen

end
-- ==== Proof.KI.V2R4.lean ====
import proofs.«413171_j1022202216836_1_alg».proof.Proof.Gen.KernelIdeal.Skeleton
import proofs.«413171_j1022202216836_1_alg».proof.Proof.KI.V2Lib

noncomputable section

namespace Cert.KernelIdeal.Gen.V2R4

open Idealize.ShloMosaic Idealize.ShloMosaic.ValueIdx Cert.V2Lib Cert.KernelIdeal.Gen

theorem init_pull (j : S8x16.Idx) : k4_pay2 (F := Ideal) j = 0 := by
  unfold k4_pay2
  exact (congrFun (shapeCast_self _ _) j).trans Ideal.ofBits_zero_f32

theorem init_cnt (j : S8x16.Idx) : k4_pay3 (F := Ideal) j = 0 := by
  unfold k4_pay3
  exact (congrFun (shapeCast_self _ _) j).trans Ideal.ofBits_zero_f32

variable (v3 : Vec Ideal S8x1x256x512 .f32) (v5 : Vec Ideal S8x1x256x512 .i32) (v7 : Vec Ideal S8x16 .f32)
  (prev : Vec Ideal S8x1 .f32) (b : Fin 8)

-- Every stored column below is the general one-class update at this width, at the class's label word and centre column.

theorem pull_0 :
    k4_pay10 (F := Ideal) prev (k4_pay9 v3 v5 v7) (ix2 b (0 : Fin 1))
      = prev (ix2 b (0 : Fin 1)) + tilePull v3 v5 (v7 (ix2 b (0 : Fin 16))) b (Cert.Spec.lab (0 : Fin 16)) :=
  pull_update_apply v3 v5 v7 0 0 rfl _ prev _ _ _ _ _ _ _ _ _ _ _ _ _ b

theorem pull_1 :
    k4_pay14 (F := Ideal) (k4_pay4 v3) (k4_pay5 (F := Ideal) v5) (k4_pay6 v7) prev (ix2 b (0 : Fin 1))
      = prev (ix2 b (0 : Fin 1)) + tilePull v3 v5 (v7 (ix2 b (1 : Fin 16))) b (Cert.Spec.lab (1 : Fin 16)) :=
  pull_update_apply v3 v5 v7 1 1 rfl _ prev _ _ _ _ _ _ _ _ _ _ _ _ _ b

theorem pull_2 :
    k4_pay17 (F := Ideal) (k4_pay4 v3) (k4_pay5 (F := Ideal) v5) (k4_pay6 v7) prev (ix2 b (0 : Fin 1))
      = prev (ix2 b (0 : Fin 1)) + tilePull v3 v5 (v7 (ix2 b (2 : Fin 16))) b (Cert.Spec.lab (2 : Fin 16)) :=
  pull_update_apply v3 v5 v7 2 2 rfl _ prev _ _ _ _ _ _ _ _ _ _ _ _ _ b

theorem pull_3 :
    k4_pay21 (F := Ideal) (k4_pay4 v3) (k4_pay5 (F := Ideal) v5) (k4_pay6 v7) prev (ix2 b (0 : Fin 1))
      = prev (ix2 b (0 : Fin 1)) + tilePull v3 v5 (v7 (ix2 b (3 : Fin 16))) b (Cert.Spec.lab (3 : Fin 16)) :=
  pull_update_apply v3 v5 v7 3 3 rfl _ prev _ _ _ _ _ _ _ _ _ _ _ _ _ b

theorem pull_4 :
    k4_pay24 (F := Ideal) (k4_pay4 v3) (k4_pay5 (F := Ideal) v5) (k4_pay6 v7) prev (ix2 b (0 : Fin 1))
      = prev (ix2 b (0 : Fin 1)) + tilePull v3 v5 (v7 (ix2 b (4 : Fin 16))) b (Cert.Spec.lab (4 : Fin 16)) :=
  pull_update_apply v3 v5 v7 4 4 rfl _ prev _ _ _ _ _ _ _ _ _ _ _ _ _ b

theorem pull_5 :
    k4_pay29 (F := Ideal) (k4_pay4 v3) (k4_pay26 (k4_pay5 (F := Ideal) v5)) (k4_pay28 (k4_pay6 v7)) prev (ix2 b (0 : Fin 1))
      = prev (ix2 b (0 : Fin 1)) + tilePull v3 v5 (v7 (ix2 b (5 : Fin 16))) b (Cert.Spec.lab (5 : Fin 16)) := by
  unfold k4_pay28
  exact pull_update_apply v3 v5 v7 5 5 rfl _ prev _ _ _ _ _ _ _ _ _ _ _ _ _ b

theorem pull_6 :
    k4_pay35 (F := Ideal) (k4_pay31 (k4_pay5 (F := Ideal) v5)) (k4_pay33 (k4_pay4 v3) (k4_pay6 v7)) k4_pay34 prev (ix2 b (0 : Fin 1))
      = prev (ix2 b (0 : Fin 1)) + tilePull v3 v5 (v7 (ix2 b (6 : Fin 16))) b (Cert.Spec.lab (6 : Fin 16)) :=
  pull_update_apply v3 v5 v7 6 6 rfl _ prev _ _ _ _ _ _ _ _ _ _ _ _ _ b

theorem pull_7 :
    k4_pay40 (F := Ideal) (k4_pay37 (k4_pay5 (F := Ideal) v5)) (k4_pay39 (k4_pay4 v3) (k4_pay6 v7)) (Scalar.ofBits (F := Ideal) .f32 0x00000000#32) prev (ix2 b (0 : Fin 1))
      = prev (ix2 b (0 : Fin 1)) + tilePull v3 v5 (v7 (ix2 b (7 : Fin 16))) b (Cert.Spec.lab (7 : Fin 16)) :=
  pull_update_apply v3 v5 v7 7 7 rfl _ prev _ _ _ _ _ _ _ _ _ _ _ _ _ b

theorem pull_8 :
    k4_pay45 (F := Ideal) (k4_pay44 (k4_pay4 v3) (k4_pay5 (F := Ideal) v5) (k4_pay6 v7)) prev (ix2 b (0 : Fin 1))
      = prev (ix2 b (0 : Fin 1)) + tilePull v3 v5 (v7 (ix2 b (8 : Fin 16))) b (Cert.Spec.lab (8 : Fin 16)) :=
  pull_update_apply v3 v5 v7 8 8 rfl _ prev _ _ _ _ _ _ _ _ _ _ _ _ _ b

theorem pull_9 :
    k4_pay50 (F := Ideal) (k4_pay48 (k4_pay4 v3) (k4_pay5 (F := Ideal) v5) (k4_pay6 v7)) prev (ix2 b (0 : Fin 1))
      = prev (ix2 b (0 : Fin 1)) + tilePull v3 v5 (v7 (ix2 b (9 : Fin 16))) b (Cert.Spec.lab (9 : Fin 16)) :=
  pull_update_apply v3 v5 v7 9 9 rfl _ prev _ _ _ _ _ _ _ _ _ _ _ _ _ b

theorem pull_10 :
    k4_pay55 (F := Ideal) prev (k4_pay54 (k4_pay4 v3) (k4_pay5 (F := Ideal) v5) (k4_pay6 v7)) (ix2 b (0 : Fin 1))
      = prev (ix2 b (0 : Fin 1)) + tilePull v3 v5 (v7 (ix2 b (10 : Fin 16))) b (Cert.Spec.lab (10 : Fin 16)) :=
  pull_update_apply v3 v5 v7 10 10 rfl _ prev _ _ _ _ _ _ _ _ _ _ _ _ _ b

theorem pull_11 :
    k4_pay59 (F := Ideal) (k4_pay4 v3) (k4_pay5 (F := Ideal) v5) (k4_pay6 v7) prev (ix2 b (0 : Fin 1))
      = prev (ix2 b (0 : Fin 1)) + tilePull v3 v5 (v7 (ix2 b (11 : Fin 16))) b (Cert.Spec.lab (11 : Fin 16)) :=
  pull_update_apply v3 v5 v7 11 11 rfl _ prev _ _ _ _ _ _ _ _ _ _ _ _ _ b

theorem pull_12 :
    k4_pay62 (F := Ideal) (k4_pay4 v3) (k4_pay5 (F := Ideal) v5) (k4_pay6 v7) prev (ix2 b (0 : Fin 1))
      = prev (ix2 b (0 : Fin 1)) + tilePull v3 v5 (v7 (ix2 b (12 : Fin 16))) b (Cert.Spec.lab (12 : Fin 16)) :=
  pull_update_apply v3 v5 v7 12 12 rfl _ prev _ _ _ _ _ _ _ _ _ _ _ _ _ b

theorem pull_13 :
    k4_pay66 (F := Ideal) (k4_pay4 v3) (k4_pay5 (F := Ideal) v5) (k4_pay6 v7) prev (ix2 b (0 : Fin 1))
      = prev (ix2 b (0 : Fin 1)) + tilePull v3 v5 (v7 (ix2 b (13 : Fin 16))) b (Cert.Spec.lab (13 : Fin 16)) :=
  pull_update_apply v3 v5 v7 13 13 rfl _ prev _ _ _ _ _ _ _ _ _ _ _ _ _ b

theorem pull_14 :
    k4_pay69 (F := Ideal) (k4_pay4 v3) (k4_pay5 (F := Ideal) v5) (k4_pay6 v7) prev (ix2 b (0 : Fin 1))
      = prev (ix2 b (0 : Fin 1)) + tilePull v3 v5 (v7 (ix2 b (14 : Fin 16))) b (Cert.Spec.lab (14 : Fin 16)) :=
  pull_update_apply v3 v5 v7 14 14 rfl _ prev _ _ _ _ _ _ _ _ _ _ _ _ _ b

theorem pull_15 :
    k4_pay74 (F := Ideal) (k4_pay4 v3) (k4_pay71 (k4_pay5 (F := Ideal) v5)) (k4_pay73 (k4_pay6 v7)) prev (ix2 b (0 : Fin 1))
      = prev (ix2 b (0 : Fin 1)) + tilePull v3 v5 (v7 (ix2 b (15 : Fin 16))) b (Cert.Spec.lab (15 : Fin 16)) := by
  unfold k4_pay73
  exact pull_update_apply v3 v5 v7 15 15 rfl _ prev _ _ _ _ _ _ _ _ _ _ _ _ _ b

theorem cnt_0 :
    k4_pay11 (F := Ideal) (k4_pay8 v5) prev (ix2 b (0 : Fin 1))
      = prev (ix2 b (0 : Fin 1)) + tileCnt v5 b (Cert.Spec.lab (0 : Fin 16)) :=
  cnt_update_apply v5 _ prev _ _ _ _ _ _ _ _ _ _ b

theorem cnt_1 :
    k4_pay15 (F := Ideal) (k4_pay13 (k4_pay5 (F := Ideal) v5)) prev (ix2 b (0 : Fin 1))
      = prev (ix2 b (0 : Fin 1)) + tileCnt v5 b (Cert.Spec.lab (1 : Fin 16)) :=
  cnt_update_apply v5 _ prev _ _ _ _ _ _ _ _ _ _ b

theorem cnt_2 :
    k4_pay19 (F := Ideal) (k4_pay18 (k4_pay5 (F := Ideal) v5) prev) (ix2 b (0 : Fin 1))
      = prev (ix2 b (0 : Fin 1)) + tileCnt v5 b (Cert.Spec.lab (2 : Fin 16)) :=
  cnt_update_apply v5 _ prev _ _ _ _ _ _ _ _ _ _ b

theorem cnt_3 :
    k4_pay22 (F := Ideal) (k4_pay5 (F := Ideal) v5) prev (ix2 b (0 : Fin 1))
      = prev (ix2 b (0 : Fin 1)) + tileCnt v5 b (Cert.Spec.lab (3 : Fin 16)) :=
  cnt_update_apply v5 _ prev _ _ _ _ _ _ _ _ _ _ b

theorem cnt_4 :
    k4_pay25 (F := Ideal) (k4_pay5 (F := Ideal) v5) prev (ix2 b (0 : Fin 1))
      = prev (ix2 b (0 : Fin 1)) + tileCnt v5 b (Cert.Spec.lab (4 : Fin 16)) :=
  cnt_update_apply v5 _ prev _ _ _ _ _ _ _ _ _ _ b

theorem cnt_5 :
    k4_pay30 (F := Ideal) (k4_pay27 (k4_pay5 (F := Ideal) v5)) prev (ix2 b (0 : Fin 1))
      = prev (ix2 b (0 : Fin 1)) + tileCnt v5 b (Cert.Spec.lab (5 : Fin 16)) :=
  cnt_update_apply v5 _ prev _ _ _ _ _ _ _ _ _ _ b

theorem cnt_6 :
    k4_pay36 (F := Ideal) (k4_pay32 (k4_pay5 (F := Ideal) v5)) prev (ix2 b (0 : Fin 1))
      = prev (ix2 b (0 : Fin 1)) + tileCnt v5 b (Cert.Spec.lab (6 : Fin 16)) :=
  cnt_update_apply v5 _ prev _ _ _ _ _ _ _ _ _ _ b

theorem cnt_7 :
    k4_pay41 (F := Ideal) (k4_pay38 (k4_pay5 (F := Ideal) v5)) prev (ix2 b (0 : Fin 1))
      = prev (ix2 b (0 : Fin 1)) + tileCnt v5 b (Cert.Spec.lab (7 : Fin 16)) :=
  cnt_update_apply v5 _ prev _ _ _ _ _ _ _ _ _ _ b

theorem cnt_8 :
    k4_pay46 (F := Ideal) (k4_pay43 (k4_pay5 (F := Ideal) v5)) prev (ix2 b (0 : Fin 1))
      = prev (ix2 b (0 : Fin 1)) + tileCnt v5 b (Cert.Spec.lab (8 : Fin 16)) :=
  cnt_update_apply v5 _ prev _ _ _ _ _ _ _ _ _ _ b

theorem cnt_9 :
    k4_pay51 (F := Ideal) (k4_pay49 (k4_pay5 (F := Ideal) v5)) prev (ix2 b (0 : Fin 1))
      = prev (ix2 b (0 : Fin 1)) + tileCnt v5 b (Cert.Spec.lab (9 : Fin 16)) :=
  cnt_update_apply v5 _ prev _ _ _ _ _ _ _ _ _ _ b

theorem cnt_10 :
    k4_pay56 (F := Ideal) (k4_pay53 (k4_pay5 (F := Ideal) v5)) prev (ix2 b (0 : Fin 1))
      = prev (ix2 b (0 : Fin 1)) + tileCnt v5 b (Cert.Spec.lab (10 : Fin 16)) :=
  cnt_update_apply v5 _ prev _ _ _ _ _ _ _ _ _ _ b

theorem cnt_11 :
    k4_pay60 (F := Ideal) (k4_pay58 (k4_pay5 (F := Ideal) v5)) prev (ix2 b (0 : Fin 1))
      = prev (ix2 b (0 : Fin 1)) + tileCnt v5 b (Cert.Spec.lab (11 : Fin 16)) :=
  cnt_update_apply v5 _ prev _ _ _ _ _ _ _ _ _ _ b

theorem cnt_12 :
    k4_pay64 (F := Ideal) (k4_pay63 (k4_pay5 (F := Ideal) v5) prev) (ix2 b (0 : Fin 1))
      = prev (ix2 b (0 : Fin 1)) + tileCnt v5 b (Cert.Spec.lab (12 : Fin 16)) :=
  cnt_update_apply v5 _ prev _ _ _ _ _ _ _ _ _ _ b

theorem cnt_13 :
    k4_pay67 (F := Ideal) (k4_pay5 (F := Ideal) v5) prev (ix2 b (0 : Fin 1))
      = prev (ix2 b (0 : Fin 1)) + tileCnt v5 b (Cert.Spec.lab (13 : Fin 16)) :=
  cnt_update_apply v5 _ prev _ _ _ _ _ _ _ _ _ _ b

theorem cnt_14 :
    k4_pay70 (F := Ideal) (k4_pay5 (F := Ideal) v5) prev (ix2 b (0 : Fin 1))
      = prev (ix2 b (0 : Fin 1)) + tileCnt v5 b (Cert.Spec.lab (14 : Fin 16)) :=
  cnt_update_apply v5 _ prev _ _ _ _ _ _ _ _ _ _ b

theorem cnt_15 :
    k4_pay1 (F := Ideal) (k4_pay75 (k4_pay72 (k4_pay5 (F := Ideal) v5)) prev) (ix2 b (0 : Fin 1))
      = prev (ix2 b (0 : Fin 1)) + tileCnt v5 b (Cert.Spec.lab (15 : Fin 16)) :=
  cnt_update_apply v5 _ prev _ _ _ _ _ _ _ _ _ _ b

end Cert.KernelIdeal.Gen.V2R4

end
-- ==== Proof.KI.V2A4.lean ====
import proofs.«413171_j1022202216836_1_alg».proof.Proof.KI.P2Run4
import proofs.«413171_j1022202216836_1_alg».proof.Proof.KI.V2R4
import proofs.«413171_j1022202216836_1_alg».proof.Proof.KI.V2Chain
import Idealize.ShloMosaic.Lib.Pipeline.Value

noncomputable section

namespace Cert.KernelIdeal.Gen.V2A4

open Idealize.ShloMosaic Idealize.ShloMosaic.ValueIdx Idealize.SL.Sem Cert.V2Lib Cert.V2Chain Cert.KernelIdeal.Gen

theorem hz2 : (![0, 0] : Fin 2 → Nat) = fun _ => 0 := funext fun a => by fin_cases a <;> rfl
theorem hz4 : (![0, 0, 0, 0] : Fin 4 → Nat) = fun _ => 0 := funext fun a => by fin_cases a <;> rfl

def TP (x0 : Vec Ideal S8x1x256x512 .f32) (x1 : Vec Ideal S8x1x256x512 .i32) (x2 : Vec Ideal S8x16 .f32) (k : Fin 16) (b : Fin 8) : EReal :=
  tilePull x0 x1 (x2 (ix2 b k)) b (Cert.Spec.lab k)

def TC (x1 : Vec Ideal S8x1x256x512 .i32) (k : Fin 16) (b : Fin 8) : EReal := tileCnt x1 b (Cert.Spec.lab k)

macro "sl_open_A4" : tactic => `(tactic| simp only [kernelRun4_A.sl.cst_110, kernelRun4_A.sl.r, kernelRun4_A.sl.r_1, kernelRun4_A.sl.r_10, kernelRun4_A.sl.r_11, kernelRun4_A.sl.r_12, kernelRun4_A.sl.r_13, kernelRun4_A.sl.r_14, kernelRun4_A.sl.r_15, kernelRun4_A.sl.r_16, kernelRun4_A.sl.r_17, kernelRun4_A.sl.r_18, kernelRun4_A.sl.r_19, kernelRun4_A.sl.r_2, kernelRun4_A.sl.r_20, kernelRun4_A.sl.r_21, kernelRun4_A.sl.r_22, kernelRun4_A.sl.r_23, kernelRun4_A.sl.r_24, kernelRun4_A.sl.r_25, kernelRun4_A.sl.r_26, kernelRun4_A.sl.r_27, kernelRun4_A.sl.r_28, kernelRun4_A.sl.r_29, kernelRun4_A.sl.r_3, kernelRun4_A.sl.r_4, kernelRun4_A.sl.r_5, kernelRun4_A.sl.r_6, kernelRun4_A.sl.r_7, kernelRun4_A.sl.r_8, kernelRun4_A.sl.r_9, kernelRun4_A.sl.v105, kernelRun4_A.sl.v111, kernelRun4_A.sl.v141, kernelRun4_A.sl.v147, kernelRun4_A.sl.v177, kernelRun4_A.sl.v183, kernelRun4_A.sl.v213, kernelRun4_A.sl.v219, kernelRun4_A.sl.v249, kernelRun4_A.sl.v255, kernelRun4_A.sl.v285, kernelRun4_A.sl.v291, kernelRun4_A.sl.v321, kernelRun4_A.sl.v327, kernelRun4_A.sl.v33, kernelRun4_A.sl.v357, kernelRun4_A.sl.v363, kernelRun4_A.sl.v39, kernelRun4_A.sl.v393, kernelRun4_A.sl.v399, kernelRun4_A.sl.v429, kernelRun4_A.sl.v435, kernelRun4_A.sl.v465, kernelRun4_A.sl.v471, kernelRun4_A.sl.v501, kernelRun4_A.sl.v507, kernelRun4_A.sl.v537, kernelRun4_A.sl.v543, kernelRun4_A.sl.v573, kernelRun4_A.sl.v579, kernelRun4_A.sl.v69, kernelRun4_A.sl.v75])

variable (c : Dev nD) (arg2 : Memref sig .tc .vmem S8x1x256x512 .f32) (harg2 : arg2.IsWhole) (arg3 : Memref sig .tc .vmem S8x1x256x512 .i32) (harg3 : arg3.IsWhole) (arg4 : Memref sig .tc .vmem S8x16 .f32) (harg4 : arg4.IsWhole) (arg7 arg8 : Memref sig .tc .vmem S8x16 .f32) (x0 : Vec Ideal S8x1x256x512 .f32) (x1 : Vec Ideal S8x1x256x512 .i32) (x2 : Vec Ideal S8x16 .f32)

-- Reading a whole array through its full rectangle gives the array.
theorem ld0 : View.readAt (Elt Ideal) arg2.view (Rect.unit ![0, 0, 0, 0] S8x1x256x512.size inb_S8x1x256x512_S8x1x256x512_0_0_0_0).toLoadRect (harg2.unread x0) = x0 := by
  rw [View.readAt_eq_ld, harg2.read_unread, View.ld_unit_zero hz4]

theorem ld1 : View.readAt (Elt Ideal) arg3.view (Rect.unit ![0, 0, 0, 0] S8x1x256x512.size inb_S8x1x256x512_S8x1x256x512_0_0_0_0).toLoadRect (harg3.unread x1) = x1 := by
  rw [View.readAt_eq_ld, harg3.read_unread, View.ld_unit_zero hz4]

theorem ld2 : View.readAt (Elt Ideal) arg4.view (Rect.unit ![0, 0] S8x16.size inb_S8x16_S8x16_0_0).toLoadRect (harg4.unread x2) = x2 := by
  rw [View.readAt_eq_ld, harg4.read_unread, View.ld_unit_zero hz2]

-- Column k's write adds class k's tile term to the column's earlier value: one chain step a class, the terms first stated over the arrays as read.
theorem E0_15 : ∀ y, View.canon (kernelRun4_A.sl.HS0_16 (F := Ideal) c arg2 harg2 arg3 harg3 arg4 harg4 arg7 x0 x1 x2) y = accUpto (A := 8) (C := 16) (fun _ => 0) (TP x0 x1 x2) 15 y := by
  rw [← show TP _ _ _ = TP x0 x1 x2 from congr (congr (congrArg TP (ld0 arg2 harg2 x0)) (ld1 arg3 harg3 x1)) (ld2 arg4 harg4 x2)]
  refine chain_step_ld 14 (by decide) ?_ fun b => V2R4.pull_14 _ _ _ _ b
  refine chain_step_ld 13 (by decide) ?_ fun b => V2R4.pull_13 _ _ _ _ b
  refine chain_step_ld 12 (by decide) ?_ fun b => V2R4.pull_12 _ _ _ _ b
  refine chain_step_ld 11 (by decide) ?_ fun b => V2R4.pull_11 _ _ _ _ b
  refine chain_step_ld 10 (by decide) ?_ fun b => V2R4.pull_10 _ _ _ _ b
  refine chain_step_ld 9 (by decide) ?_ fun b => V2R4.pull_9 _ _ _ _ b
  refine chain_step_ld 8 (by decide) ?_ fun b => V2R4.pull_8 _ _ _ _ b
  refine chain_step_ld 7 (by decide) ?_ fun b => V2R4.pull_7 _ _ _ _ b
  refine chain_step_ld 6 (by decide) ?_ fun b => V2R4.pull_6 _ _ _ _ b
  refine chain_step_ld 5 (by decide) ?_ fun b => V2R4.pull_5 _ _ _ _ b
  refine chain_step_ld 4 (by decide) ?_ fun b => V2R4.pull_4 _ _ _ _ b
  refine chain_step_ld 3 (by decide) ?_ fun b => V2R4.pull_3 _ _ _ _ b
  refine chain_step_ld 2 (by decide) ?_ fun b => V2R4.pull_2 _ _ _ _ b
  refine chain_step_ld 1 (by decide) ?_ fun b => V2R4.pull_1 _ _ _ _ b
  refine chain_step_ld 0 (by decide) ?_ fun b => V2R4.pull_0 _ _ _ _ b
  intro y
  rw [accUpto_zero]
  exact (congrFun (View.canon_unit_zero hz2 _ _) y).trans (V2R4.init_pull y)

theorem E1_15 : ∀ y, View.canon (kernelRun4_A.sl.HS1_16 (F := Ideal) c arg3 harg3 arg8 x1) y = accUpto (A := 8) (C := 16) (fun _ => 0) (TC x1) 15 y := by
  rw [← show TC _ = TC x1 from congrArg TC (ld1 arg3 harg3 x1)]
  refine chain_step_ld 14 (by decide) ?_ fun b => V2R4.cnt_14 _ _ b
  refine chain_step_ld 13 (by decide) ?_ fun b => V2R4.cnt_13 _ _ b
  refine chain_step_ld 12 (by decide) ?_ fun b => V2R4.cnt_12 _ _ b
  refine chain_step_ld 11 (by decide) ?_ fun b => V2R4.cnt_11 _ _ b
  refine chain_step_ld 10 (by decide) ?_ fun b => V2R4.cnt_10 _ _ b
  refine chain_step_ld 9 (by decide) ?_ fun b => V2R4.cnt_9 _ _ b
  refine chain_step_ld 8 (by decide) ?_ fun b => V2R4.cnt_8 _ _ b
  refine chain_step_ld 7 (by decide) ?_ fun b => V2R4.cnt_7 _ _ b
  refine chain_step_ld 6 (by decide) ?_ fun b => V2R4.cnt_6 _ _ b
  refine chain_step_ld 5 (by decide) ?_ fun b => V2R4.cnt_5 _ _ b
  refine chain_step_ld 4 (by decide) ?_ fun b => V2R4.cnt_4 _ _ b
  refine chain_step_ld 3 (by decide) ?_ fun b => V2R4.cnt_3 _ _ b
  refine chain_step_ld 2 (by decide) ?_ fun b => V2R4.cnt_2 _ _ b
  refine chain_step_ld 1 (by decide) ?_ fun b => V2R4.cnt_1 _ _ b
  refine chain_step_ld 0 (by decide) ?_ fun b => V2R4.cnt_0 _ _ b
  intro y
  rw [accUpto_zero]
  exact (congrFun (View.canon_unit_zero hz2 _ _) y).trans (V2R4.init_cnt y)

end Cert.KernelIdeal.Gen.V2A4

end
-- ==== Proof.KI.V2Cases4.lean ====
import proofs.«413171_j1022202216836_1_alg».proof.Proof.KI.R4Dat
import proofs.«413171_j1022202216836_1_alg».proof.Proof.KI.V2A4
import Idealize.ShloMosaic.Lib.Pipeline.Value
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.V2Lib Cert.V2Chain

variable (V : (c : Dev nD) → (b : Ref sig .tc) → Buf (Elt Ideal) ((c : Thread nD τ).loc b))

abbrev xb4 (c : Dev nD) (t : Fin cfg4.N) : Vec Ideal S8x1x256x512 .f32 := iblk4 V c 0 t
abbrev gb4 (c : Dev nD) (t : Fin cfg4.N) : Vec Ideal S8x1x256x512 .i32 := iblk4 V c 1 t
abbrev mb4 (c : Dev nD) (t : Fin cfg4.N) : Vec Ideal S8x16 .f32 := iblk4 V c 2 t

theorem read_unread_sc4_0 (h : scM4_0.IsWhole) (X : Vec Ideal S8x16 .f32) :
    View.read (Elt Ideal) (View.whole cc4_scratch0) (h.unread X) = X := h.read_unread X
theorem read_unread_sc4_1 (h : scM4_1.IsWhole) (X : Vec Ideal S8x16 .f32) :
    View.read (Elt Ideal) (View.whole cc4_scratch1) (h.unread X) = X := h.read_unread X

-- One more column piece agrees with `accUpto xs T 16` when its payload is the column read from `xs` plus class k's term.
private theorem cons_acc {xs : (⟨2, ![8, 16]⟩ : Shape).Idx → EReal} {T : Fin 16 → Fin 8 → EReal} {o : Nat} {inb}
    {w : (colRect (A := 8) (C := 16) o inb).shape.Idx → EReal} {L : List (View.Piece (Elt Ideal) ⟨2, ![8, 16]⟩ .f32)}
    (k : Fin 16) (ho : o = k.val)
    (hw : ∀ b : Fin 8, w (ix2 b (0 : Fin 1)) = View.ld (Val := Elt Ideal) (e' := .f32) xs (colRect o inb) (ix2 b (0 : Fin 1)) + T k b)
    (hL : ∀ p ∈ L, ∀ x : p.1.shape.Idx, p.2 x = accUpto xs T 16 (p.1.emb x)) :
    ∀ p ∈ (⟨colRect o inb, w⟩ : View.Piece (Elt Ideal) ⟨2, ![8, 16]⟩ .f32) :: L, ∀ x : p.1.shape.Idx, p.2 x = accUpto xs T 16 (p.1.emb x) :=
  List.forall_mem_cons.2 ⟨piece_of_col _ o k ho inb w fun b =>
    (hw b).trans ((congrArg (· + T k b) (ld_col xs o k ho inb b)).trans (accUpto_full xs T b k).symm), hL⟩

theorem soutA4_0 (c : Dev nD) (t : Fin cfg4.N) (h0 : t.val % 2 = 0) (h1 : ¬t.val % 2 = 1) (b : Fin 8) (k : Fin 16) :
    sout4_A_0 (F := Ideal) V c t h0 h1 (ix2 b k)
      = 0 + tilePull (xb4 V c t) (gb4 V c t) (mb4 V c t (ix2 b k)) b (Cert.Spec.lab k) := by
  unfold sout4_A_0
  rw [View.read_writes_junk_eq_canon]
  unfold runA4 kernelRun4_A
  dsimp only
  refine (chain_step (A := 8) (C := 16) (fun _ => 0) (V2A4.TP (xb4 V c t) (gb4 V c t) (mb4 V c t)) 15 (by decide) 15 rfl _ _ _
    (V2A4.E0_15 c (ms4_0 t) (hs4_0 t) (ms4_1 t) (hs4_1 t) (ms4_2 t) (hs4_2 t) scM4_0 (xb4 V c t) (gb4 V c t) (mb4 V c t))
    (fun b => ?_) (ix2 b k)).trans (accUpto_full _ _ b k)
  sl_open_A4
  simp only [View.readAt_eq_ld, Memref.IsWhole.read_unread, View.ld_unit_zero (S := S8x1x256x512) V2A4.hz4, View.ld_unit_zero (S := S8x16) V2A4.hz2]
  refine (V2R4.pull_15 (xb4 V c t) (gb4 V c t) (mb4 V c t) _ b).trans ?_
  exact congrArg (fun u => u + V2A4.TP (xb4 V c t) (gb4 V c t) (mb4 V c t) ⟨15, by decide⟩ b) (readCov_col _ _ 15 (15 : Fin 16) rfl _ b)

theorem soutA4_1 (c : Dev nD) (t : Fin cfg4.N) (h0 : t.val % 2 = 0) (h1 : ¬t.val % 2 = 1) (b : Fin 8) (k : Fin 16) :
    sout4_A_1 (F := Ideal) V c t h0 h1 (ix2 b k) = 0 + tileCnt (gb4 V c t) b (Cert.Spec.lab k) := by
  unfold sout4_A_1
  rw [View.read_writes_junk_eq_canon]
  unfold runA4 kernelRun4_A
  dsimp only
  refine (chain_step (A := 8) (C := 16) (fun _ => 0) (V2A4.TC (gb4 V c t)) 15 (by decide) 15 rfl _ _ _
    (V2A4.E1_15 c (ms4_1 t) (hs4_1 t) scM4_1 (gb4 V c t))
    (fun b => ?_) (ix2 b k)).trans (accUpto_full _ _ b k)
  sl_open_A4
  simp only [View.readAt_eq_ld, Memref.IsWhole.read_unread, View.ld_unit_zero (S := S8x1x256x512) V2A4.hz4]
  refine (V2R4.cnt_15 (gb4 V c t) _ b).trans ?_
  exact congrArg (fun u => u + V2A4.TC (gb4 V c t) ⟨15, by decide⟩ b) (readCov_col _ _ 15 (15 : Fin 16) rfl _ b)

-- The middle and the last tile alike: the pull accumulator is what it held plus the tile's pull sums, class by class.
private theorem soutBC3_0 (c : Dev nD) (t : Fin cfg4.N) (h0 : ¬t.val % 2 = 0) (xs0 xs1 : Vec Ideal S8x16 .f32) (b : Fin 8) (k : Fin 16) :
    (∀ h1, sout4_B_0 (F := Ideal) V c t h0 h1 xs0 xs1 (ix2 b k) = xs0 (ix2 b k) + V2A4.TP (xb4 V c t) (gb4 V c t) (mb4 V c t) k b) ∧
    ∀ h1, sout4_C_0 (F := Ideal) V c t h0 h1 xs0 xs1 (ix2 b k) = xs0 (ix2 b k) + V2A4.TP (xb4 V c t) (gb4 V c t) (mb4 V c t) k b := by
  refine ⟨fun h1 => ?_, fun h1 => ?_⟩
  all_goals
    first | unfold sout4_B_0 | unfold sout4_C_0
    rw [View.read_writes_junk_eq_canon]
    refine (View.canon_apply_of_pieces (accUpto (A := 8) (C := 16) xs0 (V2A4.TP (xb4 V c t) (gb4 V c t) (mb4 V c t)) 16) _ ?_ (ix2 b k)
      (by first | exact scover4_B_0 V c t h0 h1 xs0 xs1 _ | exact scover4_C_0 V c t h0 h1 xs0 xs1 _)).trans (accUpto_full _ _ b k)
    first | unfold runB4 kernelRun4_B | unfold runC4 kernelRun4_C
    dsimp only
    sl_unfold_words
    simp only [View.readAt_eq_ld, Memref.IsWhole.read_unread, read_unread_sc4_0, read_unread_sc4_1, View.ld_unit_zero (S := S8x1x256x512) V2A4.hz4, View.ld_unit_zero (S := S8x16) V2A4.hz2]
    refine cons_acc 15 rfl (V2R4.pull_15 _ _ _ _) ?_
    refine cons_acc 14 rfl (V2R4.pull_14 _ _ _ _) ?_
    refine cons_acc 13 rfl (V2R4.pull_13 _ _ _ _) ?_
    refine cons_acc 12 rfl (V2R4.pull_12 _ _ _ _) ?_
    refine cons_acc 11 rfl (V2R4.pull_11 _ _ _ _) ?_
    refine cons_acc 10 rfl (V2R4.pull_10 _ _ _ _) ?_
    refine cons_acc 9 rfl (V2R4.pull_9 _ _ _ _) ?_
    refine cons_acc 8 rfl (V2R4.pull_8 _ _ _ _) ?_
    refine cons_acc 7 rfl (V2R4.pull_7 _ _ _ _) ?_
    refine cons_acc 6 rfl (V2R4.pull_6 _ _ _ _) ?_
    refine cons_acc 5 rfl (V2R4.pull_5 _ _ _ _) ?_
    refine cons_acc 4 rfl (V2R4.pull_4 _ _ _ _) ?_
    refine cons_acc 3 rfl (V2R4.pull_3 _ _ _ _) ?_
    refine cons_acc 2 rfl (V2R4.pull_2 _ _ _ _) ?_
    refine cons_acc 1 rfl (V2R4.pull_1 _ _ _ _) ?_
    refine cons_acc 0 rfl (V2R4.pull_0 _ _ _ _) ?_
    exact fun _ h => absurd h List.not_mem_nil

theorem soutB4_0 (c : Dev nD) (t : Fin cfg4.N) (h0 : ¬t.val % 2 = 0) (h1 : ¬t.val % 2 = 1) (xs0 xs1 : Vec Ideal S8x16 .f32) (b : Fin 8) (k : Fin 16) :
    sout4_B_0 (F := Ideal) V c t h0 h1 xs0 xs1 (ix2 b k)
      = xs0 (ix2 b k) + tilePull (xb4 V c t) (gb4 V c t) (mb4 V c t (ix2 b k)) b (Cert.Spec.lab k) :=
  (soutBC3_0 V c t h0 xs0 xs1 b k).1 h1

-- The middle and the last tile alike: the count accumulator is what it held plus the tile's counts, class by class.
private theorem soutBC3_1 (c : Dev nD) (t : Fin cfg4.N) (h0 : ¬t.val % 2 = 0) (xs0 xs1 : Vec Ideal S8x16 .f32) (b : Fin 8) (k : Fin 16) :
    (∀ h1, sout4_B_1 (F := Ideal) V c t h0 h1 xs0 xs1 (ix2 b k) = xs1 (ix2 b k) + V2A4.TC (gb4 V c t) k b) ∧
    ∀ h1, sout4_C_1 (F := Ideal) V c t h0 h1 xs0 xs1 (ix2 b k) = xs1 (ix2 b k) + V2A4.TC (gb4 V c t) k b := by
  refine ⟨fun h1 => ?_, fun h1 => ?_⟩
  all_goals
    first | unfold sout4_B_1 | unfold sout4_C_1
    rw [View.read_writes_junk_eq_canon]
    refine (View.canon_apply_of_pieces (accUpto (A := 8) (C := 16) xs1 (V2A4.TC (gb4 V c t)) 16) _ ?_ (ix2 b k)
      (by first | exact scover4_B_1 V c t h0 h1 xs0 xs1 _ | exact scover4_C_1 V c t h0 h1 xs0 xs1 _)).trans (accUpto_full _ _ b k)
    first | unfold runB4 kernelRun4_B | unfold runC4 kernelRun4_C
    dsimp only
    sl_unfold_words
    simp only [View.readAt_eq_ld, Memref.IsWhole.read_unread, read_unread_sc4_0, read_unread_sc4_1, View.ld_unit_zero (S := S8x1x256x512) V2A4.hz4, View.ld_unit_zero (S := S8x16) V2A4.hz2]
    refine cons_acc 15 rfl (V2R4.cnt_15 _ _) ?_
    refine cons_acc 14 rfl (V2R4.cnt_14 _ _) ?_
    refine cons_acc 13 rfl (V2R4.cnt_13 _ _) ?_
    refine cons_acc 12 rfl (V2R4.cnt_12 _ _) ?_
    refine cons_acc 11 rfl (V2R4.cnt_11 _ _) ?_
    refine cons_acc 10 rfl (V2R4.cnt_10 _ _) ?_
    refine cons_acc 9 rfl (V2R4.cnt_9 _ _) ?_
    refine cons_acc 8 rfl (V2R4.cnt_8 _ _) ?_
    refine cons_acc 7 rfl (V2R4.cnt_7 _ _) ?_
    refine cons_acc 6 rfl (V2R4.cnt_6 _ _) ?_
    refine cons_acc 5 rfl (V2R4.cnt_5 _ _) ?_
    refine cons_acc 4 rfl (V2R4.cnt_4 _ _) ?_
    refine cons_acc 3 rfl (V2R4.cnt_3 _ _) ?_
    refine cons_acc 2 rfl (V2R4.cnt_2 _ _) ?_
    refine cons_acc 1 rfl (V2R4.cnt_1 _ _) ?_
    refine cons_acc 0 rfl (V2R4.cnt_0 _ _) ?_
    exact fun _ h => absurd h List.not_mem_nil

theorem soutB4_1 (c : Dev nD) (t : Fin cfg4.N) (h0 : ¬t.val % 2 = 0) (h1 : ¬t.val % 2 = 1) (xs0 xs1 : Vec Ideal S8x16 .f32) (b : Fin 8) (k : Fin 16) :
    sout4_B_1 (F := Ideal) V c t h0 h1 xs0 xs1 (ix2 b k) = xs1 (ix2 b k) + tileCnt (gb4 V c t) b (Cert.Spec.lab k) :=
  (soutBC3_1 V c t h0 xs0 xs1 b k).1 h1

theorem soutC4_0 (c : Dev nD) (t : Fin cfg4.N) (h0 : ¬t.val % 2 = 0) (h1 : t.val % 2 = 1) (xs0 xs1 : Vec Ideal S8x16 .f32) (b : Fin 8) (k : Fin 16) :
    sout4_C_0 (F := Ideal) V c t h0 h1 xs0 xs1 (ix2 b k)
      = xs0 (ix2 b k) + tilePull (xb4 V c t) (gb4 V c t) (mb4 V c t (ix2 b k)) b (Cert.Spec.lab k) :=
  (soutBC3_0 V c t h0 xs0 xs1 b k).2 h1

theorem soutC4_1 (c : Dev nD) (t : Fin cfg4.N) (h0 : ¬t.val % 2 = 0) (h1 : t.val % 2 = 1) (xs0 xs1 : Vec Ideal S8x16 .f32) (b : Fin 8) (k : Fin 16) :
    sout4_C_1 (F := Ideal) V c t h0 h1 xs0 xs1 (ix2 b k) = xs1 (ix2 b k) + tileCnt (gb4 V c t) b (Cert.Spec.lab k) :=
  (soutBC3_1 V c t h0 xs0 xs1 b k).2 h1

theorem outC4_3 (c : Dev nD) (t : Fin cfg4.N) (h0 : ¬t.val % 2 = 0) (h1 : t.val % 2 = 1) (xs0 xs1 : Vec Ideal S8x16 .f32) :
    out4_C_3 (F := Ideal) V c t h0 h1 xs0 xs1 = sout4_C_0 (F := Ideal) V c t h0 h1 xs0 xs1 := by
  unfold out4_C_3 sout4_C_0
  rw [View.read_writes_junk_eq_canon, View.read_writes_junk_eq_canon]
  unfold runC4 kernelRun4_C
  dsimp only
  rw [View.canon_unit_zero V2A4.hz2]
  unfold kernelRun4_C.sl.v588
  rw [View.readCov_eq_canon']
  exact View.ld_unit_zero V2A4.hz2 _ _

theorem outC4_4 (c : Dev nD) (t : Fin cfg4.N) (h0 : ¬t.val % 2 = 0) (h1 : t.val % 2 = 1) (xs0 xs1 : Vec Ideal S8x16 .f32) :
    out4_C_4 (F := Ideal) V c t h0 h1 xs0 xs1 = sout4_C_1 (F := Ideal) V c t h0 h1 xs0 xs1 := by
  unfold out4_C_4 sout4_C_1
  rw [View.read_writes_junk_eq_canon, View.read_writes_junk_eq_canon]
  unfold runC4 kernelRun4_C
  dsimp only
  rw [View.canon_unit_zero V2A4.hz2]
  unfold kernelRun4_C.sl.v590
  rw [View.readCov_eq_canon']
  exact View.ld_unit_zero V2A4.hz2 _ _

end Cert.KernelIdeal.Gen

end
-- ==== Proof.KI.V2Blk4.lean ====
import proofs.«413171_j1022202216836_1_alg».proof.Proof.KI.R4Dat
import proofs.«413171_j1022202216836_1_alg».proof.Proof.KI.V2Lib
import proofs.«413171_j1022202216836_1_alg».proof.Proof.KI.V2Run

noncomputable section

namespace Cert.KernelIdeal.Gen

open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev xblk4 (c : Dev nD) (t : Fin cfg4.N) : Vec Ideal S8x1x256x512 .f32 := iblk4 V c 0 t
abbrev gblk4 (c : Dev nD) (t : Fin cfg4.N) : Vec Ideal S8x1x256x512 .i32 := iblk4 V c 1 t
abbrev mblk4 (c : Dev nD) (t : Fin cfg4.N) : Vec Ideal S8x16 .f32 := iblk4 V c 2 t
abbrev farr4 (c : Dev nD) : Vec Ideal S16x1x512x512 .f32 := V c main_arg1
abbrev garr4 (c : Dev nD) : Vec Ideal S16x1x512x512 .i32 := V c main_arg4
abbrev marr4 (c : Dev nD) : Vec Ideal S16x16 .f32 := V c main_v9

def pt4 (q : Fin 2) (i : Fin 2) : Fin cfg4.N := ⟨2 * q.val + i.val, by rw [show cfg4.N = 4 from N_4]; omega⟩
def brow4 (q : Fin 2) (b : Fin 8) : Fin 16 := ⟨8 * q.val + b.val, by omega⟩

theorem index4_0 : ∀ (q : Fin 2) (i : Fin 2), win4_0.index (pt4 q i) 0 = q.val ∧ win4_0.index (pt4 q i) 1 = 0
    ∧ win4_0.index (pt4 q i) 2 = i.val ∧ win4_0.index (pt4 q i) 3 = 0 := by decide
theorem index4_2 : ∀ (q : Fin 2) (i : Fin 2), win4_2.index (pt4 q i) 0 = q.val ∧ win4_2.index (pt4 q i) 1 = 0 := by decide

/-- At row tile `i` of batch chunk `q` a map's block sits at batch rows 8·q … and map rows 256·i … of the map. -/
theorem emb4_in (q : Fin 2) (i : Fin 2) (b : Fin 8) (r : Fin 256) (w : Fin 512) :
    (win4_0.rect (pt4 q i)).emb (ix4 b 0 r w) = ix4 (brow4 q b) 0 (LibTileSum.row i r) w := by
  obtain ⟨i0, i1, i2, i4⟩ := index4_0 q i
  funext a
  apply Fin.ext
  match a with
  | ⟨0, _⟩ => show win4_0.index (pt4 q i) 0 * 8 + 1 * b.val = 8 * q.val + b.val; rw [i0]; omega
  | ⟨1, _⟩ => show win4_0.index (pt4 q i) 1 * 1 + 1 * 0 = 0; rw [i1]
  | ⟨2, _⟩ => show win4_0.index (pt4 q i) 2 * 256 + 1 * r.val = i.val * 256 + r.val; rw [i2]; omega
  | ⟨3, _⟩ => show win4_0.index (pt4 q i) 3 * 512 + 1 * w.val = w.val; rw [i4]; omega

/-- The [8, 16] blocks (the centres', the two results') sit at batch rows 8·q … of their [16, 16] arrays. -/
theorem emb4_o (q : Fin 2) (i : Fin 2) (y : S8x16.Idx) : (win4_2.rect (pt4 q i)).emb y = ix2 (brow4 q (y 0)) (y 1) := by
  obtain ⟨i0, i1⟩ := index4_2 q i
  refine Shape.idx_ext₂ ?_ ?_
  · show win4_2.index (pt4 q i) 0 * 8 + 1 * (y 0).val = 8 * q.val + (y 0).val; rw [i0]; omega
  · show win4_2.index (pt4 q i) 1 * 16 + 1 * (y 1).val = (y 1).val; rw [i1]; omega

/-- A block that holds, at (b, k), the map `G` at (8·q + b, k) is `G`'s block at the chunk's last tile. -/
theorem blockOf4 (o : Vec Ideal S8x16 .f32) (G : Vec Ideal S16x16 .f32) (q : Fin 2)
    (h : ∀ b k, o (ix2 b k) = G (ix2 (brow4 q b) k)) (y : S8x16.Idx) : o y = G ((win4_2.rect (pt4 q 1)).emb y) :=
  (congrArg o (eq_ix2 y)).trans ((h (y 0) (y 1)).trans (congrArg G (emb4_o q 1 y)).symm)

theorem mblk4_chunk (c : Dev nD) (q : Fin 2) (i : Fin 2) (b : Fin 8) (k : Fin 16) :
    mblk4 V c (pt4 q i) (ix2 b k) = V c main_v9 (ix2 (brow4 q b) k) :=
  congrArg (V c main_v9) (emb4_o q i (ix2 b k))

/-- The tiles of batch chunk `q` add up to batch row 8·q + b's segment sum of hinged squared distances from any centre `μ`, -/
theorem tiles4_pull (c : Dev nD) (q : Fin 2) (b : Fin 8) (k : Fin 16) (μ : EReal) :
    ∑ i : Fin 2, Cert.V2Lib.tilePull (xblk4 V c (pt4 q i)) (gblk4 V c (pt4 q i)) μ b (Spec.lab k)
      = Spec.segPull (V c main_arg1) (V c main_arg4) μ (brow4 q b) k :=
  Cert.V2Lib.sum_tilePull (A := 8) (R := 256) (W := 512) (n := 2) (farr4 V c) (garr4 V c) μ (brow4 q b) k
    (fun i => xblk4 V c (pt4 q i)) (fun i => gblk4 V c (pt4 q i)) b
    (fun i r w => congrArg (farr4 V c) (emb4_in q i b r w)) (fun i r w => congrArg (garr4 V c) (emb4_in q i b r w))

/-- and to its segment count. -/
theorem tiles4_cnt (c : Dev nD) (q : Fin 2) (b : Fin 8) (k : Fin 16) :
    ∑ i : Fin 2, Cert.V2Lib.tileCnt (gblk4 V c (pt4 q i)) b (Spec.lab k) = Spec.segCnt (V c main_arg4) (brow4 q b) k :=
  Cert.V2Lib.sum_tileCnt (A := 8) (R := 256) (W := 512) (n := 2) (garr4 V c) (brow4 q b) k
    (fun i => gblk4 V c (pt4 q i)) b (fun i r w => congrArg (garr4 V c) (emb4_in q i b r w))

end Cert.KernelIdeal.Gen

end
-- ==== Proof.KI.V2Val4.lean ====
import proofs.«413171_j1022202216836_1_alg».proof.Proof.KI.V2Cases4
import proofs.«413171_j1022202216836_1_alg».proof.Proof.KI.V2Blk4

noncomputable section

namespace Cert.KernelIdeal.Gen

open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

def tP4 (c : Dev nD) (t : Fin cfg4.N) (b : Fin 8) (k : Fin 16) : EReal :=
  Cert.V2Lib.tilePull (xblk4 V c t) (gblk4 V c t) (mblk4 V c t (ix2 b k)) b (Spec.lab k)
def tC4 (c : Dev nD) (t : Fin cfg4.N) (b : Fin 8) (k : Fin 16) : EReal :=
  Cert.V2Lib.tileCnt (gblk4 V c t) b (Spec.lab k)

theorem last4 (q : Fin 2) : (pt4 q 1).val % 2 = 1 ∧ ¬(pt4 q 1).val % 2 = 0 := by
  constructor
  · show (2 * q.val + 1) % 2 = 1; omega
  · show ¬(2 * q.val + 1) % 2 = 0; omega

/-- Each accumulator restarts at a chunk's first tile and adds the tile's term at the others, so at the last tile it holds the chunk's total: the hinged sums, -/
theorem scr4_0_last (c : Dev nD) (q : Fin 2) (b : Fin 8) (k : Fin 16) :
    (outsAt4 V c (pt4 q 1).val (pt4 q 1).isLt).2.2.1 (ix2 b k) = ∑ i : Fin 2, tP4 V c (pt4 q i) b k :=
  Cert.V2Run.sum_run (J := 2) (fun n h => (outsAt4 V c n h).2.2.1 (ix2 b k)) (fun t => tP4 V c t b k)
    (fun n h h0 => by
      have h1 : ¬n % 2 = 1 := by omega
      rw [outsAt4_A V c ⟨n, h⟩ h0 h1]
      exact soutA4_0 V c ⟨n, h⟩ h0 h1 b k)
    (fun n h h0 => by
      by_cases h1 : (n + 1) % 2 = 1
      · rw [outsAt4_C V c ⟨n + 1, h⟩ h0 h1]
        exact soutC4_0 V c ⟨n + 1, h⟩ h0 h1 _ (prev4_1 V c ⟨n + 1, h⟩) b k
      · rw [outsAt4_B V c ⟨n + 1, h⟩ h0 h1]
        exact soutB4_0 V c ⟨n + 1, h⟩ h0 h1 _ (prev4_1 V c ⟨n + 1, h⟩) b k)
    q.val 1 (by omega) (pt4 q 1).isLt

/-- and the counts. -/
theorem scr4_1_last (c : Dev nD) (q : Fin 2) (b : Fin 8) (k : Fin 16) :
    (outsAt4 V c (pt4 q 1).val (pt4 q 1).isLt).2.2.2 (ix2 b k) = ∑ i : Fin 2, tC4 V c (pt4 q i) b k :=
  Cert.V2Run.sum_run (J := 2) (fun n h => (outsAt4 V c n h).2.2.2 (ix2 b k)) (fun t => tC4 V c t b k)
    (fun n h h0 => by
      have h1 : ¬n % 2 = 1 := by omega
      rw [outsAt4_A V c ⟨n, h⟩ h0 h1]
      exact soutA4_1 V c ⟨n, h⟩ h0 h1 b k)
    (fun n h h0 => by
      by_cases h1 : (n + 1) % 2 = 1
      · rw [outsAt4_C V c ⟨n + 1, h⟩ h0 h1]
        exact soutC4_1 V c ⟨n + 1, h⟩ h0 h1 (prev4_0 V c ⟨n + 1, h⟩) _ b k
      · rw [outsAt4_B V c ⟨n + 1, h⟩ h0 h1]
        exact soutB4_1 V c ⟨n + 1, h⟩ h0 h1 (prev4_0 V c ⟨n + 1, h⟩) _ b k)
    q.val 1 (by omega) (pt4 q 1).isLt

def G4p (c : Dev nD) : Vec Ideal S16x16 .f32 :=
  fun i => Spec.segPull (V c main_arg1) (V c main_arg4) (marr4 V c i) (i 0) (i 1)
def G4c (c : Dev nD) : Vec Ideal S16x16 .f32 := fun i => Spec.segCnt (V c main_arg4) (i 0) (i 1)

/-- At the last tile the outputs equal the accumulators; the centre block is the same at every tile of the chunk, so the totals are the whole rows' segment sums from their own centres, -/
theorem out4_3_last (c : Dev nD) (q : Fin 2) (b : Fin 8) (k : Fin 16) :
    (outsAt4 V c (pt4 q 1).val (pt4 q 1).isLt).1 (ix2 b k) = G4p V c (ix2 (brow4 q b) k) := by
  obtain ⟨h1, h0⟩ := last4 q
  have e : (outsAt4 V c (pt4 q 1).val (pt4 q 1).isLt).1 = (outsAt4 V c (pt4 q 1).val (pt4 q 1).isLt).2.2.1 := by
    rw [outsAt4_C V c (pt4 q 1) h0 h1]
    exact outC4_3 V c (pt4 q 1) h0 h1 (prev4_0 V c (pt4 q 1)) (prev4_1 V c (pt4 q 1))
  rw [e, scr4_0_last V c q b k]
  exact (Finset.sum_congr rfl fun i _ => by unfold tP4; rw [mblk4_chunk V c q i b k]).trans (tiles4_pull V c q b k _)

/-- and segment counts. -/
theorem out4_4_last (c : Dev nD) (q : Fin 2) (b : Fin 8) (k : Fin 16) :
    (outsAt4 V c (pt4 q 1).val (pt4 q 1).isLt).2.1 (ix2 b k) = G4c V c (ix2 (brow4 q b) k) := by
  obtain ⟨h1, h0⟩ := last4 q
  have e : (outsAt4 V c (pt4 q 1).val (pt4 q 1).isLt).2.1 = (outsAt4 V c (pt4 q 1).val (pt4 q 1).isLt).2.2.2 := by
    rw [outsAt4_C V c (pt4 q 1) h0 h1]
    exact outC4_4 V c (pt4 q 1) h0 h1 (prev4_0 V c (pt4 q 1)) (prev4_1 V c (pt4 q 1))
  rw [e, scr4_1_last V c q b k]
  exact tiles4_cnt V c q b k

theorem exists_pt4_of_last (t : Fin cfg4.N) (hl : t.val % 2 = 1) : ∃ q : Fin 2, t = pt4 q 1 := by
  have hN : cfg4.N = 4 := N_4
  have := t.isLt
  exact ⟨⟨t.val / 2, by omega⟩, Fin.ext (by show t.val = 2 * (t.val / 2) + 1; omega)⟩

/-- The block flushed at a chunk's last tile is that tile's block of the map of results. -/
theorem flushed4_3 (c : Dev nD) (t : Fin cfg4.N) (hf : (cfg4.win 3).flush t = true) :
    (dat4 V c).flushed 3 t = ((cfg4.win 3).blk t).view.read (Elt Ideal) (G4p V c) := by
  obtain ⟨q, rfl⟩ := exists_pt4_of_last t ((flush4_3 t).mp hf)
  exact funext (blockOf4 _ (G4p V c) q (out4_3_last V c q))
theorem flushed4_4 (c : Dev nD) (t : Fin cfg4.N) (hf : (cfg4.win 4).flush t = true) :
    (dat4 V c).flushed 4 t = ((cfg4.win 4).blk t).view.read (Elt Ideal) (G4c V c) := by
  obtain ⟨q, rfl⟩ := exists_pt4_of_last t ((flush4_4 t).mp hf)
  exact funext (blockOf4 _ (G4c V c) q (out4_4_last V c q))

/-- Every index of a result array lies in the block of its batch chunk's last tile. -/
theorem cover4_3 (c : Dev nD) (i : ((cfg4.win 3).arr.view.loc (c.tc : Thread nD τ)).2.ty.Idx) :
    ∃ t : Fin cfg4.N, (cfg4.win 3).flush t = true ∧ i ∈ ((cfg4.win 3).blk t).view.set := by
  have h0 : (i 0 : ℕ) < 16 := (i 0).isLt
  obtain ⟨q, hq⟩ : ∃ q : Fin 2, q.val = (i 0 : ℕ) / 8 := ⟨⟨(i 0 : ℕ) / 8, by omega⟩, rfl⟩
  refine ⟨pt4 q 1, (flush4_3 _).mpr (last4 q).1, ?_⟩
  rw [show i = ((cfg4.win 3).blk (pt4 q 1)).view.emb (ix2 (⟨(i 0 : ℕ) % 8, by omega⟩ : Fin 8) (i 1 : Fin 16)) from
    ((emb4_o q 1 (ix2 (⟨(i 0 : ℕ) % 8, by omega⟩ : Fin 8) (i 1 : Fin 16))).trans
      (Shape.idx_ext₂ (y := i) (by show 8 * q.val + (i 0 : ℕ) % 8 = (i 0 : ℕ); omega) rfl)).symm]
  exact View.emb_mem_set _ _
theorem cover4_4 (c : Dev nD) (i : ((cfg4.win 4).arr.view.loc (c.tc : Thread nD τ)).2.ty.Idx) :
    ∃ t : Fin cfg4.N, (cfg4.win 4).flush t = true ∧ i ∈ ((cfg4.win 4).blk t).view.set :=
  (cover4_3 c i).imp fun t h => ⟨(flush4_4 t).mpr ((flush4_3 t).mp h.1), h.2⟩

theorem pull4 (c : Dev nD) (b k : Fin 16) :
    (dat4 (F := Ideal) V c).arrAt 3 cfg4.N (ix2 b k)
      = Cert.Spec.segPull (V c main_arg1) (V c main_arg4) (V c main_v9 (ix2 b k)) b k :=
  congrFun ((dat4 V c).arrAt_eq_of_cover 3 (G4p V c) (flushed4_3 V c) (cover4_3 c)) (ix2 b k)

theorem pcnt4 (c : Dev nD) (b k : Fin 16) :
    (dat4 (F := Ideal) V c).arrAt 4 cfg4.N (ix2 b k) = Cert.Spec.segCnt (V c main_arg4) b k :=
  congrFun ((dat4 V c).arrAt_eq_of_cover 4 (G4c V c) (flushed4_4 V c) (cover4_4 c)) (ix2 b k)

end Cert.KernelIdeal.Gen

end
-- ==== Proof.KI.V2R5.lean ====
import proofs.«413171_j1022202216836_1_alg».proof.Proof.Gen.KernelIdeal.Skeleton
import proofs.«413171_j1022202216836_1_alg».proof.Proof.KI.V2Lib
import proofs.«413171_j1022202216836_1_alg».proof.Proof.KI.V1Col

noncomputable section

namespace Cert.KernelIdeal.Gen.V2R5

open Idealize.ShloMosaic Idealize.ShloMosaic.ValueIdx

-- The writes L leave, of a cleared accumulator, the terms T on the columns below n and zero on the others.
def Upto (n : ℕ) (L : List (View.Piece (Elt Ideal) V1.A2 .f32)) (T : Fin 16 → Fin 8 → EReal) : Prop :=
  ∀ b k, View.canon L (ix2 b k) = V1.colsTo n (fun _ _ => 0) T b k

variable {T : Fin 16 → Fin 8 → EReal}

-- The zero block stored whole: no column is updated yet.
theorem col_zero {inb : ∀ a, (![0, 0] : Fin 2 → ℕ) a + V1.A2.size a ≤ V1.A2.size a} {h : V1.A2.ShapeCasts V1.A2} :
    Upto 0 [(⟨Rect.unit ![0, 0] V1.A2.size inb,
      shapeCast V1.A2 (broadcast V1.A2 (Scalar.ofBits (F := Ideal) .f32 0x00000000#32)) h⟩ : View.Piece (Elt Ideal) V1.A2 .f32)] T :=
  fun b k => by
    rw [V1.colsTo_zero, View.canon_unit_zero V1.hz2]
    exact V1.zeros_apply h _

-- A store of column j whose payload is column j as loaded plus the term of class j updates one more column.
theorem col_step {sig : RefSig} {κ : Kind} {sp : Space} (v : View sig κ sp V1.A2 .f32)
    {L : List (View.Piece (Elt Ideal) V1.A2 .f32)} (j : Fin 16)
    {inb : ∀ a, (![0, j.val] : Fin 2 → ℕ) a + V1.C2.size a ≤ V1.A2.size a} {pay : V1.C2.Idx → EReal}
    (hpay : ∀ b, pay (ix2 b 0)
      = v.readCov L (Rect.unit (s := V1.A2) ![0, j.val] V1.C2.size inb).toLoadRect (ix2 b 0) + T j b)
    (hL : Upto j.val L T) :
    Upto (j.val + 1) ((⟨Rect.unit (s := V1.A2) ![0, j.val] V1.C2.size inb, pay⟩ : View.Piece (Elt Ideal) V1.A2 .f32) :: L) T :=
  V1.canon_col_cons L j inb pay _ T hL fun b => (hpay b).trans (congrArg (· + T j b) (V1.readCov_col v L j inb b))

end Cert.KernelIdeal.Gen.V2R5

end
-- ==== Proof.KI.V2Val5A.lean ====
import proofs.«413171_j1022202216836_1_alg».proof.Proof.KI.P2Run5
import proofs.«413171_j1022202216836_1_alg».proof.Proof.KI.V2R5

noncomputable section

namespace Cert.KernelIdeal.Gen.V2V5

open Idealize.ShloMosaic Idealize.ShloMosaic.TcCoe Idealize.ShloMosaic.ValueIdx
open Cert.KernelIdeal.Gen V2R5 kernelRun5_D.sl

variable (c : Dev nD) (arg2 : Memref sig .tc .vmem S8x1x256x256 .f32) (harg2 : arg2.IsWhole)
  (arg3 : Memref sig .tc .vmem S8x1x256x256 .i32) (harg3 : arg3.IsWhole)
  (arg4 : Memref sig .tc .vmem S8x16 .f32) (harg4 : arg4.IsWhole)
  (arg7 arg8 : Memref sig .tc .vmem S8x16 .f32)
  (x0 : Vec Ideal S8x1x256x256 .f32) (x1 : Vec Ideal S8x1x256x256 .i32) (x2 : Vec Ideal S8x16 .f32)

abbrev ld0 : Vec Ideal S8x1x256x256 .f32 :=
  View.readAt (Elt Ideal) arg2.view (Rect.unit ![0, 0, 0, 0] S8x1x256x256.size inb_S8x1x256x256_S8x1x256x256_0_0_0_0).toLoadRect (harg2.unread x0)
abbrev ld1 : Vec Ideal S8x1x256x256 .i32 :=
  View.readAt (Elt Ideal) arg3.view (Rect.unit ![0, 0, 0, 0] S8x1x256x256.size inb_S8x1x256x256_S8x1x256x256_0_0_0_0).toLoadRect (harg3.unread x1)
abbrev ld2 : Vec Ideal S8x16 .f32 :=
  View.readAt (Elt Ideal) arg4.view (Rect.unit ![0, 0] S8x16.size inb_S8x16_S8x16_0_0).toLoadRect (harg4.unread x2)

-- Loading everything returns the contents.
theorem ld0_eq : ld0 arg2 harg2 x0 = x0 := by
  unfold ld0; rw [View.readAt_eq_ld, harg2.read_unread, View.ld_unit_zero V1.hz4]
theorem ld1_eq : ld1 arg3 harg3 x1 = x1 := by
  unfold ld1; rw [View.readAt_eq_ld, harg3.read_unread, View.ld_unit_zero V1.hz4]
theorem ld2_eq : ld2 arg4 harg4 x2 = x2 := by
  unfold ld2; rw [View.readAt_eq_ld, harg4.read_unread, View.ld_unit_zero V1.hz2]

-- What class k adds at batch row b: the hinged squared distances, and the pixel count.
def TP (k : Fin 16) (b : Fin 8) : EReal :=
  V2Lib.tilePull (ld0 arg2 harg2 x0) (ld1 arg3 harg3 x1) ((ld2 arg4 harg4 x2) (ix2 b k)) b (Cert.Spec.lab k)
def TC (k : Fin 16) (b : Fin 8) : EReal := V2Lib.tileCnt (ld1 arg3 harg3 x1) b (Cert.Spec.lab k)

variable {c arg2 harg2 arg3 harg3 arg4 harg4 arg7 arg8 x0 x1 x2}

-- Sixteen column stores over the clearing store, one class each.
theorem acc_pull4 : Upto 4 (HS0_5 (F := Ideal) c arg2 harg2 arg3 harg3 arg4 harg4 arg7 x0 x1 x2) (TP arg2 harg2 arg3 harg3 arg4 harg4 x0 x1 x2) :=
  col_zero
    |> col_step arg7.view 0 (fun b => V2Lib.pull_update_apply (ld0 arg2 harg2 x0) (ld1 arg3 harg3 x1) (ld2 arg4 harg4 x2) 0 (0 : Fin 16) rfl _ _ _ _ _ _ _ _ _ _ _ _ _ _ _ b)
    |> col_step arg7.view 1 (fun b => V2Lib.pull_update_apply (ld0 arg2 harg2 x0) (ld1 arg3 harg3 x1) (ld2 arg4 harg4 x2) 1 (1 : Fin 16) rfl _ _ _ _ _ _ _ _ _ _ _ _ _ _ _ b)
    |> col_step arg7.view 2 (fun b => V2Lib.pull_update_apply (ld0 arg2 harg2 x0) (ld1 arg3 harg3 x1) (ld2 arg4 harg4 x2) 2 (2 : Fin 16) rfl _ _ _ _ _ _ _ _ _ _ _ _ _ _ _ b)
    |> col_step arg7.view 3 (fun b => V2Lib.pull_update_apply (ld0 arg2 harg2 x0) (ld1 arg3 harg3 x1) (ld2 arg4 harg4 x2) 3 (3 : Fin 16) rfl _ _ _ _ _ _ _ _ _ _ _ _ _ _ _ b)
theorem acc_pull8 : Upto 8 (HS0_9 (F := Ideal) c arg2 harg2 arg3 harg3 arg4 harg4 arg7 x0 x1 x2) (TP arg2 harg2 arg3 harg3 arg4 harg4 x0 x1 x2) :=
  acc_pull4
    |> col_step arg7.view 4 (fun b => V2Lib.pull_update_apply (ld0 arg2 harg2 x0) (ld1 arg3 harg3 x1) (ld2 arg4 harg4 x2) 4 (4 : Fin 16) rfl _ _ _ _ _ _ _ _ _ _ _ _ _ _ _ b)
    |> col_step arg7.view 5 (fun b => V2Lib.pull_update_apply (ld0 arg2 harg2 x0) (ld1 arg3 harg3 x1) (ld2 arg4 harg4 x2) 5 (5 : Fin 16) rfl _ _ _ _ (by decide) _ _ _ _ _ _ _ _ _ _ b)
    |> col_step arg7.view 6 (fun b => V2Lib.pull_update_apply (ld0 arg2 harg2 x0) (ld1 arg3 harg3 x1) (ld2 arg4 harg4 x2) 6 (6 : Fin 16) rfl _ _ _ _ _ _ _ _ _ _ _ _ _ _ _ b)
    |> col_step arg7.view 7 (fun b => V2Lib.pull_update_apply (ld0 arg2 harg2 x0) (ld1 arg3 harg3 x1) (ld2 arg4 harg4 x2) 7 (7 : Fin 16) rfl _ _ _ _ _ _ _ _ _ _ _ _ _ _ _ b)
theorem acc_pull12 : Upto 12 (HS0_13 (F := Ideal) c arg2 harg2 arg3 harg3 arg4 harg4 arg7 x0 x1 x2) (TP arg2 harg2 arg3 harg3 arg4 harg4 x0 x1 x2) :=
  acc_pull8
    |> col_step arg7.view 8 (fun b => V2Lib.pull_update_apply (ld0 arg2 harg2 x0) (ld1 arg3 harg3 x1) (ld2 arg4 harg4 x2) 8 (8 : Fin 16) rfl _ _ _ _ _ _ _ _ _ _ _ _ _ _ _ b)
    |> col_step arg7.view 9 (fun b => V2Lib.pull_update_apply (ld0 arg2 harg2 x0) (ld1 arg3 harg3 x1) (ld2 arg4 harg4 x2) 9 (9 : Fin 16) rfl _ _ _ _ _ _ _ _ _ _ _ _ _ _ _ b)
    |> col_step arg7.view 10 (fun b => V2Lib.pull_update_apply (ld0 arg2 harg2 x0) (ld1 arg3 harg3 x1) (ld2 arg4 harg4 x2) 10 (10 : Fin 16) rfl _ _ _ _ _ _ _ _ _ _ _ _ _ _ _ b)
    |> col_step arg7.view 11 (fun b => V2Lib.pull_update_apply (ld0 arg2 harg2 x0) (ld1 arg3 harg3 x1) (ld2 arg4 harg4 x2) 11 (11 : Fin 16) rfl _ _ _ _ _ _ _ _ _ _ _ _ _ _ _ b)
theorem acc_pull : Upto 16 (HS0_17 (F := Ideal) c arg2 harg2 arg3 harg3 arg4 harg4 arg7 x0 x1 x2) (TP arg2 harg2 arg3 harg3 arg4 harg4 x0 x1 x2) :=
  acc_pull12
    |> col_step arg7.view 12 (fun b => V2Lib.pull_update_apply (ld0 arg2 harg2 x0) (ld1 arg3 harg3 x1) (ld2 arg4 harg4 x2) 12 (12 : Fin 16) rfl _ _ _ _ _ _ _ _ _ _ _ _ _ _ _ b)
    |> col_step arg7.view 13 (fun b => V2Lib.pull_update_apply (ld0 arg2 harg2 x0) (ld1 arg3 harg3 x1) (ld2 arg4 harg4 x2) 13 (13 : Fin 16) rfl _ _ _ _ _ _ _ _ _ _ _ _ _ _ _ b)
    |> col_step arg7.view 14 (fun b => V2Lib.pull_update_apply (ld0 arg2 harg2 x0) (ld1 arg3 harg3 x1) (ld2 arg4 harg4 x2) 14 (14 : Fin 16) rfl _ _ _ _ _ _ _ _ _ _ _ _ _ _ _ b)
    |> col_step arg7.view 15 (fun b => V2Lib.pull_update_apply (ld0 arg2 harg2 x0) (ld1 arg3 harg3 x1) (ld2 arg4 harg4 x2) 15 (15 : Fin 16) rfl _ _ _ _ (by decide) _ _ _ _ _ _ _ _ _ _ b)

-- Read back whole, the accumulator gives the class terms over the inputs themselves.
theorem out_pull (b : Fin 8) (k : Fin 16) :
    v588 (F := Ideal) c arg2 harg2 arg3 harg3 arg4 harg4 arg7 x0 x1 x2 (ix2 b k) = V2Lib.tilePull x0 x1 (x2 (ix2 b k)) b (Cert.Spec.lab k) := by
  unfold v588
  rw [V1.readCov_whole arg7.view _ inb_S8x16_S8x16_0_0, acc_pull b k, V1.colsTo_all, zero_add]
  unfold TP
  rw [ld0_eq, ld1_eq, ld2_eq]

-- The counts go the same way.
theorem acc_cnt : Upto 16 (HS1_17 (F := Ideal) c arg3 harg3 arg8 x1) (TC arg3 harg3 x1) :=
  col_zero
    |> col_step arg8.view 0 (fun b => V2Lib.cnt_update_apply (ld1 arg3 harg3 x1) _ _ _ _ _ _ _ _ _ _ _ _ b)
    |> col_step arg8.view 1 (fun b => V2Lib.cnt_update_apply (ld1 arg3 harg3 x1) _ _ _ _ _ _ _ _ _ _ _ _ b)
    |> col_step arg8.view 2 (fun b => V2Lib.cnt_update_apply (ld1 arg3 harg3 x1) _ _ _ _ _ _ _ _ _ _ _ _ b)
    |> col_step arg8.view 3 (fun b => V2Lib.cnt_update_apply (ld1 arg3 harg3 x1) _ _ _ _ _ _ _ _ _ _ _ _ b)
    |> col_step arg8.view 4 (fun b => V2Lib.cnt_update_apply (ld1 arg3 harg3 x1) _ _ _ _ _ _ _ _ _ _ _ _ b)
    |> col_step arg8.view 5 (fun b => V2Lib.cnt_update_apply (ld1 arg3 harg3 x1) _ _ _ _ _ _ _ _ _ _ _ _ b)
    |> col_step arg8.view 6 (fun b => V2Lib.cnt_update_apply (ld1 arg3 harg3 x1) _ _ _ _ _ _ _ _ _ _ _ _ b)
    |> col_step arg8.view 7 (fun b => V2Lib.cnt_update_apply (ld1 arg3 harg3 x1) _ _ _ _ _ _ _ _ _ _ _ _ b)
    |> col_step arg8.view 8 (fun b => V2Lib.cnt_update_apply (ld1 arg3 harg3 x1) _ _ _ _ _ _ _ _ _ _ _ _ b)
    |> col_step arg8.view 9 (fun b => V2Lib.cnt_update_apply (ld1 arg3 harg3 x1) _ _ _ _ _ _ _ _ _ _ _ _ b)
    |> col_step arg8.view 10 (fun b => V2Lib.cnt_update_apply (ld1 arg3 harg3 x1) _ _ _ _ _ _ _ _ _ _ _ _ b)
    |> col_step arg8.view 11 (fun b => V2Lib.cnt_update_apply (ld1 arg3 harg3 x1) _ _ _ _ _ _ _ _ _ _ _ _ b)
    |> col_step arg8.view 12 (fun b => V2Lib.cnt_update_apply (ld1 arg3 harg3 x1) _ _ _ _ _ _ _ _ _ _ _ _ b)
    |> col_step arg8.view 13 (fun b => V2Lib.cnt_update_apply (ld1 arg3 harg3 x1) _ _ _ _ _ _ _ _ _ _ _ _ b)
    |> col_step arg8.view 14 (fun b => V2Lib.cnt_update_apply (ld1 arg3 harg3 x1) _ _ _ _ _ _ _ _ _ _ _ _ b)
    |> col_step arg8.view 15 (fun b => V2Lib.cnt_update_apply (ld1 arg3 harg3 x1) _ _ _ _ _ _ _ _ _ _ _ _ b)

theorem out_cnt (b : Fin 8) (k : Fin 16) :
    v590 (F := Ideal) c arg3 harg3 arg8 x1 (ix2 b k) = V2Lib.tileCnt x1 b (Cert.Spec.lab k) := by
  unfold v590
  rw [V1.readCov_whole arg8.view _ inb_S8x16_S8x16_0_0, acc_cnt b k, V1.colsTo_all, zero_add]
  unfold TC
  rw [ld1_eq]

end Cert.KernelIdeal.Gen.V2V5

end
-- ==== Proof.KI.V2Val5.lean ====
import proofs.«413171_j1022202216836_1_alg».proof.Proof.KI.R5Dat
import proofs.«413171_j1022202216836_1_alg».proof.Proof.KI.V2Val5A
import Idealize.ShloMosaic.Lib.Pipeline.Value

noncomputable section

namespace Cert.KernelIdeal.Gen

open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev xblk5 (c : Dev nD) (t : Fin cfg5.N) : Vec Ideal S8x1x256x256 .f32 := iblk5 V c 0 t
abbrev gblk5 (c : Dev nD) (t : Fin cfg5.N) : Vec Ideal S8x1x256x256 .i32 := iblk5 V c 1 t
abbrev mblk5 (c : Dev nD) (t : Fin cfg5.N) : Vec Ideal S8x16 .f32 := iblk5 V c 2 t
abbrev farr5 (c : Dev nD) : Vec Ideal S16x1x256x256 .f32 := V c main_arg2
abbrev garr5 (c : Dev nD) : Vec Ideal S16x1x256x256 .i32 := V c main_arg5
abbrev marr5 (c : Dev nD) : Vec Ideal S16x16 .f32 := V c main_v9

-- Only the batch axis moves with the grid point.
theorem index5_0 (t : Fin cfg5.N) :
    win5_0.index t 0 = t.val ∧ win5_0.index t 1 = 0 ∧ win5_0.index t 2 = 0 ∧ win5_0.index t 3 = 0 := by
  rcases fin_N5 t with rfl | rfl <;> decide
theorem index5_1 (t : Fin cfg5.N) :
    win5_1.index t 0 = t.val ∧ win5_1.index t 1 = 0 ∧ win5_1.index t 2 = 0 ∧ win5_1.index t 3 = 0 := by
  rcases fin_N5 t with rfl | rfl <;> decide
theorem index5_2 (t : Fin cfg5.N) : win5_2.index t 0 = t.val ∧ win5_2.index t 1 = 0 := by
  rcases fin_N5 t with rfl | rfl <;> decide
theorem index5_3 (t : Fin cfg5.N) : win5_3.index t 0 = t.val ∧ win5_3.index t 1 = 0 := by
  rcases fin_N5 t with rfl | rfl <;> decide
theorem index5_4 (t : Fin cfg5.N) : win5_4.index t 0 = t.val ∧ win5_4.index t 1 = 0 := by
  rcases fin_N5 t with rfl | rfl <;> decide

-- Hence block t is rows 8t … 8t + 7 of its array.
theorem xblk5_apply (c : Dev nD) (t : Fin cfg5.N) (b : Fin 8) (r : Fin 256) (w : Fin 256) (B : Fin 16)
    (hB : B.val = 8 * t.val + b.val) : xblk5 V c t (ix4 b 0 r w) = farr5 V c (ix4 B 0 r w) := by
  obtain ⟨i0, i1, i2, i3⟩ := index5_0 t
  show iblk5 V c 0 t (ix4 b 0 r w) = V c main_arg2 (ix4 B 0 r w)
  unfold iblk5
  rw [View.read_apply]
  show V c main_arg2 _ = V c main_arg2 _
  congr 1
  funext a
  apply Fin.ext
  match a with
  | ⟨0, _⟩ => show win5_0.index t 0 * 8 + 1 * b.val = B.val; rw [i0, hB]; omega
  | ⟨1, _⟩ => show win5_0.index t 1 * 1 + 1 * 0 = 0; rw [i1]
  | ⟨2, _⟩ => show win5_0.index t 2 * 256 + 1 * r.val = r.val; rw [i2]; omega
  | ⟨3, _⟩ => show win5_0.index t 3 * 256 + 1 * w.val = w.val; rw [i3]; omega
theorem gblk5_apply (c : Dev nD) (t : Fin cfg5.N) (b : Fin 8) (r : Fin 256) (w : Fin 256) (B : Fin 16)
    (hB : B.val = 8 * t.val + b.val) : gblk5 V c t (ix4 b 0 r w) = garr5 V c (ix4 B 0 r w) := by
  obtain ⟨i0, i1, i2, i3⟩ := index5_1 t
  show iblk5 V c 1 t (ix4 b 0 r w) = V c main_arg5 (ix4 B 0 r w)
  unfold iblk5
  rw [View.read_apply]
  show V c main_arg5 _ = V c main_arg5 _
  congr 1
  funext a
  apply Fin.ext
  match a with
  | ⟨0, _⟩ => show win5_1.index t 0 * 8 + 1 * b.val = B.val; rw [i0, hB]; omega
  | ⟨1, _⟩ => show win5_1.index t 1 * 1 + 1 * 0 = 0; rw [i1]
  | ⟨2, _⟩ => show win5_1.index t 2 * 256 + 1 * r.val = r.val; rw [i2]; omega
  | ⟨3, _⟩ => show win5_1.index t 3 * 256 + 1 * w.val = w.val; rw [i3]; omega
theorem mblk5_apply (c : Dev nD) (t : Fin cfg5.N) (b : Fin 8) (k : Fin 16) (B : Fin 16)
    (hB : B.val = 8 * t.val + b.val) : mblk5 V c t (ix2 b k) = marr5 V c (ix2 B k) := by
  obtain ⟨i0, i1⟩ := index5_2 t
  show iblk5 V c 2 t (ix2 b k) = V c main_v9 (ix2 B k)
  unfold iblk5
  rw [View.read_apply]
  show V c main_v9 _ = V c main_v9 _
  congr 1
  funext a
  apply Fin.ext
  match a with
  | ⟨0, _⟩ => show win5_2.index t 0 * 8 + 1 * b.val = B.val; rw [i0, hB]; omega
  | ⟨1, _⟩ => show win5_2.index t 1 * 16 + 1 * k.val = k.val; rw [i1]; omega

-- A tile's sums are therefore the array's sums over batch row 8t + b.
theorem tile5_pull (c : Dev nD) (t : Fin cfg5.N) (b : Fin 8) (k : Fin 16) (B : Fin 16) (hB : B.val = 8 * t.val + b.val)
    (μ : EReal) :
    V2Lib.tilePull (xblk5 V c t) (gblk5 V c t) μ b (Cert.Spec.lab k) = Cert.Spec.segPull (farr5 V c) (garr5 V c) μ B k := by
  unfold V2Lib.tilePull Cert.Spec.segPull
  refine Finset.sum_congr rfl fun r _ => Finset.sum_congr rfl fun w _ => ?_
  rw [xblk5_apply V c t b r w B hB, gblk5_apply V c t b r w B hB]
theorem tile5_cnt (c : Dev nD) (t : Fin cfg5.N) (b : Fin 8) (k : Fin 16) (B : Fin 16) (hB : B.val = 8 * t.val + b.val) :
    V2Lib.tileCnt (gblk5 V c t) b (Cert.Spec.lab k) = Cert.Spec.segCnt (garr5 V c) B k := by
  unfold V2Lib.tileCnt Cert.Spec.segCnt
  refine Finset.sum_congr rfl fun r _ => Finset.sum_congr rfl fun w _ => ?_
  rw [gblk5_apply V c t b r w B hB]

-- Each output receives one whole store of its accumulator,
theorem run5_L3 (c : Dev nD) (t : Fin cfg5.N) :
    (runD5 V c t).1 = [⟨Rect.unit ![0, 0] S8x16.size inb_S8x16_S8x16_0_0,
      kernelRun5_D.sl.v588 (F := Ideal) c (ms5_0 t) (hs5_0 t) (ms5_1 t) (hs5_1 t) (ms5_2 t) (hs5_2 t) scM5_0 (iblk5 V c 0 t) (iblk5 V c 1 t) (iblk5 V c 2 t)⟩] := by
  unfold runD5 kernelRun5_D; rfl
theorem run5_L4 (c : Dev nD) (t : Fin cfg5.N) :
    (runD5 V c t).2.1 = [⟨Rect.unit ![0, 0] S8x16.size inb_S8x16_S8x16_0_0,
      kernelRun5_D.sl.v590 (F := Ideal) c (ms5_1 t) (hs5_1 t) scM5_1 (iblk5 V c 1 t)⟩] := by
  unfold runD5 kernelRun5_D; rfl

-- so it holds the tile's class terms.
theorem out5_D_3_apply (c : Dev nD) (t : Fin cfg5.N) (b : Fin 8) (k : Fin 16) :
    out5_D_3 V c t (ix2 b k) = V2Lib.tilePull (xblk5 V c t) (gblk5 V c t) (mblk5 V c t (ix2 b k)) b (Cert.Spec.lab k) := by
  unfold out5_D_3
  rw [View.read_writes_junk_eq_canon, run5_L3 V c t, View.canon_unit_zero (Val := Elt Ideal) (e := .f32) (S := S8x16) V1.hz2]
  exact V2V5.out_pull b k
theorem out5_D_4_apply (c : Dev nD) (t : Fin cfg5.N) (b : Fin 8) (k : Fin 16) :
    out5_D_4 V c t (ix2 b k) = V2Lib.tileCnt (gblk5 V c t) b (Cert.Spec.lab k) := by
  unfold out5_D_4
  rw [View.read_writes_junk_eq_canon, run5_L4 V c t, View.canon_unit_zero (Val := Elt Ideal) (e := .f32) (S := S8x16) V1.hz2]
  exact V2V5.out_cnt b k

def pullMap (c : Dev nD) : Vec Ideal S16x16 .f32 :=
  fun j => Cert.Spec.segPull (farr5 V c) (garr5 V c) (marr5 V c j) (j 0) (j 1)
def cntMap (c : Dev nD) : Vec Ideal S16x16 .f32 := fun j => Cert.Spec.segCnt (garr5 V c) (j 0) (j 1)

-- An output block sits at rows 8t … 8t + 7 as well.
theorem emb5_3 (t : Fin cfg5.N) (b : Fin 8) (k : Fin 16) (B : Fin 16) (hB : B.val = 8 * t.val + b.val) :
    ((cfg5.win 3).blk t).view.emb (ix2 b k) = ix2 B k := by
  obtain ⟨i0, i1⟩ := index5_3 t
  funext a
  apply Fin.ext
  match a with
  | ⟨0, _⟩ => show win5_3.index t 0 * 8 + 1 * b.val = B.val; rw [i0, hB]; omega
  | ⟨1, _⟩ => show win5_3.index t 1 * 16 + 1 * k.val = k.val; rw [i1]; omega
theorem emb5_4 (t : Fin cfg5.N) (b : Fin 8) (k : Fin 16) (B : Fin 16) (hB : B.val = 8 * t.val + b.val) :
    ((cfg5.win 4).blk t).view.emb (ix2 b k) = ix2 B k := by
  obtain ⟨i0, i1⟩ := index5_4 t
  funext a
  apply Fin.ext
  match a with
  | ⟨0, _⟩ => show win5_4.index t 0 * 8 + 1 * b.val = B.val; rw [i0, hB]; omega
  | ⟨1, _⟩ => show win5_4.index t 1 * 16 + 1 * k.val = k.val; rw [i1]; omega

def brow5 (t : Fin cfg5.N) (b : Fin 8) : Fin 16 :=
  ⟨8 * t.val + b.val, by have h : t.val < 2 := lt_of_lt_of_eq t.isLt (show cfg5.N = 2 from N_5); omega⟩

-- Block t of each output is block t of its map.
theorem flushed5_3 (c : Dev nD) (t : Fin cfg5.N) (hf : (cfg5.win 3).flush t = true) :
    (dat5 V c).flushed 3 t = ((cfg5.win 3).blk t).view.read (Elt Ideal) (pullMap V c) := by
  show (dat5 V c).after 3 t = _
  rw [after5_3]
  show out5_D_3 V c t = _
  funext y
  obtain ⟨b, k, rfl⟩ : ∃ (b : Fin 8) (k : Fin 16), y = ix2 b k := ⟨y 0, y 1, eq_ix2 y⟩
  rw [out5_D_3_apply V c t b k, View.read_apply]
  show _ = pullMap V c (((cfg5.win 3).blk t).view.emb (ix2 b k))
  rw [emb5_3 t b k (brow5 t b) rfl]
  unfold pullMap
  rw [mblk5_apply V c t b k (brow5 t b) rfl]
  exact tile5_pull V c t b k (brow5 t b) rfl _
theorem flushed5_4 (c : Dev nD) (t : Fin cfg5.N) (hf : (cfg5.win 4).flush t = true) :
    (dat5 V c).flushed 4 t = ((cfg5.win 4).blk t).view.read (Elt Ideal) (cntMap V c) := by
  show (dat5 V c).after 4 t = _
  rw [after5_4]
  show out5_D_4 V c t = _
  funext y
  obtain ⟨b, k, rfl⟩ : ∃ (b : Fin 8) (k : Fin 16), y = ix2 b k := ⟨y 0, y 1, eq_ix2 y⟩
  rw [out5_D_4_apply V c t b k, View.read_apply]
  show _ = cntMap V c (((cfg5.win 4).blk t).view.emb (ix2 b k))
  rw [emb5_4 t b k (brow5 t b) rfl]
  unfold cntMap
  exact tile5_cnt V c t b k (brow5 t b) rfl

-- Row B lies in block B / 8, at row B mod 8.
theorem cover5_3 (i : S16x16.Idx) : ∃ t : Fin cfg5.N, (cfg5.win 3).flush t = true ∧ i ∈ ((cfg5.win 3).blk t).view.set := by
  obtain ⟨B, k, rfl⟩ : ∃ (B k : Fin 16), i = ix2 B k := ⟨i 0, i 1, eq_ix2 i⟩
  have ht : B.val / 8 < cfg5.N := by have hN : cfg5.N = 2 := N_5; omega
  have h := ((cfg5.win 3).blk ⟨_, ht⟩).view.emb_mem_set (ix2 (⟨B.val % 8, Nat.mod_lt _ (by decide)⟩ : Fin 8) k)
  rw [emb5_3 _ _ k B (Nat.div_add_mod _ _).symm] at h
  exact ⟨_, flush5_3 _, h⟩
theorem cover5_4 (i : S16x16.Idx) : ∃ t : Fin cfg5.N, (cfg5.win 4).flush t = true ∧ i ∈ ((cfg5.win 4).blk t).view.set := by
  obtain ⟨B, k, rfl⟩ : ∃ (B k : Fin 16), i = ix2 B k := ⟨i 0, i 1, eq_ix2 i⟩
  have ht : B.val / 8 < cfg5.N := by have hN : cfg5.N = 2 := N_5; omega
  have h := ((cfg5.win 4).blk ⟨_, ht⟩).view.emb_mem_set (ix2 (⟨B.val % 8, Nat.mod_lt _ (by decide)⟩ : Fin 8) k)
  rw [emb5_4 _ _ k B (Nat.div_add_mod _ _).symm] at h
  exact ⟨_, flush5_4 _, h⟩

theorem arr5_3 (c : Dev nD) : (dat5 V c).arrAt 3 cfg5.N = pullMap V c :=
  (dat5 V c).arrAt_eq_of_cover 3 (pullMap V c) (flushed5_3 V c) (cover5_3)
theorem arr5_4 (c : Dev nD) : (dat5 V c).arrAt 4 cfg5.N = cntMap V c :=
  (dat5 V c).arrAt_eq_of_cover 4 (cntMap V c) (flushed5_4 V c) (cover5_4)

-- Region 5's two results: per batch row and class, the hinged squared distances summed, and the pixels counted.
theorem pull5 (c : Dev nD) (b k : Fin 16) :
    (dat5 (F := Ideal) V c).arrAt 3 cfg5.N (ix2 b k)
      = Cert.Spec.segPull (V c main_arg2) (V c main_arg5) (V c main_v9 (ix2 b k)) b k := by
  rw [arr5_3 V c]; rfl

theorem pcnt5 (c : Dev nD) (b k : Fin 16) :
    (dat5 (F := Ideal) V c).arrAt 4 cfg5.N (ix2 b k) = Cert.Spec.segCnt (V c main_arg5) b k := by
  rw [arr5_4 V c]; rfl

end Cert.KernelIdeal.Gen

end
-- ==== Proof.KI.Value.lean ====
import proofs.«413171_j1022202216836_1_alg».proof.Proof.KI.Run
import proofs.«413171_j1022202216836_1_alg».proof.Proof.KI.ValueOf
import proofs.«413171_j1022202216836_1_alg».proof.Proof.KI.V1Val0
import proofs.«413171_j1022202216836_1_alg».proof.Proof.KI.V1Val1
import proofs.«413171_j1022202216836_1_alg».proof.Proof.KI.V1Val2
import proofs.«413171_j1022202216836_1_alg».proof.Proof.KI.V2Val3
import proofs.«413171_j1022202216836_1_alg».proof.Proof.KI.V2Val4
import proofs.«413171_j1022202216836_1_alg».proof.Proof.KI.V2Val5
import proofs.«413171_j1022202216836_1_alg».proof.Proof.Final

noncomputable section

namespace Cert.KernelIdeal.Gen

open Idealize.ShloMosaic Idealize.ShloMosaic.TcCoe

theorem regionValues : RegionValues :=
  ⟨sum0, cnt0, sum1, cnt1, sum2, cnt2, pull3, pcnt3, pull4, pcnt4, pull5, pcnt5⟩

theorem kernel_value (m : (ℓ : Loc nD τ sig) → Buf (Elt Ideal) ℓ) (ρ : Dev nD → PrngReg) (c : Dev nD) :
    Wend (F := Ideal) m ρ c (Proc.devRef .tc main_v78)
      = Cert.Final.result (m ((c : Thread nD τ).loc main_arg0)) (m ((c : Thread nD τ).loc main_arg3))
          (m ((c : Thread nD τ).loc main_arg1)) (m ((c : Thread nD τ).loc main_arg4))
          (m ((c : Thread nD τ).loc main_arg2)) (m ((c : Thread nD τ).loc main_arg5)) :=
  kernel_value_of regionValues m ρ c

end Cert.KernelIdeal.Gen

end
-- ==== Proof.RefImports.lean ====
import proofs.«413171_j1022202216836_1_alg».proof.Proof.RefRead
-- ==== Proof.Ref.Word.lean ====
import Idealize.ShloMosaic.PureOps.Ideal
import Idealize.ShloMosaic.Lib.ValueIdx
import Idealize.ShloMosaic.Lib.StableHlo.Predicate
import proofs.«413171_j1022202216836_1_alg».proof.Proof.Spec

namespace Cert.ReferenceIdeal.RefValue

open Idealize.ShloMosaic Idealize.ShloMosaic.ValueIdx Idealize.ShloMosaic.StableHlo.Predicate Cert.Spec

def validBit (g : BitVec 32) : BitVec 1 :=
  IntOp.andi (IntOp.andi (IntOp.cmpi .sge g 1#32) (IntOp.cmpi .sle g 16#32)) (IntOp.cmpi .slt g 255#32)

def segWord (g : BitVec 32) (b : Nat) : BitVec 32 :=
  IntOp.addi (Scalar.select (validBit g) g 0#32) (IntOp.muli (BitVec.ofNat 32 b) 17#32)

theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

theorem sge_iff (a b : BitVec 32) : IntOp.cmpi .sge a b = 1#1 ↔ b.toInt ≤ a.toInt := by
  show BitVec.ofBool (b.sle a) = 1#1 ↔ _
  rw [ofBool_eq_one_iff, BitVec.sle_iff_toInt_le]

theorem sle_iff (a b : BitVec 32) : IntOp.cmpi .sle a b = 1#1 ↔ a.toInt ≤ b.toInt := by
  show BitVec.ofBool (a.sle b) = 1#1 ↔ _
  rw [ofBool_eq_one_iff, BitVec.sle_iff_toInt_le]

theorem slt_iff (a b : BitVec 32) : IntOp.cmpi .slt a b = 1#1 ↔ a.toInt < b.toInt := by
  show BitVec.ofBool (a.slt b) = 1#1 ↔ _
  rw [ofBool_eq_one_iff, BitVec.slt_iff_toInt_lt]

theorem validBit_eq_one_iff (g : BitVec 32) : validBit g = 1#1 ↔ 1 ≤ g.toInt ∧ g.toInt ≤ 16 := by
  unfold validBit
  rw [andi_eq_one_iff, andi_eq_one_iff, sge_iff, sle_iff, slt_iff]
  have h1 : (1#32 : BitVec 32).toInt = 1 := by decide
  have h16 : (16#32 : BitVec 32).toInt = 16 := by decide
  have h255 : (255#32 : BitVec 32).toInt = 255 := by decide
  rw [h1, h16, h255]
  omega

theorem toNat_of_valid {g : BitVec 32} (hv : validBit g = 1#1) : 1 ≤ g.toNat ∧ g.toNat ≤ 16 ∧ g.toInt = g.toNat := by
  have h := (validBit_eq_one_iff g).mp hv
  have hlt : g.toNat < 2 ^ 32 := g.isLt
  have hc := BitVec.toInt_eq_toNat_cond g
  split at hc <;> omega

theorem toInt_lab (k : Fin 16) : (lab k).toInt = (k.val + 1 : Nat) := by
  unfold lab
  exact toInt_ofNat_small _ (by have := k.isLt; omega)

theorem validBit_lab (k : Fin 16) : validBit (lab k) = 1#1 := by
  rw [validBit_eq_one_iff, toInt_lab]
  have := k.isLt
  omega

theorem segWord_toInt_valid {g : BitVec 32} {b : Nat} (hb : b < 16) (hv : validBit g = 1#1) :
    (segWord g b).toInt = g.toInt + 17 * b := by
  obtain ⟨h1, h16, hgi⟩ := toNat_of_valid hv
  unfold segWord
  rw [hv, select_one]
  have hn : (IntOp.addi g (IntOp.muli (BitVec.ofNat 32 b) 17#32)).toNat = g.toNat + 17 * b := by
    show (g + BitVec.ofNat 32 b * 17#32).toNat = _
    simp only [BitVec.toNat_add, BitVec.toNat_mul, BitVec.toNat_ofNat]
    omega
  rw [toInt_eq_toNat_of_lt (by rw [hn]; omega), hn, hgi]
  omega

theorem segWord_toInt_invalid {g : BitVec 32} {b : Nat} (hb : b < 16) (hv : ¬ validBit g = 1#1) :
    (segWord g b).toInt = 17 * b := by
  unfold segWord
  rw [eq_zero_of_ne_one hv, select_zero]
  have hn : (IntOp.addi 0#32 (IntOp.muli (BitVec.ofNat 32 b) 17#32)).toNat = 17 * b := by
    show (0#32 + BitVec.ofNat 32 b * 17#32).toNat = _
    simp only [BitVec.toNat_add, BitVec.toNat_mul, BitVec.toNat_ofNat]
    omega
  rw [toInt_eq_toNat_of_lt (by rw [hn]; omega), hn]
  omega

theorem segWord_range (g : BitVec 32) {b : Nat} (hb : b < 16) : 0 ≤ (segWord g b).toInt ∧ (segWord g b).toInt < 272 := by
  by_cases hv : validBit g = 1#1
  · rw [segWord_toInt_valid hb hv]
    have := (validBit_eq_one_iff g).mp hv
    omega
  · rw [segWord_toInt_invalid hb hv]
    omega

theorem segWord_toInt_eq_iff (g : BitVec 32) (b' b k : Fin 16) :
    (segWord g b'.val).toInt = ((17 * b.val + k.val + 1 : Nat) : Int) ↔ b' = b ∧ g = lab k := by
  have hb' := b'.isLt
  have hb := b.isLt
  have hk := k.isLt
  by_cases hv : validBit g = 1#1
  · rw [segWord_toInt_valid hb' hv]
    have hr := (validBit_eq_one_iff g).mp hv
    constructor
    · intro h
      have h1 : b'.val = b.val := by omega
      have h2 : g.toInt = (lab k).toInt := by rw [toInt_lab]; omega
      exact ⟨Fin.ext h1, BitVec.eq_of_toInt_eq h2⟩
    · rintro ⟨rfl, rfl⟩
      rw [toInt_lab]
      omega
  · rw [segWord_toInt_invalid hb' hv]
    constructor
    · intro h
      omega
    · rintro ⟨_, rfl⟩
      exact absurd (validBit_lab k) hv

def seg (b k : Fin 16) : (⟨1, ![272]⟩ : Shape).Idx :=
  ix1 (⟨17 * b.val + k.val + 1, by have := b.isLt; have := k.isLt; omega⟩ : Fin 272)

theorem uitofp_bit_one : FloatOps.uitofp (F := Ideal) .f32 (1#1 : BitVec 1) = (1 : EReal) := by
  show (((1 : Nat) : ℝ) : EReal) = 1
  simp

end Cert.ReferenceIdeal.RefValue
-- ==== Proof.Ref.Gather.lean ====
import Idealize.ShloMosaic.PureOps.Ideal
import Idealize.ShloMosaic.Lib.ValueIdx

namespace Cert.ReferenceIdeal.RefValue

open Idealize.ShloMosaic Idealize.ShloMosaic.ValueIdx

variable {α : Type}

abbrev pickDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem gather_pick_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (pickDims N R wf) x idx (ix1 r)
      = x (ix1 (⟨min (idx (ix2 r (0 : Fin 1))).toInt.toNat (N - 1), by omega⟩ : Fin N)) := by

  unfold Host.gather
  congr 1
  funext a
  obtain rfl : a = 0 := Subsingleton.elim _ _
  refine Fin.ext ?_
  show (pickDims N R wf).start (ix1 r) idx 0 + (pickDims N R wf).batchCoord (ix1 r) 0
      + (pickDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N R wf).startIndexMap from List.mem_singleton.mpr rfl)]

  have hsi : (pickDims N R wf).siIdx (ix1 r) ⟨List.idxOf (0 : Fin 1) (pickDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Cert.ReferenceIdeal.RefValue
-- ==== Proof.LibScatter.lean ====
import Idealize.ShloMosaic.PureOps.Ideal
import Idealize.ShloMosaic.Lib.ValueIdx
import Idealize.ShloMosaic.Lib.ValueIdxRank1

noncomputable section

namespace Cert.LibScatter

open Idealize.ShloMosaic Idealize.ShloMosaic.ValueIdx

abbrev segDims (n N : Nat) (wf : ScatterDims.WF ⟨1, ![n]⟩ ⟨2, ![N, 1]⟩ ⟨1, ![N]⟩ [] [0] [0] 1) :
    ScatterDims ⟨1, ![n]⟩ ⟨2, ![N, 1]⟩ ⟨1, ![N]⟩ where
  updateWindowDims := []
  insertedWindowDims := [0]
  scatterDimsToOperandDims := [0]
  indexVectorDim := 1
  wf := wf

section
variable {n N w : Nat} (wf : ScatterDims.WF ⟨1, ![n]⟩ ⟨2, ![N, 1]⟩ ⟨1, ![N]⟩ [] [0] [0] 1)

theorem segDims_siIdx (j : (⟨1, ![N]⟩ : Shape).Idx) (c : Fin (segDims n N wf).scatterDimsToOperandDims.length) :
    (segDims n N wf).siIdx j c = ix2 (j 0) 0 := by
  funext b; refine Fin.ext ?_
  match b with
  | ⟨0, _⟩ => rfl
  | ⟨1, _⟩ =>
    show c.val = 0
    have : c.val < 1 := c.isLt
    omega

theorem segDims_start (j : (⟨1, ![N]⟩ : Shape).Idx) (idx : IVec ⟨2, ![N, 1]⟩ w) (a : Fin 1) :
    (segDims n N wf).start j idx a = (idx (ix2 (j 0) 0)).toInt := by
  obtain rfl : a = 0 := Subsingleton.elim _ _
  unfold ScatterDims.start
  rw [dif_pos (show (0 : Fin 1) ∈ (segDims n N wf).scatterDimsToOperandDims from List.mem_singleton.mpr rfl)]
  rw [segDims_siIdx]
  rfl

theorem segDims_window (j : (⟨1, ![N]⟩ : Shape).Idx) (a : Fin 1) : (segDims n N wf).window j a = 0 := by
  obtain rfl : a = 0 := Subsingleton.elim _ _
  unfold ScatterDims.window
  rw [dif_neg]
  show ¬ (0 : Fin 1) ∈ ([] : List (Fin 1))
  exact List.not_mem_nil

theorem segDims_resultIdx?_eq_some_iff (j : (⟨1, ![N]⟩ : Shape).Idx) (idx : IVec ⟨2, ![N, 1]⟩ w)
    (i : (⟨1, ![n]⟩ : Shape).Idx) :
    (segDims n N wf).resultIdx? j idx = some i ↔ (idx (ix2 (j 0) 0)).toInt = ((i 0).val : ℤ) := by
  unfold ScatterDims.resultIdx?
  simp only [segDims_start, segDims_window]
  have hi : (i 0).val < n := (i 0).isLt
  constructor
  · intro h
    split at h
    · rename_i hc
      have h0 := hc 0
      have := congrFun (Option.some.inj h) 0
      have hv := congrArg Fin.val this
      simp only at hv
      omega
    · exact absurd h (by simp)
  · intro h
    rw [dif_pos]
    · congr 1
      funext a
      obtain rfl : a = 0 := Subsingleton.elim _ _
      refine Fin.ext ?_
      simp only
      omega
    · intro a
      obtain rfl : a = 0 := Subsingleton.elim _ _
      show 0 ≤ _ + ((0 : Nat) : ℤ) ∧ _ + ((0 : Nat) : ℤ) < ((n : Nat) : ℤ)
      omega

theorem segDims_scatterAdd_apply {φ : FTy} (x : FVec Ideal ⟨1, ![n]⟩ φ) (idx : IVec ⟨2, ![N, 1]⟩ w)
    (upd : FVec Ideal ⟨1, ![N]⟩ φ) (i : (⟨1, ![n]⟩ : Shape).Idx) :
    Host.scatterAdd (F := Ideal) (segDims n N wf) x idx upd i
      = x i + ∑ j : Fin N, if (idx (ix2 j 0)).toInt = ((i 0).val : ℤ) then upd (ix1 j) else 0 := by
  show Ideal.hostScatterAdd _ x idx upd i = _
  unfold Ideal.hostScatterAdd
  congr 1
  rw [Finset.sum_filter]
  refine Fintype.sum_equiv idxEquiv1 _ _ fun j => ?_
  show _ = if (idx (ix2 (j 0) 0)).toInt = ((i 0).val : ℤ) then upd (ix1 (j 0)) else 0
  by_cases h : (idx (ix2 (j 0) 0)).toInt = ((i 0).val : ℤ)
  · rw [if_pos h, if_pos ((segDims_resultIdx?_eq_some_iff wf j idx i).2 h)]
    exact congrArg upd (eq_ix1 j)
  · rw [if_neg h, if_neg (fun h' => h ((segDims_resultIdx?_eq_some_iff wf j idx i).1 h'))]

end

end Cert.LibScatter

end
-- ==== Proof.LibFlatSum.lean ====
import Idealize.ShloMosaic.Lib.ValueIdx
import Idealize.ShloMosaic.Lib.Pipeline.Value
import Mathlib.Logic.Equiv.Fin.Basic
import Mathlib.Algebra.BigOperators.Fin
import Mathlib.Tactic.Ring

namespace Cert.LibFlatSum

open Idealize.ShloMosaic Idealize.ShloMosaic.ValueIdx

theorem flat_lt {B P : Nat} (b : Fin B) (p : Fin P) : b.val * P + p.val < B * P :=
  calc b.val * P + p.val < b.val * P + P := Nat.add_lt_add_left p.isLt _
    _ = (b.val + 1) * P := (Nat.succ_mul _ _).symm
    _ ≤ B * P := Nat.mul_le_mul_right _ b.isLt

def flat {N B P : Nat} (hN : B * P = N) (b : Fin B) (p : Fin P) : Fin N := ⟨b.val * P + p.val, hN ▸ flat_lt b p⟩

def flat3 {N B H W P : Nat} (hN : B * P = N) (hP : H * W = P) (b : Fin B) (h : Fin H) (w : Fin W) : Fin N :=
  flat hN b (flat hP h w)

@[simp] theorem flat_val {N B P : Nat} (hN : B * P = N) (b : Fin B) (p : Fin P) : (flat hN b p).val = b.val * P + p.val := rfl

@[simp] theorem flat3_val {N B H W P : Nat} (hN : B * P = N) (hP : H * W = P) (b : Fin B) (h : Fin H) (w : Fin W) :
    (flat3 hN hP b h w).val = b.val * P + (h.val * W + w.val) := rfl

theorem flat_div {N B P : Nat} (hN : B * P = N) (b : Fin B) (p : Fin P) : (flat hN b p).val / P = b.val := by
  have hP : 0 < P := Nat.pos_of_ne_zero fun h => by have := p.isLt; omega
  rw [flat_val, Nat.mul_comm, Nat.mul_add_div hP, Nat.div_eq_of_lt p.isLt, Nat.add_zero]

theorem flat_mod {N B P : Nat} (hN : B * P = N) (b : Fin B) (p : Fin P) : (flat hN b p).val % P = p.val := by
  rw [flat_val, Nat.mul_comm, Nat.mul_add_mod, Nat.mod_eq_of_lt p.isLt]

section Sums
variable {M : Type*} [AddCommMonoid M]

theorem sum_flat {N B P : Nat} (hN : B * P = N) (u : Fin N → M) :
    ∑ j, u j = ∑ b : Fin B, ∑ p : Fin P, u (flat hN b p) := by
  subst hN
  rw [← Equiv.sum_comp finProdFinEquiv u, Fintype.sum_prod_type]
  refine Finset.sum_congr rfl fun b _ => Finset.sum_congr rfl fun p _ => congrArg u (Fin.ext ?_)
  show p.val + P * b.val = b.val * P + p.val
  rw [Nat.mul_comm, Nat.add_comm]

theorem sum_flat3 {N B H W P : Nat} (hN : B * P = N) (hP : H * W = P) (u : Fin N → M) :
    ∑ j, u j = ∑ b : Fin B, ∑ h : Fin H, ∑ w : Fin W, u (flat3 hN hP b h w) := by
  rw [sum_flat hN u]
  refine Finset.sum_congr rfl fun b _ => ?_
  exact sum_flat hP fun p => u (flat hN b p)

theorem sum_flat_row {N B P : Nat} (hN : B * P = N) (u : Fin N → M) (b : Fin B)
    (h0 : ∀ (b' : Fin B) (p : Fin P), b' ≠ b → u (flat hN b' p) = 0) :
    ∑ j, u j = ∑ p : Fin P, u (flat hN b p) := by
  rw [sum_flat hN u]
  exact Finset.sum_eq_single b (fun b' _ hb => Finset.sum_eq_zero fun p _ => h0 b' p hb)
    (fun h => absurd (Finset.mem_univ b) h)

theorem sum_flat3_row {N B H W P : Nat} (hN : B * P = N) (hP : H * W = P) (u : Fin N → M) (b : Fin B)
    (h0 : ∀ (b' : Fin B) (h : Fin H) (w : Fin W), b' ≠ b → u (flat3 hN hP b' h w) = 0) :
    ∑ j, u j = ∑ h : Fin H, ∑ w : Fin W, u (flat3 hN hP b h w) := by
  rw [sum_flat3 hN hP u]
  exact Finset.sum_eq_single b
    (fun b' _ hb => Finset.sum_eq_zero fun h _ => Finset.sum_eq_zero fun w _ => h0 b' h w hb)
    (fun h => absurd (Finset.mem_univ b) h)

theorem sum_flat3_row_ite {N B H W P : Nat} (hN : B * P = N) (hP : H * W = P) (c : Fin N → Prop) [DecidablePred c]
    (v : Fin N → M) (b : Fin B) (Q : Fin H → Fin W → Prop) [∀ h w, Decidable (Q h w)]
    (hc : ∀ (b' : Fin B) (h : Fin H) (w : Fin W), c (flat3 hN hP b' h w) ↔ b' = b ∧ Q h w) :
    ∑ j, (if c j then v j else 0) = ∑ h : Fin H, ∑ w : Fin W, if Q h w then v (flat3 hN hP b h w) else 0 := by
  rw [sum_flat3_row hN hP (fun j => if c j then v j else 0) b
    (fun b' h w hb => if_neg fun hcj => hb ((hc b' h w).1 hcj).1)]
  refine Finset.sum_congr rfl fun h _ => Finset.sum_congr rfl fun w _ => ?_
  by_cases hq : Q h w
  · rw [if_pos hq, if_pos ((hc b h w).2 ⟨rfl, hq⟩)]
  · rw [if_neg hq, if_neg fun hcj => hq ((hc b h w).1 hcj).2]

end Sums

section Reads
variable {α : Type}

theorem shapeCast_flat_apply {N B P : Nat} (hN : B * P = N) (y : (⟨2, ![B, P]⟩ : Shape).Idx → α)
    (h : (⟨2, ![B, P]⟩ : Shape).ShapeCasts ⟨1, ![N]⟩) (b : Fin B) (p : Fin P) :
    shapeCast ⟨1, ![N]⟩ y h (ix1 (flat hN b p)) = y (ix2 b p) := by
  refine shapeCast_apply y h _ _ ?_
  rw [Shape.rowMajor_val_two, Shape.rowMajor_val_one]
  rfl

theorem shapeCast_rows_apply {B H W P : Nat} (hP : H * W = P) (x : (⟨4, ![B, 1, H, W]⟩ : Shape).Idx → α)
    (h : (⟨4, ![B, 1, H, W]⟩ : Shape).ShapeCasts ⟨2, ![B, P]⟩) (b : Fin B) (hh : Fin H) (ww : Fin W) :
    shapeCast ⟨2, ![B, P]⟩ x h (ix2 b (flat hP hh ww)) = x (ix4 b 0 hh ww) := by
  refine shapeCast_apply x h _ _ ?_
  rw [Shape.rowMajor_val_two, Shape.rowMajor_val_four]
  show ((b.val * 1 + 0) * H + hh.val) * W + ww.val = b.val * P + (hh.val * W + ww.val)
  subst hP
  ring

theorem shapeCast_flat3_apply {N B H W P : Nat} (hN : B * P = N) (hP : H * W = P)
    (x : (⟨4, ![B, 1, H, W]⟩ : Shape).Idx → α) (h₁ : (⟨4, ![B, 1, H, W]⟩ : Shape).ShapeCasts ⟨2, ![B, P]⟩)
    (h₂ : (⟨2, ![B, P]⟩ : Shape).ShapeCasts ⟨1, ![N]⟩) (b : Fin B) (hh : Fin H) (ww : Fin W) :
    shapeCast ⟨1, ![N]⟩ (shapeCast ⟨2, ![B, P]⟩ x h₁) h₂ (ix1 (flat3 hN hP b hh ww)) = x (ix4 b 0 hh ww) :=
  (shapeCast_flat_apply hN _ h₂ b (flat hP hh ww)).trans (shapeCast_rows_apply hP x h₁ b hh ww)

theorem flat3_read₂ {β γ : Type} {N B H W P : Nat} (hN : B * P = N) (hP : H * W = P)
    (x : (⟨4, ![B, 1, H, W]⟩ : Shape).Idx → α) (y : (⟨4, ![B, 1, H, W]⟩ : Shape).Idx → β)
    (h₁ : (⟨4, ![B, 1, H, W]⟩ : Shape).ShapeCasts ⟨2, ![B, P]⟩) (h₂ : (⟨2, ![B, P]⟩ : Shape).ShapeCasts ⟨1, ![N]⟩)
    (F : α → β → γ) (b : Fin B) (hh : Fin H) (ww : Fin W) :
    F (shapeCast ⟨1, ![N]⟩ (shapeCast ⟨2, ![B, P]⟩ x h₁) h₂ (ix1 (flat3 hN hP b hh ww)))
        (shapeCast ⟨1, ![N]⟩ (shapeCast ⟨2, ![B, P]⟩ y h₁) h₂ (ix1 (flat3 hN hP b hh ww)))
      = F (x (ix4 b 0 hh ww)) (y (ix4 b 0 hh ww)) := by
  rw [shapeCast_flat3_apply hN hP x h₁ h₂, shapeCast_flat3_apply hN hP y h₁ h₂]

end Reads

end Cert.LibFlatSum
-- ==== Proof.Ref.S0.lean ====
import proofs.«413171_j1022202216836_1_alg».proof.Proof.RefImports
import proofs.«413171_j1022202216836_1_alg».proof.Proof.Ref.Word
import proofs.«413171_j1022202216836_1_alg».proof.Proof.Ref.Gather
import proofs.«413171_j1022202216836_1_alg».proof.Proof.LibScatter
import proofs.«413171_j1022202216836_1_alg».proof.Proof.LibFlatSum

noncomputable section

namespace Cert.ReferenceIdeal.RefValue

open Cert.ReferenceIdeal Cert.ReferenceIdeal.Gen Cert.ReferenceIdeal.ReadP Idealize.ShloMosaic Idealize.ShloMosaic.ValueIdx Cert.Spec
open Cert.LibFlatSum (flat3)

def pix0 (j : Fin 16777216) : S16x1x1024x1024.Idx :=
  ix4 (⟨j.val / 1048576, by have := j.isLt; omega⟩ : Fin 16) (0 : Fin 1)
    (⟨j.val % 1048576 / 1024, by have := j.isLt; omega⟩ : Fin 1024) (⟨j.val % 1024, by have := j.isLt; omega⟩ : Fin 1024)

theorem pix0_eq (j : Fin 16777216) : idx_main_v7 (idx_main_v19 (ix1 j)) = pix0 j := by
  funext a
  match a with
  | ⟨0, _⟩ =>
    exact Fin.ext (by show (j.val / 1048576 * 1048576 + j.val % 1048576) / 1048576 = j.val / 1048576; omega)
  | ⟨1, _⟩ => rfl
  | ⟨2, _⟩ =>
    exact Fin.ext (by show (j.val / 1048576 * 1048576 + j.val % 1048576) / 1024 % 1024 = j.val % 1048576 / 1024; omega)
  | ⟨3, _⟩ =>
    exact Fin.ext (by show (j.val / 1048576 * 1048576 + j.val % 1048576) % 1024 = j.val % 1024; omega)

theorem valid0 (g : GMap 1024 1024) (i : S16x1048576.Idx) :
    val_main_v15 (F := Ideal) g i = validBit (g (idx_main_v7 i)) := by
  rw [val_main_v15_apply, val_main_v12_apply, val_main_v9_apply, val_main_v11_apply, val_main_v14_apply,
    val_main_v8_apply, val_main_v10_apply, val_main_v13_apply, val_main_c_1_apply, val_main_c_2_apply,
    val_main_c_3_apply, val_main_v7_apply]
  rfl

theorem word0 (g : GMap 1024 1024) (j : Fin 16777216) :
    val_main_v19 (F := Ideal) g (ix1 j) = segWord (g (pix0 j)) (j.val / 1048576) := by
  rw [val_main_v19_apply, val_main_v18_apply, val_main_v16_apply, valid0, val_main_v7_apply,
    val_main_call0_v1_apply, val_main_call0_v0_apply, val_main_c_4_apply, val_main_v17_apply, val_main_v3_apply,
    val_main_v2_apply, val_main_v0_apply, val_main_v1_apply, val_main_c_apply, pix0_eq]
  rfl

theorem idxA0 (g : GMap 1024 1024) (j : Fin 16777216) :
    val_main_v25 (F := Ideal) g (ix2 j (0 : Fin 1)) = segWord (g (pix0 j)) (j.val / 1048576) := by
  rw [val_main_v25_apply]
  exact word0 g j
theorem idxB0 (g : GMap 1024 1024) (j : Fin 16777216) :
    val_main_v29 (F := Ideal) g (ix2 j (0 : Fin 1)) = segWord (g (pix0 j)) (j.val / 1048576) := by
  rw [val_main_v29_apply]
  exact word0 g j
theorem idxC0 (g : GMap 1024 1024) (j : Fin 16777216) :
    val_main_v106 (F := Ideal) g (ix2 j (0 : Fin 1)) = segWord (g (pix0 j)) (j.val / 1048576) := by
  rw [val_main_v106_apply]
  exact word0 g j
theorem idxD0 (g : GMap 1024 1024) (j : Fin 16777216) :
    val_main_v111 (F := Ideal) g (ix2 j (0 : Fin 1)) = segWord (g (pix0 j)) (j.val / 1048576) := by
  rw [val_main_v111_apply]
  exact word0 g j

theorem updSum0 (f : FMap 1024 1024) (g : GMap 1024 1024) (j : Fin 16777216) :
    val_main_v23 (F := Ideal) f g (ix1 j)
      = Scalar.select (validBit (g (pix0 j))) (f (pix0 j)) (Ideal.ofBits .f32 0x00000000#32) := by
  rw [val_main_v23_apply, val_main_v22_apply, valid0, val_main_v6_apply, val_main_call1_v1_apply,
    val_main_call1_v0_apply, val_main_cst_5_apply]
  exact congrArg (fun p => Scalar.select (validBit (g p)) (f p) (Ideal.ofBits .f32 0x00000000#32)) (pix0_eq j)

theorem updCntA0 (g : GMap 1024 1024) (j : Fin 16777216) :
    val_main_v21 (F := Ideal) g (ix1 j) = FloatOps.uitofp (F := Ideal) .f32 (validBit (g (pix0 j))) := by
  rw [val_main_v21_apply, val_main_v20_apply, valid0]
  exact congrArg (fun p => FloatOps.uitofp (F := Ideal) .f32 (validBit (g p))) (pix0_eq j)

theorem updCntB0 (g : GMap 1024 1024) (j : Fin 16777216) :
    val_main_v109 (F := Ideal) g (ix1 j) = FloatOps.uitofp (F := Ideal) .f32 (validBit (g (pix0 j))) := by
  rw [val_main_v109_apply, val_main_v108_apply, valid0]
  exact congrArg (fun p => FloatOps.uitofp (F := Ideal) .f32 (validBit (g p))) (pix0_eq j)

theorem start0 (g : GMap 1024 1024) (j : Fin 16777216) :
    val_main_v93 (F := Ideal) g (ix2 j (0 : Fin 1)) = segWord (g (pix0 j)) (j.val / 1048576) := by
  have hi : idx_main_v93 (ix2 j (0 : Fin 1)) = ix1 j := by
    funext a
    match a with
    | ⟨0, _⟩ => rfl
  rw [val_main_v93_apply, hi, val_main_v92_apply, val_main_v89_apply, val_main_v88_apply, val_main_c_24_apply,
    word0]
  have hr := segWord_range (g (pix0 j)) (b := j.val / 1048576) (by have := j.isLt; omega)
  have hz : ¬ IntOp.cmpi .slt (segWord (g (pix0 j)) (j.val / 1048576)) 0#32 = 1#1 := by
    rw [slt_iff]
    have h0 : (0#32 : BitVec 32).toInt = 0 := by decide
    rw [h0]
    omega
  rw [eq_zero_of_ne_one hz, select_zero]

theorem mpix0 (f0 : FMap 1024 1024) (f1 : FMap 512 512) (f2 : FMap 256 256) (g0 : GMap 1024 1024) (g1 : GMap 512 512)
    (g2 : GMap 256 256) (j : Fin 16777216) (b k : Fin 16) (hb : j.val / 1048576 = b.val) (hg : g0 (pix0 j) = lab k) :
    val_main_v94 (F := Ideal) f0 f1 f2 g0 g1 g2 (ix1 j) = val_main_v86 (F := Ideal) f0 f1 f2 g0 g1 g2 (seg b k) := by
  have hw : (segWord (g0 (pix0 j)) (j.val / 1048576)).toInt = ((17 * b.val + k.val + 1 : Nat) : Int) := by
    rw [hb, hg]
    exact (segWord_toInt_eq_iff (lab k) b b k).mpr ⟨rfl, rfl⟩
  have hb' := b.isLt
  have hk' := k.isLt
  refine (gather_pick_apply (N := 272) (R := 16777216) (by decide) gather_S272_S16777216x1_S16777216_n_0_n_n_0_1_1_wf
    (val_main_v86 (F := Ideal) f0 f1 f2 g0 g1 g2) (val_main_v93 (F := Ideal) g0) j).trans ?_
  exact congrArg (fun r => val_main_v86 (F := Ideal) f0 f1 f2 g0 g1 g2 (ix1 r))
    (Fin.ext (by
      show min (val_main_v93 (F := Ideal) g0 (ix2 j (0 : Fin 1))).toInt.toNat (272 - 1) = 17 * b.val + k.val + 1
      rw [start0, hw]
      omega))

theorem updPull0 (f0 : FMap 1024 1024) (f1 : FMap 512 512) (f2 : FMap 256 256) (g0 : GMap 1024 1024) (g1 : GMap 512 512)
    (g2 : GMap 256 256) (j : Fin 16777216) (b k : Fin 16) (hb : j.val / 1048576 = b.val) (hg : g0 (pix0 j) = lab k) :
    val_main_v104 (F := Ideal) f0 f1 f2 g0 g1 g2 (ix1 j)
      = hinge (f0 (pix0 j)) (val_main_v86 (F := Ideal) f0 f1 f2 g0 g1 g2 (seg b k)) := by
  have h95 : idx_main_v95 (idx_main_v104 (ix1 j)) = ix1 j := by
    funext a
    match a with
    | ⟨0, _⟩ => exact Fin.ext (by show j.val / 1048576 * 1048576 + j.val % 1048576 = j.val; omega)
  have hp7 : idx_main_v7 (idx_main_v104 (ix1 j)) = pix0 j := pix0_eq j
  have hp6 : idx_main_v6 (idx_main_v104 (ix1 j)) = pix0 j := pix0_eq j
  rw [val_main_v104_apply, val_main_v103_apply, valid0, val_main_v102_apply, val_main_v101_apply,
    val_main_v99_apply, val_main_v97_apply, val_main_v96_apply, val_main_v95_apply, val_main_v6_apply,
    val_main_v98_apply, val_main_cst_26_apply, val_main_v100_apply, val_main_cst_27_apply, h95, hp7, hp6,
    mpix0 f0 f1 f2 g0 g1 g2 j b k hb hg, hg, validBit_lab, select_one]
  rfl

theorem hN0 : 16 * 1048576 = 16777216 := by norm_num
theorem hP0 : 1024 * 1024 = 1048576 := by norm_num

theorem pix0_flat (b : Fin 16) (h w : Fin 1024) : pix0 (flat3 hN0 hP0 b h w) = ix4 b (0 : Fin 1) h w := by
  have hb := b.isLt
  have hh := h.isLt
  have hw := w.isLt
  funext a
  match a with
  | ⟨0, _⟩ => exact Fin.ext (by show (b.val * 1048576 + (h.val * 1024 + w.val)) / 1048576 = b.val; omega)
  | ⟨1, _⟩ => rfl
  | ⟨2, _⟩ => exact Fin.ext (by show (b.val * 1048576 + (h.val * 1024 + w.val)) % 1048576 / 1024 = h.val; omega)
  | ⟨3, _⟩ => exact Fin.ext (by show (b.val * 1048576 + (h.val * 1024 + w.val)) % 1024 = w.val; omega)

theorem row0_flat (b : Fin 16) (h w : Fin 1024) : (flat3 hN0 hP0 b h w).val / 1048576 = b.val := by
  have hh := h.isLt
  have hw := w.isLt
  show (b.val * 1048576 + (h.val * 1024 + w.val)) / 1048576 = b.val
  omega

theorem class0 (g : GMap 1024 1024) (b k b' : Fin 16) (h w : Fin 1024) :
    (segWord (g (pix0 (flat3 hN0 hP0 b' h w))) ((flat3 hN0 hP0 b' h w).val / 1048576)).toInt
        = ((17 * b.val + k.val + 1 : Nat) : Int)
      ↔ b' = b ∧ g (ix4 b (0 : Fin 1) h w) = lab k := by
  rw [pix0_flat, row0_flat, segWord_toInt_eq_iff]
  constructor
  · rintro ⟨rfl, hg⟩
    exact ⟨rfl, hg⟩
  · rintro ⟨rfl, hg⟩
    exact ⟨rfl, hg⟩

theorem segsum0 (g : GMap 1024 1024) (x : FVec Ideal ⟨1, ![272]⟩ .f32) (idx : IVec ⟨2, ![16777216, 1]⟩ 32)
    (upd : FVec Ideal ⟨1, ![16777216]⟩ .f32) (val : S16x1x1024x1024.Idx → EReal) (b k : Fin 16)
    (hidx : ∀ j : Fin 16777216, idx (ix2 j (0 : Fin 1)) = segWord (g (pix0 j)) (j.val / 1048576))
    (hupd : ∀ j : Fin 16777216, j.val / 1048576 = b.val → g (pix0 j) = lab k → upd (ix1 j) = val (pix0 j)) :
    Host.scatterAdd (F := Ideal) scatter_S272_S16777216x1_S16777216_n_0_0_1 x idx upd (seg b k)
      = x (seg b k)
        + ∑ h : Fin 1024, ∑ w : Fin 1024, if g (ix4 b (0 : Fin 1) h w) = lab k then val (ix4 b (0 : Fin 1) h w) else 0 := by
  show Host.scatterAdd (F := Ideal) (LibScatter.segDims 272 16777216 scatter_S272_S16777216x1_S16777216_n_0_0_1_wf) x idx upd (seg b k) = _
  rw [LibScatter.segDims_scatterAdd_apply]
  refine congrArg (fun t => x (seg b k) + t) ?_
  refine (LibFlatSum.sum_flat3_row_ite hN0 hP0
    (fun j : Fin 16777216 => (idx (ix2 j (0 : Fin 1))).toInt = (((seg b k) 0).val : ℤ)) (fun j => upd (ix1 j)) b
    (fun h w => g (ix4 b (0 : Fin 1) h w) = lab k)
    (fun b' h w => by rw [hidx]; exact class0 g b k b' h w)).trans ?_
  refine Finset.sum_congr rfl fun h _ => Finset.sum_congr rfl fun w _ => ?_
  by_cases hq : g (ix4 b (0 : Fin 1) h w) = lab k
  · rw [if_pos hq, if_pos hq, hupd _ (row0_flat b h w) (by rw [pix0_flat]; exact hq), pix0_flat]
  · rw [if_neg hq, if_neg hq]

theorem sumA0 (f : FMap 1024 1024) (g : GMap 1024 1024) (b k : Fin 16) :
    val_main_v26 (F := Ideal) f g (seg b k) = Ideal.ofBits .f32 0x00000000#32 + segSum f g b k := by
  unfold val_main_v26
  refine (segsum0 g _ _ _ (fun p => f p) b k (idxA0 g)
    (fun j _ hg => by rw [updSum0, hg, validBit_lab, select_one])).trans ?_
  rw [val_main_v24_apply, val_main_cst_6_apply]
  rfl

theorem cntA0 (g : GMap 1024 1024) (b k : Fin 16) :
    val_main_v30 (F := Ideal) g (seg b k) = Ideal.ofBits .f32 0x00000000#32 + segCnt g b k := by
  unfold val_main_v30
  refine (segsum0 g _ _ _ (fun _ => (1 : EReal)) b k (idxB0 g)
    (fun j _ hg => by rw [updCntA0, hg, validBit_lab, uitofp_bit_one])).trans ?_
  rw [val_main_v28_apply, val_main_cst_7_apply]
  rfl

theorem pullC0 (f0 : FMap 1024 1024) (f1 : FMap 512 512) (f2 : FMap 256 256) (g0 : GMap 1024 1024) (g1 : GMap 512 512)
    (g2 : GMap 256 256) (b k : Fin 16) :
    val_main_v107 (F := Ideal) f0 f1 f2 g0 g1 g2 (seg b k)
      = Ideal.ofBits .f32 0x00000000#32
        + segPull f0 g0 (val_main_v86 (F := Ideal) f0 f1 f2 g0 g1 g2 (seg b k)) b k := by
  unfold val_main_v107
  refine (segsum0 g0 _ _ _ (fun p => hinge (f0 p) (val_main_v86 (F := Ideal) f0 f1 f2 g0 g1 g2 (seg b k))) b k
    (idxC0 g0) (fun j hb hg => updPull0 f0 f1 f2 g0 g1 g2 j b k hb hg)).trans ?_
  rw [val_main_v105_apply, val_main_cst_29_apply]
  rfl

theorem cntD0 (g : GMap 1024 1024) (b k : Fin 16) :
    val_main_v112 (F := Ideal) g (seg b k) = Ideal.ofBits .f32 0x00000000#32 + segCnt g b k := by
  unfold val_main_v112
  refine (segsum0 g _ _ _ (fun _ => (1 : EReal)) b k (idxD0 g)
    (fun j _ hg => by rw [updCntB0, hg, validBit_lab, uitofp_bit_one])).trans ?_
  rw [val_main_v110_apply, val_main_cst_30_apply]
  rfl

end Cert.ReferenceIdeal.RefValue

end
-- ==== Proof.Ref.S1.lean ====
import proofs.«413171_j1022202216836_1_alg».proof.Proof.RefImports
import proofs.«413171_j1022202216836_1_alg».proof.Proof.Ref.Word
import proofs.«413171_j1022202216836_1_alg».proof.Proof.Ref.Gather
import proofs.«413171_j1022202216836_1_alg».proof.Proof.LibScatter
import proofs.«413171_j1022202216836_1_alg».proof.Proof.LibFlatSum

noncomputable section

namespace Cert.ReferenceIdeal.RefValue

open Cert.ReferenceIdeal Cert.ReferenceIdeal.Gen Cert.ReferenceIdeal.ReadP Idealize.ShloMosaic Idealize.ShloMosaic.ValueIdx Cert.Spec
open Cert.LibFlatSum (flat3)

def pix1 (j : Fin 4194304) : S16x1x512x512.Idx :=
  ix4 (⟨j.val / 262144, by have := j.isLt; omega⟩ : Fin 16) (0 : Fin 1)
    (⟨j.val % 262144 / 512, by have := j.isLt; omega⟩ : Fin 512) (⟨j.val % 512, by have := j.isLt; omega⟩ : Fin 512)

theorem pix1_eq (j : Fin 4194304) : idx_main_v33 (idx_main_v45 (ix1 j)) = pix1 j := by
  funext a
  match a with
  | ⟨0, _⟩ =>
    exact Fin.ext (by show (j.val / 262144 * 262144 + j.val % 262144) / 262144 = j.val / 262144; omega)
  | ⟨1, _⟩ => rfl
  | ⟨2, _⟩ =>
    exact Fin.ext (by show (j.val / 262144 * 262144 + j.val % 262144) / 512 % 512 = j.val % 262144 / 512; omega)
  | ⟨3, _⟩ =>
    exact Fin.ext (by show (j.val / 262144 * 262144 + j.val % 262144) % 512 = j.val % 512; omega)

theorem valid1 (g : GMap 512 512) (i : S16x262144.Idx) :
    val_main_v41 (F := Ideal) g i = validBit (g (idx_main_v33 i)) := by
  rw [val_main_v41_apply, val_main_v38_apply, val_main_v35_apply, val_main_v37_apply, val_main_v40_apply,
    val_main_v34_apply, val_main_v36_apply, val_main_v39_apply, val_main_c_8_apply, val_main_c_9_apply,
    val_main_c_10_apply, val_main_v33_apply]
  rfl

theorem word1 (g : GMap 512 512) (j : Fin 4194304) :
    val_main_v45 (F := Ideal) g (ix1 j) = segWord (g (pix1 j)) (j.val / 262144) := by
  rw [val_main_v45_apply, val_main_v44_apply, val_main_v42_apply, valid1, val_main_v33_apply,
    val_main_call2_v1_apply, val_main_call2_v0_apply, val_main_c_11_apply, val_main_v43_apply, val_main_v3_apply,
    val_main_v2_apply, val_main_v0_apply, val_main_v1_apply, val_main_c_apply, pix1_eq]
  rfl

theorem idxA1 (g : GMap 512 512) (j : Fin 4194304) :
    val_main_v51 (F := Ideal) g (ix2 j (0 : Fin 1)) = segWord (g (pix1 j)) (j.val / 262144) := by
  rw [val_main_v51_apply]
  exact word1 g j
theorem idxB1 (g : GMap 512 512) (j : Fin 4194304) :
    val_main_v55 (F := Ideal) g (ix2 j (0 : Fin 1)) = segWord (g (pix1 j)) (j.val / 262144) := by
  rw [val_main_v55_apply]
  exact word1 g j
theorem idxC1 (g : GMap 512 512) (j : Fin 4194304) :
    val_main_v138 (F := Ideal) g (ix2 j (0 : Fin 1)) = segWord (g (pix1 j)) (j.val / 262144) := by
  rw [val_main_v138_apply]
  exact word1 g j
theorem idxD1 (g : GMap 512 512) (j : Fin 4194304) :
    val_main_v143 (F := Ideal) g (ix2 j (0 : Fin 1)) = segWord (g (pix1 j)) (j.val / 262144) := by
  rw [val_main_v143_apply]
  exact word1 g j

theorem updSum1 (f : FMap 512 512) (g : GMap 512 512) (j : Fin 4194304) :
    val_main_v49 (F := Ideal) f g (ix1 j)
      = Scalar.select (validBit (g (pix1 j))) (f (pix1 j)) (Ideal.ofBits .f32 0x00000000#32) := by
  rw [val_main_v49_apply, val_main_v48_apply, valid1, val_main_v32_apply, val_main_call3_v1_apply,
    val_main_call3_v0_apply, val_main_cst_12_apply]
  exact congrArg (fun p => Scalar.select (validBit (g p)) (f p) (Ideal.ofBits .f32 0x00000000#32)) (pix1_eq j)

theorem updCntA1 (g : GMap 512 512) (j : Fin 4194304) :
    val_main_v47 (F := Ideal) g (ix1 j) = FloatOps.uitofp (F := Ideal) .f32 (validBit (g (pix1 j))) := by
  rw [val_main_v47_apply, val_main_v46_apply, valid1]
  exact congrArg (fun p => FloatOps.uitofp (F := Ideal) .f32 (validBit (g p))) (pix1_eq j)

theorem updCntB1 (g : GMap 512 512) (j : Fin 4194304) :
    val_main_v141 (F := Ideal) g (ix1 j) = FloatOps.uitofp (F := Ideal) .f32 (validBit (g (pix1 j))) := by
  rw [val_main_v141_apply, val_main_v140_apply, valid1]
  exact congrArg (fun p => FloatOps.uitofp (F := Ideal) .f32 (validBit (g p))) (pix1_eq j)

theorem start1 (g : GMap 512 512) (j : Fin 4194304) :
    val_main_v125 (F := Ideal) g (ix2 j (0 : Fin 1)) = segWord (g (pix1 j)) (j.val / 262144) := by
  have hi : idx_main_v125 (ix2 j (0 : Fin 1)) = ix1 j := by
    funext a
    match a with
    | ⟨0, _⟩ => rfl
  rw [val_main_v125_apply, hi, val_main_v124_apply, val_main_v121_apply, val_main_v120_apply, val_main_c_34_apply,
    word1]
  have hr := segWord_range (g (pix1 j)) (b := j.val / 262144) (by have := j.isLt; omega)
  have hz : ¬ IntOp.cmpi .slt (segWord (g (pix1 j)) (j.val / 262144)) 0#32 = 1#1 := by
    rw [slt_iff]
    have h0 : (0#32 : BitVec 32).toInt = 0 := by decide
    rw [h0]
    omega
  rw [eq_zero_of_ne_one hz, select_zero]

theorem mpix1 (f0 : FMap 1024 1024) (f1 : FMap 512 512) (f2 : FMap 256 256) (g0 : GMap 1024 1024) (g1 : GMap 512 512)
    (g2 : GMap 256 256) (j : Fin 4194304) (b k : Fin 16) (hb : j.val / 262144 = b.val) (hg : g1 (pix1 j) = lab k) :
    val_main_v126 (F := Ideal) f0 f1 f2 g0 g1 g2 (ix1 j) = val_main_v86 (F := Ideal) f0 f1 f2 g0 g1 g2 (seg b k) := by
  have hw : (segWord (g1 (pix1 j)) (j.val / 262144)).toInt = ((17 * b.val + k.val + 1 : Nat) : Int) := by
    rw [hb, hg]
    exact (segWord_toInt_eq_iff (lab k) b b k).mpr ⟨rfl, rfl⟩
  have hb' := b.isLt
  have hk' := k.isLt
  refine (gather_pick_apply (N := 272) (R := 4194304) (by decide) gather_S272_S4194304x1_S4194304_n_0_n_n_0_1_1_wf
    (val_main_v86 (F := Ideal) f0 f1 f2 g0 g1 g2) (val_main_v125 (F := Ideal) g1) j).trans ?_
  exact congrArg (fun r => val_main_v86 (F := Ideal) f0 f1 f2 g0 g1 g2 (ix1 r))
    (Fin.ext (by
      show min (val_main_v125 (F := Ideal) g1 (ix2 j (0 : Fin 1))).toInt.toNat (272 - 1) = 17 * b.val + k.val + 1
      rw [start1, hw]
      omega))

theorem updPull1 (f0 : FMap 1024 1024) (f1 : FMap 512 512) (f2 : FMap 256 256) (g0 : GMap 1024 1024) (g1 : GMap 512 512)
    (g2 : GMap 256 256) (j : Fin 4194304) (b k : Fin 16) (hb : j.val / 262144 = b.val) (hg : g1 (pix1 j) = lab k) :
    val_main_v136 (F := Ideal) f0 f1 f2 g0 g1 g2 (ix1 j)
      = hinge (f1 (pix1 j)) (val_main_v86 (F := Ideal) f0 f1 f2 g0 g1 g2 (seg b k)) := by
  have h95 : idx_main_v127 (idx_main_v136 (ix1 j)) = ix1 j := by
    funext a
    match a with
    | ⟨0, _⟩ => exact Fin.ext (by show j.val / 262144 * 262144 + j.val % 262144 = j.val; omega)
  have hp7 : idx_main_v33 (idx_main_v136 (ix1 j)) = pix1 j := pix1_eq j
  have hp6 : idx_main_v32 (idx_main_v136 (ix1 j)) = pix1 j := pix1_eq j
  rw [val_main_v136_apply, val_main_v135_apply, valid1, val_main_v134_apply, val_main_v133_apply,
    val_main_v131_apply, val_main_v129_apply, val_main_v128_apply, val_main_v127_apply, val_main_v32_apply,
    val_main_v130_apply, val_main_cst_36_apply, val_main_v132_apply, val_main_cst_37_apply, h95, hp7, hp6,
    mpix1 f0 f1 f2 g0 g1 g2 j b k hb hg, hg, validBit_lab, select_one]
  rfl

theorem hN1 : 16 * 262144 = 4194304 := by norm_num
theorem hP1 : 512 * 512 = 262144 := by norm_num

theorem pix1_flat (b : Fin 16) (h w : Fin 512) : pix1 (flat3 hN1 hP1 b h w) = ix4 b (0 : Fin 1) h w := by
  have hb := b.isLt
  have hh := h.isLt
  have hw := w.isLt
  funext a
  match a with
  | ⟨0, _⟩ => exact Fin.ext (by show (b.val * 262144 + (h.val * 512 + w.val)) / 262144 = b.val; omega)
  | ⟨1, _⟩ => rfl
  | ⟨2, _⟩ => exact Fin.ext (by show (b.val * 262144 + (h.val * 512 + w.val)) % 262144 / 512 = h.val; omega)
  | ⟨3, _⟩ => exact Fin.ext (by show (b.val * 262144 + (h.val * 512 + w.val)) % 512 = w.val; omega)

theorem row1_flat (b : Fin 16) (h w : Fin 512) : (flat3 hN1 hP1 b h w).val / 262144 = b.val := by
  have hh := h.isLt
  have hw := w.isLt
  show (b.val * 262144 + (h.val * 512 + w.val)) / 262144 = b.val
  omega

theorem class1 (g : GMap 512 512) (b k b' : Fin 16) (h w : Fin 512) :
    (segWord (g (pix1 (flat3 hN1 hP1 b' h w))) ((flat3 hN1 hP1 b' h w).val / 262144)).toInt
        = ((17 * b.val + k.val + 1 : Nat) : Int)
      ↔ b' = b ∧ g (ix4 b (0 : Fin 1) h w) = lab k := by
  rw [pix1_flat, row1_flat, segWord_toInt_eq_iff]
  constructor
  · rintro ⟨rfl, hg⟩
    exact ⟨rfl, hg⟩
  · rintro ⟨rfl, hg⟩
    exact ⟨rfl, hg⟩

theorem segsum1 (g : GMap 512 512) (x : FVec Ideal ⟨1, ![272]⟩ .f32) (idx : IVec ⟨2, ![4194304, 1]⟩ 32)
    (upd : FVec Ideal ⟨1, ![4194304]⟩ .f32) (val : S16x1x512x512.Idx → EReal) (b k : Fin 16)
    (hidx : ∀ j : Fin 4194304, idx (ix2 j (0 : Fin 1)) = segWord (g (pix1 j)) (j.val / 262144))
    (hupd : ∀ j : Fin 4194304, j.val / 262144 = b.val → g (pix1 j) = lab k → upd (ix1 j) = val (pix1 j)) :
    Host.scatterAdd (F := Ideal) scatter_S272_S4194304x1_S4194304_n_0_0_1 x idx upd (seg b k)
      = x (seg b k)
        + ∑ h : Fin 512, ∑ w : Fin 512, if g (ix4 b (0 : Fin 1) h w) = lab k then val (ix4 b (0 : Fin 1) h w) else 0 := by
  show Host.scatterAdd (F := Ideal) (LibScatter.segDims 272 4194304 scatter_S272_S4194304x1_S4194304_n_0_0_1_wf) x idx upd (seg b k) = _
  rw [LibScatter.segDims_scatterAdd_apply]
  refine congrArg (fun t => x (seg b k) + t) ?_
  refine (LibFlatSum.sum_flat3_row_ite hN1 hP1
    (fun j : Fin 4194304 => (idx (ix2 j (0 : Fin 1))).toInt = (((seg b k) 0).val : ℤ)) (fun j => upd (ix1 j)) b
    (fun h w => g (ix4 b (0 : Fin 1) h w) = lab k)
    (fun b' h w => by rw [hidx]; exact class1 g b k b' h w)).trans ?_
  refine Finset.sum_congr rfl fun h _ => Finset.sum_congr rfl fun w _ => ?_
  by_cases hq : g (ix4 b (0 : Fin 1) h w) = lab k
  · rw [if_pos hq, if_pos hq, hupd _ (row1_flat b h w) (by rw [pix1_flat]; exact hq), pix1_flat]
  · rw [if_neg hq, if_neg hq]

theorem sumA1 (f : FMap 512 512) (g : GMap 512 512) (b k : Fin 16) :
    val_main_v52 (F := Ideal) f g (seg b k) = Ideal.ofBits .f32 0x00000000#32 + segSum f g b k := by
  unfold val_main_v52
  refine (segsum1 g _ _ _ (fun p => f p) b k (idxA1 g)
    (fun j _ hg => by rw [updSum1, hg, validBit_lab, select_one])).trans ?_
  rw [val_main_v50_apply, val_main_cst_13_apply]
  rfl

theorem cntA1 (g : GMap 512 512) (b k : Fin 16) :
    val_main_v56 (F := Ideal) g (seg b k) = Ideal.ofBits .f32 0x00000000#32 + segCnt g b k := by
  unfold val_main_v56
  refine (segsum1 g _ _ _ (fun _ => (1 : EReal)) b k (idxB1 g)
    (fun j _ hg => by rw [updCntA1, hg, validBit_lab, uitofp_bit_one])).trans ?_
  rw [val_main_v54_apply, val_main_cst_14_apply]
  rfl

theorem pullC1 (f0 : FMap 1024 1024) (f1 : FMap 512 512) (f2 : FMap 256 256) (g0 : GMap 1024 1024) (g1 : GMap 512 512)
    (g2 : GMap 256 256) (b k : Fin 16) :
    val_main_v139 (F := Ideal) f0 f1 f2 g0 g1 g2 (seg b k)
      = Ideal.ofBits .f32 0x00000000#32
        + segPull f1 g1 (val_main_v86 (F := Ideal) f0 f1 f2 g0 g1 g2 (seg b k)) b k := by
  unfold val_main_v139
  refine (segsum1 g1 _ _ _ (fun p => hinge (f1 p) (val_main_v86 (F := Ideal) f0 f1 f2 g0 g1 g2 (seg b k))) b k
    (idxC1 g1) (fun j hb hg => updPull1 f0 f1 f2 g0 g1 g2 j b k hb hg)).trans ?_
  rw [val_main_v137_apply, val_main_cst_39_apply]
  rfl

theorem cntD1 (g : GMap 512 512) (b k : Fin 16) :
    val_main_v144 (F := Ideal) g (seg b k) = Ideal.ofBits .f32 0x00000000#32 + segCnt g b k := by
  unfold val_main_v144
  refine (segsum1 g _ _ _ (fun _ => (1 : EReal)) b k (idxD1 g)
    (fun j _ hg => by rw [updCntB1, hg, validBit_lab, uitofp_bit_one])).trans ?_
  rw [val_main_v142_apply, val_main_cst_40_apply]
  rfl

end Cert.ReferenceIdeal.RefValue

end
-- ==== Proof.Ref.S2.lean ====
import proofs.«413171_j1022202216836_1_alg».proof.Proof.RefImports
import proofs.«413171_j1022202216836_1_alg».proof.Proof.Ref.Word
import proofs.«413171_j1022202216836_1_alg».proof.Proof.Ref.Gather
import proofs.«413171_j1022202216836_1_alg».proof.Proof.LibScatter
import proofs.«413171_j1022202216836_1_alg».proof.Proof.LibFlatSum

noncomputable section

namespace Cert.ReferenceIdeal.RefValue

open Cert.ReferenceIdeal Cert.ReferenceIdeal.Gen Cert.ReferenceIdeal.ReadP Idealize.ShloMosaic Idealize.ShloMosaic.ValueIdx Cert.Spec
open Cert.LibFlatSum (flat3)

def pix2 (j : Fin 1048576) : S16x1x256x256.Idx :=
  ix4 (⟨j.val / 65536, by have := j.isLt; omega⟩ : Fin 16) (0 : Fin 1)
    (⟨j.val % 65536 / 256, by have := j.isLt; omega⟩ : Fin 256) (⟨j.val % 256, by have := j.isLt; omega⟩ : Fin 256)

theorem pix2_eq (j : Fin 1048576) : idx_main_v59 (idx_main_v71 (ix1 j)) = pix2 j := by
  funext a
  match a with
  | ⟨0, _⟩ =>
    exact Fin.ext (by show (j.val / 65536 * 65536 + j.val % 65536) / 65536 = j.val / 65536; omega)
  | ⟨1, _⟩ => rfl
  | ⟨2, _⟩ =>
    exact Fin.ext (by show (j.val / 65536 * 65536 + j.val % 65536) / 256 % 256 = j.val % 65536 / 256; omega)
  | ⟨3, _⟩ =>
    exact Fin.ext (by show (j.val / 65536 * 65536 + j.val % 65536) % 256 = j.val % 256; omega)

theorem valid2 (g : GMap 256 256) (i : S16x65536.Idx) :
    val_main_v67 (F := Ideal) g i = validBit (g (idx_main_v59 i)) := by
  rw [val_main_v67_apply, val_main_v64_apply, val_main_v61_apply, val_main_v63_apply, val_main_v66_apply,
    val_main_v60_apply, val_main_v62_apply, val_main_v65_apply, val_main_c_15_apply, val_main_c_16_apply,
    val_main_c_17_apply, val_main_v59_apply]
  rfl

theorem word2 (g : GMap 256 256) (j : Fin 1048576) :
    val_main_v71 (F := Ideal) g (ix1 j) = segWord (g (pix2 j)) (j.val / 65536) := by
  rw [val_main_v71_apply, val_main_v70_apply, val_main_v68_apply, valid2, val_main_v59_apply,
    val_main_call4_v1_apply, val_main_call4_v0_apply, val_main_c_18_apply, val_main_v69_apply, val_main_v3_apply,
    val_main_v2_apply, val_main_v0_apply, val_main_v1_apply, val_main_c_apply, pix2_eq]
  rfl

theorem idxA2 (g : GMap 256 256) (j : Fin 1048576) :
    val_main_v77 (F := Ideal) g (ix2 j (0 : Fin 1)) = segWord (g (pix2 j)) (j.val / 65536) := by
  rw [val_main_v77_apply]
  exact word2 g j
theorem idxB2 (g : GMap 256 256) (j : Fin 1048576) :
    val_main_v81 (F := Ideal) g (ix2 j (0 : Fin 1)) = segWord (g (pix2 j)) (j.val / 65536) := by
  rw [val_main_v81_apply]
  exact word2 g j
theorem idxC2 (g : GMap 256 256) (j : Fin 1048576) :
    val_main_v170 (F := Ideal) g (ix2 j (0 : Fin 1)) = segWord (g (pix2 j)) (j.val / 65536) := by
  rw [val_main_v170_apply]
  exact word2 g j
theorem idxD2 (g : GMap 256 256) (j : Fin 1048576) :
    val_main_v175 (F := Ideal) g (ix2 j (0 : Fin 1)) = segWord (g (pix2 j)) (j.val / 65536) := by
  rw [val_main_v175_apply]
  exact word2 g j

theorem updSum2 (f : FMap 256 256) (g : GMap 256 256) (j : Fin 1048576) :
    val_main_v75 (F := Ideal) f g (ix1 j)
      = Scalar.select (validBit (g (pix2 j))) (f (pix2 j)) (Ideal.ofBits .f32 0x00000000#32) := by
  rw [val_main_v75_apply, val_main_v74_apply, valid2, val_main_v58_apply, val_main_call5_v1_apply,
    val_main_call5_v0_apply, val_main_cst_19_apply]
  exact congrArg (fun p => Scalar.select (validBit (g p)) (f p) (Ideal.ofBits .f32 0x00000000#32)) (pix2_eq j)

theorem updCntA2 (g : GMap 256 256) (j : Fin 1048576) :
    val_main_v73 (F := Ideal) g (ix1 j) = FloatOps.uitofp (F := Ideal) .f32 (validBit (g (pix2 j))) := by
  rw [val_main_v73_apply, val_main_v72_apply, valid2]
  exact congrArg (fun p => FloatOps.uitofp (F := Ideal) .f32 (validBit (g p))) (pix2_eq j)

theorem updCntB2 (g : GMap 256 256) (j : Fin 1048576) :
    val_main_v173 (F := Ideal) g (ix1 j) = FloatOps.uitofp (F := Ideal) .f32 (validBit (g (pix2 j))) := by
  rw [val_main_v173_apply, val_main_v172_apply, valid2]
  exact congrArg (fun p => FloatOps.uitofp (F := Ideal) .f32 (validBit (g p))) (pix2_eq j)

theorem start2 (g : GMap 256 256) (j : Fin 1048576) :
    val_main_v157 (F := Ideal) g (ix2 j (0 : Fin 1)) = segWord (g (pix2 j)) (j.val / 65536) := by
  have hi : idx_main_v157 (ix2 j (0 : Fin 1)) = ix1 j := by
    funext a
    match a with
    | ⟨0, _⟩ => rfl
  rw [val_main_v157_apply, hi, val_main_v156_apply, val_main_v153_apply, val_main_v152_apply, val_main_c_44_apply,
    word2]
  have hr := segWord_range (g (pix2 j)) (b := j.val / 65536) (by have := j.isLt; omega)
  have hz : ¬ IntOp.cmpi .slt (segWord (g (pix2 j)) (j.val / 65536)) 0#32 = 1#1 := by
    rw [slt_iff]
    have h0 : (0#32 : BitVec 32).toInt = 0 := by decide
    rw [h0]
    omega
  rw [eq_zero_of_ne_one hz, select_zero]

theorem mpix2 (f0 : FMap 1024 1024) (f1 : FMap 512 512) (f2 : FMap 256 256) (g0 : GMap 1024 1024) (g1 : GMap 512 512)
    (g2 : GMap 256 256) (j : Fin 1048576) (b k : Fin 16) (hb : j.val / 65536 = b.val) (hg : g2 (pix2 j) = lab k) :
    val_main_v158 (F := Ideal) f0 f1 f2 g0 g1 g2 (ix1 j) = val_main_v86 (F := Ideal) f0 f1 f2 g0 g1 g2 (seg b k) := by
  have hw : (segWord (g2 (pix2 j)) (j.val / 65536)).toInt = ((17 * b.val + k.val + 1 : Nat) : Int) := by
    rw [hb, hg]
    exact (segWord_toInt_eq_iff (lab k) b b k).mpr ⟨rfl, rfl⟩
  have hb' := b.isLt
  have hk' := k.isLt
  refine (gather_pick_apply (N := 272) (R := 1048576) (by decide) gather_S272_S1048576x1_S1048576_n_0_n_n_0_1_1_wf
    (val_main_v86 (F := Ideal) f0 f1 f2 g0 g1 g2) (val_main_v157 (F := Ideal) g2) j).trans ?_
  exact congrArg (fun r => val_main_v86 (F := Ideal) f0 f1 f2 g0 g1 g2 (ix1 r))
    (Fin.ext (by
      show min (val_main_v157 (F := Ideal) g2 (ix2 j (0 : Fin 1))).toInt.toNat (272 - 1) = 17 * b.val + k.val + 1
      rw [start2, hw]
      omega))

theorem updPull2 (f0 : FMap 1024 1024) (f1 : FMap 512 512) (f2 : FMap 256 256) (g0 : GMap 1024 1024) (g1 : GMap 512 512)
    (g2 : GMap 256 256) (j : Fin 1048576) (b k : Fin 16) (hb : j.val / 65536 = b.val) (hg : g2 (pix2 j) = lab k) :
    val_main_v168 (F := Ideal) f0 f1 f2 g0 g1 g2 (ix1 j)
      = hinge (f2 (pix2 j)) (val_main_v86 (F := Ideal) f0 f1 f2 g0 g1 g2 (seg b k)) := by
  have h95 : idx_main_v159 (idx_main_v168 (ix1 j)) = ix1 j := by
    funext a
    match a with
    | ⟨0, _⟩ => exact Fin.ext (by show j.val / 65536 * 65536 + j.val % 65536 = j.val; omega)
  have hp7 : idx_main_v59 (idx_main_v168 (ix1 j)) = pix2 j := pix2_eq j
  have hp6 : idx_main_v58 (idx_main_v168 (ix1 j)) = pix2 j := pix2_eq j
  rw [val_main_v168_apply, val_main_v167_apply, valid2, val_main_v166_apply, val_main_v165_apply,
    val_main_v163_apply, val_main_v161_apply, val_main_v160_apply, val_main_v159_apply, val_main_v58_apply,
    val_main_v162_apply, val_main_cst_46_apply, val_main_v164_apply, val_main_cst_47_apply, h95, hp7, hp6,
    mpix2 f0 f1 f2 g0 g1 g2 j b k hb hg, hg, validBit_lab, select_one]
  rfl

theorem hN2 : 16 * 65536 = 1048576 := by norm_num
theorem hP2 : 256 * 256 = 65536 := by norm_num

theorem pix2_flat (b : Fin 16) (h w : Fin 256) : pix2 (flat3 hN2 hP2 b h w) = ix4 b (0 : Fin 1) h w := by
  have hb := b.isLt
  have hh := h.isLt
  have hw := w.isLt
  funext a
  match a with
  | ⟨0, _⟩ => exact Fin.ext (by show (b.val * 65536 + (h.val * 256 + w.val)) / 65536 = b.val; omega)
  | ⟨1, _⟩ => rfl
  | ⟨2, _⟩ => exact Fin.ext (by show (b.val * 65536 + (h.val * 256 + w.val)) % 65536 / 256 = h.val; omega)
  | ⟨3, _⟩ => exact Fin.ext (by show (b.val * 65536 + (h.val * 256 + w.val)) % 256 = w.val; omega)

theorem row2_flat (b : Fin 16) (h w : Fin 256) : (flat3 hN2 hP2 b h w).val / 65536 = b.val := by
  have hh := h.isLt
  have hw := w.isLt
  show (b.val * 65536 + (h.val * 256 + w.val)) / 65536 = b.val
  omega

theorem class2 (g : GMap 256 256) (b k b' : Fin 16) (h w : Fin 256) :
    (segWord (g (pix2 (flat3 hN2 hP2 b' h w))) ((flat3 hN2 hP2 b' h w).val / 65536)).toInt
        = ((17 * b.val + k.val + 1 : Nat) : Int)
      ↔ b' = b ∧ g (ix4 b (0 : Fin 1) h w) = lab k := by
  rw [pix2_flat, row2_flat, segWord_toInt_eq_iff]
  constructor
  · rintro ⟨rfl, hg⟩
    exact ⟨rfl, hg⟩
  · rintro ⟨rfl, hg⟩
    exact ⟨rfl, hg⟩

theorem segsum2 (g : GMap 256 256) (x : FVec Ideal ⟨1, ![272]⟩ .f32) (idx : IVec ⟨2, ![1048576, 1]⟩ 32)
    (upd : FVec Ideal ⟨1, ![1048576]⟩ .f32) (val : S16x1x256x256.Idx → EReal) (b k : Fin 16)
    (hidx : ∀ j : Fin 1048576, idx (ix2 j (0 : Fin 1)) = segWord (g (pix2 j)) (j.val / 65536))
    (hupd : ∀ j : Fin 1048576, j.val / 65536 = b.val → g (pix2 j) = lab k → upd (ix1 j) = val (pix2 j)) :
    Host.scatterAdd (F := Ideal) scatter_S272_S1048576x1_S1048576_n_0_0_1 x idx upd (seg b k)
      = x (seg b k)
        + ∑ h : Fin 256, ∑ w : Fin 256, if g (ix4 b (0 : Fin 1) h w) = lab k then val (ix4 b (0 : Fin 1) h w) else 0 := by
  show Host.scatterAdd (F := Ideal) (LibScatter.segDims 272 1048576 scatter_S272_S1048576x1_S1048576_n_0_0_1_wf) x idx upd (seg b k) = _
  rw [LibScatter.segDims_scatterAdd_apply]
  refine congrArg (fun t => x (seg b k) + t) ?_
  refine (LibFlatSum.sum_flat3_row_ite hN2 hP2
    (fun j : Fin 1048576 => (idx (ix2 j (0 : Fin 1))).toInt = (((seg b k) 0).val : ℤ)) (fun j => upd (ix1 j)) b
    (fun h w => g (ix4 b (0 : Fin 1) h w) = lab k)
    (fun b' h w => by rw [hidx]; exact class2 g b k b' h w)).trans ?_
  refine Finset.sum_congr rfl fun h _ => Finset.sum_congr rfl fun w _ => ?_
  by_cases hq : g (ix4 b (0 : Fin 1) h w) = lab k
  · rw [if_pos hq, if_pos hq, hupd _ (row2_flat b h w) (by rw [pix2_flat]; exact hq), pix2_flat]
  · rw [if_neg hq, if_neg hq]

theorem sumA2 (f : FMap 256 256) (g : GMap 256 256) (b k : Fin 16) :
    val_main_v78 (F := Ideal) f g (seg b k) = Ideal.ofBits .f32 0x00000000#32 + segSum f g b k := by
  unfold val_main_v78
  refine (segsum2 g _ _ _ (fun p => f p) b k (idxA2 g)
    (fun j _ hg => by rw [updSum2, hg, validBit_lab, select_one])).trans ?_
  rw [val_main_v76_apply, val_main_cst_20_apply]
  rfl

theorem cntA2 (g : GMap 256 256) (b k : Fin 16) :
    val_main_v82 (F := Ideal) g (seg b k) = Ideal.ofBits .f32 0x00000000#32 + segCnt g b k := by
  unfold val_main_v82
  refine (segsum2 g _ _ _ (fun _ => (1 : EReal)) b k (idxB2 g)
    (fun j _ hg => by rw [updCntA2, hg, validBit_lab, uitofp_bit_one])).trans ?_
  rw [val_main_v80_apply, val_main_cst_21_apply]
  rfl

theorem pullC2 (f0 : FMap 1024 1024) (f1 : FMap 512 512) (f2 : FMap 256 256) (g0 : GMap 1024 1024) (g1 : GMap 512 512)
    (g2 : GMap 256 256) (b k : Fin 16) :
    val_main_v171 (F := Ideal) f0 f1 f2 g0 g1 g2 (seg b k)
      = Ideal.ofBits .f32 0x00000000#32
        + segPull f2 g2 (val_main_v86 (F := Ideal) f0 f1 f2 g0 g1 g2 (seg b k)) b k := by
  unfold val_main_v171
  refine (segsum2 g2 _ _ _ (fun p => hinge (f2 p) (val_main_v86 (F := Ideal) f0 f1 f2 g0 g1 g2 (seg b k))) b k
    (idxC2 g2) (fun j hb hg => updPull2 f0 f1 f2 g0 g1 g2 j b k hb hg)).trans ?_
  rw [val_main_v169_apply, val_main_cst_49_apply]
  rfl

theorem cntD2 (g : GMap 256 256) (b k : Fin 16) :
    val_main_v176 (F := Ideal) g (seg b k) = Ideal.ofBits .f32 0x00000000#32 + segCnt g b k := by
  unfold val_main_v176
  refine (segsum2 g _ _ _ (fun _ => (1 : EReal)) b k (idxD2 g)
    (fun j _ hg => by rw [updCntB2, hg, validBit_lab, uitofp_bit_one])).trans ?_
  rw [val_main_v174_apply, val_main_cst_50_apply]
  rfl

end Cert.ReferenceIdeal.RefValue

end
-- ==== Proof.Ref.Acc.lean ====
import proofs.«413171_j1022202216836_1_alg».proof.Proof.Ref.S0
import proofs.«413171_j1022202216836_1_alg».proof.Proof.Ref.S1
import proofs.«413171_j1022202216836_1_alg».proof.Proof.Ref.S2
import proofs.«413171_j1022202216836_1_alg».proof.Proof.Tail

noncomputable section

namespace Cert.ReferenceIdeal.RefValue

open Cert.ReferenceIdeal Cert.ReferenceIdeal.Gen Cert.ReferenceIdeal.ReadP Idealize.ShloMosaic Idealize.ShloMosaic.ValueIdx Cert.Spec

abbrev Z : EReal := Ideal.ofBits .f32 0x00000000#32
abbrev One : EReal := Ideal.ofBits .f32 0x3F800000#32

section
variable (f0 : FMap 1024 1024) (f1 : FMap 512 512) (f2 : FMap 256 256) (g0 : GMap 1024 1024) (g1 : GMap 512 512)
    (g2 : GMap 256 256) (b k : Fin 16)

theorem totSum_at :
    val_main_v79 (F := Ideal) f0 f1 f2 g0 g1 g2 (seg b k)
      = ((Z + (Z + segSum f0 g0 b k)) + (Z + segSum f1 g1 b k)) + (Z + segSum f2 g2 b k) := by
  rw [val_main_v79_apply, val_main_v53_apply, val_main_v27_apply, sumA0, sumA1, sumA2, val_main_v4_apply,
    val_main_cst_apply]
  rfl

theorem totCnt_at :
    val_main_v83 (F := Ideal) g0 g1 g2 (seg b k)
      = ((Z + (Z + segCnt g0 b k)) + (Z + segCnt g1 b k)) + (Z + segCnt g2 b k) := by
  rw [val_main_v83_apply, val_main_v57_apply, val_main_v31_apply, cntA0, cntA1, cntA2, val_main_v5_apply,
    val_main_cst_0_apply]
  rfl

theorem mean_at (s : S272.Idx) :
    val_main_v86 (F := Ideal) f0 f1 f2 g0 g1 g2 s
      = Ideal.div (val_main_v79 (F := Ideal) f0 f1 f2 g0 g1 g2 s) (max (val_main_v83 (F := Ideal) g0 g1 g2 s) One) := by
  rw [val_main_v86_apply, val_main_v85_apply, val_main_v84_apply, val_main_cst_22_apply]
  rfl

def pullTermAt (p n : EReal) : EReal :=
  Scalar.select (FloatOps.cmpf (F := Ideal) (φ := .f32) .ogt n Z) (Ideal.div p (max n One)) Z

theorem pullSeg_at :
    val_main_v183 (F := Ideal) f0 f1 f2 g0 g1 g2 (seg b k)
      = ((Z + pullTermAt (Z + segPull f0 g0 (val_main_v86 (F := Ideal) f0 f1 f2 g0 g1 g2 (seg b k)) b k) (Z + segCnt g0 b k))
          + pullTermAt (Z + segPull f1 g1 (val_main_v86 (F := Ideal) f0 f1 f2 g0 g1 g2 (seg b k)) b k) (Z + segCnt g1 b k))
        + pullTermAt (Z + segPull f2 g2 (val_main_v86 (F := Ideal) f0 f1 f2 g0 g1 g2 (seg b k)) b k) (Z + segCnt g2 b k) := by
  rw [val_main_v183_apply, val_main_v151_apply, val_main_v119_apply,
    val_main_v118_apply, val_main_v114_apply, val_main_v117_apply, val_main_v116_apply, val_main_v113_apply,
    val_main_v115_apply, val_main_cst_31_apply, val_main_cst_32_apply, val_main_call7_v1_apply, val_main_call7_v0_apply,
    val_main_cst_33_apply, pullC0, cntD0,
    val_main_v150_apply, val_main_v146_apply, val_main_v149_apply, val_main_v148_apply, val_main_v145_apply,
    val_main_v147_apply, val_main_cst_41_apply, val_main_cst_42_apply, val_main_call9_v1_apply, val_main_call9_v0_apply,
    val_main_cst_43_apply, pullC1, cntD1,
    val_main_v182_apply, val_main_v178_apply, val_main_v181_apply, val_main_v180_apply, val_main_v177_apply,
    val_main_v179_apply, val_main_cst_51_apply, val_main_cst_52_apply, val_main_call11_v1_apply,
    val_main_call11_v0_apply, val_main_cst_53_apply, pullC2, cntD2,
    val_main_v87_apply, val_main_cst_23_apply]
  rfl

theorem slice_seg : idx_main_v184 (idx_main_v185 (ix2 b k)) = seg b k := by
  funext a
  match a with
  | ⟨0, _⟩ => exact Fin.ext (by show b.val * 17 + (1 + k.val) = 17 * b.val + k.val + 1; omega)

theorem cntMap_at : val_main_v185 (F := Ideal) g0 g1 g2 (ix2 b k) = val_main_v83 (F := Ideal) g0 g1 g2 (seg b k) := by
  rw [val_main_v185_apply, val_main_v184_apply, slice_seg]

theorem pullMap_at :
    val_main_v189 (F := Ideal) f0 f1 f2 g0 g1 g2 (ix2 b k) = val_main_v183 (F := Ideal) f0 f1 f2 g0 g1 g2 (seg b k) := by
  rw [val_main_v189_apply, val_main_v188_apply]
  exact congrArg (val_main_v183 (F := Ideal) f0 f1 f2 g0 g1 g2) (slice_seg b k)

theorem meanMap_at :
    val_main_v199 (F := Ideal) f0 f1 f2 g0 g1 g2 (ix2 b k) = val_main_v86 (F := Ideal) f0 f1 f2 g0 g1 g2 (seg b k) := by
  rw [val_main_v199_apply, val_main_v198_apply]
  exact congrArg (val_main_v86 (F := Ideal) f0 f1 f2 g0 g1 g2) (slice_seg b k)

end

theorem result_eq_tail (f0 : FMap 1024 1024) (f1 : FMap 512 512) (f2 : FMap 256 256) (g0 : GMap 1024 1024) (g1 : GMap 512 512)
    (g2 : GMap 256 256) :
    val_main_v233 (F := Ideal) f0 f1 f2 g0 g1 g2
      = Cert.Tail.tail (val_main_v185 (F := Ideal) g0 g1 g2) (val_main_v189 (F := Ideal) f0 f1 f2 g0 g1 g2)
          (val_main_v199 (F := Ideal) f0 f1 f2 g0 g1 g2) := rfl

end Cert.ReferenceIdeal.RefValue

end
-- ==== Proof.Ref.Result.lean ====
import proofs.«413171_j1022202216836_1_alg».proof.Proof.Ref.Acc
import proofs.«413171_j1022202216836_1_alg».proof.Proof.Final
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Cert.Spec

variable (f0 : FMap 1024 1024) (f1 : FMap 512 512) (f2 : FMap 256 256) (g0 : GMap 1024 1024) (g1 : GMap 512 512)
    (g2 : GMap 256 256)

theorem cntMap_eq : val_main_v185 (F := Ideal) g0 g1 g2 = Cert.Final.totCnt g0 g1 g2 := by
  funext j
  obtain ⟨b, k, rfl⟩ : ∃ b k : Fin 16, j = ix2 b k := ⟨j 0, j 1, eq_ix2 j⟩
  rw [cntMap_at, totCnt_at]
  show ((Z + (Z + segCnt g0 b k)) + (Z + segCnt g1 b k)) + (Z + segCnt g2 b k)
    = segCnt g0 b k + segCnt g1 b k + segCnt g2 b k
  simp only [Z, Ideal.ofBits_zero_f32, zero_add]

theorem meanMap_eq : val_main_v199 (F := Ideal) f0 f1 f2 g0 g1 g2 = Cert.Final.centre f0 g0 f1 g1 f2 g2 := by
  funext j
  obtain ⟨b, k, rfl⟩ : ∃ b k : Fin 16, j = ix2 b k := ⟨j 0, j 1, eq_ix2 j⟩
  rw [meanMap_at, mean_at, totSum_at, totCnt_at]
  show Ideal.div (((Z + (Z + segSum f0 g0 b k)) + (Z + segSum f1 g1 b k)) + (Z + segSum f2 g2 b k))
      (max (((Z + (Z + segCnt g0 b k)) + (Z + segCnt g1 b k)) + (Z + segCnt g2 b k)) One)
    = Ideal.div (segSum f0 g0 b k + segSum f1 g1 b k + segSum f2 g2 b k)
      (max (segCnt g0 b k + segCnt g1 b k + segCnt g2 b k) One)
  simp only [Z, Ideal.ofBits_zero_f32, zero_add]

theorem mean_seg (b k : Fin 16) :
    val_main_v86 (F := Ideal) f0 f1 f2 g0 g1 g2 (seg b k) = Cert.Final.centre f0 g0 f1 g1 f2 g2 (ix2 b k) := by
  rw [← meanMap_at, meanMap_eq]

theorem pullMap_eq : val_main_v189 (F := Ideal) f0 f1 f2 g0 g1 g2 = Cert.Final.pullSeg f0 g0 f1 g1 f2 g2 := by
  funext j
  obtain ⟨b, k, rfl⟩ : ∃ b k : Fin 16, j = ix2 b k := ⟨j 0, j 1, eq_ix2 j⟩
  rw [pullMap_at, pullSeg_at, mean_seg]
  show ((Z + pullTermAt (Z + segPull f0 g0 (Cert.Final.centre f0 g0 f1 g1 f2 g2 (ix2 b k)) b k) (Z + segCnt g0 b k))
        + pullTermAt (Z + segPull f1 g1 (Cert.Final.centre f0 g0 f1 g1 f2 g2 (ix2 b k)) b k) (Z + segCnt g1 b k))
      + pullTermAt (Z + segPull f2 g2 (Cert.Final.centre f0 g0 f1 g1 f2 g2 (ix2 b k)) b k) (Z + segCnt g2 b k)
    = pullTermAt (segPull f0 g0 (Cert.Final.centre f0 g0 f1 g1 f2 g2 (ix2 b k)) b k) (segCnt g0 b k)
        + pullTermAt (segPull f1 g1 (Cert.Final.centre f0 g0 f1 g1 f2 g2 (ix2 b k)) b k) (segCnt g1 b k)
      + pullTermAt (segPull f2 g2 (Cert.Final.centre f0 g0 f1 g1 f2 g2 (ix2 b k)) b k) (segCnt g2 b k)
  simp only [Z, Ideal.ofBits_zero_f32, zero_add]

theorem result_eq :
    val_main_v233 (F := Ideal) f0 f1 f2 g0 g1 g2 = Cert.Final.result f0 g0 f1 g1 f2 g2 := by
  rw [result_eq_tail, cntMap_eq, pullMap_eq, meanMap_eq]
  rfl

end Cert.ReferenceIdeal.RefValue

end
-- ==== Proof.Ref.Value.lean ====
import proofs.«413171_j1022202216836_1_alg».proof.Proof.RefRead
import proofs.«413171_j1022202216836_1_alg».proof.Proof.Final
import proofs.«413171_j1022202216836_1_alg».proof.Proof.Ref.Result

noncomputable section

namespace Cert.ReferenceIdeal.RefValue

open Cert.ReferenceIdeal Idealize.ShloMosaic Idealize.ShloMosaic.TcCoe

theorem ref_value (m : (ℓ : Loc nD τ sig) → Buf (Elt Ideal) ℓ) (c : Dev nD) :
    Cert.ReferenceIdeal.ReadP.val_main_v233 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      = Cert.Final.result (m ((c.tc : Thread nD τ).loc main_arg0)) (m ((c.tc : Thread nD τ).loc main_arg3))
          (m ((c.tc : Thread nD τ).loc main_arg1)) (m ((c.tc : Thread nD τ).loc main_arg4))
          (m ((c.tc : Thread nD τ).loc main_arg2)) (m ((c.tc : Thread nD τ).loc main_arg5)) :=
  result_eq _ _ _ _ _ _

end Cert.ReferenceIdeal.RefValue

end
-- ==== Proof.lean ====
import proofs.«413171_j1022202216836_1_alg».proof.Defs
import proofs.«413171_j1022202216836_1_alg».proof.Proof.Gen.Kernel
import proofs.«413171_j1022202216836_1_alg».proof.Proof.Gen.Kernel.Skeleton
import proofs.«413171_j1022202216836_1_alg».proof.Proof.Gen.Kernel.Launch
import proofs.«413171_j1022202216836_1_alg».proof.Proof.Gen.Kernel.Regions
import proofs.«413171_j1022202216836_1_alg».proof.Proof.Gen.Kernel.Points
import proofs.«413171_j1022202216836_1_alg».proof.Proof.Gen.KernelIdeal
import proofs.«413171_j1022202216836_1_alg».proof.Proof.Gen.KernelIdeal.Skeleton
import proofs.«413171_j1022202216836_1_alg».proof.Proof.Gen.KernelIdeal.Launch
import proofs.«413171_j1022202216836_1_alg».proof.Proof.Gen.KernelIdeal.Regions
import proofs.«413171_j1022202216836_1_alg».proof.Proof.Gen.KernelIdeal.Points
import proofs.«413171_j1022202216836_1_alg».proof.Proof.Gen.ReferenceIdeal
import proofs.«413171_j1022202216836_1_alg».proof.Proof.Gen.Pre_finite_inputs
import proofs.«413171_j1022202216836_1_alg».proof.Proof.Frames
import proofs.«413171_j1022202216836_1_alg».proof.Proof.KI.Value
import proofs.«413171_j1022202216836_1_alg».proof.Proof.Ref.Value
import proofs.«413171_j1022202216836_1_alg».proof.Proof.RefReadEq
import Idealize.ShloMosaic.Adequacy
import Idealize.ShloMosaic.Init

noncomputable section

namespace Cert.Proof

open Idealize.ShloMosaic Idealize.SL.Sem

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => Cert.Final.result (m ((c.tc : Thread Cert.KernelIdeal.nD Cert.KernelIdeal.τ).loc Cert.KernelIdeal.main_arg0)) (m ((c.tc : Thread Cert.KernelIdeal.nD Cert.KernelIdeal.τ).loc Cert.KernelIdeal.main_arg3))
      (m ((c.tc : Thread Cert.KernelIdeal.nD Cert.KernelIdeal.τ).loc Cert.KernelIdeal.main_arg1)) (m ((c.tc : Thread Cert.KernelIdeal.nD Cert.KernelIdeal.τ).loc Cert.KernelIdeal.main_arg4))
      (m ((c.tc : Thread Cert.KernelIdeal.nD Cert.KernelIdeal.τ).loc Cert.KernelIdeal.main_arg2)) (m ((c.tc : Thread Cert.KernelIdeal.nD Cert.KernelIdeal.τ).loc Cert.KernelIdeal.main_arg5)), ?_, ?_⟩
  · exact (θ_run _ _ _).mono (fun r h c =>
      ⟨(h c _ (Cert.KernelIdeal.Gen.mem_uc Cert.KernelIdeal.main_v78 (by decide))).trans (Cert.KernelIdeal.Gen.kernel_value m ρ c),
       (h c _ (Cert.KernelIdeal.Gen.mem_uc Cert.KernelIdeal.main_arg0 (by decide))).trans (Cert.KernelIdeal.Gen.Wend_main_arg0 m ρ c),
       (h c _ (Cert.KernelIdeal.Gen.mem_uc Cert.KernelIdeal.main_arg1 (by decide))).trans (Cert.KernelIdeal.Gen.Wend_main_arg1 m ρ c),
       (h c _ (Cert.KernelIdeal.Gen.mem_uc Cert.KernelIdeal.main_arg2 (by decide))).trans (Cert.KernelIdeal.Gen.Wend_main_arg2 m ρ c),
       (h c _ (Cert.KernelIdeal.Gen.mem_uc Cert.KernelIdeal.main_arg3 (by decide))).trans (Cert.KernelIdeal.Gen.Wend_main_arg3 m ρ c),
       (h c _ (Cert.KernelIdeal.Gen.mem_uc Cert.KernelIdeal.main_arg4 (by decide))).trans (Cert.KernelIdeal.Gen.Wend_main_arg4 m ρ c),
       (h c _ (Cert.KernelIdeal.Gen.mem_uc Cert.KernelIdeal.main_arg5 (by decide))).trans (Cert.KernelIdeal.Gen.Wend_main_arg5 m ρ c)⟩)
      (Cert.KernelIdeal.Gen.run_all (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v233_eq m' c, Cert.ReferenceIdeal.RefValue.ref_value m' c,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  Frames.frame_k, Frames.frame_ki, frame_ri, preserves, algebraic⟩

end Cert.Proof

end
